-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v296)) (v1 : (c : Dev Cert.KernelIdeal.nD) → Buf (Elt Ideal) ((c.tc : Thread Cert.KernelIdeal.nD Cert.KernelIdeal.τ).loc Cert.KernelIdeal.main_v318)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v296) = v0 c
          ∧ r.2.mem ((c.tc : Thread Cert.KernelIdeal.nD Cert.KernelIdeal.τ).loc Cert.KernelIdeal.main_v318) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v405) = v0 c
          ∧ r.2.mem ((c.tc : Thread Cert.ReferenceIdeal.nD Cert.ReferenceIdeal.τ).loc Cert.ReferenceIdeal.main_v427) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S800000x3 : Shape := ⟨2, ![800000, 3]⟩
abbrev S800000x1 : Shape := ⟨2, ![800000, 1]⟩
abbrev S100000x1 : Shape := ⟨2, ![100000, 1]⟩
abbrev S3x35x16 : Shape := ⟨3, ![3, 35, 16]⟩
abbrev S3x16 : Shape := ⟨2, ![3, 16]⟩
abbrev S3x16x16 : Shape := ⟨3, ![3, 16, 16]⟩
abbrev S3x49x16 : Shape := ⟨3, ![3, 49, 16]⟩
abbrev S3x16x1 : Shape := ⟨3, ![3, 16, 1]⟩
abbrev S3x1 : Shape := ⟨2, ![3, 1]⟩
abbrev S_ : Shape := ⟨0, ![]⟩

class Facts : Prop where
  bcast_S_S800000x3 : S_.BroadcastsInDim S800000x3 (![] : Fin 0 → Fin S800000x3.rank)
  reducesTo_S800000x3_S_d0_1 : S800000x3.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S3x35x16 : S_.BroadcastsInDim S3x35x16 (![] : Fin 0 → Fin S3x35x16.rank)
  reducesTo_S3x35x16_S_d0_1_2 : S3x35x16.ReducesTo [0, 1, 2] S_
  bcast_S_S3x16 : S_.BroadcastsInDim S3x16 (![] : Fin 0 → Fin S3x16.rank)
  reducesTo_S3x16_S_d0_1 : S3x16.ReducesTo [0, 1] S_
  bcast_S_S3x16x16 : S_.BroadcastsInDim S3x16x16 (![] : Fin 0 → Fin S3x16x16.rank)
  reducesTo_S3x16x16_S_d0_1_2 : S3x16x16.ReducesTo [0, 1, 2] S_
  bcast_S_S3x49x16 : S_.BroadcastsInDim S3x49x16 (![] : Fin 0 → Fin S3x49x16.rank)
  reducesTo_S3x49x16_S_d0_1_2 : S3x49x16.ReducesTo [0, 1, 2] S_
  bcast_S_S3x16x1 : S_.BroadcastsInDim S3x16x1 (![] : Fin 0 → Fin S3x16x1.rank)
  reducesTo_S3x16x1_S_d0_1_2 : S3x16x1.ReducesTo [0, 1, 2] S_
  bcast_S_S3x1 : S_.BroadcastsInDim S3x1 (![] : Fin 0 → Fin S3x1.rank)
  reducesTo_S3x1_S_d0_1 : S3x1.ReducesTo [0, 1] S_

variable [Facts]

def fn_part6 {F : FTy → Type} [FloatOps F] (main_v98 : IVec S_ 1) (main_v101 : IVec S3x1 1) (main_c_39 : IVec S_ 1) : IVec S_ 1 :=
  let main_v102 : IVec S_ 1 := (fun x v => Host.reduce IntOp.andi x v reducesTo_S3x1_S_d0_1 h_S_) main_v101 main_c_39
  let main_v103 : IVec S_ 1 := andi main_v98 main_v102
  main_v103

def fn_part5 {F : FTy → Type} [FloatOps F] (main_arg19 : FVec F S3x16 .f32) (main_arg20 : FVec F S3x16x1 .f32) (main_arg21 : FVec F S3x1 .f32) (main_v83 : IVec S_ 1) (main_v84 : FVec F S3x16x16 .f32) (main_cst_32 : FVec F S_ .f32) : IVec S_ 1 :=
  let main_v85 : FVec F S3x16x16 .f32 := broadcastInDim S3x16x16 ![] bcast_S_S3x16x16 main_cst_32
  let main_v86 : IVec S3x16x16 1 := cmpf .olt main_v84 main_v85
  let main_c_33 : IVec S_ 1 := constantI S_ 1 1#1
  let main_v87 : IVec S_ 1 := (fun x v => Host.reduce IntOp.andi x v reducesTo_S3x16x16_S_d0_1_2 h_S_) main_v86 main_c_33
  let main_v88 : IVec S_ 1 := andi main_v83 main_v87
  let main_v89 : FVec F S3x16 .f32 := Host.absf main_arg19
  let main_cst_34 : FVec F S_ .f32 := constant S_ .f32 0x7F800000#32
  let main_v90 : FVec F S3x16 .f32 := broadcastInDim S3x16 ![] bcast_S_S3x16 main_cst_34
  let main_v91 : IVec S3x16 1 := cmpf .olt main_v89 main_v90
  let main_c_35 : IVec S_ 1 := constantI S_ 1 1#1
  let main_v92 : IVec S_ 1 := (fun x v => Host.reduce IntOp.andi x v reducesTo_S3x16_S_d0_1 h_S_) main_v91 main_c_35
  let main_v93 : IVec S_ 1 := andi main_v88 main_v92
  let main_v94 : FVec F S3x16x1 .f32 := Host.absf main_arg20
  let main_cst_36 : FVec F S_ .f32 := constant S_ .f32 0x7F800000#32
  let main_v95 : FVec F S3x16x1 .f32 := broadcastInDim S3x16x1 ![] bcast_S_S3x16x1 main_cst_36
  let main_v96 : IVec S3x16x1 1 := cmpf .olt main_v94 main_v95
  let main_c_37 : IVec S_ 1 := constantI S_ 1 1#1
  let main_v97 : IVec S_ 1 := (fun x v => Host.reduce IntOp.andi x v reducesTo_S3x16x1_S_d0_1_2 h_S_) main_v96 main_c_37
  let main_v98 : IVec S_ 1 := andi main_v93 main_v97
  let main_v99 : FVec F S3x1 .f32 := Host.absf main_arg21
  let main_cst_38 : FVec F S_ .f32 := constant S_ .f32 0x7F800000#32
  let main_v100 : FVec F S3x1 .f32 := broadcastInDim S3x1 ![] bcast_S_S3x1 main_cst_38
  let main_v101 : IVec S3x1 1 := cmpf .olt main_v99 main_v100
  let main_c_39 : IVec S_ 1 := constantI S_ 1 1#1
  fn_part6 (F := F) main_v98 main_v101 main_c_39

def fn_part4 {F : FTy → Type} [FloatOps F] (main_arg15 : FVec F S3x16 .f32) (main_arg16 : FVec F S3x16x16 .f32) (main_arg17 : FVec F S3x16 .f32) (main_arg18 : FVec F S3x16x16 .f32) (main_arg19 : FVec F S3x16 .f32) (main_arg20 : FVec F S3x16x1 .f32) (main_arg21 : FVec F S3x1 .f32) (main_v63 : IVec S_ 1) (main_v67 : IVec S_ 1) : IVec S_ 1 :=
  let main_v68 : IVec S_ 1 := andi main_v63 main_v67
  let main_v69 : FVec F S3x16 .f32 := Host.absf main_arg15
  let main_cst_26 : FVec F S_ .f32 := constant S_ .f32 0x7F800000#32
  let main_v70 : FVec F S3x16 .f32 := broadcastInDim S3x16 ![] bcast_S_S3x16 main_cst_26
  let main_v71 : IVec S3x16 1 := cmpf .olt main_v69 main_v70
  let main_c_27 : IVec S_ 1 := constantI S_ 1 1#1
  let main_v72 : IVec S_ 1 := (fun x v => Host.reduce IntOp.andi x v reducesTo_S3x16_S_d0_1 h_S_) main_v71 main_c_27
  let main_v73 : IVec S_ 1 := andi main_v68 main_v72
  let main_v74 : FVec F S3x16x16 .f32 := Host.absf main_arg16
  let main_cst_28 : FVec F S_ .f32 := constant S_ .f32 0x7F800000#32
  let main_v75 : FVec F S3x16x16 .f32 := broadcastInDim S3x16x16 ![] bcast_S_S3x16x16 main_cst_28
  let main_v76 : IVec S3x16x16 1 := cmpf .olt main_v74 main_v75
  let main_c_29 : IVec S_ 1 := constantI S_ 1 1#1
  let main_v77 : IVec S_ 1 := (fun x v => Host.reduce IntOp.andi x v reducesTo_S3x16x16_S_d0_1_2 h_S_) main_v76 main_c_29
  let main_v78 : IVec S_ 1 := andi main_v73 main_v77
  let main_v79 : FVec F S3x16 .f32 := Host.absf main_arg17
  let main_cst_30 : FVec F S_ .f32 := constant S_ .f32 0x7F800000#32
  let main_v80 : FVec F S3x16 .f32 := broadcastInDim S3x16 ![] bcast_S_S3x16 main_cst_30
  let main_v81 : IVec S3x16 1 := cmpf .olt main_v79 main_v80
  let main_c_31 : IVec S_ 1 := constantI S_ 1 1#1
  let main_v82 : IVec S_ 1 := (fun x v => Host.reduce IntOp.andi x v reducesTo_S3x16_S_d0_1 h_S_) main_v81 main_c_31
  let main_v83 : IVec S_ 1 := andi main_v78 main_v82
  let main_v84 : FVec F S3x16x16 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S3x16x16 .f32) (main_arg13 : FVec F S3x16 .f32) (main_arg14 : FVec F S3x49x16 .f32) (main_arg15 : FVec F S3x16 .f32) (main_arg16 : FVec F S3x16x16 .f32) (main_arg17 : FVec F S3x16 .f32) (main_arg18 : FVec F S3x16x16 .f32) (main_arg19 : FVec F S3x16 .f32) (main_arg20 : FVec F S3x16x1 .f32) (main_arg21 : FVec F S3x1 .f32) (main_v48 : IVec S_ 1) (main_v49 : FVec F S3x16 .f32) (main_v50 : FVec F S3x16 .f32) : IVec S_ 1 :=
  let main_v51 : IVec S3x16 1 := cmpf .olt main_v49 main_v50
  let main_c_19 : IVec S_ 1 := constantI S_ 1 1#1
  let main_v52 : IVec S_ 1 := (fun x v => Host.reduce IntOp.andi x v reducesTo_S3x16_S_d0_1 h_S_) main_v51 main_c_19
  let main_v53 : IVec S_ 1 := andi main_v48 main_v52
  let main_v54 : FVec F S3x16x16 .f32 := Host.absf main_arg12
  let main_cst_20 : FVec F S_ .f32 := constant S_ .f32 0x7F800000#32
  let main_v55 : FVec F S3x16x16 .f32 := broadcastInDim S3x16x16 ![] bcast_S_S3x16x16 main_cst_20
  let main_v56 : IVec S3x16x16 1 := cmpf .olt main_v54 main_v55
  let main_c_21 : IVec S_ 1 := constantI S_ 1 1#1
  let main_v57 : IVec S_ 1 := (fun x v => Host.reduce IntOp.andi x v reducesTo_S3x16x16_S_d0_1_2 h_S_) main_v56 main_c_21
  let main_v58 : IVec S_ 1 := andi main_v53 main_v57
  let main_v59 : FVec F S3x16 .f32 := Host.absf main_arg13
  let main_cst_22 : FVec F S_ .f32 := constant S_ .f32 0x7F800000#32
  let main_v60 : FVec F S3x16 .f32 := broadcastInDim S3x16 ![] bcast_S_S3x16 main_cst_22
  let main_v61 : IVec S3x16 1 := cmpf .olt main_v59 main_v60
  let main_c_23 : IVec S_ 1 := constantI S_ 1 1#1
  let main_v62 : IVec S_ 1 := (fun x v => Host.reduce IntOp.andi x v reducesTo_S3x16_S_d0_1 h_S_) main_v61 main_c_23
  let main_v63 : IVec S_ 1 := andi main_v58 main_v62
  let main_v64 : FVec F S3x49x16 .f32 := Host.absf main_arg14
  let main_cst_24 : FVec F S_ .f32 := constant S_ .f32 0x7F800000#32
  let main_v65 : FVec F S3x49x16 .f32 := broadcastInDim S3x49x16 ![] bcast_S_S3x49x16 main_cst_24
  let main_v66 : IVec S3x49x16 1 := cmpf .olt main_v64 main_v65
  let main_c_25 : IVec S_ 1 := constantI S_ 1 1#1
  let main_v67 : IVec S_ 1 := (fun x v => Host.reduce IntOp.andi x v reducesTo_S3x49x16_S_d0_1_2 h_S_) main_v66 main_c_25
  fn_part4 (F := F) main_arg15 main_arg16 main_arg17 main_arg18 main_arg19 main_arg20 main_arg21 main_v63 main_v67

def fn_part2 {F : FTy → Type} [FloatOps F] (main_arg8 : FVec F S3x16x16 .f32) (main_arg9 : FVec F S3x16 .f32) (main_arg10 : FVec F S3x35x16 .f32) (main_arg11 : FVec F S3x16 .f32) (main_arg12 : FVec F S3x16x16 .f32) (main_arg13 : FVec F S3x16 .f32) (main_arg14 : FVec F S3x49x16 .f32) (main_arg15 : FVec F S3x16 .f32) (main_arg16 : FVec F S3x16x16 .f32) (main_arg17 : FVec F S3x16 .f32) (main_arg18 : FVec F S3x16x16 .f32) (main_arg19 : FVec F S3x16 .f32) (main_arg20 : FVec F S3x16x1 .f32) (main_arg21 : FVec F S3x1 .f32) (main_v33 : IVec S_ 1) : IVec S_ 1 :=
  let main_v34 : FVec F S3x16x16 .f32 := Host.absf main_arg8
  let main_cst_12 : FVec F S_ .f32 := constant S_ .f32 0x7F800000#32
  let main_v35 : FVec F S3x16x16 .f32 := broadcastInDim S3x16x16 ![] bcast_S_S3x16x16 main_cst_12
  let main_v36 : IVec S3x16x16 1 := cmpf .olt main_v34 main_v35
  let main_c_13 : IVec S_ 1 := constantI S_ 1 1#1
  let main_v37 : IVec S_ 1 := (fun x v => Host.reduce IntOp.andi x v reducesTo_S3x16x16_S_d0_1_2 h_S_) main_v36 main_c_13
  let main_v38 : IVec S_ 1 := andi main_v33 main_v37
  let main_v39 : FVec F S3x16 .f32 := Host.absf main_arg9
  let main_cst_14 : FVec F S_ .f32 := constant S_ .f32 0x7F800000#32
  let main_v40 : FVec F S3x16 .f32 := broadcastInDim S3x16 ![] bcast_S_S3x16 main_cst_14
  let main_v41 : IVec S3x16 1 := cmpf .olt main_v39 main_v40
  let main_c_15 : IVec S_ 1 := constantI S_ 1 1#1
  let main_v42 : IVec S_ 1 := (fun x v => Host.reduce IntOp.andi x v reducesTo_S3x16_S_d0_1 h_S_) main_v41 main_c_15
  let main_v43 : IVec S_ 1 := andi main_v38 main_v42
  let main_v44 : FVec F S3x35x16 .f32 := Host.absf main_arg10
  let main_cst_16 : FVec F S_ .f32 := constant S_ .f32 0x7F800000#32
  let main_v45 : FVec F S3x35x16 .f32 := broadcastInDim S3x35x16 ![] bcast_S_S3x35x16 main_cst_16
  let main_v46 : IVec S3x35x16 1 := cmpf .olt main_v44 main_v45
  let main_c_17 : IVec S_ 1 := constantI S_ 1 1#1
  let main_v47 : IVec S_ 1 := (fun x v => Host.reduce IntOp.andi x v reducesTo_S3x35x16_S_d0_1_2 h_S_) main_v46 main_c_17
  let main_v48 : IVec S_ 1 := andi main_v43 main_v47
  let main_v49 : FVec F S3x16 .f32 := Host.absf main_arg11
  let main_cst_18 : FVec F S_ .f32 := constant S_ .f32 0x7F800000#32
  let main_v50 : FVec F S3x16 .f32 := broadcastInDim S3x16 ![] bcast_S_S3x16 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S100000x1 .f32) (main_arg6 : FVec F S3x35x16 .f32) (main_arg7 : FVec F S3x16 .f32) (main_arg8 : FVec F S3x16x16 .f32) (main_arg9 : FVec F S3x16 .f32) (main_arg10 : FVec F S3x35x16 .f32) (main_arg11 : FVec F S3x16 .f32) (main_arg12 : FVec F S3x16x16 .f32) (main_arg13 : FVec F S3x16 .f32) (main_arg14 : FVec F S3x49x16 .f32) (main_arg15 : FVec F S3x16 .f32) (main_arg16 : FVec F S3x16x16 .f32) (main_arg17 : FVec F S3x16 .f32) (main_arg18 : FVec F S3x16x16 .f32) (main_arg19 : FVec F S3x16 .f32) (main_arg20 : FVec F S3x16x1 .f32) (main_arg21 : FVec F S3x1 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S100000x1 .f32 := Host.absf main_arg5
  let main_cst_6 : FVec F S_ .f32 := constant S_ .f32 0x7F800000#32
  let main_v20 : FVec F S100000x1 .f32 := broadcastInDim S100000x1 ![] bcast_S_S100000x1 main_cst_6
  let main_v21 : IVec S100000x1 1 := cmpf .olt main_v19 main_v20
  let main_c_7 : IVec S_ 1 := constantI S_ 1 1#1
  let main_v22 : IVec S_ 1 := (fun x v => Host.reduce IntOp.andi x v reducesTo_S100000x1_S_d0_1 h_S_) main_v21 main_c_7
  let main_v23 : IVec S_ 1 := andi main_v18 main_v22
  let main_v24 : FVec F S3x35x16 .f32 := Host.absf main_arg6
  let main_cst_8 : FVec F S_ .f32 := constant S_ .f32 0x7F800000#32
  let main_v25 : FVec F S3x35x16 .f32 := broadcastInDim S3x35x16 ![] bcast_S_S3x35x16 main_cst_8
  let main_v26 : IVec S3x35x16 1 := cmpf .olt main_v24 main_v25
  let main_c_9 : IVec S_ 1 := constantI S_ 1 1#1
  let main_v27 : IVec S_ 1 := (fun x v => Host.reduce IntOp.andi x v reducesTo_S3x35x16_S_d0_1_2 h_S_) main_v26 main_c_9
  let main_v28 : IVec S_ 1 := andi main_v23 main_v27
  let main_v29 : FVec F S3x16 .f32 := Host.absf main_arg7
  let main_cst_10 : FVec F S_ .f32 := constant S_ .f32 0x7F800000#32
  let main_v30 : FVec F S3x16 .f32 := broadcastInDim S3x16 ![] bcast_S_S3x16 main_cst_10
  let main_v31 : IVec S3x16 1 := cmpf .olt main_v29 main_v30
  let main_c_11 : IVec S_ 1 := constantI S_ 1 1#1
  let main_v32 : IVec S_ 1 := (fun x v => Host.reduce IntOp.andi x v reducesTo_S3x16_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : IVec S2x800000 32) (main_arg1 : FVec F S800000x3 .f32) (main_arg2 : FVec F S800000x1 .f32) (main_arg3 : FVec F S100000x1 .f32) (main_arg4 : FVec F S100000x1 .f32) (main_arg5 : FVec F S100000x1 .f32) (main_arg6 : FVec F S3x35x16 .f32) (main_arg7 : FVec F S3x16 .f32) (main_arg8 : FVec F S3x16x16 .f32) (main_arg9 : FVec F S3x16 .f32) (main_arg10 : FVec F S3x35x16 .f32) (main_arg11 : FVec F S3x16 .f32) (main_arg12 : FVec F S3x16x16 .f32) (main_arg13 : FVec F S3x16 .f32) (main_arg14 : FVec F S3x49x16 .f32) (main_arg15 : FVec F S3x16 .f32) (main_arg16 : FVec F S3x16x16 .f32) (main_arg17 : FVec F S3x16 .f32) (main_arg18 : FVec F S3x16x16 .f32) (main_arg19 : FVec F S3x16 .f32) (main_arg20 : FVec F S3x16x1 .f32) (main_arg21 : FVec F S3x1 .f32) : IVec S_ 1 :=
  let main_v0 : FVec F S800000x3 .f32 := Host.absf main_arg1
  let main_cst : FVec F S_ .f32 := constant S_ .f32 0x7F800000#32
  let main_v1 : FVec F S800000x3 .f32 := broadcastInDim S800000x3 ![] bcast_S_S800000x3 main_cst
  let main_v2 : IVec S800000x3 1 := cmpf .olt main_v0 main_v1
  let main_c : IVec S_ 1 := constantI S_ 1 1#1
  let main_v3 : IVec S_ 1 := (fun x v => Host.reduce IntOp.andi x v reducesTo_S800000x3_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000x1 .f32 := Host.absf main_arg4
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S2x800000 : Shape := ⟨2, ![2, 800000]⟩
abbrev S800000x3 : Shape := ⟨2, ![800000, 3]⟩
abbrev S800000x1 : Shape := ⟨2, ![800000, 1]⟩
abbrev S100000x1 : Shape := ⟨2, ![100000, 1]⟩
abbrev S3x35x16 : Shape := ⟨3, ![3, 35, 16]⟩
abbrev S3x16 : Shape := ⟨2, ![3, 16]⟩
abbrev S3x16x16 : Shape := ⟨3, ![3, 16, 16]⟩
abbrev S3x49x16 : Shape := ⟨3, ![3, 49, 16]⟩
abbrev S3x16x1 : Shape := ⟨3, ![3, 16, 1]⟩
abbrev S3x1 : Shape := ⟨2, ![3, 1]⟩
abbrev S1x800000 : Shape := ⟨2, ![1, 800000]⟩
abbrev S800000 : Shape := ⟨1, ![800000]⟩
abbrev S_ : Shape := ⟨0, ![]⟩
abbrev S100000x16 : Shape := ⟨2, ![100000, 16]⟩
abbrev S800000x16 : Shape := ⟨2, ![800000, 16]⟩
abbrev S800000x35 : Shape := ⟨2, ![800000, 35]⟩
abbrev S1x800000x35 : Shape := ⟨3, ![1, 800000, 35]⟩
abbrev S2x800000x35 : Shape := ⟨3, ![2, 800000, 35]⟩
abbrev S1x35x16 : Shape := ⟨3, ![1, 35, 16]⟩
abbrev S35x16 : Shape := ⟨2, ![35, 16]⟩
abbrev S2x35x16 : Shape := ⟨3, ![2, 35, 16]⟩
abbrev S1x16 : Shape := ⟨2, ![1, 16]⟩
abbrev S16 : Shape := ⟨1, ![16]⟩
abbrev S2x16 : Shape := ⟨2, ![2, 16]⟩
abbrev S1x16x16 : Shape := ⟨3, ![1, 16, 16]⟩
abbrev S16x16 : Shape := ⟨2, ![16, 16]⟩
abbrev S2x16x16 : Shape := ⟨3, ![2, 16, 16]⟩
abbrev S2x800000x16 : Shape := ⟨3, ![2, 800000, 16]⟩
abbrev S2x4000x35 : Shape := ⟨3, ![2, 4000, 35]⟩
abbrev S2x4000x16 : Shape := ⟨3, ![2, 4000, 16]⟩
abbrev S1x4000x35 : Shape := ⟨3, ![1, 4000, 35]⟩
abbrev S4000x35 : Shape := ⟨2, ![4000, 35]⟩
abbrev S4000x16 : Shape := ⟨2, ![4000, 16]⟩
abbrev S1x4000x16 : Shape := ⟨3, ![1, 4000, 16]⟩
abbrev S1x800000x1 : Shape := ⟨3, ![1, 800000, 1]⟩
abbrev S1x800000x16 : Shape := ⟨3, ![1, 800000, 16]⟩
abbrev S100000x17 : Shape := ⟨2, ![100000, 17]⟩
abbrev S1x49x16 : Shape := ⟨3, ![1, 49, 16]⟩
abbrev S49x16 : Shape := ⟨2, ![49, 16]⟩
abbrev S1x16x1 : Shape := ⟨3, ![1, 16, 1]⟩
abbrev S16x1 : Shape := ⟨2, ![16, 1]⟩
abbrev S1x1 : Shape := ⟨2, ![1, 1]⟩
abbrev S1 : Shape := ⟨1, ![1]⟩
abbrev S4000x17 : Shape := ⟨2, ![4000, 17]⟩
abbrev S4000x1 : Shape := ⟨2, ![4000, 1]⟩
abbrev S4000x49 : Shape := ⟨2, ![4000, 49]⟩
abbrev S800000x2 : Shape := ⟨2, ![800000, 2]⟩
abbrev S100000 : Shape := ⟨1, ![100000]⟩

abbrev nBuf : Space → Nat
  | .hbm => 383
  | .vmem => 72
  | .smem => 0
  | _ => 0

abbrev hbmTy0_0 (i : Nat) : BufTy := match i % 128 with
  | 0 => ⟨S2x800000, .i32⟩
  | 1 => ⟨S800000x3, .f32⟩
  | 2 => ⟨S800000x1, .f32⟩
  | 3 => ⟨S100000x1, .f32⟩
  | 4 => ⟨S100000x1, .f32⟩
  | 5 => ⟨S100000x1, .f32⟩
  | 6 => ⟨S3x35x16, .f32⟩
  | 7 => ⟨S3x16, .f32⟩
  | 8 => ⟨S3x16x16, .f32⟩
  | 9 => ⟨S3x16, .f32⟩
  | 10 => ⟨S3x35x16, .f32⟩
  | 11 => ⟨S3x16, .f32⟩
  | 12 => ⟨S3x16x16, .f32⟩
  | 13 => ⟨S3x16, .f32⟩
  | 14 => ⟨S3x49x16, .f32⟩
  | 15 => ⟨S3x16, .f32⟩
  | 16 => ⟨S3x16x16, .f32⟩
  | 17 => ⟨S3x16, .f32⟩
  | 18 => ⟨S3x16x16, .f32⟩
  | 19 => ⟨S3x16, .f32⟩
  | 20 => ⟨S3x16x1, .f32⟩
  | 21 => ⟨S3x1, .f32⟩
  | 22 => ⟨S1x800000, .i32⟩
  | 23 => ⟨S800000, .i32⟩
  | 24 => ⟨S1x800000, .i32⟩
  | 25 => ⟨S800000, .i32⟩
  | 26 => ⟨S800000, .i1⟩
  | 27 => ⟨S800000, .f32⟩
  | 28 => ⟨S800000x1, .f32⟩
  | 29 => ⟨S_, .f32⟩
  | 30 => ⟨S100000x16, .f32⟩
  | 31 => ⟨S_, .f32⟩
  | 32 => ⟨S100000x1, .f32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x16, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x16, .f32⟩
  | 52 => ⟨S800000x35, .f32⟩
  | 53 => ⟨S800000x35, .f32⟩
  | 54 => ⟨S1x800000x35, .f32⟩
  | 55 => ⟨S1x800000x35, .f32⟩
  | 56 => ⟨S2x800000x35, .f32⟩
  | 57 => ⟨S1x35x16, .f32⟩
  | 58 => ⟨S35x16, .f32⟩
  | 59 => ⟨S1x35x16, .f32⟩
  | 60 => ⟨S35x16, .f32⟩
  | 61 => ⟨S1x35x16, .f32⟩
  | 62 => ⟨S1x35x16, .f32⟩
  | 63 => ⟨S2x35x16, .f32⟩
  | 64 => ⟨S1x16, .f32⟩
  | 65 => ⟨S16, .f32⟩
  | 66 => ⟨S1x16, .f32⟩
  | 67 => ⟨S16, .f32⟩
  | 68 => ⟨S1x16, .f32⟩
  | 69 => ⟨S1x16, .f32⟩
  | 70 => ⟨S2x16, .f32⟩
  | 71 => ⟨S1x16x16, .f32⟩
  | 72 => ⟨S16x16, .f32⟩
  | 73 => ⟨S1x16x16, .f32⟩
  | 74 => ⟨S16x16, .f32⟩
  | 75 => ⟨S1x16x16, .f32⟩
  | 76 => ⟨S1x16x16, .f32⟩
  | 77 => ⟨S2x16x16, .f32⟩
  | 78 => ⟨S1x16, .f32⟩
  | 79 => ⟨S16, .f32⟩
  | 80 => ⟨S1x16, .f32⟩
  | 81 => ⟨S16, .f32⟩
  | 82 => ⟨S1x16, .f32⟩
  | 83 => ⟨S1x16, .f32⟩
  | 84 => ⟨S2x16, .f32⟩
  | 85 => ⟨S2x800000x16, .f32⟩
  | 86 => ⟨S1x800000x1, .f32⟩
  | 87 => ⟨S2x800000x16, .f32⟩
  | 88 => ⟨S2x800000x16, .f32⟩
  | 89 => ⟨S1x800000x16, .f32⟩
  | 90 => ⟨S800000x16, .f32⟩
  | 91 => ⟨S1x800000x16, .f32⟩
  | 92 => ⟨S800000x16, .f32⟩
  | 93 => ⟨S_, .f32⟩
  | 94 => ⟨S100000x16, .f32⟩
  | 95 => ⟨S800000x1, .i32⟩
  | 96 => ⟨S100000x16, .f32⟩
  | 97 => ⟨S_, .f32⟩
  | 98 => ⟨S100000x16, .f32⟩
  | 99 => ⟨S800000x1, .i32⟩
  | 100 => ⟨S100000x16, .f32⟩
  | 101 => ⟨S100000x17, .f32⟩
  | 102 => ⟨S1x49x16, .f32⟩
  | 103 => ⟨S49x16, .f32⟩
  | 104 => ⟨S1x16, .f32⟩
  | 105 => ⟨S16, .f32⟩
  | 106 => ⟨S1x16x16, .f32⟩
  | 107 => ⟨S16x16, .f32⟩
  | 108 => ⟨S1x16, .f32⟩
  | 109 => ⟨S16, .f32⟩
  | 110 => ⟨S1x16x16, .f32⟩
  | 111 => ⟨S16x16, .f32⟩
  | 112 => ⟨S1x16, .f32⟩
  | 113 => ⟨S16, .f32⟩
  | 114 => ⟨S1x16x1, .f32⟩
  | 115 => ⟨S16x1, .f32⟩
  | 116 => ⟨S1x1, .f32⟩
  | 117 => ⟨S1, .f32⟩
  | 118 => ⟨S100000x17, .f32⟩
  | 119 => ⟨S100000x16, .f32⟩
  | 120 => ⟨S100000x1, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S2x800000, .i32⟩

abbrev hbmTy0_1 (i : Nat) : BufTy := match i % 128 with
  | 0 => ⟨S_, .i32⟩
  | 1 => ⟨S800000, .i32⟩
  | 2 => ⟨S800000, .i32⟩
  | 3 => ⟨S800000x1, .i32⟩
  | 4 => ⟨S800000x1, .i32⟩
  | 5 => ⟨S800000x2, .i32⟩
  | 6 => ⟨S800000, .f32⟩
  | 7 => ⟨S800000, .f32⟩
  | 8 => ⟨S_, .f32⟩
  | 9 => ⟨S100000, .f32⟩
  | 10 => ⟨S800000x1, .i32⟩
  | 11 => ⟨S100000, .f32⟩
  | 12 => ⟨S100000x1, .f32⟩
  | 13 => ⟨S100000x1, .f32⟩
  | 14 => ⟨S100000x1, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x16, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x16, .f32⟩
  | 41 => ⟨S800000x35, .f32⟩
  | 42 => ⟨S800000x35, .f32⟩
  | 43 => ⟨S1x800000x35, .f32⟩
  | 44 => ⟨S1x800000x35, .f32⟩
  | 45 => ⟨S2x800000x35, .f32⟩
  | 46 => ⟨S1x35x16, .f32⟩
  | 47 => ⟨S35x16, .f32⟩
  | 48 => ⟨S1x35x16, .f32⟩
  | 49 => ⟨S35x16, .f32⟩
  | 50 => ⟨S1x35x16, .f32⟩
  | 51 => ⟨S1x35x16, .f32⟩
  | 52 => ⟨S2x35x16, .f32⟩
  | 53 => ⟨S1x16, .f32⟩
  | 54 => ⟨S16, .f32⟩
  | 55 => ⟨S1x16, .f32⟩
  | 56 => ⟨S16, .f32⟩
  | 57 => ⟨S1x16, .f32⟩
  | 58 => ⟨S1x16, .f32⟩
  | 59 => ⟨S2x16, .f32⟩
  | 60 => ⟨S1x16x16, .f32⟩
  | 61 => ⟨S16x16, .f32⟩
  | 62 => ⟨S1x16x16, .f32⟩
  | 63 => ⟨S16x16, .f32⟩
  | 64 => ⟨S1x16x16, .f32⟩
  | 65 => ⟨S1x16x16, .f32⟩
  | 66 => ⟨S2x16x16, .f32⟩
  | 67 => ⟨S1x16, .f32⟩
  | 68 => ⟨S16, .f32⟩
  | 69 => ⟨S1x16, .f32⟩
  | 70 => ⟨S16, .f32⟩
  | 71 => ⟨S1x16, .f32⟩
  | 72 => ⟨S1x16, .f32⟩
  | 73 => ⟨S2x16, .f32⟩
  | 74 => ⟨S2x800000x16, .f32⟩
  | 75 => ⟨S1x800000x1, .f32⟩
  | 76 => ⟨S2x800000x16, .f32⟩
  | 77 => ⟨S2x800000x16, .f32⟩
  | 78 => ⟨S1x800000x16, .f32⟩
  | 79 => ⟨S800000x16, .f32⟩
  | 80 => ⟨S1x800000x16, .f32⟩
  | 81 => ⟨S800000x16, .f32⟩
  | 82 => ⟨S_, .f32⟩
  | 83 => ⟨S100000x16, .f32⟩
  | 84 => ⟨S800000x1, .i32⟩
  | 85 => ⟨S100000x16, .f32⟩
  | 86 => ⟨S_, .f32⟩
  | 87 => ⟨S100000x16, .f32⟩
  | 88 => ⟨S800000x1, .i32⟩
  | 89 => ⟨S100000x16, .f32⟩
  | 90 => ⟨S100000x17, .f32⟩
  | 91 => ⟨S1x49x16, .f32⟩
  | 92 => ⟨S49x16, .f32⟩
  | 93 => ⟨S1x16, .f32⟩
  | 94 => ⟨S16, .f32⟩
  | 95 => ⟨S1x16x16, .f32⟩
  | 96 => ⟨S16x16, .f32⟩
  | 97 => ⟨S1x16, .f32⟩
  | 98 => ⟨S16, .f32⟩
  | 99 => ⟨S1x16x16, .f32⟩
  | 100 => ⟨S16x16, .f32⟩
  | 101 => ⟨S1x16, .f32⟩
  | 102 => ⟨S16, .f32⟩
  | 103 => ⟨S1x16x1, .f32⟩
  | 104 => ⟨S16x1, .f32⟩
  | 105 => ⟨S1x1, .f32⟩
  | 106 => ⟨S1, .f32⟩
  | 107 => ⟨S100000x17, .f32⟩
  | 108 => ⟨S100000x16, .f32⟩
  | 109 => ⟨S100000x1, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S_, .i32⟩
  | 118 => ⟨S800000, .i32⟩
  | 119 => ⟨S800000, .i32⟩
  | 120 => ⟨S800000x1, .i32⟩
  | 121 => ⟨S800000x1, .i32⟩
  | 122 => ⟨S800000x2, .i32⟩
  | 123 => ⟨S800000, .f32⟩
  | 124 => ⟨S800000, .f32⟩
  | 125 => ⟨S_, .f32⟩
  | 126 => ⟨S100000, .f32⟩
  | 127 => ⟨S800000x1, .i32⟩
  | _ => ⟨S2x800000, .i32⟩

abbrev hbmTy0_2 (i : Nat) : BufTy := match i % 128 with
  | 0 => ⟨S100000, .f32⟩
  | 1 => ⟨S100000x1, .f32⟩
  | 2 => ⟨S100000x1, .f32⟩
  | 3 => ⟨S100000x1, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x16, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x16, .f32⟩
  | 29 => ⟨S800000x35, .f32⟩
  | 30 => ⟨S800000x35, .f32⟩
  | 31 => ⟨S1x800000x35, .f32⟩
  | 32 => ⟨S1x800000x35, .f32⟩
  | 33 => ⟨S2x800000x35, .f32⟩
  | 34 => ⟨S1x35x16, .f32⟩
  | 35 => ⟨S35x16, .f32⟩
  | 36 => ⟨S1x35x16, .f32⟩
  | 37 => ⟨S35x16, .f32⟩
  | 38 => ⟨S1x35x16, .f32⟩
  | 39 => ⟨S1x35x16, .f32⟩
  | 40 => ⟨S2x35x16, .f32⟩
  | 41 => ⟨S1x16, .f32⟩
  | 42 => ⟨S16, .f32⟩
  | 43 => ⟨S1x16, .f32⟩
  | 44 => ⟨S16, .f32⟩
  | 45 => ⟨S1x16, .f32⟩
  | 46 => ⟨S1x16, .f32⟩
  | 47 => ⟨S2x16, .f32⟩
  | 48 => ⟨S1x16x16, .f32⟩
  | 49 => ⟨S16x16, .f32⟩
  | 50 => ⟨S1x16x16, .f32⟩
  | 51 => ⟨S16x16, .f32⟩
  | 52 => ⟨S1x16x16, .f32⟩
  | 53 => ⟨S1x16x16, .f32⟩
  | 54 => ⟨S2x16x16, .f32⟩
  | 55 => ⟨S1x16, .f32⟩
  | 56 => ⟨S16, .f32⟩
  | 57 => ⟨S1x16, .f32⟩
  | 58 => ⟨S16, .f32⟩
  | 59 => ⟨S1x16, .f32⟩
  | 60 => ⟨S1x16, .f32⟩
  | 61 => ⟨S2x16, .f32⟩
  | 62 => ⟨S2x800000x16, .f32⟩
  | 63 => ⟨S1x800000x1, .f32⟩
  | 64 => ⟨S2x800000x16, .f32⟩
  | 65 => ⟨S2x800000x16, .f32⟩
  | 66 => ⟨S1x800000x16, .f32⟩
  | 67 => ⟨S800000x16, .f32⟩
  | 68 => ⟨S1x800000x16, .f32⟩
  | 69 => ⟨S800000x16, .f32⟩
  | 70 => ⟨S_, .f32⟩
  | 71 => ⟨S100000x16, .f32⟩
  | 72 => ⟨S800000x1, .i32⟩
  | 73 => ⟨S100000x16, .f32⟩
  | 74 => ⟨S_, .f32⟩
  | 75 => ⟨S100000x16, .f32⟩
  | 76 => ⟨S800000x1, .i32⟩
  | 77 => ⟨S100000x16, .f32⟩
  | 78 => ⟨S100000x17, .f32⟩
  | 79 => ⟨S1x49x16, .f32⟩
  | 80 => ⟨S49x16, .f32⟩
  | 81 => ⟨S1x16, .f32⟩
  | 82 => ⟨S16, .f32⟩
  | 83 => ⟨S1x16x16, .f32⟩
  | 84 => ⟨S16x16, .f32⟩
  | 85 => ⟨S1x16, .f32⟩
  | 86 => ⟨S16, .f32⟩
  | 87 => ⟨S1x16x16, .f32⟩
  | 88 => ⟨S16x16, .f32⟩
  | 89 => ⟨S1x16, .f32⟩
  | 90 => ⟨S16, .f32⟩
  | 91 => ⟨S1x16x1, .f32⟩
  | 92 => ⟨S16x1, .f32⟩
  | 93 => ⟨S1x1, .f32⟩
  | 94 => ⟨S1, .f32⟩
  | 95 => ⟨S100000x17, .f32⟩
  | 96 => ⟨S100000x16, .f32⟩
  | 97 => ⟨S100000x1, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S_, .i32⟩
  | 106 => ⟨S800000, .i32⟩
  | 107 => ⟨S800000, .i32⟩
  | 108 => ⟨S800000x1, .i32⟩
  | 109 => ⟨S800000x1, .i32⟩
  | 110 => ⟨S800000x2, .i32⟩
  | 111 => ⟨S800000, .f32⟩
  | 112 => ⟨S800000, .f32⟩
  | 113 => ⟨S_, .f32⟩
  | 114 => ⟨S100000, .f32⟩
  | 115 => ⟨S800000x1, .i32⟩
  | 116 => ⟨S100000, .f32⟩
  | 117 => ⟨S100000x1, .f32⟩
  | 118 => ⟨S100000x1, .f32⟩
  | 119 => ⟨S100000x1, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | _ => ⟨S2x800000, .i32⟩

abbrev hbmTy (i : Nat) : BufTy := match i / 128 with
  | 0 => hbmTy0_0 i
  | 1 => hbmTy0_1 i
  | 2 => hbmTy0_2 i
  | _ => ⟨S2x800000, .i32⟩

abbrev bufTy : (tb : Table) → Fin (tcTables nBuf tb) → BufTy
  | .hbm, ⟨i, _⟩ => hbmTy i
  | .local _ .vmem, ⟨0, _⟩ => ⟨S2x4000x35, .f32⟩
  | .local _ .vmem, ⟨1, _⟩ => ⟨S2x4000x35, .f32⟩
  | .local _ .vmem, ⟨2, _⟩ => ⟨S2x35x16, .f32⟩
  | .local _ .vmem, ⟨3, _⟩ => ⟨S2x16, .f32⟩
  | .local _ .vmem, ⟨4, _⟩ => ⟨S2x16x16, .f32⟩
  | .local _ .vmem, ⟨5, _⟩ => ⟨S2x16, .f32⟩
  | .local _ .vmem, ⟨6, _⟩ => ⟨S2x4000x16, .f32⟩
  | .local _ .vmem, ⟨7, _⟩ => ⟨S2x4000x16, .f32⟩
  | .local _ .vmem, ⟨8, _⟩ => ⟨S4000x16, .f32⟩
  | .local _ .vmem, ⟨9, _⟩ => ⟨S4000x16, .f32⟩
  | .local _ .vmem, ⟨10, _⟩ => ⟨S4000x16, .f32⟩
  | .local _ .vmem, ⟨11, _⟩ => ⟨S4000x16, .f32⟩
  | .local _ .vmem, ⟨12, _⟩ => ⟨S4000x17, .f32⟩
  | .local _ .vmem, ⟨13, _⟩ => ⟨S4000x17, .f32⟩
  | .local _ .vmem, ⟨14, _⟩ => ⟨S49x16, .f32⟩
  | .local _ .vmem, ⟨15, _⟩ => ⟨S16, .f32⟩
  | .local _ .vmem, ⟨16, _⟩ => ⟨S16x16, .f32⟩
  | .local _ .vmem, ⟨17, _⟩ => ⟨S16, .f32⟩
  | .local _ .vmem, ⟨18, _⟩ => ⟨S16x16, .f32⟩
  | .local _ .vmem, ⟨19, _⟩ => ⟨S16, .f32⟩
  | .local _ .vmem, ⟨20, _⟩ => ⟨S16x1, .f32⟩
  | .local _ .vmem, ⟨21, _⟩ => ⟨S1, .f32⟩
  | .local _ .vmem, ⟨22, _⟩ => ⟨S4000x17, .f32⟩
  | .local _ .vmem, ⟨23, _⟩ => ⟨S4000x17, .f32⟩
  | .local _ .vmem, ⟨24, _⟩ => ⟨S2x4000x35, .f32⟩
  | .local _ .vmem, ⟨25, _⟩ => ⟨S2x4000x35, .f32⟩
  | .local _ .vmem, ⟨26, _⟩ => ⟨S2x35x16, .f32⟩
  | .local _ .vmem, ⟨27, _⟩ => ⟨S2x16, .f32⟩
  | .local _ .vmem, ⟨28, _⟩ => ⟨S2x16x16, .f32⟩
  | .local _ .vmem, ⟨29, _⟩ => ⟨S2x16, .f32⟩
  | .local _ .vmem, ⟨30, _⟩ => ⟨S2x4000x16, .f32⟩
  | .local _ .vmem, ⟨31, _⟩ => ⟨S2x4000x16, .f32⟩
  | .local _ .vmem, ⟨32, _⟩ => ⟨S4000x16, .f32⟩
  | .local _ .vmem, ⟨33, _⟩ => ⟨S4000x16, .f32⟩
  | .local _ .vmem, ⟨34, _⟩ => ⟨S4000x16, .f32⟩
  | .local _ .vmem, ⟨35, _⟩ => ⟨S4000x16, .f32⟩
  | .local _ .vmem, ⟨36, _⟩ => ⟨S4000x17, .f32⟩
  | .local _ .vmem, ⟨37, _⟩ => ⟨S4000x17, .f32⟩
  | .local _ .vmem, ⟨38, _⟩ => ⟨S49x16, .f32⟩
  | .local _ .vmem, ⟨39, _⟩ => ⟨S16, .f32⟩
  | .local _ .vmem, ⟨40, _⟩ => ⟨S16x16, .f32⟩
  | .local _ .vmem, ⟨41, _⟩ => ⟨S16, .f32⟩
  | .local _ .vmem, ⟨42, _⟩ => ⟨S16x16, .f32⟩
  | .local _ .vmem, ⟨43, _⟩ => ⟨S16, .f32⟩
  | .local _ .vmem, ⟨44, _⟩ => ⟨S16x1, .f32⟩
  | .local _ .vmem, ⟨45, _⟩ => ⟨S1, .f32⟩
  | .local _ .vmem, ⟨46, _⟩ => ⟨S4000x17, .f32⟩
  | .local _ .vmem, ⟨47, _⟩ => ⟨S4000x17, .f32⟩
  | .local _ .vmem, ⟨48, _⟩ => ⟨S2x4000x35, .f32⟩
  | .local _ .vmem, ⟨49, _⟩ => ⟨S2x4000x35, .f32⟩
  | .local _ .vmem, ⟨50, _⟩ => ⟨S2x35x16, .f32⟩
  | .local _ .vmem, ⟨51, _⟩ => ⟨S2x16, .f32⟩
  | .local _ .vmem, ⟨52, _⟩ => ⟨S2x16x16, .f32⟩
  | .local _ .vmem, ⟨53, _⟩ => ⟨S2x16, .f32⟩
  | .local _ .vmem, ⟨54, _⟩ => ⟨S2x4000x16, .f32⟩
  | .local _ .vmem, ⟨55, _⟩ => ⟨S2x4000x16, .f32⟩
  | .local _ .vmem, ⟨56, _⟩ => ⟨S4000x16, .f32⟩
  | .local _ .vmem, ⟨57, _⟩ => ⟨S4000x16, .f32⟩
  | .local _ .vmem, ⟨58, _⟩ => ⟨S4000x16, .f32⟩
  | .local _ .vmem, ⟨59, _⟩ => ⟨S4000x16, .f32⟩
  | .local _ .vmem, ⟨60, _⟩ => ⟨S4000x17, .f32⟩
  | .local _ .vmem, ⟨61, _⟩ => ⟨S4000x17, .f32⟩
  | .local _ .vmem, ⟨62, _⟩ => ⟨S49x16, .f32⟩
  | .local _ .vmem, ⟨63, _⟩ => ⟨S16, .f32⟩
  | .local _ .vmem, ⟨64, _⟩ => ⟨S16x16, .f32⟩
  | .local _ .vmem, ⟨65, _⟩ => ⟨S16, .f32⟩
  | .local _ .vmem, ⟨66, _⟩ => ⟨S16x16, .f32⟩
  | .local _ .vmem, ⟨67, _⟩ => ⟨S16, .f32⟩
  | .local _ .vmem, ⟨68, _⟩ => ⟨S16x1, .f32⟩
  | .local _ .vmem, ⟨69, _⟩ => ⟨S1, .f32⟩
  | .local _ .vmem, ⟨70, _⟩ => ⟨S4000x17, .f32⟩
  | .local _ .vmem, ⟨71, _⟩ => ⟨S4000x17, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_4 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_5 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_6 : Ref sig .tc := ⟨.hbm, 121, rfl⟩
abbrev main_v91 : Ref sig .tc := ⟨.hbm, 122, rfl⟩
abbrev main_v92 : Ref sig .tc := ⟨.hbm, 123, rfl⟩
abbrev main_c_7 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_8 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_9 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_10 : Ref sig .tc := ⟨.hbm, 143, rfl⟩
abbrev main_v109 : Ref sig .tc := ⟨.hbm, 144, rfl⟩
abbrev main_cst_11 : Ref sig .tc := ⟨.hbm, 145, rfl⟩
abbrev main_v110 : Ref sig .tc := ⟨.hbm, 146, rfl⟩
abbrev main_cst_12 : Ref sig .tc := ⟨.hbm, 147, rfl⟩
abbrev main_v111 : Ref sig .tc := ⟨.hbm, 148, rfl⟩
abbrev main_cst_13 : Ref sig .tc := ⟨.hbm, 149, rfl⟩
abbrev main_v112 : Ref sig .tc := ⟨.hbm, 150, rfl⟩
abbrev main_c_14 : Ref sig .tc := ⟨.hbm, 151, rfl⟩
abbrev main_v113 : Ref sig .tc := ⟨.hbm, 152, rfl⟩
abbrev main_v114 : Ref sig .tc := ⟨.hbm, 153, rfl⟩
abbrev main_c_15 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_16 : Ref sig .tc := ⟨.hbm, 160, rfl⟩
abbrev main_v120 : Ref sig .tc := ⟨.hbm, 161, rfl⟩
abbrev main_v121 : Ref sig .tc := ⟨.hbm, 162, rfl⟩
abbrev main_c_17 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_cst_18 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_cst_19 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_c_20 : Ref sig .tc := ⟨.hbm, 238, rfl⟩
abbrev main_v194 : Ref sig .tc := ⟨.hbm, 239, rfl⟩
abbrev main_v195 : Ref sig .tc := ⟨.hbm, 240, rfl⟩
abbrev main_c_21 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_c_22 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_cst_23 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_cst_24 : Ref sig .tc := ⟨.hbm, 260, rfl⟩
abbrev main_v212 : Ref sig .tc := ⟨.hbm, 261, rfl⟩
abbrev main_cst_25 : Ref sig .tc := ⟨.hbm, 262, rfl⟩
abbrev main_v213 : Ref sig .tc := ⟨.hbm, 263, rfl⟩
abbrev main_cst_26 : Ref sig .tc := ⟨.hbm, 264, rfl⟩
abbrev main_v214 : Ref sig .tc := ⟨.hbm, 265, rfl⟩
abbrev main_v215 : Ref sig .tc := ⟨.hbm, 266, rfl⟩
abbrev main_c_27 : Ref sig .tc := ⟨.hbm, 267, rfl⟩
abbrev main_v216 : Ref sig .tc := ⟨.hbm, 268, rfl⟩
abbrev main_v217 : Ref sig .tc := ⟨.hbm, 269, rfl⟩
abbrev main_c_28 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_c_29 : Ref sig .tc := ⟨.hbm, 276, rfl⟩
abbrev main_v223 : Ref sig .tc := ⟨.hbm, 277, rfl⟩
abbrev main_v224 : Ref sig .tc := ⟨.hbm, 278, rfl⟩
abbrev main_c_30 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_cst_31 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_cst_32 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_c_33 : Ref sig .tc := ⟨.hbm, 354, rfl⟩
abbrev main_v297 : Ref sig .tc := ⟨.hbm, 355, rfl⟩
abbrev main_v298 : Ref sig .tc := ⟨.hbm, 356, rfl⟩
abbrev main_c_34 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_c_35 : Ref sig .tc := ⟨.hbm, 361, rfl⟩
abbrev main_v302 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩
abbrev main_v306 : Ref sig .tc := ⟨.hbm, 366, rfl⟩
abbrev main_v307 : Ref sig .tc := ⟨.hbm, 367, rfl⟩
abbrev main_v308 : Ref sig .tc := ⟨.hbm, 368, rfl⟩
abbrev main_cst_36 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_cst_37 : Ref sig .tc := ⟨.hbm, 376, rfl⟩
abbrev main_v315 : Ref sig .tc := ⟨.hbm, 377, rfl⟩
abbrev main_cst_38 : Ref sig .tc := ⟨.hbm, 378, rfl⟩
abbrev main_v316 : Ref sig .tc := ⟨.hbm, 379, rfl⟩
abbrev main_cst_39 : Ref sig .tc := ⟨.hbm, 380, rfl⟩
abbrev main_v317 : Ref sig .tc := ⟨.hbm, 381, rfl⟩
abbrev main_v318 : Ref sig .tc := ⟨.hbm, 382, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg9_0 : Ref sig .tc := ⟨.vmem, 44, rfl⟩
abbrev cc3_stg10_0 : Ref sig .tc := ⟨.vmem, 45, rfl⟩
abbrev cc3_stg11_0 : Ref sig .tc := ⟨.vmem, 46, rfl⟩
abbrev cc3_stg11_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg5_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg6_0 : Ref sig .tc := ⟨.vmem, 65, rfl⟩
abbrev cc5_stg7_0 : Ref sig .tc := ⟨.vmem, 66, rfl⟩
abbrev cc5_stg8_0 : Ref sig .tc := ⟨.vmem, 67, rfl⟩
abbrev cc5_stg9_0 : Ref sig .tc := ⟨.vmem, 68, rfl⟩
abbrev cc5_stg10_0 : Ref sig .tc := ⟨.vmem, 69, rfl⟩
abbrev cc5_stg11_0 : Ref sig .tc := ⟨.vmem, 70, rfl⟩
abbrev cc5_stg11_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem10_0 : DmaSem sig := 45
abbrev cc3_sem11_0 : DmaSem sig := 46
abbrev cc3_sem11_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem5_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem4_0 : DmaSem sig := 63
abbrev cc5_sem5_0 : DmaSem sig := 64
abbrev cc5_sem6_0 : DmaSem sig := 65
abbrev cc5_sem7_0 : DmaSem sig := 66
abbrev cc5_sem8_0 : DmaSem sig := 67
abbrev cc5_sem9_0 : DmaSem sig := 68
abbrev cc5_sem10_0 : DmaSem sig := 69
abbrev cc5_sem11_0 : DmaSem sig := 70
abbrev cc5_sem11_1 : DmaSem sig := 71

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x4000x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x35x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x4000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x17 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S49x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x17 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![200], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S2x4000x35 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x35x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2x4000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x17 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S49x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x16 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S16 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S16x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S4000x17 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![200], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S2x4000x35 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x35x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2x16x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2x4000x16 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x17 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S49x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S16x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S16 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S16x16 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S16 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S16x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S4000x17 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S100000x16 : S_.BroadcastsInDim S100000x16 (![] : Fin 0 → Fin S100000x16.rank)
  bcast_S_S100000x1 : S_.BroadcastsInDim S100000x1 (![] : Fin 0 → Fin S100000x1.rank)
  shapeCasts_S800000x1_S800000 : S800000x1.ShapeCasts S800000
  bcast_S_S800000 : S_.BroadcastsInDim S800000 (![] : Fin 0 → Fin S800000.rank)
  concatenates_S800000x16_S800000x16_S800000x3_S800000x35_d1 : Shape.Concatenates [S800000x16, S800000x16, S800000x3] S800000x35 1
  bcast_S800000x35_S1x800000x35_1_2 : S800000x35.BroadcastsInDim S1x800000x35 (![1, 2] : Fin 2 → Fin S1x800000x35.rank)
  concatenates_S1x800000x35_S1x800000x35_S2x800000x35_d0 : Shape.Concatenates [S1x800000x35, S1x800000x35] S2x800000x35 0
  slices_S3x35x16_S1x35x16_0_0_0 : S3x35x16.Slices ![0, 0, 0] S1x35x16
  shapeCasts_S1x35x16_S35x16 : S1x35x16.ShapeCasts S35x16
  bcast_S35x16_S1x35x16_1_2 : S35x16.BroadcastsInDim S1x35x16 (![1, 2] : Fin 2 → Fin S1x35x16.rank)
  concatenates_S1x35x16_S1x35x16_S2x35x16_d0 : Shape.Concatenates [S1x35x16, S1x35x16] S2x35x16 0
  slices_S3x16_S1x16_0_0 : S3x16.Slices ![0, 0] S1x16
  shapeCasts_S1x16_S16 : S1x16.ShapeCasts S16
  bcast_S16_S1x16_1 : S16.BroadcastsInDim S1x16 (![1] : Fin 1 → Fin S1x16.rank)
  concatenates_S1x16_S1x16_S2x16_d0 : Shape.Concatenates [S1x16, S1x16] S2x16 0
  slices_S3x16x16_S1x16x16_0_0_0 : S3x16x16.Slices ![0, 0, 0] S1x16x16
  shapeCasts_S1x16x16_S16x16 : S1x16x16.ShapeCasts S16x16
  bcast_S16x16_S1x16x16_1_2 : S16x16.BroadcastsInDim S1x16x16 (![1, 2] : Fin 2 → Fin S1x16x16.rank)
  concatenates_S1x16x16_S1x16x16_S2x16x16_d0 : Shape.Concatenates [S1x16x16, S1x16x16] S2x16x16 0
  inb_S2x4000x35_S1x4000x35_0_0_0 : ∀ a, (![0, 0, 0] : Fin 3 → Nat) a + S1x4000x35.size a ≤ S2x4000x35.size a
  h_S1x4000x35 : 0 < S1x4000x35.numel
  shapeCasts_S1x4000x35_S4000x35 : S1x4000x35.ShapeCasts S4000x35
  bitsLt_bf16_f32 : FTy.bits .bf16 < FTy.bits .f32
  inb_S2x35x16_S1x35x16_0_0_0 : ∀ a, (![0, 0, 0] : Fin 3 → Nat) a + S1x35x16.size a ≤ S2x35x16.size a
  h_S1x35x16 : 0 < S1x35x16.numel
  inb_S2x16_S1x16_0_0 : ∀ a, (![0, 0] : Fin 2 → Nat) a + S1x16.size a ≤ S2x16.size a
  h_S1x16 : 0 < S1x16.numel
  shapeCasts_S16_S1x16 : S16.ShapeCasts S1x16
  broadcasts_S1x16_S4000x16 : S1x16.Broadcasts S4000x16
  inb_S2x16x16_S1x16x16_0_0_0 : ∀ a, (![0, 0, 0] : Fin 3 → Nat) a + S1x16x16.size a ≤ S2x16x16.size a
  h_S1x16x16 : 0 < S1x16x16.numel
  inb_S2x4000x16_S1x4000x16_0_0_0 : ∀ a, (![0, 0, 0] : Fin 3 → Nat) a + S1x4000x16.size a ≤ S2x4000x16.size a
  h_S1x4000x16 : 0 < S1x4000x16.numel
  shapeCasts_S1x4000x16_S4000x16 : S1x4000x16.ShapeCasts S4000x16
  shapeCasts_S4000x16_S1x4000x16 : S4000x16.ShapeCasts S1x4000x16
  inb_S2x4000x35_S1x4000x35_1_0_0 : ∀ a, (![1, 0, 0] : Fin 3 → Nat) a + S1x4000x35.size a ≤ S2x4000x35.size a
  inb_S2x35x16_S1x35x16_1_0_0 : ∀ a, (![1, 0, 0] : Fin 3 → Nat) a + S1x35x16.size a ≤ S2x35x16.size a
  inb_S2x16_S1x16_1_0 : ∀ a, (![1, 0] : Fin 2 → Nat) a + S1x16.size a ≤ S2x16.size a
  inb_S2x16x16_S1x16x16_1_0_0 : ∀ a, (![1, 0, 0] : Fin 3 → Nat) a + S1x16x16.size a ≤ S2x16x16.size a
  inb_S2x4000x16_S1x4000x16_1_0_0 : ∀ a, (![1, 0, 0] : Fin 3 → Nat) a + S1x4000x16.size a ≤ S2x4000x16.size a
  bcast_S800000x1_S1x800000x1_1_2 : S800000x1.BroadcastsInDim S1x800000x1 (![1, 2] : Fin 2 → Fin S1x800000x1.rank)
  bcast_S1x800000x1_S2x800000x16_0_1_2 : S1x800000x1.BroadcastsInDim S2x800000x16 (![0, 1, 2] : Fin 3 → Fin S2x800000x16.rank)
  slices_S2x800000x16_S1x800000x16_0_0_0 : S2x800000x16.Slices ![0, 0, 0] S1x800000x16
  shapeCasts_S1x800000x16_S800000x16 : S1x800000x16.ShapeCasts S800000x16
  slices_S2x800000x16_S1x800000x16_1_0_0 : S2x800000x16.Slices ![1, 0, 0] S1x800000x16
  concatenates_S100000x16_S100000x1_S100000x17_d1 : Shape.Concatenates [S100000x16, S100000x1] S100000x17 1
  slices_S3x49x16_S1x49x16_0_0_0 : S3x49x16.Slices ![0, 0, 0] S1x49x16
  shapeCasts_S1x49x16_S49x16 : S1x49x16.ShapeCasts S49x16
  slices_S3x16x1_S1x16x1_0_0_0 : S3x16x1.Slices ![0, 0, 0] S1x16x1
  shapeCasts_S1x16x1_S16x1 : S1x16x1.ShapeCasts S16x1
  slices_S3x1_S1x1_0_0 : S3x1.Slices ![0, 0] S1x1
  shapeCasts_S1x1_S1 : S1x1.ShapeCasts S1
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S4000x17_S4000x17_0_0 : ∀ a, (![0, 0] : Fin 2 → Nat) a + S4000x17.size a ≤ S4000x17.size a
  h_S4000x17 : 0 < S4000x17.numel
  shapeCasts_S4000x17_S4000x17 : S4000x17.ShapeCasts S4000x17
  slices_S4000x17_o0_0_S4000x16 : S4000x17.Slices ![0, 0] S4000x16
  slices_S4000x17_o0_16_S4000x1 : S4000x17.Slices ![0, 16] S4000x1
  concatenates_S4000x16_S4000x16_S4000x16_S4000x1_S4000x49_d1 : Shape.Concatenates [S4000x16, S4000x16, S4000x16, S4000x1] S4000x49 1
  inb_S49x16_S49x16_0_0 : ∀ a, (![0, 0] : Fin 2 → Nat) a + S49x16.size a ≤ S49x16.size a
  h_S49x16 : 0 < S49x16.numel
  shapeCasts_S49x16_S49x16 : S49x16.ShapeCasts S49x16
  inb_S16_S16_0 : ∀ a, (![0] : Fin 1 → Nat) a + S16.size a ≤ S16.size a
  h_S16 : 0 < S16.numel
  shapeCasts_S16_S16 : S16.ShapeCasts S16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S4000x1 : S1x1.Broadcasts S4000x1
  concatenates_S4000x16_S4000x1_S4000x17_d1 : Shape.Concatenates [S4000x16, S4000x1] S4000x17 1
  slices_S100000x17_S100000x16_0_0 : S100000x17.Slices ![0, 0] S100000x16
  slices_S100000x17_S100000x1_0_16 : S100000x17.Slices ![0, 16] S100000x1
  concatenates_S800000x1_S800000x1_S800000x2_d1 : Shape.Concatenates [S800000x1, S800000x1] S800000x2 1
  bcast_S_S100000 : S_.BroadcastsInDim S100000 (![] : Fin 0 → Fin S100000.rank)
  bcast_S100000_S100000x1_0 : S100000.BroadcastsInDim S100000x1 (![0] : Fin 1 → Fin S100000x1.rank)
  reducesTo_S100000x1_S_d0_1 : S100000x1.ReducesTo [0, 1] S_
  h_S_ : 0 < S_.numel
  slices_S3x35x16_S1x35x16_1_0_0 : S3x35x16.Slices ![1, 0, 0] S1x35x16
  slices_S3x16_S1x16_1_0 : S3x16.Slices ![1, 0] S1x16
  slices_S3x16x16_S1x16x16_1_0_0 : S3x16x16.Slices ![1, 0, 0] S1x16x16
  slices_S3x49x16_S1x49x16_1_0_0 : S3x49x16.Slices ![1, 0, 0] S1x49x16
  slices_S3x16x1_S1x16x1_1_0_0 : S3x16x1.Slices ![1, 0, 0] S1x16x1
  slices_S3x1_S1x1_1_0 : S3x1.Slices ![1, 0] S1x1
  slices_S3x35x16_S1x35x16_2_0_0 : S3x35x16.Slices ![2, 0, 0] S1x35x16
  slices_S3x16_S1x16_2_0 : S3x16.Slices ![2, 0] S1x16
  slices_S3x16x16_S1x16x16_2_0_0 : S3x16x16.Slices ![2, 0, 0] S1x16x16
  slices_S3x49x16_S1x49x16_2_0_0 : S3x49x16.Slices ![2, 0, 0] S1x49x16
  slices_S3x16x1_S1x16x1_2_0_0 : S3x16x1.Slices ![2, 0, 0] S1x16x1
  slices_S3x1_S1x1_2_0 : S3x1.Slices ![2, 0] S1x1
  gather_S100000x16_S800000x1_S800000x16_1_0_n_n_0_1_116_wf : GatherDims.WF S100000x16 S800000x1 S800000x16 [1] [0] [] [0] [] 1 ![1, 16]
  dot_S4000x35_S35x16_S4000x16_1_0_0_1_n_n_wf : DotDims.WF S4000x35 S35x16 S4000x16 [1] [0] [0] [1] [] []
  dot_S4000x16_S16x16_S4000x16_1_0_0_1_n_n_wf : DotDims.WF S4000x16 S16x16 S4000x16 [1] [0] [0] [1] [] []
  scatter_S100000x16_S800000x1_S800000x16_1_0_0_1_wf : ScatterDims.WF S100000x16 S800000x1 S800000x16 [1] [0] [0] 1
  dot_S4000x49_S49x16_S4000x16_1_0_0_1_n_n_wf : DotDims.WF S4000x49 S49x16 S4000x16 [1] [0] [0] [1] [] []
  dot_S4000x16_S16x1_S4000x1_1_0_0_1_n_n_wf : DotDims.WF S4000x16 S16x1 S4000x1 [1] [0] [0] [1] [] []
  gather_S100000x1_S800000x2_S800000_n_01_n_n_01_1_11_wf : GatherDims.WF S100000x1 S800000x2 S800000 [] [0, 1] [] [0, 1] [] 1 ![1, 1]
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4000x35.size a ≤ S2x800000x35.size a
  hwx0_0 : ∀ i : grid0.Coords, EltTy.bits .f32 = 32 ∨ (Rect.block (s := S2x800000x35) S2x4000x35.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x35x16.size a ≤ S2x35x16.size a
  hwx0_1 : ∀ i : grid0.Coords, EltTy.bits .f32 = 32 ∨ (Rect.block (s := S2x35x16) S2x35x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x16.size a ≤ S2x16.size a
  hwx0_2 : ∀ i : grid0.Coords, EltTy.bits .f32 = 32 ∨ (Rect.block (s := S2x16) S2x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x16x16.size a ≤ S2x16x16.size a
  hwx0_3 : ∀ i : grid0.Coords, EltTy.bits .f32 = 32 ∨ (Rect.block (s := S2x16x16) S2x16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x16.size a ≤ S2x16.size a
  hwx0_4 : ∀ i : grid0.Coords, EltTy.bits .f32 = 32 ∨ (Rect.block (s := S2x16) S2x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x4000x16.size a ≤ S2x800000x16.size a
  hwx0_5 : ∀ i : grid0.Coords, EltTy.bits .f32 = 32 ∨ (Rect.block (s := S2x800000x16) S2x4000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S100000x16.size a
  hwx1_1 : ∀ i : grid1.Coords, EltTy.bits .f32 = 32 ∨ (Rect.block (s := S100000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x17.size a ≤ S100000x17.size a
  hwx1_2 : ∀ i : grid1.Coords, EltTy.bits .f32 = 32 ∨ (Rect.block (s := S100000x17) S4000x17.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S49x16.size a ≤ S49x16.size a
  hwx1_3 : ∀ i : grid1.Coords, EltTy.bits .f32 = 32 ∨ (Rect.block (s := S49x16) S49x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16.size a ≤ S16.size a
  hwx1_6 : ∀ i : grid1.Coords, EltTy.bits .f32 = 32 ∨ (Rect.block (s := S16) S16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x16.size a ≤ S16x16.size a
  hwx1_7 : ∀ i : grid1.Coords, EltTy.bits .f32 = 32 ∨ (Rect.block (s := S16x16) S16x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16.size a ≤ S16.size a
  hwx1_8 : ∀ i : grid1.Coords, EltTy.bits .f32 = 32 ∨ (Rect.block (s := S16) S16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S16x1.size a ≤ S16x1.size a
  hwx1_9 : ∀ i : grid1.Coords, EltTy.bits .f32 = 32 ∨ (Rect.block (s := S16x1) S16x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1.size a ≤ S1.size a
  hwx1_10 : ∀ i : grid1.Coords, EltTy.bits .f32 = 32 ∨ (Rect.block (s := S1) S1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x17.size a ≤ S100000x17.size a
  hwx1_11 : ∀ i : grid1.Coords, EltTy.bits .f32 = 32 ∨ (Rect.block (s := S100000x17) S4000x17.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x4000x35.size a ≤ S2x800000x35.size a
  hwx2_0 : ∀ i : grid2.Coords, EltTy.bits .f32 = 32 ∨ (Rect.block (s := S2x800000x35) S2x4000x35.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x35x16.size a ≤ S2x35x16.size a
  hwx2_1 : ∀ i : grid2.Coords, EltTy.bits .f32 = 32 ∨ (Rect.block (s := S2x35x16) S2x35x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x16.size a ≤ S2x16.size a
  hwx2_2 : ∀ i : grid2.Coords, EltTy.bits .f32 = 32 ∨ (Rect.block (s := S2x16) S2x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x16x16.size a ≤ S2x16x16.size a
  hwx2_3 : ∀ i : grid2.Coords, EltTy.bits .f32 = 32 ∨ (Rect.block (s := S2x16x16) S2x16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2x16.size a ≤ S2x16.size a
  hwx2_4 : ∀ i : grid2.Coords, EltTy.bits .f32 = 32 ∨ (Rect.block (s := S2x16) S2x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2x4000x16.size a ≤ S2x800000x16.size a
  hwx2_5 : ∀ i : grid2.Coords, EltTy.bits .f32 = 32 ∨ (Rect.block (s := S2x800000x16) S2x4000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x16.size a ≤ S100000x16.size a
  hwx3_1 : ∀ i : grid3.Coords, EltTy.bits .f32 = 32 ∨ (Rect.block (s := S100000x16) S4000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x17.size a ≤ S100000x17.size a
  hwx3_2 : ∀ i : grid3.Coords, EltTy.bits .f32 = 32 ∨ (Rect.block (s := S100000x17) S4000x17.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S49x16.size a ≤ S49x16.size a
  hwx3_3 : ∀ i : grid3.Coords, EltTy.bits .f32 = 32 ∨ (Rect.block (s := S49x16) S49x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16.size a ≤ S16.size a
  hwx3_4 : ∀ i : grid3.Coords, EltTy.bits .f32 = 32 ∨ (Rect.block (s := S16) S16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x16.size a ≤ S16x16.size a
  hwx3_5 : ∀ i : grid3.Coords, EltTy.bits .f32 = 32 ∨ (Rect.block (s := S16x16) S16x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S16.size a ≤ S16.size a
  hwx3_6 : ∀ i : grid3.Coords, EltTy.bits .f32 = 32 ∨ (Rect.block (s := S16) S16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S16x16.size a ≤ S16x16.size a
  hwx3_7 : ∀ i : grid3.Coords, EltTy.bits .f32 = 32 ∨ (Rect.block (s := S16x16) S16x16.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S16.size a ≤ S16.size a
  hwx3_8 : ∀ i : grid3.Coords, EltTy.bits .f32 = 32 ∨ (Rect.block (s := S16) S16.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S16x1.size a ≤ S16x1.size a
  hwx3_9 : ∀ i : grid3.Coords, EltTy.bits .f32 = 32 ∨ (Rect.block (s := S16x1) S16x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1.size a ≤ S1.size a
  hwx3_10 : ∀ i : grid3.Coords, EltTy.bits .f32 = 32 ∨ (Rect.block (s := S1) S1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S4000x17.size a ≤ S100000x17.size a
  hwx3_11 : ∀ i : grid3.Coords, EltTy.bits .f32 = 32 ∨ (Rect.block (s := S100000x17) S4000x17.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2x4000x35.size a ≤ S2x800000x35.size a
  hwx4_0 : ∀ i : grid4.Coords, EltTy.bits .f32 = 32 ∨ (Rect.block (s := S2x800000x35) S2x4000x35.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x35x16.size a ≤ S2x35x16.size a
  hwx4_1 : ∀ i : grid4.Coords, EltTy.bits .f32 = 32 ∨ (Rect.block (s := S2x35x16) S2x35x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2x16.size a ≤ S2x16.size a
  hwx4_2 : ∀ i : grid4.Coords, EltTy.bits .f32 = 32 ∨ (Rect.block (s := S2x16) S2x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2x16x16.size a ≤ S2x16x16.size a
  hwx4_3 : ∀ i : grid4.Coords, EltTy.bits .f32 = 32 ∨ (Rect.block (s := S2x16x16) S2x16x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2x16.size a ≤ S2x16.size a
  hwx4_4 : ∀ i : grid4.Coords, EltTy.bits .f32 = 32 ∨ (Rect.block (s := S2x16) S2x16.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2x4000x16.size a ≤ S2x800000x16.size a
  hwx4_5 : ∀ i : grid4.Coords, EltTy.bits .f32 = 32 ∨ (Rect.block (s := S2x800000x16) S2x4000x16.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x16.size a ≤ S100000x16.size a
  hwx5_0 : ∀ i : grid5.Coords, EltTy.bits .f32 = 32 ∨ (Rect.block (s := S100000x16) S4000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x16.size a ≤ S100000x16.size a
  hwx5_1 : ∀ i : grid5.Coords, EltTy.bits .f32 = 32 ∨ (Rect.block (s := S100000x16) S4000x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x17.size a ≤ S100000x17.size a
  hwx5_2 : ∀ i : grid5.Coords, EltTy.bits .f32 = 32 ∨ (Rect.block (s := S100000x17) S4000x17.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S49x16.size a ≤ S49x16.size a
  hwx5_3 : ∀ i : grid5.Coords, EltTy.bits .f32 = 32 ∨ (Rect.block (s := S49x16) S49x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S16.size a ≤ S16.size a
  hwx5_4 : ∀ i : grid5.Coords, EltTy.bits .f32 = 32 ∨ (Rect.block (s := S16) S16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S16x16.size a ≤ S16x16.size a
  hwx5_5 : ∀ i : grid5.Coords, EltTy.bits .f32 = 32 ∨ (Rect.block (s := S16x16) S16x16.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S16.size a ≤ S16.size a
  hwx5_6 : ∀ i : grid5.Coords, EltTy.bits .f32 = 32 ∨ (Rect.block (s := S16) S16.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S16x16.size a ≤ S16x16.size a
  hwx5_7 : ∀ i : grid5.Coords, EltTy.bits .f32 = 32 ∨ (Rect.block (s := S16x16) S16x16.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S16.size a ≤ S16.size a
  hwx5_8 : ∀ i : grid5.Coords, EltTy.bits .f32 = 32 ∨ (Rect.block (s := S16) S16.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S16x1.size a ≤ S16x1.size a
  hwx5_9 : ∀ i : grid5.Coords, EltTy.bits .f32 = 32 ∨ (Rect.block (s := S16x1) S16x1.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1.size a ≤ S1.size a
  hwx5_10 : ∀ i : grid5.Coords, EltTy.bits .f32 = 32 ∨ (Rect.block (s := S1) S1.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S4000x17.size a ≤ S100000x17.size a
  hwx5_11 : ∀ i : grid5.Coords, EltTy.bits .f32 = 32 ∨ (Rect.block (s := S100000x17) S4000x17.size (cc5_transform_11 i) (hinb5_11 i)).WholeWords (EltTy.packing .f32)

variable [Facts₀]

def gather_S100000x16_S800000x1_S800000x16_1_0_n_n_0_1_116 : GatherDims S100000x16 S800000x1 S800000x16 where
  offsetDims := [1]
  collapsedSliceDims := [0]
  operandBatchingDims := []
  startIndicesBatchingDims := []
  startIndexMap := [0]
  indexVectorDim := 1
  sliceSizes := ![1, 16]
  wf := gather_S100000x16_S800000x1_S800000x16_1_0_n_n_0_1_116_wf
def dot_S4000x35_S35x16_S4000x16_1_0_0_1_n_n : DotDims S4000x35 S35x16 S4000x16 where
  lhsContracting := [1]
  rhsContracting := [0]
  lhsNonContracting := [0]
  rhsNonContracting := [1]
  lhsBatch := []
  rhsBatch := []
  wf := dot_S4000x35_S35x16_S4000x16_1_0_0_1_n_n_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def scatter_S100000x16_S800000x1_S800000x16_1_0_0_1 : ScatterDims S100000x16 S800000x1 S800000x16 where
  updateWindowDims := [1]
  insertedWindowDims := [0]
  scatterDimsToOperandDims := [0]
  indexVectorDim := 1
  wf := scatter_S100000x16_S800000x1_S800000x16_1_0_0_1_wf
def dot_S4000x49_S49x16_S4000x16_1_0_0_1_n_n : DotDims S4000x49 S49x16 S4000x16 where
  lhsContracting := [1]
  rhsContracting := [0]
  lhsNonContracting := [0]
  rhsNonContracting := [1]
  lhsBatch := []
  rhsBatch := []
  wf := dot_S4000x49_S49x16_S4000x16_1_0_0_1_n_n_wf
def dot_S4000x16_S16x1_S4000x1_1_0_0_1_n_n : DotDims S4000x16 S16x1 S4000x1 where
  lhsContracting := [1]
  rhsContracting := [0]
  lhsNonContracting := [0]
  rhsNonContracting := [1]
  lhsBatch := []
  rhsBatch := []
  wf := dot_S4000x16_S16x1_S4000x1_1_0_0_1_n_n_wf
def gather_S100000x1_S800000x2_S800000_n_01_n_n_01_1_11 : GatherDims S100000x1 S800000x2 S800000 where
  offsetDims := []
  collapsedSliceDims := [0, 1]
  operandBatchingDims := []
  startIndicesBatchingDims := []
  startIndexMap := [0, 1]
  indexVectorDim := 1
  sliceSizes := ![1, 1]
  wf := gather_S100000x1_S800000x2_S800000_n_01_n_n_01_1_11_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_v28) S2x4000x35.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2x35x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S2x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S2x16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S2x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S2x4000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v71) S4000x17.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v73) S49x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v75) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v77) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v79) S16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v81) S16x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v83) S16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v85) S16x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v87) S1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v88) S4000x17.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v131) S2x4000x35.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v138) S2x35x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v145) S2x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v152) S2x16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v159) S2x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v160) S2x4000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v89) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v170) S4000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v174) S4000x17.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v176) S49x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v178) S16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v180) S16x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v182) S16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v184) S16x16.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v186) S16.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v188) S16x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v190) S1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v191) S4000x17.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v234) S2x4000x35.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v241) S2x35x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v248) S2x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v255) S2x16x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v262) S2x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v263) S2x4000x16.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v192) S4000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v273) S4000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v277) S4000x17.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v279) S49x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v281) S16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v283) S16x16.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v285) S16.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v287) S16x16.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v289) S16.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v291) S16x1.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v293) S1.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v294) S4000x17.size cc5_transform_11 reads5_11 true false 2 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

class Facts : Prop extends Facts₀ where

variable [Facts]
-- ==== ReferenceIdeal.lean ====
abbrev S2x800000 : Shape := ⟨2, ![2, 800000]⟩
abbrev S800000x3 : Shape := ⟨2, ![800000, 3]⟩
abbrev S800000x1 : Shape := ⟨2, ![800000, 1]⟩
abbrev S100000x1 : Shape := ⟨2, ![100000, 1]⟩
abbrev S3x35x16 : Shape := ⟨3, ![3, 35, 16]⟩
abbrev S3x16 : Shape := ⟨2, ![3, 16]⟩
abbrev S3x16x16 : Shape := ⟨3, ![3, 16, 16]⟩
abbrev S3x49x16 : Shape := ⟨3, ![3, 49, 16]⟩
abbrev S3x16x1 : Shape := ⟨3, ![3, 16, 1]⟩
abbrev S3x1 : Shape := ⟨2, ![3, 1]⟩
abbrev S1x800000 : Shape := ⟨2, ![1, 800000]⟩
abbrev S800000 : Shape := ⟨1, ![800000]⟩
abbrev S_ : Shape := ⟨0, ![]⟩
abbrev S100000x16 : Shape := ⟨2, ![100000, 16]⟩
abbrev S1x16x16 : Shape := ⟨3, ![1, 16, 16]⟩
abbrev S16x16 : Shape := ⟨2, ![16, 16]⟩
abbrev S1x16 : Shape := ⟨2, ![1, 16]⟩
abbrev S16 : Shape := ⟨1, ![16]⟩
abbrev S1x16x1 : Shape := ⟨3, ![1, 16, 1]⟩
abbrev S16x1 : Shape := ⟨2, ![16, 1]⟩
abbrev S1x1 : Shape := ⟨2, ![1, 1]⟩
abbrev S1 : Shape := ⟨1, ![1]⟩
abbrev S1x35x16 : Shape := ⟨3, ![1, 35, 16]⟩
abbrev S35x16 : Shape := ⟨2, ![35, 16]⟩
abbrev S800000x16 : Shape := ⟨2, ![800000, 16]⟩
abbrev S800000x35 : Shape := ⟨2, ![800000, 35]⟩
abbrev S100000x49 : Shape := ⟨2, ![100000, 49]⟩
abbrev S1x49x16 : Shape := ⟨3, ![1, 49, 16]⟩
abbrev S49x16 : Shape := ⟨2, ![49, 16]⟩
abbrev S800000x2 : Shape := ⟨2, ![800000, 2]⟩
abbrev S100000 : Shape := ⟨1, ![100000]⟩

abbrev nBuf : Space → Nat
  | .hbm => 532
  | .vmem => 0
  | .smem => 0
  | _ => 0

abbrev hbmTy0_0 (i : Nat) : BufTy := match i % 128 with
  | 0 => ⟨S2x800000, .i32⟩
  | 1 => ⟨S800000x3, .f32⟩
  | 2 => ⟨S800000x1, .f32⟩
  | 3 => ⟨S100000x1, .f32⟩
  | 4 => ⟨S100000x1, .f32⟩
  | 5 => ⟨S100000x1, .f32⟩
  | 6 => ⟨S3x35x16, .f32⟩
  | 7 => ⟨S3x16, .f32⟩
  | 8 => ⟨S3x16x16, .f32⟩
  | 9 => ⟨S3x16, .f32⟩
  | 10 => ⟨S3x35x16, .f32⟩
  | 11 => ⟨S3x16, .f32⟩
  | 12 => ⟨S3x16x16, .f32⟩
  | 13 => ⟨S3x16, .f32⟩
  | 14 => ⟨S3x49x16, .f32⟩
  | 15 => ⟨S3x16, .f32⟩
  | 16 => ⟨S3x16x16, .f32⟩
  | 17 => ⟨S3x16, .f32⟩
  | 18 => ⟨S3x16x16, .f32⟩
  | 19 => ⟨S3x16, .f32⟩
  | 20 => ⟨S3x16x1, .f32⟩
  | 21 => ⟨S3x1, .f32⟩
  | 22 => ⟨S1x800000, .i32⟩
  | 23 => ⟨S800000, .i32⟩
  | 24 => ⟨S1x800000, .i32⟩
  | 25 => ⟨S800000, .i32⟩
  | 26 => ⟨S800000, .i1⟩
  | 27 => ⟨S800000, .f32⟩
  | 28 => ⟨S800000x1, .f32⟩
  | 29 => ⟨S800000, .f32⟩
  | 30 => ⟨S_, .f32⟩
  | 31 => ⟨S100000x16, .f32⟩
  | 32 => ⟨S1x16x16, .f32⟩
  | 33 => ⟨S16x16, .f32⟩
  | 34 => ⟨S1x16, .f32⟩
  | 35 => ⟨S16, .f32⟩
  | 36 => ⟨S1x16x1, .f32⟩
  | 37 => ⟨S16x1, .f32⟩
  | 38 => ⟨S1x1, .f32⟩
  | 39 => ⟨S1, .f32⟩
  | 40 => ⟨S100000x16, .f32⟩
  | 41 => ⟨S1x16, .f32⟩
  | 42 => ⟨S100000x16, .f32⟩
  | 43 => ⟨S100000x16, .f32⟩
  | 44 => ⟨S_, .f32⟩
  | 45 => ⟨S100000x16, .f32⟩
  | 46 => ⟨S100000x16, .f32⟩
  | 47 => ⟨S100000x1, .f32⟩
  | 48 => ⟨S1x1, .f32⟩
  | 49 => ⟨S100000x1, .f32⟩
  | 50 => ⟨S100000x1, .f32⟩
  | 51 => ⟨S1x35x16, .f32⟩
  | 52 => ⟨S35x16, .f32⟩
  | 53 => ⟨S1x16, .f32⟩
  | 54 => ⟨S16, .f32⟩
  | 55 => ⟨S1x16x16, .f32⟩
  | 56 => ⟨S16x16, .f32⟩
  | 57 => ⟨S1x16, .f32⟩
  | 58 => ⟨S16, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x16, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x16, .f32⟩
  | 77 => ⟨S800000x35, .f32⟩
  | 78 => ⟨S800000x16, .f32⟩
  | 79 => ⟨S1x16, .f32⟩
  | 80 => ⟨S800000x16, .f32⟩
  | 81 => ⟨S800000x16, .f32⟩
  | 82 => ⟨S_, .f32⟩
  | 83 => ⟨S800000x16, .f32⟩
  | 84 => ⟨S800000x16, .f32⟩
  | 85 => ⟨S800000x16, .f32⟩
  | 86 => ⟨S1x16, .f32⟩
  | 87 => ⟨S800000x16, .f32⟩
  | 88 => ⟨S800000x16, .f32⟩
  | 89 => ⟨S800000x16, .f32⟩
  | 90 => ⟨S800000x16, .f32⟩
  | 91 => ⟨S_, .f32⟩
  | 92 => ⟨S100000x16, .f32⟩
  | 93 => ⟨S800000x1, .i32⟩
  | 94 => ⟨S100000x16, .f32⟩
  | 95 => ⟨S1x35x16, .f32⟩
  | 96 => ⟨S35x16, .f32⟩
  | 97 => ⟨S1x16, .f32⟩
  | 98 => ⟨S16, .f32⟩
  | 99 => ⟨S1x16x16, .f32⟩
  | 100 => ⟨S16x16, .f32⟩
  | 101 => ⟨S1x16, .f32⟩
  | 102 => ⟨S16, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x16, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x16, .f32⟩
  | 121 => ⟨S800000x35, .f32⟩
  | 122 => ⟨S800000x16, .f32⟩
  | 123 => ⟨S1x16, .f32⟩
  | 124 => ⟨S800000x16, .f32⟩
  | 125 => ⟨S800000x16, .f32⟩
  | 126 => ⟨S_, .f32⟩
  | 127 => ⟨S800000x16, .f32⟩
  | _ => ⟨S2x800000, .i32⟩

abbrev hbmTy0_1 (i : Nat) : BufTy := match i % 128 with
  | 0 => ⟨S800000x16, .f32⟩
  | 1 => ⟨S800000x16, .f32⟩
  | 2 => ⟨S1x16, .f32⟩
  | 3 => ⟨S800000x16, .f32⟩
  | 4 => ⟨S800000x16, .f32⟩
  | 5 => ⟨S800000x16, .f32⟩
  | 6 => ⟨S800000x16, .f32⟩
  | 7 => ⟨S_, .f32⟩
  | 8 => ⟨S100000x16, .f32⟩
  | 9 => ⟨S800000x1, .i32⟩
  | 10 => ⟨S100000x16, .f32⟩
  | 11 => ⟨S100000x49, .f32⟩
  | 12 => ⟨S1x49x16, .f32⟩
  | 13 => ⟨S49x16, .f32⟩
  | 14 => ⟨S1x16, .f32⟩
  | 15 => ⟨S16, .f32⟩
  | 16 => ⟨S1x16x16, .f32⟩
  | 17 => ⟨S16x16, .f32⟩
  | 18 => ⟨S1x16, .f32⟩
  | 19 => ⟨S16, .f32⟩
  | 20 => ⟨S100000x16, .f32⟩
  | 21 => ⟨S1x16, .f32⟩
  | 22 => ⟨S100000x16, .f32⟩
  | 23 => ⟨S100000x16, .f32⟩
  | 24 => ⟨S_, .f32⟩
  | 25 => ⟨S100000x16, .f32⟩
  | 26 => ⟨S100000x16, .f32⟩
  | 27 => ⟨S100000x16, .f32⟩
  | 28 => ⟨S1x16, .f32⟩
  | 29 => ⟨S100000x16, .f32⟩
  | 30 => ⟨S100000x16, .f32⟩
  | 31 => ⟨S_, .f32⟩
  | 32 => ⟨S100000x16, .f32⟩
  | 33 => ⟨S100000x16, .f32⟩
  | 34 => ⟨S100000x16, .f32⟩
  | 35 => ⟨S1x16x16, .f32⟩
  | 36 => ⟨S16x16, .f32⟩
  | 37 => ⟨S1x16, .f32⟩
  | 38 => ⟨S16, .f32⟩
  | 39 => ⟨S1x16x1, .f32⟩
  | 40 => ⟨S16x1, .f32⟩
  | 41 => ⟨S1x1, .f32⟩
  | 42 => ⟨S1, .f32⟩
  | 43 => ⟨S100000x16, .f32⟩
  | 44 => ⟨S1x16, .f32⟩
  | 45 => ⟨S100000x16, .f32⟩
  | 46 => ⟨S100000x16, .f32⟩
  | 47 => ⟨S_, .f32⟩
  | 48 => ⟨S100000x16, .f32⟩
  | 49 => ⟨S100000x16, .f32⟩
  | 50 => ⟨S100000x1, .f32⟩
  | 51 => ⟨S1x1, .f32⟩
  | 52 => ⟨S100000x1, .f32⟩
  | 53 => ⟨S100000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S_, .i32⟩
  | 62 => ⟨S800000, .i32⟩
  | 63 => ⟨S800000, .i32⟩
  | 64 => ⟨S800000x1, .i32⟩
  | 65 => ⟨S800000x1, .i32⟩
  | 66 => ⟨S800000x2, .i32⟩
  | 67 => ⟨S800000, .f32⟩
  | 68 => ⟨S800000, .f32⟩
  | 69 => ⟨S_, .f32⟩
  | 70 => ⟨S100000, .f32⟩
  | 71 => ⟨S800000x1, .i32⟩
  | 72 => ⟨S100000, .f32⟩
  | 73 => ⟨S100000x1, .f32⟩
  | 74 => ⟨S100000x1, .f32⟩
  | 75 => ⟨S100000x1, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S1x35x16, .f32⟩
  | 85 => ⟨S35x16, .f32⟩
  | 86 => ⟨S1x16, .f32⟩
  | 87 => ⟨S16, .f32⟩
  | 88 => ⟨S1x16x16, .f32⟩
  | 89 => ⟨S16x16, .f32⟩
  | 90 => ⟨S1x16, .f32⟩
  | 91 => ⟨S16, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x16, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x16, .f32⟩
  | 110 => ⟨S800000x35, .f32⟩
  | 111 => ⟨S800000x16, .f32⟩
  | 112 => ⟨S1x16, .f32⟩
  | 113 => ⟨S800000x16, .f32⟩
  | 114 => ⟨S800000x16, .f32⟩
  | 115 => ⟨S_, .f32⟩
  | 116 => ⟨S800000x16, .f32⟩
  | 117 => ⟨S800000x16, .f32⟩
  | 118 => ⟨S800000x16, .f32⟩
  | 119 => ⟨S1x16, .f32⟩
  | 120 => ⟨S800000x16, .f32⟩
  | 121 => ⟨S800000x16, .f32⟩
  | 122 => ⟨S800000x16, .f32⟩
  | 123 => ⟨S800000x16, .f32⟩
  | 124 => ⟨S_, .f32⟩
  | 125 => ⟨S100000x16, .f32⟩
  | 126 => ⟨S800000x1, .i32⟩
  | 127 => ⟨S100000x16, .f32⟩
  | _ => ⟨S2x800000, .i32⟩

abbrev hbmTy0_2 (i : Nat) : BufTy := match i % 128 with
  | 0 => ⟨S1x35x16, .f32⟩
  | 1 => ⟨S35x16, .f32⟩
  | 2 => ⟨S1x16, .f32⟩
  | 3 => ⟨S16, .f32⟩
  | 4 => ⟨S1x16x16, .f32⟩
  | 5 => ⟨S16x16, .f32⟩
  | 6 => ⟨S1x16, .f32⟩
  | 7 => ⟨S16, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x16, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x16, .f32⟩
  | 26 => ⟨S800000x35, .f32⟩
  | 27 => ⟨S800000x16, .f32⟩
  | 28 => ⟨S1x16, .f32⟩
  | 29 => ⟨S800000x16, .f32⟩
  | 30 => ⟨S800000x16, .f32⟩
  | 31 => ⟨S_, .f32⟩
  | 32 => ⟨S800000x16, .f32⟩
  | 33 => ⟨S800000x16, .f32⟩
  | 34 => ⟨S800000x16, .f32⟩
  | 35 => ⟨S1x16, .f32⟩
  | 36 => ⟨S800000x16, .f32⟩
  | 37 => ⟨S800000x16, .f32⟩
  | 38 => ⟨S800000x16, .f32⟩
  | 39 => ⟨S800000x16, .f32⟩
  | 40 => ⟨S_, .f32⟩
  | 41 => ⟨S100000x16, .f32⟩
  | 42 => ⟨S800000x1, .i32⟩
  | 43 => ⟨S100000x16, .f32⟩
  | 44 => ⟨S100000x49, .f32⟩
  | 45 => ⟨S1x49x16, .f32⟩
  | 46 => ⟨S49x16, .f32⟩
  | 47 => ⟨S1x16, .f32⟩
  | 48 => ⟨S16, .f32⟩
  | 49 => ⟨S1x16x16, .f32⟩
  | 50 => ⟨S16x16, .f32⟩
  | 51 => ⟨S1x16, .f32⟩
  | 52 => ⟨S16, .f32⟩
  | 53 => ⟨S100000x16, .f32⟩
  | 54 => ⟨S1x16, .f32⟩
  | 55 => ⟨S100000x16, .f32⟩
  | 56 => ⟨S100000x16, .f32⟩
  | 57 => ⟨S_, .f32⟩
  | 58 => ⟨S100000x16, .f32⟩
  | 59 => ⟨S100000x16, .f32⟩
  | 60 => ⟨S100000x16, .f32⟩
  | 61 => ⟨S1x16, .f32⟩
  | 62 => ⟨S100000x16, .f32⟩
  | 63 => ⟨S100000x16, .f32⟩
  | 64 => ⟨S_, .f32⟩
  | 65 => ⟨S100000x16, .f32⟩
  | 66 => ⟨S100000x16, .f32⟩
  | 67 => ⟨S100000x16, .f32⟩
  | 68 => ⟨S1x16x16, .f32⟩
  | 69 => ⟨S16x16, .f32⟩
  | 70 => ⟨S1x16, .f32⟩
  | 71 => ⟨S16, .f32⟩
  | 72 => ⟨S1x16x1, .f32⟩
  | 73 => ⟨S16x1, .f32⟩
  | 74 => ⟨S1x1, .f32⟩
  | 75 => ⟨S1, .f32⟩
  | 76 => ⟨S100000x16, .f32⟩
  | 77 => ⟨S1x16, .f32⟩
  | 78 => ⟨S100000x16, .f32⟩
  | 79 => ⟨S100000x16, .f32⟩
  | 80 => ⟨S_, .f32⟩
  | 81 => ⟨S100000x16, .f32⟩
  | 82 => ⟨S100000x16, .f32⟩
  | 83 => ⟨S100000x1, .f32⟩
  | 84 => ⟨S1x1, .f32⟩
  | 85 => ⟨S100000x1, .f32⟩
  | 86 => ⟨S100000x1, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S_, .i32⟩
  | 95 => ⟨S800000, .i32⟩
  | 96 => ⟨S800000, .i32⟩
  | 97 => ⟨S800000x1, .i32⟩
  | 98 => ⟨S800000x1, .i32⟩
  | 99 => ⟨S800000x2, .i32⟩
  | 100 => ⟨S800000, .f32⟩
  | 101 => ⟨S800000, .f32⟩
  | 102 => ⟨S_, .f32⟩
  | 103 => ⟨S100000, .f32⟩
  | 104 => ⟨S800000x1, .i32⟩
  | 105 => ⟨S100000, .f32⟩
  | 106 => ⟨S100000x1, .f32⟩
  | 107 => ⟨S100000x1, .f32⟩
  | 108 => ⟨S100000x1, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1x35x16, .f32⟩
  | 117 => ⟨S35x16, .f32⟩
  | 118 => ⟨S1x16, .f32⟩
  | 119 => ⟨S16, .f32⟩
  | 120 => ⟨S1x16x16, .f32⟩
  | 121 => ⟨S16x16, .f32⟩
  | 122 => ⟨S1x16, .f32⟩
  | 123 => ⟨S16, .f32⟩
  | 124 => ⟨S_, .i32⟩
  | 125 => ⟨S800000, .i32⟩
  | 126 => ⟨S800000, .i1⟩
  | 127 => ⟨S_, .i32⟩
  | _ => ⟨S2x800000, .i32⟩

abbrev hbmTy0_3 (i : Nat) : BufTy := match i % 128 with
  | 0 => ⟨S800000, .i32⟩
  | 1 => ⟨S800000, .i32⟩
  | 2 => ⟨S800000, .i32⟩
  | 3 => ⟨S800000x1, .i32⟩
  | 4 => ⟨S800000x16, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x16, .f32⟩
  | 14 => ⟨S800000x35, .f32⟩
  | 15 => ⟨S800000x16, .f32⟩
  | 16 => ⟨S1x16, .f32⟩
  | 17 => ⟨S800000x16, .f32⟩
  | 18 => ⟨S800000x16, .f32⟩
  | 19 => ⟨S_, .f32⟩
  | 20 => ⟨S800000x16, .f32⟩
  | 21 => ⟨S800000x16, .f32⟩
  | 22 => ⟨S800000x16, .f32⟩
  | 23 => ⟨S1x16, .f32⟩
  | 24 => ⟨S800000x16, .f32⟩
  | 25 => ⟨S800000x16, .f32⟩
  | 26 => ⟨S800000x16, .f32⟩
  | 27 => ⟨S800000x16, .f32⟩
  | 28 => ⟨S_, .f32⟩
  | 29 => ⟨S100000x16, .f32⟩
  | 30 => ⟨S800000x1, .i32⟩
  | 31 => ⟨S100000x16, .f32⟩
  | 32 => ⟨S1x35x16, .f32⟩
  | 33 => ⟨S35x16, .f32⟩
  | 34 => ⟨S1x16, .f32⟩
  | 35 => ⟨S16, .f32⟩
  | 36 => ⟨S1x16x16, .f32⟩
  | 37 => ⟨S16x16, .f32⟩
  | 38 => ⟨S1x16, .f32⟩
  | 39 => ⟨S16, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x16, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x16, .f32⟩
  | 58 => ⟨S800000x35, .f32⟩
  | 59 => ⟨S800000x16, .f32⟩
  | 60 => ⟨S1x16, .f32⟩
  | 61 => ⟨S800000x16, .f32⟩
  | 62 => ⟨S800000x16, .f32⟩
  | 63 => ⟨S_, .f32⟩
  | 64 => ⟨S800000x16, .f32⟩
  | 65 => ⟨S800000x16, .f32⟩
  | 66 => ⟨S800000x16, .f32⟩
  | 67 => ⟨S1x16, .f32⟩
  | 68 => ⟨S800000x16, .f32⟩
  | 69 => ⟨S800000x16, .f32⟩
  | 70 => ⟨S800000x16, .f32⟩
  | 71 => ⟨S800000x16, .f32⟩
  | 72 => ⟨S_, .f32⟩
  | 73 => ⟨S100000x16, .f32⟩
  | 74 => ⟨S800000x1, .i32⟩
  | 75 => ⟨S100000x16, .f32⟩
  | 76 => ⟨S100000x49, .f32⟩
  | 77 => ⟨S1x49x16, .f32⟩
  | 78 => ⟨S49x16, .f32⟩
  | 79 => ⟨S1x16, .f32⟩
  | 80 => ⟨S16, .f32⟩
  | 81 => ⟨S1x16x16, .f32⟩
  | 82 => ⟨S16x16, .f32⟩
  | 83 => ⟨S1x16, .f32⟩
  | 84 => ⟨S16, .f32⟩
  | 85 => ⟨S100000x16, .f32⟩
  | 86 => ⟨S1x16, .f32⟩
  | 87 => ⟨S100000x16, .f32⟩
  | 88 => ⟨S100000x16, .f32⟩
  | 89 => ⟨S_, .f32⟩
  | 90 => ⟨S100000x16, .f32⟩
  | 91 => ⟨S100000x16, .f32⟩
  | 92 => ⟨S100000x16, .f32⟩
  | 93 => ⟨S1x16, .f32⟩
  | 94 => ⟨S100000x16, .f32⟩
  | 95 => ⟨S100000x16, .f32⟩
  | 96 => ⟨S_, .f32⟩
  | 97 => ⟨S100000x16, .f32⟩
  | 98 => ⟨S100000x16, .f32⟩
  | 99 => ⟨S100000x16, .f32⟩
  | 100 => ⟨S1x16x16, .f32⟩
  | 101 => ⟨S16x16, .f32⟩
  | 102 => ⟨S1x16, .f32⟩
  | 103 => ⟨S16, .f32⟩
  | 104 => ⟨S1x16x1, .f32⟩
  | 105 => ⟨S16x1, .f32⟩
  | 106 => ⟨S1x1, .f32⟩
  | 107 => ⟨S1, .f32⟩
  | 108 => ⟨S100000x16, .f32⟩
  | 109 => ⟨S1x16, .f32⟩
  | 110 => ⟨S100000x16, .f32⟩
  | 111 => ⟨S100000x16, .f32⟩
  | 112 => ⟨S_, .f32⟩
  | 113 => ⟨S100000x16, .f32⟩
  | 114 => ⟨S100000x16, .f32⟩
  | 115 => ⟨S100000x1, .f32⟩
  | 116 => ⟨S1x1, .f32⟩
  | 117 => ⟨S100000x1, .f32⟩
  | 118 => ⟨S100000x1, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S_, .i32⟩
  | 127 => ⟨S800000, .i32⟩
  | _ => ⟨S2x800000, .i32⟩

abbrev hbmTy0_4 (i : Nat) : BufTy := match i % 128 with
  | 0 => ⟨S800000, .i32⟩
  | 1 => ⟨S800000x1, .i32⟩
  | 2 => ⟨S800000x1, .i32⟩
  | 3 => ⟨S800000x2, .i32⟩
  | 4 => ⟨S800000, .f32⟩
  | 5 => ⟨S800000, .f32⟩
  | 6 => ⟨S_, .f32⟩
  | 7 => ⟨S100000, .f32⟩
  | 8 => ⟨S800000x1, .i32⟩
  | 9 => ⟨S100000, .f32⟩
  | 10 => ⟨S100000x1, .f32⟩
  | 11 => ⟨S100000x1, .f32⟩
  | 12 => ⟨S100000x1, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | _ => ⟨S2x800000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_call0_cst : Ref sig .tc := ⟨.hbm, 44, rfl⟩
abbrev main_call0_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c : Ref sig .tc := ⟨.hbm, 59, rfl⟩
abbrev main_v34 : Ref sig .tc := ⟨.hbm, 60, rfl⟩
abbrev main_v35 : Ref sig .tc := ⟨.hbm, 61, rfl⟩
abbrev main_c_0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_1 : Ref sig .tc := ⟨.hbm, 68, rfl⟩
abbrev main_v41 : Ref sig .tc := ⟨.hbm, 69, rfl⟩
abbrev main_v42 : Ref sig .tc := ⟨.hbm, 70, rfl⟩
abbrev main_c_2 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call1_cst : Ref sig .tc := ⟨.hbm, 82, rfl⟩
abbrev main_call1_v0 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_3 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_4 : Ref sig .tc := ⟨.hbm, 103, rfl⟩
abbrev main_v71 : Ref sig .tc := ⟨.hbm, 104, rfl⟩
abbrev main_v72 : Ref sig .tc := ⟨.hbm, 105, rfl⟩
abbrev main_c_5 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_6 : Ref sig .tc := ⟨.hbm, 112, rfl⟩
abbrev main_v78 : Ref sig .tc := ⟨.hbm, 113, rfl⟩
abbrev main_v79 : Ref sig .tc := ⟨.hbm, 114, rfl⟩
abbrev main_c_7 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call2_cst : Ref sig .tc := ⟨.hbm, 126, rfl⟩
abbrev main_call2_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_8 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_call3_cst : Ref sig .tc := ⟨.hbm, 152, rfl⟩
abbrev main_call3_v0 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_9 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_call4_cst : Ref sig .tc := ⟨.hbm, 175, rfl⟩
abbrev main_call4_v0 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_10 : Ref sig .tc := ⟨.hbm, 182, rfl⟩
abbrev main_v138 : Ref sig .tc := ⟨.hbm, 183, rfl⟩
abbrev main_v139 : Ref sig .tc := ⟨.hbm, 184, rfl⟩
abbrev main_c_11 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_c_12 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_13 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_14 : Ref sig .tc := ⟨.hbm, 204, rfl⟩
abbrev main_v156 : Ref sig .tc := ⟨.hbm, 205, rfl⟩
abbrev main_cst_15 : Ref sig .tc := ⟨.hbm, 206, rfl⟩
abbrev main_v157 : Ref sig .tc := ⟨.hbm, 207, rfl⟩
abbrev main_cst_16 : Ref sig .tc := ⟨.hbm, 208, rfl⟩
abbrev main_v158 : Ref sig .tc := ⟨.hbm, 209, rfl⟩
abbrev main_cst_17 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_c_18 : Ref sig .tc := ⟨.hbm, 220, rfl⟩
abbrev main_v168 : Ref sig .tc := ⟨.hbm, 221, rfl⟩
abbrev main_v169 : Ref sig .tc := ⟨.hbm, 222, rfl⟩
abbrev main_c_19 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_c_20 : Ref sig .tc := ⟨.hbm, 229, rfl⟩
abbrev main_v175 : Ref sig .tc := ⟨.hbm, 230, rfl⟩
abbrev main_v176 : Ref sig .tc := ⟨.hbm, 231, rfl⟩
abbrev main_c_21 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_call5_cst : Ref sig .tc := ⟨.hbm, 243, rfl⟩
abbrev main_call5_v0 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_cst_22 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_c_23 : Ref sig .tc := ⟨.hbm, 264, rfl⟩
abbrev main_v205 : Ref sig .tc := ⟨.hbm, 265, rfl⟩
abbrev main_v206 : Ref sig .tc := ⟨.hbm, 266, rfl⟩
abbrev main_c_24 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_c_25 : Ref sig .tc := ⟨.hbm, 273, rfl⟩
abbrev main_v212 : Ref sig .tc := ⟨.hbm, 274, rfl⟩
abbrev main_v213 : Ref sig .tc := ⟨.hbm, 275, rfl⟩
abbrev main_c_26 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_call6_cst : Ref sig .tc := ⟨.hbm, 287, rfl⟩
abbrev main_call6_v0 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_cst_27 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_call7_cst : Ref sig .tc := ⟨.hbm, 313, rfl⟩
abbrev main_call7_v0 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_cst_28 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_call8_cst : Ref sig .tc := ⟨.hbm, 336, rfl⟩
abbrev main_call8_v0 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_c_29 : Ref sig .tc := ⟨.hbm, 343, rfl⟩
abbrev main_v272 : Ref sig .tc := ⟨.hbm, 344, rfl⟩
abbrev main_v273 : Ref sig .tc := ⟨.hbm, 345, rfl⟩
abbrev main_c_30 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_c_31 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_cst_32 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_cst_33 : Ref sig .tc := ⟨.hbm, 365, rfl⟩
abbrev main_v290 : Ref sig .tc := ⟨.hbm, 366, rfl⟩
abbrev main_cst_34 : Ref sig .tc := ⟨.hbm, 367, rfl⟩
abbrev main_v291 : Ref sig .tc := ⟨.hbm, 368, rfl⟩
abbrev main_cst_35 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_c_36 : Ref sig .tc := ⟨.hbm, 380, rfl⟩
abbrev main_v302 : Ref sig .tc := ⟨.hbm, 381, rfl⟩
abbrev main_v303 : Ref sig .tc := ⟨.hbm, 382, rfl⟩
abbrev main_c_37 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_v307 : Ref sig .tc := ⟨.hbm, 387, rfl⟩
abbrev main_v308 : Ref sig .tc := ⟨.hbm, 388, rfl⟩
abbrev main_c_38 : Ref sig .tc := ⟨.hbm, 389, rfl⟩
abbrev main_v309 : Ref sig .tc := ⟨.hbm, 390, rfl⟩
abbrev main_v310 : Ref sig .tc := ⟨.hbm, 391, rfl⟩
abbrev main_c_39 : Ref sig .tc := ⟨.hbm, 392, rfl⟩
abbrev main_v311 : Ref sig .tc := ⟨.hbm, 393, rfl⟩
abbrev main_v312 : Ref sig .tc := ⟨.hbm, 394, rfl⟩
abbrev main_v313 : Ref sig .tc := ⟨.hbm, 395, rfl⟩
abbrev main_v314 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_call9_cst : Ref sig .tc := ⟨.hbm, 403, rfl⟩
abbrev main_call9_v0 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_cst_40 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_v331 : Ref sig .tc := ⟨.hbm, 416, rfl⟩
abbrev main_v332 : Ref sig .tc := ⟨.hbm, 417, rfl⟩
abbrev main_v333 : Ref sig .tc := ⟨.hbm, 418, rfl⟩
abbrev main_v334 : Ref sig .tc := ⟨.hbm, 419, rfl⟩
abbrev main_v335 : Ref sig .tc := ⟨.hbm, 420, rfl⟩
abbrev main_v336 : Ref sig .tc := ⟨.hbm, 421, rfl⟩
abbrev main_v337 : Ref sig .tc := ⟨.hbm, 422, rfl⟩
abbrev main_v338 : Ref sig .tc := ⟨.hbm, 423, rfl⟩
abbrev main_c_41 : Ref sig .tc := ⟨.hbm, 424, rfl⟩
abbrev main_v339 : Ref sig .tc := ⟨.hbm, 425, rfl⟩
abbrev main_v340 : Ref sig .tc := ⟨.hbm, 426, rfl⟩
abbrev main_c_42 : Ref sig .tc := ⟨.hbm, 427, rfl⟩
abbrev main_v341 : Ref sig .tc := ⟨.hbm, 428, rfl⟩
abbrev main_v342 : Ref sig .tc := ⟨.hbm, 429, rfl⟩
abbrev main_v343 : Ref sig .tc := ⟨.hbm, 430, rfl⟩
abbrev main_v344 : Ref sig .tc := ⟨.hbm, 431, rfl⟩
abbrev main_v345 : Ref sig .tc := ⟨.hbm, 432, rfl⟩
abbrev main_c_43 : Ref sig .tc := ⟨.hbm, 433, rfl⟩
abbrev main_v346 : Ref sig .tc := ⟨.hbm, 434, rfl⟩
abbrev main_v347 : Ref sig .tc := ⟨.hbm, 435, rfl⟩
abbrev main_c_44 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_call10_cst : Ref sig .tc := ⟨.hbm, 447, rfl⟩
abbrev main_call10_v0 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_v364 : Ref sig .tc := ⟨.hbm, 455, rfl⟩
abbrev main_cst_45 : Ref sig .tc := ⟨.hbm, 456, rfl⟩
abbrev main_v365 : Ref sig .tc := ⟨.hbm, 457, rfl⟩
abbrev main_v366 : Ref sig .tc := ⟨.hbm, 458, rfl⟩
abbrev main_v367 : Ref sig .tc := ⟨.hbm, 459, rfl⟩
abbrev main_v368 : Ref sig .tc := ⟨.hbm, 460, rfl⟩
abbrev main_v369 : Ref sig .tc := ⟨.hbm, 461, rfl⟩
abbrev main_v370 : Ref sig .tc := ⟨.hbm, 462, rfl⟩
abbrev main_v371 : Ref sig .tc := ⟨.hbm, 463, rfl⟩
abbrev main_v372 : Ref sig .tc := ⟨.hbm, 464, rfl⟩
abbrev main_v373 : Ref sig .tc := ⟨.hbm, 465, rfl⟩
abbrev main_v374 : Ref sig .tc := ⟨.hbm, 466, rfl⟩
abbrev main_v375 : Ref sig .tc := ⟨.hbm, 467, rfl⟩
abbrev main_v376 : Ref sig .tc := ⟨.hbm, 468, rfl⟩
abbrev main_v377 : Ref sig .tc := ⟨.hbm, 469, rfl⟩
abbrev main_v378 : Ref sig .tc := ⟨.hbm, 470, rfl⟩
abbrev main_v379 : Ref sig .tc := ⟨.hbm, 471, rfl⟩
abbrev main_v380 : Ref sig .tc := ⟨.hbm, 472, rfl⟩
abbrev main_call11_cst : Ref sig .tc := ⟨.hbm, 473, rfl⟩
abbrev main_call11_v0 : Ref sig .tc := ⟨.hbm, 474, rfl⟩
abbrev main_v381 : Ref sig .tc := ⟨.hbm, 475, rfl⟩
abbrev main_v382 : Ref sig .tc := ⟨.hbm, 476, rfl⟩
abbrev main_v383 : Ref sig .tc := ⟨.hbm, 477, rfl⟩
abbrev main_v384 : Ref sig .tc := ⟨.hbm, 478, rfl⟩
abbrev main_v385 : Ref sig .tc := ⟨.hbm, 479, rfl⟩
abbrev main_cst_46 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_v393 : Ref sig .tc := ⟨.hbm, 488, rfl⟩
abbrev main_v394 : Ref sig .tc := ⟨.hbm, 489, rfl⟩
abbrev main_v395 : Ref sig .tc := ⟨.hbm, 490, rfl⟩
abbrev main_v396 : Ref sig .tc := ⟨.hbm, 491, rfl⟩
abbrev main_v397 : Ref sig .tc := ⟨.hbm, 492, rfl⟩
abbrev main_v398 : Ref sig .tc := ⟨.hbm, 493, rfl⟩
abbrev main_v399 : Ref sig .tc := ⟨.hbm, 494, rfl⟩
abbrev main_v400 : Ref sig .tc := ⟨.hbm, 495, rfl⟩
abbrev main_call12_cst : Ref sig .tc := ⟨.hbm, 496, rfl⟩
abbrev main_call12_v0 : Ref sig .tc := ⟨.hbm, 497, rfl⟩
abbrev main_v401 : Ref sig .tc := ⟨.hbm, 498, rfl⟩
abbrev main_v402 : Ref sig .tc := ⟨.hbm, 499, rfl⟩
abbrev main_v403 : Ref sig .tc := ⟨.hbm, 500, rfl⟩
abbrev main_v404 : Ref sig .tc := ⟨.hbm, 501, rfl⟩
abbrev main_v405 : Ref sig .tc := ⟨.hbm, 502, rfl⟩
abbrev main_c_47 : Ref sig .tc := ⟨.hbm, 503, rfl⟩
abbrev main_v406 : Ref sig .tc := ⟨.hbm, 504, rfl⟩
abbrev main_v407 : Ref sig .tc := ⟨.hbm, 505, rfl⟩
abbrev main_c_48 : Ref sig .tc := ⟨.hbm, 506, rfl⟩
abbrev main_v408 : Ref sig .tc := ⟨.hbm, 507, rfl⟩
abbrev main_v409 : Ref sig .tc := ⟨.hbm, 508, rfl⟩
abbrev main_v410 : Ref sig .tc := ⟨.hbm, 509, rfl⟩
abbrev main_c_49 : Ref sig .tc := ⟨.hbm, 510, rfl⟩
abbrev main_v411 : Ref sig .tc := ⟨.hbm, 511, rfl⟩
abbrev main_v412 : Ref sig .tc := ⟨.hbm, 512, rfl⟩
abbrev main_v413 : Ref sig .tc := ⟨.hbm, 513, rfl⟩
abbrev main_v414 : Ref sig .tc := ⟨.hbm, 514, rfl⟩
abbrev main_v415 : Ref sig .tc := ⟨.hbm, 515, rfl⟩
abbrev main_v416 : Ref sig .tc := ⟨.hbm, 516, rfl⟩
abbrev main_v417 : Ref sig .tc := ⟨.hbm, 517, rfl⟩
abbrev main_cst_50 : Ref sig .tc := ⟨.hbm, 518, rfl⟩
abbrev main_v418 : Ref sig .tc := ⟨.hbm, 519, rfl⟩
abbrev main_v419 : Ref sig .tc := ⟨.hbm, 520, rfl⟩
abbrev main_v420 : Ref sig .tc := ⟨.hbm, 521, rfl⟩
abbrev main_v421 : Ref sig .tc := ⟨.hbm, 522, rfl⟩
abbrev main_v422 : Ref sig .tc := ⟨.hbm, 523, rfl⟩
abbrev main_v423 : Ref sig .tc := ⟨.hbm, 524, rfl⟩
abbrev main_cst_51 : Ref sig .tc := ⟨.hbm, 525, rfl⟩
abbrev main_v424 : Ref sig .tc := ⟨.hbm, 526, rfl⟩
abbrev main_cst_52 : Ref sig .tc := ⟨.hbm, 527, rfl⟩
abbrev main_v425 : Ref sig .tc := ⟨.hbm, 528, rfl⟩
abbrev main_cst_53 : Ref sig .tc := ⟨.hbm, 529, rfl⟩
abbrev main_v426 : Ref sig .tc := ⟨.hbm, 530, rfl⟩
abbrev main_v427 : Ref sig .tc := ⟨.hbm, 531, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  shapeCasts_S800000x1_S800000 : S800000x1.ShapeCasts S800000
  bcast_S_S100000x16 : S_.BroadcastsInDim S100000x16 (![] : Fin 0 → Fin S100000x16.rank)
  slices_S3x16x16_S1x16x16_0_0_0 : S3x16x16.Slices ![0, 0, 0] S1x16x16
  shapeCasts_S1x16x16_S16x16 : S1x16x16.ShapeCasts S16x16
  slices_S3x16_S1x16_0_0 : S3x16.Slices ![0, 0] S1x16
  shapeCasts_S1x16_S16 : S1x16.ShapeCasts S16
  slices_S3x16x1_S1x16x1_0_0_0 : S3x16x1.Slices ![0, 0, 0] S1x16x1
  shapeCasts_S1x16x1_S16x1 : S1x16x1.ShapeCasts S16x1
  slices_S3x1_S1x1_0_0 : S3x1.Slices ![0, 0] S1x1
  shapeCasts_S1x1_S1 : S1x1.ShapeCasts S1
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  slices_S3x35x16_S1x35x16_0_0_0 : S3x35x16.Slices ![0, 0, 0] S1x35x16
  shapeCasts_S1x35x16_S35x16 : S1x35x16.ShapeCasts S35x16
  bcast_S_S800000 : S_.BroadcastsInDim S800000 (![] : Fin 0 → Fin S800000.rank)
  concatenates_S800000x16_S800000x16_S800000x3_S800000x35_d1 : Shape.Concatenates [S800000x16, S800000x16, S800000x3] S800000x35 1
  bcast_S1x16_S800000x16_0_1 : S1x16.BroadcastsInDim S800000x16 (![0, 1] : Fin 2 → Fin S800000x16.rank)
  bcast_S_S800000x16 : S_.BroadcastsInDim S800000x16 (![] : Fin 0 → Fin S800000x16.rank)
  bcast_S800000x1_S800000x16_0_1 : S800000x1.BroadcastsInDim S800000x16 (![0, 1] : Fin 2 → Fin S800000x16.rank)
  concatenates_S100000x16_S100000x16_S100000x16_S100000x1_S100000x49_d1 : Shape.Concatenates [S100000x16, S100000x16, S100000x16, S100000x1] S100000x49 1
  slices_S3x49x16_S1x49x16_0_0_0 : S3x49x16.Slices ![0, 0, 0] S1x49x16
  shapeCasts_S1x49x16_S49x16 : S1x49x16.ShapeCasts S49x16
  concatenates_S800000x1_S800000x1_S800000x2_d1 : Shape.Concatenates [S800000x1, S800000x1] S800000x2 1
  bcast_S_S100000 : S_.BroadcastsInDim S100000 (![] : Fin 0 → Fin S100000.rank)
  bcast_S100000_S100000x1_0 : S100000.BroadcastsInDim S100000x1 (![0] : Fin 1 → Fin S100000x1.rank)
  reducesTo_S100000x1_S_d0_1 : S100000x1.ReducesTo [0, 1] S_
  h_S_ : 0 < S_.numel
  slices_S3x35x16_S1x35x16_1_0_0 : S3x35x16.Slices ![1, 0, 0] S1x35x16
  slices_S3x16_S1x16_1_0 : S3x16.Slices ![1, 0] S1x16
  slices_S3x16x16_S1x16x16_1_0_0 : S3x16x16.Slices ![1, 0, 0] S1x16x16
  slices_S3x49x16_S1x49x16_1_0_0 : S3x49x16.Slices ![1, 0, 0] S1x49x16
  slices_S3x16x1_S1x16x1_1_0_0 : S3x16x1.Slices ![1, 0, 0] S1x16x1
  slices_S3x1_S1x1_1_0 : S3x1.Slices ![1, 0] S1x1
  slices_S3x35x16_S1x35x16_2_0_0 : S3x35x16.Slices ![2, 0, 0] S1x35x16
  slices_S3x16_S1x16_2_0 : S3x16.Slices ![2, 0] S1x16
  slices_S3x16x16_S1x16x16_2_0_0 : S3x16x16.Slices ![2, 0, 0] S1x16x16
  slices_S3x49x16_S1x49x16_2_0_0 : S3x49x16.Slices ![2, 0, 0] S1x49x16
  slices_S3x16x1_S1x16x1_2_0_0 : S3x16x1.Slices ![2, 0, 0] S1x16x1
  slices_S3x1_S1x1_2_0 : S3x1.Slices ![2, 0] S1x1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []
  gather_S100000x16_S800000x1_S800000x16_1_0_n_n_0_1_116_wf : GatherDims.WF S100000x16 S800000x1 S800000x16 [1] [0] [] [0] [] 1 ![1, 16]
  dot_S800000x35_S35x16_S800000x16_1_0_0_1_n_n_wf : DotDims.WF S800000x35 S35x16 S800000x16 [1] [0] [0] [1] [] []
  dot_S800000x16_S16x16_S800000x16_1_0_0_1_n_n_wf : DotDims.WF S800000x16 S16x16 S800000x16 [1] [0] [0] [1] [] []
  scatter_S100000x16_S800000x1_S800000x16_1_0_0_1_wf : ScatterDims.WF S100000x16 S800000x1 S800000x16 [1] [0] [0] 1
  dot_S100000x49_S49x16_S100000x16_1_0_0_1_n_n_wf : DotDims.WF S100000x49 S49x16 S100000x16 [1] [0] [0] [1] [] []
  gather_S100000x1_S800000x2_S800000_n_01_n_n_01_1_11_wf : GatherDims.WF S100000x1 S800000x2 S800000 [] [0, 1] [] [0, 1] [] 1 ![1, 1]
  scatter_S100000_S800000x1_S800000_n_0_0_1_wf : ScatterDims.WF S100000 S800000x1 S800000 [] [0] [0] 1

variable [Facts₀]

def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x16_S800000x1_S800000x16_1_0_n_n_0_1_116 : GatherDims S100000x16 S800000x1 S800000x16 where
  offsetDims := [1]
  collapsedSliceDims := [0]
  operandBatchingDims := []
  startIndicesBatchingDims := []
  startIndexMap := [0]
  indexVectorDim := 1
  sliceSizes := ![1, 16]
  wf := gather_S100000x16_S800000x1_S800000x16_1_0_n_n_0_1_116_wf
def dot_S800000x35_S35x16_S800000x16_1_0_0_1_n_n : DotDims S800000x35 S35x16 S800000x16 where
  lhsContracting := [1]
  rhsContracting := [0]
  lhsNonContracting := [0]
  rhsNonContracting := [1]
  lhsBatch := []
  rhsBatch := []
  wf := dot_S800000x35_S35x16_S800000x16_1_0_0_1_n_n_wf
def dot_S800000x16_S16x16_S800000x16_1_0_0_1_n_n : DotDims S800000x16 S16x16 S800000x16 where
  lhsContracting := [1]
  rhsContracting := [0]
  lhsNonContracting := [0]
  rhsNonContracting := [1]
  lhsBatch := []
  rhsBatch := []
  wf := dot_S800000x16_S16x16_S800000x16_1_0_0_1_n_n_wf
def scatter_S100000x16_S800000x1_S800000x16_1_0_0_1 : ScatterDims S100000x16 S800000x1 S800000x16 where
  updateWindowDims := [1]
  insertedWindowDims := [0]
  scatterDimsToOperandDims := [0]
  indexVectorDim := 1
  wf := scatter_S100000x16_S800000x1_S800000x16_1_0_0_1_wf
def dot_S100000x49_S49x16_S100000x16_1_0_0_1_n_n : DotDims S100000x49 S49x16 S100000x16 where
  lhsContracting := [1]
  rhsContracting := [0]
  lhsNonContracting := [0]
  rhsNonContracting := [1]
  lhsBatch := []
  rhsBatch := []
  wf := dot_S100000x49_S49x16_S100000x16_1_0_0_1_n_n_wf
def gather_S100000x1_S800000x2_S800000_n_01_n_n_01_1_11 : GatherDims S100000x1 S800000x2 S800000 where
  offsetDims := []
  collapsedSliceDims := [0, 1]
  operandBatchingDims := []
  startIndicesBatchingDims := []
  startIndexMap := [0, 1]
  indexVectorDim := 1
  sliceSizes := ![1, 1]
  wf := gather_S100000x1_S800000x2_S800000_n_01_n_n_01_1_11_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

class Facts : Prop extends Facts₀ where

variable [Facts]
-- ==== Proof.KI.Writes.lean ====
import proofs.«404712_j21509196219215_4_alg».proof.Proof.Gen.KernelIdeal.Launch

noncomputable section

namespace Cert.KernelIdeal.Hand

open Idealize.ShloMosaic
open Cert.KernelIdeal Cert.KernelIdeal.Gen

noncomputable def wr0 : List (Ref sig .tc) :=
  [ main_v0, main_v1, main_v2, main_v3, main_v4, main_v5, main_v6, main_cst,
    main_v7, main_cst_0, main_v8, main_v9, main_c, main_v10, main_v11, main_c_1,
    main_v12, main_v13, main_v14, main_v15, main_v16, main_c_2, main_v17, main_v18,
    main_c_3, main_v19, main_v20, main_v21, main_v22, main_v23, main_v24, main_v25,
    main_v26, main_v27, main_v28, main_v29, main_v30, main_v31, main_v32, main_v33,
    main_v34, main_v35, main_v36, main_v37, main_v38, main_v39, main_v40, main_v41,
    main_v42, main_v43, main_v44, main_v45, main_v46, main_v47, main_v48, main_v49,
    main_v50, main_v51, main_v52, main_v53, main_v54, main_v55, main_v56 ]

noncomputable def wr1 : List (Ref sig .tc) :=
  [ main_v58, main_v59, main_v60, main_v61, main_v62, main_v63, main_v64, main_cst_4,
    main_v65, main_v66, main_v67, main_cst_5, main_v68, main_v69, main_v70, main_v71,
    main_v72, main_v73, main_v74, main_v75, main_v76, main_v77, main_v78, main_v79,
    main_v80, main_v81, main_v82, main_v83, main_v84, main_v85, main_v86, main_v87 ]

noncomputable def wr2 : List (Ref sig .tc) :=
  [ main_v89, main_v90, main_c_6, main_v91, main_v92, main_c_7, main_v93, main_v94,
    main_v95, main_c_8, main_v96, main_v97, main_v98, main_v99, main_v100, main_v101,
    main_v102, main_cst_9, main_v103, main_v104, main_v105, main_v106, main_v107, main_v108,
    main_cst_10, main_v109, main_cst_11, main_v110, main_cst_12, main_v111, main_cst_13, main_v112,
    main_c_14, main_v113, main_v114, main_c_15, main_v115, main_v116, main_v117, main_v118,
    main_v119, main_c_16, main_v120, main_v121, main_c_17, main_v122, main_v123, main_v124,
    main_v125, main_v126, main_v127, main_v128, main_v129, main_v130, main_v131, main_v132,
    main_v133, main_v134, main_v135, main_v136, main_v137, main_v138, main_v139, main_v140,
    main_v141, main_v142, main_v143, main_v144, main_v145, main_v146, main_v147, main_v148,
    main_v149, main_v150, main_v151, main_v152, main_v153, main_v154, main_v155, main_v156,
    main_v157, main_v158, main_v159 ]

noncomputable def wr3 : List (Ref sig .tc) :=
  [ main_v161, main_v162, main_v163, main_v164, main_v165, main_v166, main_v167, main_cst_18,
    main_v168, main_v169, main_v170, main_cst_19, main_v171, main_v172, main_v173, main_v174,
    main_v175, main_v176, main_v177, main_v178, main_v179, main_v180, main_v181, main_v182,
    main_v183, main_v184, main_v185, main_v186, main_v187, main_v188, main_v189, main_v190 ]

noncomputable def wr4 : List (Ref sig .tc) :=
  [ main_v192, main_v193, main_c_20, main_v194, main_v195, main_c_21, main_v196, main_v197,
    main_v198, main_c_22, main_v199, main_v200, main_v201, main_v202, main_v203, main_v204,
    main_v205, main_cst_23, main_v206, main_v207, main_v208, main_v209, main_v210, main_v211,
    main_cst_24, main_v212, main_cst_25, main_v213, main_cst_26, main_v214, main_v215, main_c_27,
    main_v216, main_v217, main_c_28, main_v218, main_v219, main_v220, main_v221, main_v222,
    main_c_29, main_v223, main_v224, main_c_30, main_v225, main_v226, main_v227, main_v228,
    main_v229, main_v230, main_v231, main_v232, main_v233, main_v234, main_v235, main_v236,
    main_v237, main_v238, main_v239, main_v240, main_v241, main_v242, main_v243, main_v244,
    main_v245, main_v246, main_v247, main_v248, main_v249, main_v250, main_v251, main_v252,
    main_v253, main_v254, main_v255, main_v256, main_v257, main_v258, main_v259, main_v260,
    main_v261, main_v262 ]

noncomputable def wr5 : List (Ref sig .tc) :=
  [ main_v264, main_v265, main_v266, main_v267, main_v268, main_v269, main_v270, main_cst_31,
    main_v271, main_v272, main_v273, main_cst_32, main_v274, main_v275, main_v276, main_v277,
    main_v278, main_v279, main_v280, main_v281, main_v282, main_v283, main_v284, main_v285,
    main_v286, main_v287, main_v288, main_v289, main_v290, main_v291, main_v292, main_v293 ]

noncomputable def wr6 : List (Ref sig .tc) :=
  [ main_v295, main_v296, main_c_33, main_v297, main_v298, main_c_34, main_v299, main_v300,
    main_v301, main_c_35, main_v302, main_v303, main_v304, main_v305, main_v306, main_v307,
    main_v308, main_cst_36, main_v309, main_v310, main_v311, main_v312, main_v313, main_v314,
    main_cst_37, main_v315, main_cst_38, main_v316, main_cst_39, main_v317, main_v318 ]

end Cert.KernelIdeal.Hand

end
-- ==== Proof.KI.ArgsHost.lean ====
import proofs.«404712_j21509196219215_4_alg».proof.Proof.KI.Writes
import Idealize.ShloMosaic.Lib.StableHlo.Run

set_option maxRecDepth 16384

noncomputable section

namespace Cert.KernelIdeal.Hand

open Idealize.ShloMosaic Idealize.ShloMosaic.TcCoe
open Cert.KernelIdeal Cert.KernelIdeal.Gen

variable {F : FTy → Type} [FloatOps F]

abbrev WritesOnly (op : HloOp τ sig (Elt F)) (y : Ref sig .tc) : Prop :=
  op.writes = {Proc.devRef (τ := τ) .tc y}

theorem writes_sub_of_forall₂ {W ys : List (Ref sig .tc)} {ops : List (HloOp τ sig (Elt F))}
    (h : List.Forall₂ WritesOnly ops ys) (hs : ∀ y ∈ ys, y ∈ W) :
    ∀ op ∈ ops, op.writes ⊆ (W.map (Proc.devRef (τ := τ) .tc)).toFinset := by
  induction h with
  | nil => intro op hop; cases hop
  | @cons op₀ y₀ ops' ys' hxy _ ih =>
    intro op hop
    rcases List.mem_cons.mp hop with rfl | hop
    · have hxy' : op.writes = {Proc.devRef (τ := τ) .tc y₀} := hxy
      rw [hxy', Finset.singleton_subset_iff, List.mem_toFinset]
      exact List.mem_map_of_mem (hs _ List.mem_cons_self)
    · exact ih (fun y hy => hs y (List.mem_cons_of_mem _ hy)) op hop

noncomputable def args : List (Ref sig .tc) :=
  [ main_arg0, main_arg1, main_arg2, main_arg3, main_arg4, main_arg5, main_arg6, main_arg7,
    main_arg8, main_arg9, main_arg10, main_arg11, main_arg12, main_arg13, main_arg14, main_arg15,
    main_arg16, main_arg17, main_arg18, main_arg19, main_arg20, main_arg21 ]

theorem hostOps0_wr : List.Forall₂ WritesOnly (hostOps0 : List (HloOp τ sig (Elt F))) wr0 := by
  unfold wr0
  repeat first | exact .nil | refine .cons rfl ?_

theorem hostOps0_writes : (hostOps0 : List (HloOp τ sig (Elt F))).Forall fun op =>
    op.writes ⊆ (wr0.map (Proc.devRef (τ := τ) .tc)).toFinset :=
  List.forall_iff_forall_mem.mpr (writes_sub_of_forall₂ hostOps0_wr fun _ h => h)

theorem hostOps0_keeps (W : Valuation τ sig (Elt F)) {r : Ref sig .tc} (hr : r ∉ wr0) :
    StableHlo.after hostOps0 W (Proc.devRef .tc r) = W (Proc.devRef .tc r) :=
  StableHlo.after_of_writes_sub _ _ hostOps0_writes hr

theorem args_not_wr0 : ∀ r ∈ args, r ∉ wr0 := by decide

theorem hostOps1_wr : List.Forall₂ WritesOnly (hostOps1 : List (HloOp τ sig (Elt F))) wr1 := by
  unfold wr1
  repeat first | exact .nil | refine .cons rfl ?_

theorem hostOps1_writes : (hostOps1 : List (HloOp τ sig (Elt F))).Forall fun op =>
    op.writes ⊆ (wr1.map (Proc.devRef (τ := τ) .tc)).toFinset :=
  List.forall_iff_forall_mem.mpr (writes_sub_of_forall₂ hostOps1_wr fun _ h => h)

theorem hostOps1_keeps (W : Valuation τ sig (Elt F)) {r : Ref sig .tc} (hr : r ∉ wr1) :
    StableHlo.after hostOps1 W (Proc.devRef .tc r) = W (Proc.devRef .tc r) :=
  StableHlo.after_of_writes_sub _ _ hostOps1_writes hr

theorem args_not_wr1 : ∀ r ∈ args, r ∉ wr1 := by decide

theorem hostOps2_wr : List.Forall₂ WritesOnly (hostOps2 : List (HloOp τ sig (Elt F))) wr2 := by
  unfold wr2
  repeat first | exact .nil | refine .cons rfl ?_

theorem hostOps2_writes : (hostOps2 : List (HloOp τ sig (Elt F))).Forall fun op =>
    op.writes ⊆ (wr2.map (Proc.devRef (τ := τ) .tc)).toFinset :=
  List.forall_iff_forall_mem.mpr (writes_sub_of_forall₂ hostOps2_wr fun _ h => h)

theorem hostOps2_keeps (W : Valuation τ sig (Elt F)) {r : Ref sig .tc} (hr : r ∉ wr2) :
    StableHlo.after hostOps2 W (Proc.devRef .tc r) = W (Proc.devRef .tc r) :=
  StableHlo.after_of_writes_sub _ _ hostOps2_writes hr

theorem args_not_wr2 : ∀ r ∈ args, r ∉ wr2 := by decide

theorem hostOps3_wr : List.Forall₂ WritesOnly (hostOps3 : List (HloOp τ sig (Elt F))) wr3 := by
  unfold wr3
  repeat first | exact .nil | refine .cons rfl ?_

theorem hostOps3_writes : (hostOps3 : List (HloOp τ sig (Elt F))).Forall fun op =>
    op.writes ⊆ (wr3.map (Proc.devRef (τ := τ) .tc)).toFinset :=
  List.forall_iff_forall_mem.mpr (writes_sub_of_forall₂ hostOps3_wr fun _ h => h)

theorem hostOps3_keeps (W : Valuation τ sig (Elt F)) {r : Ref sig .tc} (hr : r ∉ wr3) :
    StableHlo.after hostOps3 W (Proc.devRef .tc r) = W (Proc.devRef .tc r) :=
  StableHlo.after_of_writes_sub _ _ hostOps3_writes hr

theorem args_not_wr3 : ∀ r ∈ args, r ∉ wr3 := by decide

theorem hostOps4_wr : List.Forall₂ WritesOnly (hostOps4 : List (HloOp τ sig (Elt F))) wr4 := by
  unfold wr4
  repeat first | exact .nil | refine .cons rfl ?_

theorem hostOps4_writes : (hostOps4 : List (HloOp τ sig (Elt F))).Forall fun op =>
    op.writes ⊆ (wr4.map (Proc.devRef (τ := τ) .tc)).toFinset :=
  List.forall_iff_forall_mem.mpr (writes_sub_of_forall₂ hostOps4_wr fun _ h => h)

theorem hostOps4_keeps (W : Valuation τ sig (Elt F)) {r : Ref sig .tc} (hr : r ∉ wr4) :
    StableHlo.after hostOps4 W (Proc.devRef .tc r) = W (Proc.devRef .tc r) :=
  StableHlo.after_of_writes_sub _ _ hostOps4_writes hr

theorem args_not_wr4 : ∀ r ∈ args, r ∉ wr4 := by decide

theorem hostOps5_wr : List.Forall₂ WritesOnly (hostOps5 : List (HloOp τ sig (Elt F))) wr5 := by
  unfold wr5
  repeat first | exact .nil | refine .cons rfl ?_

theorem hostOps5_writes : (hostOps5 : List (HloOp τ sig (Elt F))).Forall fun op =>
    op.writes ⊆ (wr5.map (Proc.devRef (τ := τ) .tc)).toFinset :=
  List.forall_iff_forall_mem.mpr (writes_sub_of_forall₂ hostOps5_wr fun _ h => h)

theorem hostOps5_keeps (W : Valuation τ sig (Elt F)) {r : Ref sig .tc} (hr : r ∉ wr5) :
    StableHlo.after hostOps5 W (Proc.devRef .tc r) = W (Proc.devRef .tc r) :=
  StableHlo.after_of_writes_sub _ _ hostOps5_writes hr

theorem args_not_wr5 : ∀ r ∈ args, r ∉ wr5 := by decide

theorem hostOps6_wr : List.Forall₂ WritesOnly (hostOps6 : List (HloOp τ sig (Elt F))) wr6 := by
  unfold wr6
  repeat first | exact .nil | refine .cons rfl ?_

theorem hostOps6_writes : (hostOps6 : List (HloOp τ sig (Elt F))).Forall fun op =>
    op.writes ⊆ (wr6.map (Proc.devRef (τ := τ) .tc)).toFinset :=
  List.forall_iff_forall_mem.mpr (writes_sub_of_forall₂ hostOps6_wr fun _ h => h)

theorem hostOps6_keeps (W : Valuation τ sig (Elt F)) {r : Ref sig .tc} (hr : r ∉ wr6) :
    StableHlo.after hostOps6 W (Proc.devRef .tc r) = W (Proc.devRef .tc r) :=
  StableHlo.after_of_writes_sub _ _ hostOps6_writes hr

theorem args_not_wr6 : ∀ r ∈ args, r ∉ wr6 := by decide

end Cert.KernelIdeal.Hand

end
-- ==== Proof.KI.R0.lean ====
import proofs.«404712_j21509196219215_4_alg».proof.Proof.Gen.KernelIdeal.Launch
import proofs.«404712_j21509196219215_4_alg».proof.Proof.Gen.KernelIdeal.Skeleton
import proofs.«404712_j21509196219215_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rx0_0 : Rect S2x4000x35 := Rect.unit (s := S2x4000x35) ![0, 0, 0] S1x4000x35.size inb_S2x4000x35_S1x4000x35_0_0_0
abbrev rx0_1 : Rect S2x4000x35 := Rect.unit (s := S2x4000x35) ![1, 0, 0] S1x4000x35.size inb_S2x4000x35_S1x4000x35_1_0_0
abbrev rw0_0 : Rect S2x35x16 := Rect.unit (s := S2x35x16) ![0, 0, 0] S1x35x16.size inb_S2x35x16_S1x35x16_0_0_0
abbrev rw0_1 : Rect S2x35x16 := Rect.unit (s := S2x35x16) ![1, 0, 0] S1x35x16.size inb_S2x35x16_S1x35x16_1_0_0
abbrev rb0_0 : Rect S2x16 := Rect.unit (s := S2x16) ![0, 0] S1x16.size inb_S2x16_S1x16_0_0
abbrev rb0_1 : Rect S2x16 := Rect.unit (s := S2x16) ![1, 0] S1x16.size inb_S2x16_S1x16_1_0
abbrev ru0_0 : Rect S2x16x16 := Rect.unit (s := S2x16x16) ![0, 0, 0] S1x16x16.size inb_S2x16x16_S1x16x16_0_0_0
abbrev ru0_1 : Rect S2x16x16 := Rect.unit (s := S2x16x16) ![1, 0, 0] S1x16x16.size inb_S2x16x16_S1x16x16_1_0_0
abbrev ro0_0 : Rect S2x4000x16 := Rect.unit (s := S2x4000x16) ![0, 0, 0] S1x4000x16.size inb_S2x4000x16_S1x4000x16_0_0_0
abbrev ro0_1 : Rect S2x4000x16 := Rect.unit (s := S2x4000x16) ![1, 0, 0] S1x4000x16.size inb_S2x4000x16_S1x4000x16_1_0_0

def out0_5 (x0 : Vec F S2x4000x35 .f32) (x1 : Vec F S2x35x16 .f32) (x2 : Vec F S2x16 .f32) (x3 : Vec F S2x16x16 .f32) (x4 : Vec F S2x16 .f32) : Vec F S2x4000x16 .f32 :=
  View.canon [⟨ro0_1, k0_pay1 (k0_pay3 (View.ld x0 rx0_1)) (k0_pay4 (View.ld x1 rw0_1)) (View.ld x2 rb0_1) (View.ld x3 ru0_1) (View.ld x4 rb0_1)⟩,
    ⟨ro0_0, k0_pay2 (View.ld x0 rx0_0) (View.ld x1 rw0_0) (View.ld x2 rb0_0) (View.ld x3 ru0_0) (View.ld x4 rb0_0)⟩]

theorem cover0_5 (p1 p0 : Vec F S1x4000x16 .f32) (y : S2x4000x16.Idx) :
    ∃ pc ∈ ([⟨ro0_1, p1⟩, ⟨ro0_0, p0⟩] : List (View.Piece (Elt F) S2x4000x16 .f32)), y ∈ pc.1.set :=
  View.cover_of_tiled [⟨ro0_1, p1⟩, ⟨ro0_0, p0⟩] S1x4000x16.size (by rfl) y

set_option maxHeartbeats 1000000 in
theorem sound_kernel0 (c : Dev nD) (E : Set ℕ) (i : grid0.Coords)
    (arg1 : Memref sig .tc .vmem S2x4000x35 .f32) (harg1 : arg1.IsWhole) (arg2 : Memref sig .tc .vmem S2x35x16 .f32) (harg2 : arg2.IsWhole)
    (arg3 : Memref sig .tc .vmem S2x16 .f32) (harg3 : arg3.IsWhole) (arg4 : Memref sig .tc .vmem S2x16x16 .f32) (harg4 : arg4.IsWhole)
    (arg5 : Memref sig .tc .vmem S2x16 .f32) (harg5 : arg5.IsWhole) (arg6 : Memref sig .tc .vmem S2x4000x16 .f32) (harg6 : arg6.IsWhole)
    (x0 : Vec F S2x4000x35 .f32) (x1 : Vec F S2x35x16 .f32) (x2 : Vec F S2x16 .f32) (x3 : Vec F S2x16x16 .f32) (x4 : Vec F S2x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«404712_j21509196219215_4_alg».proof.Proof.Gen.KernelIdeal.Launch
import proofs.«404712_j21509196219215_4_alg».proof.Proof.Gen.KernelIdeal.Skeleton
import proofs.«404712_j21509196219215_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

abbrev rc1_h : Rect S4000x16 := Rect.unit (s := S4000x16) ![0, 0] S4000x16.size inb_S4000x16_S4000x16_0_0
abbrev rc1_m : Rect S4000x17 := Rect.unit (s := S4000x17) ![0, 0] S4000x17.size inb_S4000x17_S4000x17_0_0
abbrev rc1_a : Rect S49x16 := Rect.unit (s := S49x16) ![0, 0] S49x16.size inb_S49x16_S49x16_0_0
abbrev rc1_v : Rect S16 := Rect.unit (s := S16) ![0] S16.size inb_S16_S16_0
abbrev rc1_q : Rect S16x16 := Rect.unit (s := S16x16) ![0, 0] S16x16.size inb_S16x16_S16x16_0_0
abbrev rc1_d : Rect S16x1 := Rect.unit (s := S16x1) ![0, 0] S16x1.size inb_S16x1_S16x1_0_0
abbrev rc1_s : Rect S1 := Rect.unit (s := S1) ![0] S1.size inb_S1_S1_0

def out1_11 (x0 : Vec F S4000x16 .f32) (x1 : Vec F S4000x16 .f32) (x2 : Vec F S4000x17 .f32) (x3 : Vec F S49x16 .f32) (x4 : Vec F S16 .f32) (x5 : Vec F S16x16 .f32) (x6 : Vec F S16 .f32) (x7 : Vec F S16x16 .f32) (x8 : Vec F S16 .f32) (x9 : Vec F S16x1 .f32) (x10 : Vec F S1 .f32) : Vec F S4000x17 .f32 :=
  View.canon [⟨rc1_m, k1_pay1 (k1_pay2 (View.ld x0 rc1_h) (View.ld x1 rc1_h) (View.ld x2 rc1_m) (View.ld x3 rc1_a) (View.ld x4 rc1_v) (View.ld x5 rc1_q) (View.ld x6 rc1_v)) (k1_pay3 (View.ld x7 rc1_q)) (k1_pay4 (View.ld x8 rc1_v))
      (k1_pay5 (View.ld x0 rc1_h) (View.ld x1 rc1_h) (View.ld x2 rc1_m) (View.ld x3 rc1_a) (View.ld x4 rc1_v) (View.ld x5 rc1_q) (View.ld x6 rc1_v)) (View.ld x9 rc1_d) (View.ld x10 rc1_s)⟩]

theorem cover1_11 (p0 : Vec F S4000x17 .f32) (y : S4000x17.Idx) :
    ∃ pc ∈ ([⟨rc1_m, p0⟩] : List (View.Piece (Elt F) S4000x17 .f32)), y ∈ pc.1.set :=
  View.cover_of_tiled [⟨rc1_m, p0⟩] S4000x17.size (by rfl) y

set_option maxHeartbeats 4000000 in
theorem sound_kernel1 (c : Dev nD) (E : Set ℕ) (i : grid1.Coords) (arg1 : Memref sig .tc .vmem S4000x16 .f32) (harg1 : arg1.IsWhole) (arg2 : Memref sig .tc .vmem S4000x16 .f32) (harg2 : arg2.IsWhole) (arg3 : Memref sig .tc .vmem S4000x17 .f32) (harg3 : arg3.IsWhole) (arg4 : Memref sig .tc .vmem S49x16 .f32) (harg4 : arg4.IsWhole) (arg5 : Memref sig .tc .vmem S16 .f32) (harg5 : arg5.IsWhole) (arg6 : Memref sig .tc .vmem S16x16 .f32) (harg6 : arg6.IsWhole) (arg7 : Memref sig .tc .vmem S16 .f32) (harg7 : arg7.IsWhole) (arg8 : Memref sig .tc .vmem S16x16 .f32) (harg8 : arg8.IsWhole) (arg9 : Memref sig .tc .vmem S16 .f32) (harg9 : arg9.IsWhole) (arg10 : Memref sig .tc .vmem S16x1 .f32) (harg10 : arg10.IsWhole) (arg11 : Memref sig .tc .vmem S1 .f32) (harg11 : arg11.IsWhole) (arg12 : Memref sig .tc .vmem S4000x17 .f32) (harg12 : arg12.IsWhole)
    (x0 : Vec F S4000x16 .f32) (x1 : Vec F S4000x16 .f32) (x2 : Vec F S4000x17 .f32) (x3 : Vec F S49x16 .f32) (x4 : Vec F S16 .f32) (x5 : Vec F S16x16 .f32) (x6 : Vec F S16 .f32) (x7 : Vec F S16x16 .f32) (x8 : Vec F S16 .f32) (x9 : Vec F S16x1 .f32) (x10 : Vec F S1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare (out1_11 x0 x1 x2 x3 x4 x5 x6 x7 x8 x9 x10)) -∗ K ⟨⟩))
      ⊢ wp frame (wpE (defs₀ (F := F)) Variants.none c none) E (cc1__node_update_kernel i arg1 harg1 arg2 harg2 arg3 harg3 arg4 harg4 arg5 harg5 arg6 harg6 arg7 harg7 arg8 harg8 arg9 harg9 arg10 harg10 arg11 harg11 arg12 harg12) K := by
  simp only [cc1__node_update_kernel_eq_skeleton]; unfold cc1__node_update_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover1_11 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«404712_j21509196219215_4_alg».proof.Proof.Gen.KernelIdeal.Launch
import proofs.«404712_j21509196219215_4_alg».proof.Proof.Gen.KernelIdeal.Skeleton
import proofs.«404712_j21509196219215_4_alg».proof.Proof.Gen.KernelIdeal.Points
import proofs.«404712_j21509196219215_4_alg».proof.Proof.KI.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out0_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out0_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

-- The kernel function is the first edge region's own text, so its triple serves.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (cc2__edge_mlp_kernel (F := F)) = cc0__edge_mlp_kernel from rfl]
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«404712_j21509196219215_4_alg».proof.Proof.Gen.KernelIdeal.Launch
import proofs.«404712_j21509196219215_4_alg».proof.Proof.Gen.KernelIdeal.Skeleton
import proofs.«404712_j21509196219215_4_alg».proof.Proof.Gen.KernelIdeal.Points
import proofs.«404712_j21509196219215_4_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out1_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out1_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

-- The kernel function is the first node region's own text, so its triple serves.
set_option maxHeartbeats 2000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show (cc3__node_update_kernel (F := F)) = cc1__node_update_kernel from rfl]
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«404712_j21509196219215_4_alg».proof.Proof.Gen.KernelIdeal.Launch
import proofs.«404712_j21509196219215_4_alg».proof.Proof.Gen.KernelIdeal.Skeleton
import proofs.«404712_j21509196219215_4_alg».proof.Proof.Gen.KernelIdeal.Points
import proofs.«404712_j21509196219215_4_alg».proof.Proof.KI.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out0_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t =
    out0_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

-- The kernel function is the first edge region's own text, so its triple serves.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (cc4__edge_mlp_kernel (F := F)) = cc0__edge_mlp_kernel from rfl]
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«404712_j21509196219215_4_alg».proof.Proof.Gen.KernelIdeal.Launch
import proofs.«404712_j21509196219215_4_alg».proof.Proof.Gen.KernelIdeal.Skeleton
import proofs.«404712_j21509196219215_4_alg».proof.Proof.Gen.KernelIdeal.Points
import proofs.«404712_j21509196219215_4_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out1_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = out1_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t))

-- The kernel function is the first node region's own text, so its triple serves.
set_option maxHeartbeats 2000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show (cc5__node_update_kernel (F := F)) = cc1__node_update_kernel from rfl]
  simp only [before5_0, before5_1, before5_2, before5_3, before5_4, before5_5, before5_6, before5_7, before5_8, before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Bounds.lean ====
import proofs.«404712_j21509196219215_4_alg».proof.Proof.KI.R0
import proofs.«404712_j21509196219215_4_alg».proof.Proof.KI.R1
import proofs.«404712_j21509196219215_4_alg».proof.Proof.KI.R2
import proofs.«404712_j21509196219215_4_alg».proof.Proof.KI.R3
import proofs.«404712_j21509196219215_4_alg».proof.Proof.KI.R4
import proofs.«404712_j21509196219215_4_alg».proof.Proof.KI.R5
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N

theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w

theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N

theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w

theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N

theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w

theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N

theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w

theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb

abbrev V12 : (c : Dev nD) → (b : Ref sig .tc) → Buf (Elt F) ((c : Thread nD τ).loc b) := fun c b => W12 m ρ c b

theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps6 (W12 m ρ c)

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c

end Cert.KernelIdeal.Hand

end
-- ==== Proof.KI.Args.lean ====
import proofs.«404712_j21509196219215_4_alg».proof.Proof.KI.ArgsHost
import proofs.«404712_j21509196219215_4_alg».proof.Proof.KI.Bounds

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

theorem args_not_arr0 : ∀ r ∈ args, ∀ w, Pipeline.arrRef spec0 w ≠ r := by decide
theorem args_not_arr1 : ∀ r ∈ args, ∀ w, Pipeline.arrRef spec1 w ≠ r := by decide
theorem args_not_arr2 : ∀ r ∈ args, ∀ w, Pipeline.arrRef spec2 w ≠ r := by decide
theorem args_not_arr3 : ∀ r ∈ args, ∀ w, Pipeline.arrRef spec3 w ≠ r := by decide
theorem args_not_arr4 : ∀ r ∈ args, ∀ w, Pipeline.arrRef spec4 w ≠ r := by decide
theorem args_not_arr5 : ∀ r ∈ args, ∀ w, Pipeline.arrRef spec5 w ≠ r := by decide

theorem W13_of_arg (c : Dev nD) {r : Ref sig .tc} (hr : r ∈ args) :
    W13 m ρ c (Proc.devRef .tc r) = m ((c : Thread nD τ).loc r) :=
  calc W13 m ρ c (Proc.devRef .tc r)
    _ = W12 m ρ c (Proc.devRef .tc r) := hostOps6_keeps _ (args_not_wr6 r hr)
    _ = W11 m ρ c (Proc.devRef .tc r) := W12_of_ne m ρ c r (args_not_arr5 r hr)
    _ = W10 m ρ c (Proc.devRef .tc r) := hostOps5_keeps _ (args_not_wr5 r hr)
    _ = W9 m ρ c (Proc.devRef .tc r) := W10_of_ne m ρ c r (args_not_arr4 r hr)
    _ = W8 m ρ c (Proc.devRef .tc r) := hostOps4_keeps _ (args_not_wr4 r hr)
    _ = W7 m ρ c (Proc.devRef .tc r) := W8_of_ne m ρ c r (args_not_arr3 r hr)
    _ = W6 m ρ c (Proc.devRef .tc r) := hostOps3_keeps _ (args_not_wr3 r hr)
    _ = W5 m ρ c (Proc.devRef .tc r) := W6_of_ne m ρ c r (args_not_arr2 r hr)
    _ = W4 m ρ c (Proc.devRef .tc r) := hostOps2_keeps _ (args_not_wr2 r hr)
    _ = W3 m ρ c (Proc.devRef .tc r) := W4_of_ne m ρ c r (args_not_arr1 r hr)
    _ = W2 m ρ c (Proc.devRef .tc r) := hostOps1_keeps _ (args_not_wr1 r hr)
    _ = W1 m ρ c (Proc.devRef .tc r) := W2_of_ne m ρ c r (args_not_arr0 r hr)
    _ = W0 m ρ c (Proc.devRef .tc r) := hostOps0_keeps _ (args_not_wr0 r hr)
    _ = m ((c : Thread nD τ).loc r) := rfl

end Cert.KernelIdeal.Hand

end
-- ==== Proof.KI.Segs.lean ====
import proofs.«404712_j21509196219215_4_alg».proof.Proof.KI.Bounds
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor
set_option maxHeartbeats 4000000 in
theorem hostOps4_fresh : (hostOps4 : List (HloOp τ sig (Elt F))).Forall fun op => op.fresh = ∅ := by
  simp only [List.Forall]; repeat' constructor

theorem hostOps5_fresh : (hostOps5 : List (HloOp τ sig (Elt F))).Forall fun op => op.fresh = ∅ := by
  simp only [List.Forall]; repeat' constructor

theorem hostOps6_fresh : (hostOps6 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W13 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]
set_option maxHeartbeats 4000000 in
theorem main_run (c : Dev nD) : main (F := F) c = Pipeline.Seg.run (segs m ρ) := (main_chain c).trans (by chain_rfl)

theorem regroup (c : Dev nD) : iprop(StableHlo.held (c : Thread nD τ) (Pipeline.ucRefs τ sig) (W13 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
set_option maxHeartbeats 4000000 in
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => regroup m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.KernelIdeal.Hand

end
-- ==== Proof.KI.Frame.lean ====
import proofs.«404712_j21509196219215_4_alg».proof.Proof.KI.Args
import proofs.«404712_j21509196219215_4_alg».proof.Proof.KI.Segs

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

theorem args_unscoped : ∀ a ∈ args, ¬ (Proc.devRef .tc a : DevRef τ sig).isScoped := by decide

-- No host operation writes an argument and no window is over one, so it ends as launched.
theorem arg_kept {mem : (ℓ : Loc nD τ sig) → Buf (Elt F) ℓ}
    (h : ∀ c : Dev nD, ∀ b ∈ Pipeline.ucRefs τ sig, mem (((c : Thread nD τ)).1, b) = W13 m ρ c b)
    (c : Dev nD) {a : Ref sig .tc} (ha : a ∈ args) :
    mem ((c.tc : Thread nD τ).loc a) = m ((c.tc : Thread nD τ).loc a) :=
  (h c _ (mem_uc a (args_unscoped a ha))).trans (W13_of_arg m ρ c ha)

theorem frame : θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => by
    repeat' apply And.intro
    all_goals exact arg_kept m ρ h c (by decide)) (run_all m ρ)

end Cert.KernelIdeal.Hand

end
-- ==== Proof.Ref.Run.lean ====
import proofs.«404712_j21509196219215_4_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local macro "written_entry" : tactic =>
  `(tactic| (simp only [nullary_writes, unary_writes, binary_writes, ternary_writes, quaternary_writes, reshape_writes, binaryIndexed_writes,
      unaryIndexed_writes, nary_writes, Finset.singleton_subset_iff, List.mem_toFinset]; exact List.mem_map_of_mem (by decide)))

set_option maxRecDepth 8192 in
theorem opsR0_sub : (opsR0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., nullary_bufs_sub .., unary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem opsR0_fresh : (opsR0 : List (HloOp τ sig (Elt F))).Forall fun op => op.fresh = ∅ := by
  simp only [List.Forall]; repeat' constructor

abbrev opsR0_W : List (Ref sig .tc) :=
  [ main_v0, main_v1, main_v2, main_v3, main_v4, main_v5, main_v6, main_v7, main_cst, main_v8,
    main_v9, main_v10, main_v11, main_v12, main_v13, main_v14, main_v15, main_v16, main_v17, main_v18,
    main_v19, main_v20, main_call0_cst, main_call0_v0, main_v21, main_v22, main_v23, main_v24, main_v25 ]
set_option maxRecDepth 8192 in
set_option maxHeartbeats 4000000 in
theorem opsR0_writes : (opsR0 : List (HloOp τ sig (Elt F))).Forall fun op => op.writes ⊆ (opsR0_W.map (Proc.devRef (τ := τ) .tc)).toFinset := by
  simp only [List.Forall]; repeat' apply And.intro
  all_goals written_entry

set_option maxRecDepth 8192 in
theorem opsR1_sub : (opsR1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsR1_fresh : (opsR1 : List (HloOp τ sig (Elt F))).Forall fun op => op.fresh = ∅ := by
  simp only [List.Forall]; repeat' constructor

abbrev opsR1_W : List (Ref sig .tc) :=
  [ main_v26, main_v27, main_v28, main_v29, main_v30, main_v31, main_v32, main_v33, main_c, main_v34,
    main_v35, main_c_0, main_v36, main_v37, main_v38, main_v39, main_v40, main_c_1, main_v41, main_v42,
    main_c_2, main_v43, main_v44, main_v45, main_v46, main_v47, main_v48, main_v49, main_v50, main_v51,
    main_v52, main_call1_cst, main_call1_v0, main_v53, main_v54, main_v55, main_v56, main_v57, main_v58, main_v59,
    main_cst_3, main_v60, main_v61, main_v62 ]
set_option maxRecDepth 8192 in
set_option maxHeartbeats 4000000 in
theorem opsR1_writes : (opsR1 : List (HloOp τ sig (Elt F))).Forall fun op => op.writes ⊆ (opsR1_W.map (Proc.devRef (τ := τ) .tc)).toFinset := by
  simp only [List.Forall]; repeat' apply And.intro
  all_goals written_entry

set_option maxRecDepth 8192 in
theorem opsR2_sub : (opsR2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsR2_fresh : (opsR2 : List (HloOp τ sig (Elt F))).Forall fun op => op.fresh = ∅ := by
  simp only [List.Forall]; repeat' constructor

abbrev opsR2_W : List (Ref sig .tc) :=
  [ main_v63, main_v64, main_v65, main_v66, main_v67, main_v68, main_v69, main_v70, main_c_4, main_v71,
    main_v72, main_c_5, main_v73, main_v74, main_v75, main_v76, main_v77, main_c_6, main_v78, main_v79,
    main_c_7, main_v80, main_v81, main_v82, main_v83, main_v84, main_v85, main_v86, main_v87, main_v88,
    main_v89, main_call2_cst, main_call2_v0, main_v90, main_v91, main_v92, main_v93, main_v94, main_v95, main_v96,
    main_cst_8, main_v97, main_v98, main_v99 ]
set_option maxRecDepth 8192 in
set_option maxHeartbeats 4000000 in
theorem opsR2_writes : (opsR2 : List (HloOp τ sig (Elt F))).Forall fun op => op.writes ⊆ (opsR2_W.map (Proc.devRef (τ := τ) .tc)).toFinset := by
  simp only [List.Forall]; repeat' apply And.intro
  all_goals written_entry

set_option maxRecDepth 8192 in
theorem opsR3_sub : (opsR3 : List (HloOp τ sig (Elt F))).Forall fun op => op.bufs ⊆ tcRefs τ sig :=
  ⟨nary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem opsR3_fresh : (opsR3 : List (HloOp τ sig (Elt F))).Forall fun op => op.fresh = ∅ := by
  simp only [List.Forall]; repeat' constructor

abbrev opsR3_W : List (Ref sig .tc) :=
  [ main_v100, main_v101, main_v102, main_v103, main_v104, main_v105, main_v106, main_v107, main_v108, main_v109,
    main_v110, main_v111, main_v112, main_call3_cst, main_call3_v0, main_v113, main_v114, main_v115, main_v116, main_v117,
    main_cst_9, main_v118, main_v119, main_v120, main_v121, main_v122, main_v123, main_v124, main_v125, main_v126,
    main_v127, main_v128, main_v129, main_v130, main_v131, main_v132, main_call4_cst, main_call4_v0, main_v133, main_v134,
    main_v135, main_v136, main_v137 ]
set_option maxRecDepth 8192 in
set_option maxHeartbeats 4000000 in
theorem opsR3_writes : (opsR3 : List (HloOp τ sig (Elt F))).Forall fun op => op.writes ⊆ (opsR3_W.map (Proc.devRef (τ := τ) .tc)).toFinset := by
  simp only [List.Forall]; repeat' apply And.intro
  all_goals written_entry

set_option maxRecDepth 8192 in
theorem opsR4_sub : (opsR4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., binary_bufs_sub .., nullary_bufs_sub .., unary_bufs_sub .., unary_bufs_sub .., ternary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub ..⟩
set_option maxRecDepth 8192 in
theorem opsR4_fresh : (opsR4 : List (HloOp τ sig (Elt F))).Forall fun op => op.fresh = ∅ := by
  simp only [List.Forall]; repeat' constructor

abbrev opsR4_W : List (Ref sig .tc) :=
  [ main_c_10, main_v138, main_v139, main_c_11, main_v140, main_v141, main_v142, main_c_12, main_v143, main_v144,
    main_v145, main_v146, main_v147, main_v148, main_v149, main_cst_13, main_v150, main_v151, main_v152, main_v153,
    main_v154, main_v155, main_cst_14, main_v156, main_cst_15, main_v157, main_cst_16, main_v158, main_cst_17, main_v159 ]
set_option maxRecDepth 8192 in
set_option maxHeartbeats 4000000 in
theorem opsR4_writes : (opsR4 : List (HloOp τ sig (Elt F))).Forall fun op => op.writes ⊆ (opsR4_W.map (Proc.devRef (τ := τ) .tc)).toFinset := by
  simp only [List.Forall]; repeat' apply And.intro
  all_goals written_entry

set_option maxRecDepth 8192 in
theorem opsR5_sub : (opsR5 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsR5_fresh : (opsR5 : List (HloOp τ sig (Elt F))).Forall fun op => op.fresh = ∅ := by
  simp only [List.Forall]; repeat' constructor

abbrev opsR5_W : List (Ref sig .tc) :=
  [ main_v160, main_v161, main_v162, main_v163, main_v164, main_v165, main_v166, main_v167, main_c_18, main_v168,
    main_v169, main_c_19, main_v170, main_v171, main_v172, main_v173, main_v174, main_c_20, main_v175, main_v176,
    main_c_21, main_v177, main_v178, main_v179, main_v180, main_v181, main_v182, main_v183, main_v184, main_v185,
    main_v186, main_call5_cst, main_call5_v0, main_v187, main_v188, main_v189, main_v190, main_v191, main_v192, main_v193,
    main_cst_22, main_v194, main_v195, main_v196 ]
set_option maxRecDepth 8192 in
set_option maxHeartbeats 4000000 in
theorem opsR5_writes : (opsR5 : List (HloOp τ sig (Elt F))).Forall fun op => op.writes ⊆ (opsR5_W.map (Proc.devRef (τ := τ) .tc)).toFinset := by
  simp only [List.Forall]; repeat' apply And.intro
  all_goals written_entry

set_option maxRecDepth 8192 in
theorem opsR6_sub : (opsR6 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsR6_fresh : (opsR6 : List (HloOp τ sig (Elt F))).Forall fun op => op.fresh = ∅ := by
  simp only [List.Forall]; repeat' constructor

abbrev opsR6_W : List (Ref sig .tc) :=
  [ main_v197, main_v198, main_v199, main_v200, main_v201, main_v202, main_v203, main_v204, main_c_23, main_v205,
    main_v206, main_c_24, main_v207, main_v208, main_v209, main_v210, main_v211, main_c_25, main_v212, main_v213,
    main_c_26, main_v214, main_v215, main_v216, main_v217, main_v218, main_v219, main_v220, main_v221, main_v222,
    main_v223, main_call6_cst, main_call6_v0, main_v224, main_v225, main_v226, main_v227, main_v228, main_v229, main_v230,
    main_cst_27, main_v231, main_v232, main_v233 ]
set_option maxRecDepth 8192 in
set_option maxHeartbeats 4000000 in
theorem opsR6_writes : (opsR6 : List (HloOp τ sig (Elt F))).Forall fun op => op.writes ⊆ (opsR6_W.map (Proc.devRef (τ := τ) .tc)).toFinset := by
  simp only [List.Forall]; repeat' apply And.intro
  all_goals written_entry

set_option maxRecDepth 8192 in
theorem opsR7_sub : (opsR7 : List (HloOp τ sig (Elt F))).Forall fun op => op.bufs ⊆ tcRefs τ sig :=
  ⟨nary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem opsR7_fresh : (opsR7 : List (HloOp τ sig (Elt F))).Forall fun op => op.fresh = ∅ := by
  simp only [List.Forall]; repeat' constructor

abbrev opsR7_W : List (Ref sig .tc) :=
  [ main_v234, main_v235, main_v236, main_v237, main_v238, main_v239, main_v240, main_v241, main_v242, main_v243,
    main_v244, main_v245, main_v246, main_call7_cst, main_call7_v0, main_v247, main_v248, main_v249, main_v250, main_v251,
    main_cst_28, main_v252, main_v253, main_v254, main_v255, main_v256, main_v257, main_v258, main_v259, main_v260,
    main_v261, main_v262, main_v263, main_v264, main_v265, main_v266, main_call8_cst, main_call8_v0, main_v267, main_v268,
    main_v269, main_v270, main_v271 ]
set_option maxRecDepth 8192 in
set_option maxHeartbeats 4000000 in
theorem opsR7_writes : (opsR7 : List (HloOp τ sig (Elt F))).Forall fun op => op.writes ⊆ (opsR7_W.map (Proc.devRef (τ := τ) .tc)).toFinset := by
  simp only [List.Forall]; repeat' apply And.intro
  all_goals written_entry

set_option maxRecDepth 8192 in
theorem opsR8_sub : (opsR8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., binary_bufs_sub .., nullary_bufs_sub .., unary_bufs_sub .., unary_bufs_sub .., ternary_bufs_sub .., unary_bufs_sub .., binary_bufs_sub .., binary_bufs_sub .., nullary_bufs_sub .., binary_bufs_sub .., nullary_bufs_sub .., binary_bufs_sub .., nullary_bufs_sub .., binary_bufs_sub .., binary_bufs_sub ..⟩
set_option maxRecDepth 8192 in
theorem opsR8_fresh : (opsR8 : List (HloOp τ sig (Elt F))).Forall fun op => op.fresh = ∅ := by
  simp only [List.Forall]; repeat' constructor

abbrev opsR8_W : List (Ref sig .tc) :=
  [ main_c_29, main_v272, main_v273, main_c_30, main_v274, main_v275, main_v276, main_c_31, main_v277, main_v278,
    main_v279, main_v280, main_v281, main_v282, main_v283, main_cst_32, main_v284, main_v285, main_v286, main_v287,
    main_v288, main_v289, main_cst_33, main_v290, main_cst_34, main_v291, main_cst_35, main_v292, main_v293 ]
set_option maxRecDepth 8192 in
set_option maxHeartbeats 4000000 in
theorem opsR8_writes : (opsR8 : List (HloOp τ sig (Elt F))).Forall fun op => op.writes ⊆ (opsR8_W.map (Proc.devRef (τ := τ) .tc)).toFinset := by
  simp only [List.Forall]; repeat' apply And.intro
  all_goals written_entry

set_option maxRecDepth 8192 in
theorem opsR9_sub : (opsR9 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsR9_fresh : (opsR9 : List (HloOp τ sig (Elt F))).Forall fun op => op.fresh = ∅ := by
  simp only [List.Forall]; repeat' constructor

abbrev opsR9_W : List (Ref sig .tc) :=
  [ main_v294, main_v295, main_v296, main_v297, main_v298, main_v299, main_v300, main_v301, main_c_36, main_v302,
    main_v303, main_c_37, main_v304, main_v305, main_v306, main_v307, main_v308, main_c_38, main_v309, main_v310,
    main_c_39, main_v311, main_v312, main_v313, main_v314, main_v315, main_v316, main_v317, main_v318, main_v319,
    main_v320, main_call9_cst, main_call9_v0, main_v321, main_v322, main_v323, main_v324, main_v325, main_v326, main_v327,
    main_cst_40, main_v328, main_v329, main_v330 ]
set_option maxRecDepth 8192 in
set_option maxHeartbeats 4000000 in
theorem opsR9_writes : (opsR9 : List (HloOp τ sig (Elt F))).Forall fun op => op.writes ⊆ (opsR9_W.map (Proc.devRef (τ := τ) .tc)).toFinset := by
  simp only [List.Forall]; repeat' apply And.intro
  all_goals written_entry

set_option maxRecDepth 8192 in
theorem opsR10_sub : (opsR10 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsR10_fresh : (opsR10 : List (HloOp τ sig (Elt F))).Forall fun op => op.fresh = ∅ := by
  simp only [List.Forall]; repeat' constructor

abbrev opsR10_W : List (Ref sig .tc) :=
  [ main_v331, main_v332, main_v333, main_v334, main_v335, main_v336, main_v337, main_v338, main_c_41, main_v339,
    main_v340, main_c_42, main_v341, main_v342, main_v343, main_v344, main_v345, main_c_43, main_v346, main_v347,
    main_c_44, main_v348, main_v349, main_v350, main_v351, main_v352, main_v353, main_v354, main_v355, main_v356,
    main_v357, main_call10_cst, main_call10_v0, main_v358, main_v359, main_v360, main_v361, main_v362, main_v363, main_v364,
    main_cst_45, main_v365, main_v366, main_v367 ]
set_option maxRecDepth 8192 in
set_option maxHeartbeats 4000000 in
theorem opsR10_writes : (opsR10 : List (HloOp τ sig (Elt F))).Forall fun op => op.writes ⊆ (opsR10_W.map (Proc.devRef (τ := τ) .tc)).toFinset := by
  simp only [List.Forall]; repeat' apply And.intro
  all_goals written_entry

set_option maxRecDepth 8192 in
theorem opsR11_sub : (opsR11 : List (HloOp τ sig (Elt F))).Forall fun op => op.bufs ⊆ tcRefs τ sig :=
  ⟨nary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem opsR11_fresh : (opsR11 : List (HloOp τ sig (Elt F))).Forall fun op => op.fresh = ∅ := by
  simp only [List.Forall]; repeat' constructor

abbrev opsR11_W : List (Ref sig .tc) :=
  [ main_v368, main_v369, main_v370, main_v371, main_v372, main_v373, main_v374, main_v375, main_v376, main_v377,
    main_v378, main_v379, main_v380, main_call11_cst, main_call11_v0, main_v381, main_v382, main_v383, main_v384, main_v385,
    main_cst_46, main_v386, main_v387, main_v388, main_v389, main_v390, main_v391, main_v392, main_v393, main_v394,
    main_v395, main_v396, main_v397, main_v398, main_v399, main_v400, main_call12_cst, main_call12_v0, main_v401, main_v402,
    main_v403, main_v404, main_v405 ]
set_option maxRecDepth 8192 in
set_option maxHeartbeats 4000000 in
theorem opsR11_writes : (opsR11 : List (HloOp τ sig (Elt F))).Forall fun op => op.writes ⊆ (opsR11_W.map (Proc.devRef (τ := τ) .tc)).toFinset := by
  simp only [List.Forall]; repeat' apply And.intro
  all_goals written_entry

set_option maxRecDepth 8192 in
theorem opsR12_sub : (opsR12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., binary_bufs_sub .., nullary_bufs_sub .., unary_bufs_sub .., unary_bufs_sub .., ternary_bufs_sub .., unary_bufs_sub .., binary_bufs_sub .., binary_bufs_sub .., nullary_bufs_sub .., binary_bufs_sub .., nullary_bufs_sub .., binary_bufs_sub .., nullary_bufs_sub .., binary_bufs_sub .., binary_bufs_sub ..⟩
set_option maxRecDepth 8192 in
theorem opsR12_fresh : (opsR12 : List (HloOp τ sig (Elt F))).Forall fun op => op.fresh = ∅ := by
  simp only [List.Forall]; repeat' constructor

abbrev opsR12_W : List (Ref sig .tc) :=
  [ main_c_47, main_v406, main_v407, main_c_48, main_v408, main_v409, main_v410, main_c_49, main_v411, main_v412,
    main_v413, main_v414, main_v415, main_v416, main_v417, main_cst_50, main_v418, main_v419, main_v420, main_v421,
    main_v422, main_v423, main_cst_51, main_v424, main_cst_52, main_v425, main_cst_53, main_v426, main_v427 ]
set_option maxRecDepth 8192 in
set_option maxHeartbeats 4000000 in
theorem opsR12_writes : (opsR12 : List (HloOp τ sig (Elt F))).Forall fun op => op.writes ⊆ (opsR12_W.map (Proc.devRef (τ := τ) .tc)).toFinset := by
  simp only [List.Forall]; repeat' apply And.intro
  all_goals written_entry

abbrev opsAll : List (HloOp τ sig (Elt F)) :=
  opsR0 ++ (opsR1 ++ (opsR2 ++ (opsR3 ++ (opsR4 ++ (opsR5 ++ (opsR6 ++ (opsR7 ++ (opsR8 ++ (opsR9 ++ (opsR10 ++ (opsR11 ++ (opsR12))))))))))))

theorem forall_append_of {α : Type} {p : α → Prop} {l₁ l₂ : List α} (h₁ : l₁.Forall p) (h₂ : l₂.Forall p) : (l₁ ++ l₂).Forall p :=
  List.forall_append.mpr ⟨h₁, h₂⟩

theorem opsAll_sub : (opsAll : List (HloOp τ sig (Elt F))).Forall fun op => op.bufs ⊆ tcRefs τ sig :=
  forall_append_of opsR0_sub (forall_append_of opsR1_sub (forall_append_of opsR2_sub (forall_append_of opsR3_sub (forall_append_of opsR4_sub (forall_append_of opsR5_sub (forall_append_of opsR6_sub (forall_append_of opsR7_sub (forall_append_of opsR8_sub (forall_append_of opsR9_sub (forall_append_of opsR10_sub (forall_append_of opsR11_sub (opsR12_sub))))))))))))
theorem opsAll_fresh : (opsAll : List (HloOp τ sig (Elt F))).Forall fun op => op.fresh = ∅ :=
  forall_append_of opsR0_fresh (forall_append_of opsR1_fresh (forall_append_of opsR2_fresh (forall_append_of opsR3_fresh (forall_append_of opsR4_fresh (forall_append_of opsR5_fresh (forall_append_of opsR6_fresh (forall_append_of opsR7_fresh (forall_append_of opsR8_fresh (forall_append_of opsR9_fresh (forall_append_of opsR10_fresh (forall_append_of opsR11_fresh (opsR12_fresh))))))))))))

-- The program's nine parts are consecutive slices of its one list of operations.
abbrev win (a n : Nat) : List (HloOp τ sig (Elt F)) := (opsAll.drop a).take n

set_option maxHeartbeats 4000000 in
set_option maxRecDepth 8192 in
theorem main_part0_eq (c : Dev nD) : main_part0 (F := F) c = seq (win 0 64) := rfl

set_option maxHeartbeats 4000000 in
set_option maxRecDepth 8192 in
theorem main_part1_eq (c : Dev nD) : main_part1 (F := F) c = seq (win 64 62) := rfl

set_option maxHeartbeats 4000000 in
set_option maxRecDepth 8192 in
theorem main_part2_eq (c : Dev nD) : main_part2 (F := F) c = seq (win 126 64) := rfl

set_option maxHeartbeats 4000000 in
set_option maxRecDepth 8192 in
theorem main_part3_eq (c : Dev nD) : main_part3 (F := F) c = seq (win 190 62) := rfl

set_option maxHeartbeats 4000000 in
set_option maxRecDepth 8192 in
theorem main_part4_eq (c : Dev nD) : main_part4 (F := F) c = seq (win 252 66) := rfl

set_option maxHeartbeats 4000000 in
set_option maxRecDepth 8192 in
theorem main_part5_eq (c : Dev nD) : main_part5 (F := F) c = seq (win 318 60) := rfl

set_option maxHeartbeats 4000000 in
set_option maxRecDepth 8192 in
theorem main_part6_eq (c : Dev nD) : main_part6 (F := F) c = seq (win 378 64) := rfl

set_option maxHeartbeats 4000000 in
set_option maxRecDepth 8192 in
theorem main_part7_eq (c : Dev nD) : main_part7 (F := F) c = seq (win 442 64) := rfl

set_option maxHeartbeats 4000000 in
set_option maxRecDepth 8192 in
theorem main_part8_eq (c : Dev nD) : main_part8 (F := F) c = seq (win 506 4) := rfl

set_option maxHeartbeats 4000000 in
set_option maxRecDepth 65536 in
theorem opsAll_eq_wins : (opsAll : List (HloOp τ sig (Elt F))) =
    win 0 64 ++ (win 64 62 ++ (win 126 64 ++ (win 190 62 ++ (win 252 66 ++ (win 318 60 ++ (win 378 64 ++ (win 442 64 ++ (win 506 4)))))))) := rfl

set_option maxHeartbeats 4000000 in
set_option maxRecDepth 8192 in
theorem main_eq (c : Dev nD) : main (F := F) c = seq opsAll := by
  rw [opsAll_eq_wins]
  simp only [seq_append, ← main_part0_eq c, ← main_part1_eq c, ← main_part2_eq c, ← main_part3_eq c, ← main_part4_eq c, ← main_part5_eq c, ← main_part6_eq c, ← main_part7_eq c, ← main_part8_eq c]
  rfl
theorem scopedRefs_eq : (Finset.univ.filter fun b : Ref sig .tc => b.isScoped) = ∅ := by decide
theorem scopedSems_eq : (Finset.univ.filter fun sm : SemLoc sig => sm.isScoped .tc) = ∅ := by decide

abbrev U0 (m : (ℓ : Loc nD τ sig) → Buf (Elt F) ℓ) (d : Dev nD) : Valuation τ sig (Elt F) := launchContents m d

abbrev U1 (m : (ℓ : Loc nD τ sig) → Buf (Elt F) ℓ) (d : Dev nD) : Valuation τ sig (Elt F) := StableHlo.after opsR0 (U0 m d)

abbrev U2 (m : (ℓ : Loc nD τ sig) → Buf (Elt F) ℓ) (d : Dev nD) : Valuation τ sig (Elt F) := StableHlo.after opsR1 (U1 m d)

abbrev U3 (m : (ℓ : Loc nD τ sig) → Buf (Elt F) ℓ) (d : Dev nD) : Valuation τ sig (Elt F) := StableHlo.after opsR2 (U2 m d)

abbrev U4 (m : (ℓ : Loc nD τ sig) → Buf (Elt F) ℓ) (d : Dev nD) : Valuation τ sig (Elt F) := StableHlo.after opsR3 (U3 m d)

abbrev U5 (m : (ℓ : Loc nD τ sig) → Buf (Elt F) ℓ) (d : Dev nD) : Valuation τ sig (Elt F) := StableHlo.after opsR4 (U4 m d)

abbrev U6 (m : (ℓ : Loc nD τ sig) → Buf (Elt F) ℓ) (d : Dev nD) : Valuation τ sig (Elt F) := StableHlo.after opsR5 (U5 m d)

abbrev U7 (m : (ℓ : Loc nD τ sig) → Buf (Elt F) ℓ) (d : Dev nD) : Valuation τ sig (Elt F) := StableHlo.after opsR6 (U6 m d)

abbrev U8 (m : (ℓ : Loc nD τ sig) → Buf (Elt F) ℓ) (d : Dev nD) : Valuation τ sig (Elt F) := StableHlo.after opsR7 (U7 m d)

abbrev U9 (m : (ℓ : Loc nD τ sig) → Buf (Elt F) ℓ) (d : Dev nD) : Valuation τ sig (Elt F) := StableHlo.after opsR8 (U8 m d)

abbrev U10 (m : (ℓ : Loc nD τ sig) → Buf (Elt F) ℓ) (d : Dev nD) : Valuation τ sig (Elt F) := StableHlo.after opsR9 (U9 m d)

abbrev U11 (m : (ℓ : Loc nD τ sig) → Buf (Elt F) ℓ) (d : Dev nD) : Valuation τ sig (Elt F) := StableHlo.after opsR10 (U10 m d)

abbrev U12 (m : (ℓ : Loc nD τ sig) → Buf (Elt F) ℓ) (d : Dev nD) : Valuation τ sig (Elt F) := StableHlo.after opsR11 (U11 m d)

abbrev U13 (m : (ℓ : Loc nD τ sig) → Buf (Elt F) ℓ) (d : Dev nD) : Valuation τ sig (Elt F) := StableHlo.after opsR12 (U12 m d)

theorem after_opsAll (m : (ℓ : Loc nD τ sig) → Buf (Elt F) ℓ) (d : Dev nD) :
    StableHlo.after (opsAll : List (HloOp τ sig (Elt F))) (launchContents m d) = U13 m d := by
  simp only [StableHlo.after_append]

theorem ref_run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = U13 m d (Proc.devRef .tc b) :=
  (θ_run defs _ _).mono (fun _ h d b => (h d b).trans (congrFun (after_opsAll m d) _))
    (run_seq scopedRefs_eq scopedSems_eq defs main (fun _ => opsAll) main_eq (fun _ => opsAll_sub) m ρ
      (fun _ => List.forall_iff_forall_mem.mp opsAll_fresh))

theorem U1_keep (m : (ℓ : Loc nD τ sig) → Buf (Elt F) ℓ) (d : Dev nD) (r : Ref sig .tc) (h : r ∉ opsR0_W) :
    U1 m d (Proc.devRef .tc r) = U0 m d (Proc.devRef .tc r) :=
  after_of_writes_sub opsR0 _ opsR0_writes h
theorem U2_keep (m : (ℓ : Loc nD τ sig) → Buf (Elt F) ℓ) (d : Dev nD) (r : Ref sig .tc) (h : r ∉ opsR1_W) :
    U2 m d (Proc.devRef .tc r) = U1 m d (Proc.devRef .tc r) :=
  after_of_writes_sub opsR1 _ opsR1_writes h
theorem U3_keep (m : (ℓ : Loc nD τ sig) → Buf (Elt F) ℓ) (d : Dev nD) (r : Ref sig .tc) (h : r ∉ opsR2_W) :
    U3 m d (Proc.devRef .tc r) = U2 m d (Proc.devRef .tc r) :=
  after_of_writes_sub opsR2 _ opsR2_writes h
theorem U4_keep (m : (ℓ : Loc nD τ sig) → Buf (Elt F) ℓ) (d : Dev nD) (r : Ref sig .tc) (h : r ∉ opsR3_W) :
    U4 m d (Proc.devRef .tc r) = U3 m d (Proc.devRef .tc r) :=
  after_of_writes_sub opsR3 _ opsR3_writes h
theorem U5_keep (m : (ℓ : Loc nD τ sig) → Buf (Elt F) ℓ) (d : Dev nD) (r : Ref sig .tc) (h : r ∉ opsR4_W) :
    U5 m d (Proc.devRef .tc r) = U4 m d (Proc.devRef .tc r) :=
  after_of_writes_sub opsR4 _ opsR4_writes h
theorem U6_keep (m : (ℓ : Loc nD τ sig) → Buf (Elt F) ℓ) (d : Dev nD) (r : Ref sig .tc) (h : r ∉ opsR5_W) :
    U6 m d (Proc.devRef .tc r) = U5 m d (Proc.devRef .tc r) :=
  after_of_writes_sub opsR5 _ opsR5_writes h
theorem U7_keep (m : (ℓ : Loc nD τ sig) → Buf (Elt F) ℓ) (d : Dev nD) (r : Ref sig .tc) (h : r ∉ opsR6_W) :
    U7 m d (Proc.devRef .tc r) = U6 m d (Proc.devRef .tc r) :=
  after_of_writes_sub opsR6 _ opsR6_writes h
theorem U8_keep (m : (ℓ : Loc nD τ sig) → Buf (Elt F) ℓ) (d : Dev nD) (r : Ref sig .tc) (h : r ∉ opsR7_W) :
    U8 m d (Proc.devRef .tc r) = U7 m d (Proc.devRef .tc r) :=
  after_of_writes_sub opsR7 _ opsR7_writes h
theorem U9_keep (m : (ℓ : Loc nD τ sig) → Buf (Elt F) ℓ) (d : Dev nD) (r : Ref sig .tc) (h : r ∉ opsR8_W) :
    U9 m d (Proc.devRef .tc r) = U8 m d (Proc.devRef .tc r) :=
  after_of_writes_sub opsR8 _ opsR8_writes h
theorem U10_keep (m : (ℓ : Loc nD τ sig) → Buf (Elt F) ℓ) (d : Dev nD) (r : Ref sig .tc) (h : r ∉ opsR9_W) :
    U10 m d (Proc.devRef .tc r) = U9 m d (Proc.devRef .tc r) :=
  after_of_writes_sub opsR9 _ opsR9_writes h
theorem U11_keep (m : (ℓ : Loc nD τ sig) → Buf (Elt F) ℓ) (d : Dev nD) (r : Ref sig .tc) (h : r ∉ opsR10_W) :
    U11 m d (Proc.devRef .tc r) = U10 m d (Proc.devRef .tc r) :=
  after_of_writes_sub opsR10 _ opsR10_writes h
theorem U12_keep (m : (ℓ : Loc nD τ sig) → Buf (Elt F) ℓ) (d : Dev nD) (r : Ref sig .tc) (h : r ∉ opsR11_W) :
    U12 m d (Proc.devRef .tc r) = U11 m d (Proc.devRef .tc r) :=
  after_of_writes_sub opsR11 _ opsR11_writes h
theorem U13_keep (m : (ℓ : Loc nD τ sig) → Buf (Elt F) ℓ) (d : Dev nD) (r : Ref sig .tc) (h : r ∉ opsR12_W) :
    U13 m d (Proc.devRef .tc r) = U12 m d (Proc.devRef .tc r) :=
  after_of_writes_sub opsR12 _ opsR12_writes h

theorem U13_of_not_written (m : (ℓ : Loc nD τ sig) → Buf (Elt F) ℓ) (d : Dev nD) (r : Ref sig .tc)
    (h : r ∉ opsR0_W ∧ r ∉ opsR1_W ∧ r ∉ opsR2_W ∧ r ∉ opsR3_W ∧ r ∉ opsR4_W ∧ r ∉ opsR5_W ∧ r ∉ opsR6_W ∧ r ∉ opsR7_W ∧ r ∉ opsR8_W ∧ r ∉ opsR9_W ∧ r ∉ opsR10_W ∧ r ∉ opsR11_W ∧ r ∉ opsR12_W) :
    U13 m d (Proc.devRef .tc r) = m ((d.tc : Thread nD τ).loc r) := by
  obtain ⟨h0, h1, h2, h3, h4, h5, h6, h7, h8, h9, h10, h11, h12⟩ := h
  exact (U13_keep m d r h12).trans ((U12_keep m d r h11).trans ((U11_keep m d r h10).trans ((U10_keep m d r h9).trans ((U9_keep m d r h8).trans ((U8_keep m d r h7).trans ((U7_keep m d r h6).trans ((U6_keep m d r h5).trans ((U5_keep m d r h4).trans ((U4_keep m d r h3).trans ((U3_keep m d r h2).trans ((U2_keep m d r h1).trans ((U1_keep m d r h0).trans (rfl)))))))))))))

abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem args_not_written : ∀ r ∈ args, r ∉ opsR0_W ∧ r ∉ opsR1_W ∧ r ∉ opsR2_W ∧ r ∉ opsR3_W ∧ r ∉ opsR4_W ∧ r ∉ opsR5_W ∧ r ∉ opsR6_W ∧ r ∉ opsR7_W ∧ r ∉ opsR8_W ∧ r ∉ opsR9_W ∧ r ∉ opsR10_W ∧ r ∉ opsR11_W ∧ r ∉ opsR12_W := by decide

-- No list writes an argument, so every argument ends as launched.
theorem U13_of_arg (m : (ℓ : Loc nD τ sig) → Buf (Elt F) ℓ) (d : Dev nD) (r : Ref sig .tc) (hr : r ∈ args) :
    U13 m d (Proc.devRef .tc r) = m ((d.tc : Thread nD τ).loc r) := U13_of_not_written m d r (args_not_written r hr)

end Cert.ReferenceIdeal.Hand

end
-- ==== Proof.Ref.Frame.lean ====
import proofs.«404712_j21509196219215_4_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD, ∀ a ∈ args,
      r.2.mem ((c.tc : Thread nD τ).loc a) = m ((c.tc : Thread nD τ).loc a)) :=
  (θ_run defs _ _).mono (fun _ h c a ha => (h c a).trans (U13_of_arg m c a ha)) (ref_run m ρ)

end Cert.ReferenceIdeal.Hand

end
-- ==== Proof.KI.KPure.lean ====
import proofs.«404712_j21509196219215_4_alg».proof.KernelIdeal

noncomputable section

namespace Cert.KernelIdeal.Hand

open Cert.KernelIdeal Idealize.ShloMosaic

variable {F : FTy → Type} [FloatOps F] [Cert.KernelIdeal.Facts₀]

def srcOf (ei : IVec S2x800000 32) : IVec S800000 32 :=
  shapeCast S800000 (extractStridedSlice S1x800000 ![0, 0] ei Facts₀.slices_S2x800000_S1x800000_0_0) Facts₀.shapeCasts_S1x800000_S800000

def dstOf (ei : IVec S2x800000 32) : IVec S800000 32 :=
  shapeCast S800000 (extractStridedSlice S1x800000 ![1, 0] ei Facts₀.slices_S2x800000_S1x800000_1_0) Facts₀.shapeCasts_S1x800000_S800000

def wrapCol (i : IVec S800000 32) : IVec S800000x1 32 :=
  broadcastInDim S800000x1 ![0] Facts₀.bcast_S800000_S800000x1_0
    (select (cmpi .slt i (broadcastInDim S800000 ![] Facts₀.bcast_S_S800000 (constantI S_ 32 0#32)))
      (addi i (broadcastInDim S800000 ![] Facts₀.bcast_S_S800000 (constantI S_ 32 100000#32))) i)

def gatherRows (h : Vec F S100000x16 .f32) (i : IVec S800000x1 32) : Vec F S800000x16 .f32 :=
  Host.gather gather_S100000x16_S800000x1_S800000x16_1_0_n_n_0_1_116 h i

def edgeIn (a b : Vec F S800000x16 .f32) (ea : Vec F S800000x3 .f32) : Vec F S800000x35 .f32 :=
  concatenate S800000x35 1 [⟨S800000x16, a⟩, ⟨S800000x16, b⟩, ⟨S800000x3, ea⟩] Facts₀.concatenates_S800000x16_S800000x16_S800000x3_S800000x35_d1

def zeroState : Vec F S100000x16 .f32 :=
  broadcastInDim S100000x16 ![] Facts₀.bcast_S_S100000x16 (constant (F := F) S_ .f32 0x00000000#32)

end Cert.KernelIdeal.Hand

end
-- ==== Proof.Spec.lean ====
import Idealize.ShloMosaic.PureOps.Ideal.Laws
import Idealize.ShloMosaic.Lib.ValueIdx

noncomputable section

namespace Cert.Hand.Spec

open Idealize.ShloMosaic Idealize.ShloMosaic.ValueIdx

def mlp {n h o : Nat} (x : Fin n → EReal) (w1 : Fin n → Fin h → EReal) (b1 : Fin h → EReal)
    (w2 : Fin h → Fin o → EReal) (b2 : Fin o → EReal) (j : Fin o) : EReal :=
  (∑ k : Fin h, max ((∑ l : Fin n, x l * w1 l k) + b1 k) 0 * w2 k j) + b2 j

def edgeG (x : (⟨3, ![2, 800000, 35]⟩ : Shape).Idx → EReal) (w1 : (⟨3, ![2, 35, 16]⟩ : Shape).Idx → EReal)
    (b1 : (⟨2, ![2, 16]⟩ : Shape).Idx → EReal) (w2 : (⟨3, ![2, 16, 16]⟩ : Shape).Idx → EReal)
    (b2 : (⟨2, ![2, 16]⟩ : Shape).Idx → EReal) : (⟨3, ![2, 800000, 16]⟩ : Shape).Idx → EReal :=
  fun i => mlp (fun l => x (ix3 (i 0) (i 1) l)) (fun l k => w1 (ix3 (i 0) l k)) (fun k => b1 (ix2 (i 0) k))
    (fun k j => w2 (ix3 (i 0) k j)) (fun j => b2 (ix2 (i 0) j)) (i 2)

def nodeRow (h mto : (⟨2, ![100000, 16]⟩ : Shape).Idx → EReal) (mfp : (⟨2, ![100000, 17]⟩ : Shape).Idx → EReal)
    (n : Fin 100000) (l : Fin 49) : EReal :=
  if h0 : l.val < 16 then h (ix2 n ⟨l.val, h0⟩)
  else if h1 : l.val < 32 then mto (ix2 n ⟨l.val - 16, by omega⟩)
  else mfp (ix2 n ⟨l.val - 32, by omega⟩)

def hNew (h mto : (⟨2, ![100000, 16]⟩ : Shape).Idx → EReal) (mfp : (⟨2, ![100000, 17]⟩ : Shape).Idx → EReal)
    (pw1 : (⟨2, ![49, 16]⟩ : Shape).Idx → EReal) (pb1 : (⟨1, ![16]⟩ : Shape).Idx → EReal)
    (pw2 : (⟨2, ![16, 16]⟩ : Shape).Idx → EReal) (pb2 : (⟨1, ![16]⟩ : Shape).Idx → EReal)
    (n : Fin 100000) (j : Fin 16) : EReal :=
  h (ix2 n j) + Ideal.ofBits .f32 0x3DCCCCCD#32 *
    mlp (nodeRow h mto mfp n) (fun l k => pw1 (ix2 l k)) (fun k => pb1 (ix1 k)) (fun k j => pw2 (ix2 k j)) (fun j => pb2 (ix1 j)) j

def uOut (h mto : (⟨2, ![100000, 16]⟩ : Shape).Idx → EReal) (mfp : (⟨2, ![100000, 17]⟩ : Shape).Idx → EReal)
    (pw1 : (⟨2, ![49, 16]⟩ : Shape).Idx → EReal) (pb1 : (⟨1, ![16]⟩ : Shape).Idx → EReal)
    (pw2 : (⟨2, ![16, 16]⟩ : Shape).Idx → EReal) (pb2 : (⟨1, ![16]⟩ : Shape).Idx → EReal)
    (dw1 : (⟨2, ![16, 16]⟩ : Shape).Idx → EReal) (db1 : (⟨1, ![16]⟩ : Shape).Idx → EReal)
    (dw2 : (⟨2, ![16, 1]⟩ : Shape).Idx → EReal) (db2 : (⟨1, ![1]⟩ : Shape).Idx → EReal)
    (n : Fin 100000) : EReal :=
  mlp (fun l => hNew h mto mfp pw1 pb1 pw2 pb2 n l) (fun l k => dw1 (ix2 l k)) (fun k => db1 (ix1 k))
    (fun k j => dw2 (ix2 k j)) (fun j => db2 (ix1 j)) (0 : Fin 1)

def nodeG (h mto : (⟨2, ![100000, 16]⟩ : Shape).Idx → EReal) (mfp : (⟨2, ![100000, 17]⟩ : Shape).Idx → EReal)
    (pw1 : (⟨2, ![49, 16]⟩ : Shape).Idx → EReal) (pb1 : (⟨1, ![16]⟩ : Shape).Idx → EReal)
    (pw2 : (⟨2, ![16, 16]⟩ : Shape).Idx → EReal) (pb2 : (⟨1, ![16]⟩ : Shape).Idx → EReal)
    (dw1 : (⟨2, ![16, 16]⟩ : Shape).Idx → EReal) (db1 : (⟨1, ![16]⟩ : Shape).Idx → EReal)
    (dw2 : (⟨2, ![16, 1]⟩ : Shape).Idx → EReal) (db2 : (⟨1, ![1]⟩ : Shape).Idx → EReal) :
    (⟨2, ![100000, 17]⟩ : Shape).Idx → EReal :=
  fun i => if hj : (i 1).val < 16 then hNew h mto mfp pw1 pb1 pw2 pb2 (i 0) ⟨(i 1).val, hj⟩
    else uOut h mto mfp pw1 pb1 pw2 pb2 dw1 db1 dw2 db2 (i 0)

end Cert.Hand.Spec

end
-- ==== Proof.EdgeBridge.lean ====
import proofs.«404712_j21509196219215_4_alg».proof.Proof.Spec
import proofs.«404712_j21509196219215_4_alg».proof.KernelIdeal
import proofs.«404712_j21509196219215_4_alg».proof.ReferenceIdeal
import Idealize.ShloMosaic.PureOps.Ideal.Laws
import Idealize.ShloMosaic.Lib.ValueIdx
import Idealize.ShloMosaic.Lib.Pipeline.Value
import Idealize.ShloMosaic.Lib.ValueLayout

noncomputable section

namespace Cert.Hand.Bridge

open Idealize.ShloMosaic Idealize.ShloMosaic.ValueIdx
open Cert.KernelIdeal (S_ S16 S1x16 S2x16 S35x16 S1x35x16 S2x35x16 S16x16 S1x16x16 S2x16x16 S800000x1 S1x800000x1
  S800000x16 S1x800000x16 S2x800000x16 S800000x35 S1x800000x35 S2x800000x35)

variable {F : FTy → Type} [FloatOps F] [Cert.KernelIdeal.Facts₀] [Cert.ReferenceIdeal.Facts₀]

def stackX (a b : Vec F S800000x35 .f32) : Vec F S2x800000x35 .f32 :=
  concatenate S2x800000x35 0
    [⟨S1x800000x35, broadcastInDim S1x800000x35 ![1, 2] Cert.KernelIdeal.Facts₀.bcast_S800000x35_S1x800000x35_1_2 a⟩,
     ⟨S1x800000x35, broadcastInDim S1x800000x35 ![1, 2] Cert.KernelIdeal.Facts₀.bcast_S800000x35_S1x800000x35_1_2 b⟩]
    Cert.KernelIdeal.Facts₀.concatenates_S1x800000x35_S1x800000x35_S2x800000x35_d0

def stackW1 (a b : Vec F S35x16 .f32) : Vec F S2x35x16 .f32 :=
  concatenate S2x35x16 0
    [⟨S1x35x16, broadcastInDim S1x35x16 ![1, 2] Cert.KernelIdeal.Facts₀.bcast_S35x16_S1x35x16_1_2 a⟩,
     ⟨S1x35x16, broadcastInDim S1x35x16 ![1, 2] Cert.KernelIdeal.Facts₀.bcast_S35x16_S1x35x16_1_2 b⟩]
    Cert.KernelIdeal.Facts₀.concatenates_S1x35x16_S1x35x16_S2x35x16_d0

def stackB (a b : Vec F S16 .f32) : Vec F S2x16 .f32 :=
  concatenate S2x16 0
    [⟨S1x16, broadcastInDim S1x16 ![1] Cert.KernelIdeal.Facts₀.bcast_S16_S1x16_1 a⟩,
     ⟨S1x16, broadcastInDim S1x16 ![1] Cert.KernelIdeal.Facts₀.bcast_S16_S1x16_1 b⟩]
    Cert.KernelIdeal.Facts₀.concatenates_S1x16_S1x16_S2x16_d0

def stackW2 (a b : Vec F S16x16 .f32) : Vec F S2x16x16 .f32 :=
  concatenate S2x16x16 0
    [⟨S1x16x16, broadcastInDim S1x16x16 ![1, 2] Cert.KernelIdeal.Facts₀.bcast_S16x16_S1x16x16_1_2 a⟩,
     ⟨S1x16x16, broadcastInDim S1x16x16 ![1, 2] Cert.KernelIdeal.Facts₀.bcast_S16x16_S1x16x16_1_2 b⟩]
    Cert.KernelIdeal.Facts₀.concatenates_S1x16x16_S1x16x16_S2x16x16_d0

def maskedHalf0 (ms : Vec F S2x800000x16 .f32) (mask : Vec F S800000x1 .f32) : Vec F S800000x16 .f32 :=
  shapeCast S800000x16
    (extractStridedSlice S1x800000x16 ![0, 0, 0]
      (mulf ms (broadcastInDim S2x800000x16 ![0, 1, 2] Cert.KernelIdeal.Facts₀.bcast_S1x800000x1_S2x800000x16_0_1_2
        (broadcastInDim S1x800000x1 ![1, 2] Cert.KernelIdeal.Facts₀.bcast_S800000x1_S1x800000x1_1_2 mask)))
      Cert.KernelIdeal.Facts₀.slices_S2x800000x16_S1x800000x16_0_0_0)
    Cert.KernelIdeal.Facts₀.shapeCasts_S1x800000x16_S800000x16

def maskedHalf1 (ms : Vec F S2x800000x16 .f32) (mask : Vec F S800000x1 .f32) : Vec F S800000x16 .f32 :=
  shapeCast S800000x16
    (extractStridedSlice S1x800000x16 ![1, 0, 0]
      (mulf ms (broadcastInDim S2x800000x16 ![0, 1, 2] Cert.KernelIdeal.Facts₀.bcast_S1x800000x1_S2x800000x16_0_1_2
        (broadcastInDim S1x800000x1 ![1, 2] Cert.KernelIdeal.Facts₀.bcast_S800000x1_S1x800000x1_1_2 mask)))
      Cert.KernelIdeal.Facts₀.slices_S2x800000x16_S1x800000x16_1_0_0)
    Cert.KernelIdeal.Facts₀.shapeCasts_S1x800000x16_S800000x16

def refMsg (tmp : Vec F S800000x35 .f32) (w1 : Vec F S35x16 .f32) (b1 : Vec F S16 .f32) (w2 : Vec F S16x16 .f32)
    (b2 : Vec F S16 .f32) (mask : Vec F S800000x1 .f32) : Vec F S800000x16 .f32 :=
  mulf
    (addf
      (Host.dotGeneral Cert.ReferenceIdeal.dot_S800000x16_S16x16_S800000x16_1_0_0_1_n_n none
        (maximumf
          (addf
            (Host.dotGeneral Cert.ReferenceIdeal.dot_S800000x35_S35x16_S800000x16_1_0_0_1_n_n none tmp w1)
            (broadcastInDim S800000x16 ![0, 1] Cert.ReferenceIdeal.Facts₀.bcast_S1x16_S800000x16_0_1
              (broadcastInDim S1x16 ![1] Cert.ReferenceIdeal.Facts₀.bcast_S16_S1x16_1 b1)))
          (broadcastInDim S800000x16 ![] Cert.ReferenceIdeal.Facts₀.bcast_S_S800000x16 (constant (F := F) S_ .f32 0x00000000#32)))
        w2)
      (broadcastInDim S800000x16 ![0, 1] Cert.ReferenceIdeal.Facts₀.bcast_S1x16_S800000x16_0_1
        (broadcastInDim S1x16 ![1] Cert.ReferenceIdeal.Facts₀.bcast_S16_S1x16_1 b2)))
    (broadcastInDim S800000x16 ![0, 1] Cert.ReferenceIdeal.Facts₀.bcast_S800000x1_S800000x16_0_1 mask)

theorem stackX_apply0 (a b : Vec F S800000x35 .f32) (e : Fin 800000) (l : Fin 35) :
    stackX a b (ix3 (0 : Fin 2) e l) = a (ix2 e l) := by
  unfold stackX
  refine (concatenate_pair_apply_left (0 : Fin S2x800000x35.rank) _ _
    Cert.KernelIdeal.Facts₀.concatenates_S1x800000x35_S1x800000x35_S2x800000x35_d0 (ix3 (0 : Fin 2) e l) rfl (ix3 (0 : Fin 1) e l)
    (fun c => match c with | ⟨0, _⟩ => rfl | ⟨1, _⟩ => rfl | ⟨2, _⟩ => rfl)).trans ?_
  exact broadcastInDim_apply _ Cert.KernelIdeal.Facts₀.bcast_S800000x35_S1x800000x35_1_2 a (ix3 (0 : Fin 1) e l) (ix2 e l) (fun c => match c with
    | ⟨0, _⟩ => by show e.val = if (800000 : Nat) = 1 then 0 else e.val; rw [if_neg (by decide)]
    | ⟨1, _⟩ => by show l.val = if (35 : Nat) = 1 then 0 else l.val; rw [if_neg (by decide)])

theorem stackX_apply1 (a b : Vec F S800000x35 .f32) (e : Fin 800000) (l : Fin 35) :
    stackX a b (ix3 (1 : Fin 2) e l) = b (ix2 e l) := by
  unfold stackX
  refine (concatenate_pair_apply_right (0 : Fin S2x800000x35.rank) _ _
    Cert.KernelIdeal.Facts₀.concatenates_S1x800000x35_S1x800000x35_S2x800000x35_d0 (ix3 (1 : Fin 2) e l) rfl rfl (ix3 (0 : Fin 1) e l)
    (fun c => match c with | ⟨0, _⟩ => fun h => absurd rfl h | ⟨1, _⟩ => fun _ => rfl | ⟨2, _⟩ => fun _ => rfl) rfl).trans ?_
  exact broadcastInDim_apply _ Cert.KernelIdeal.Facts₀.bcast_S800000x35_S1x800000x35_1_2 b (ix3 (0 : Fin 1) e l) (ix2 e l) (fun c => match c with
    | ⟨0, _⟩ => by show e.val = if (800000 : Nat) = 1 then 0 else e.val; rw [if_neg (by decide)]
    | ⟨1, _⟩ => by show l.val = if (35 : Nat) = 1 then 0 else l.val; rw [if_neg (by decide)])

theorem stackW1_apply0 (a b : Vec F S35x16 .f32) (l : Fin 35) (k : Fin 16) :
    stackW1 a b (ix3 (0 : Fin 2) l k) = a (ix2 l k) := by
  unfold stackW1
  refine (concatenate_pair_apply_left (0 : Fin S2x35x16.rank) _ _
    Cert.KernelIdeal.Facts₀.concatenates_S1x35x16_S1x35x16_S2x35x16_d0 (ix3 (0 : Fin 2) l k) rfl (ix3 (0 : Fin 1) l k)
    (fun c => match c with | ⟨0, _⟩ => rfl | ⟨1, _⟩ => rfl | ⟨2, _⟩ => rfl)).trans ?_
  exact broadcastInDim_apply _ Cert.KernelIdeal.Facts₀.bcast_S35x16_S1x35x16_1_2 a (ix3 (0 : Fin 1) l k) (ix2 l k) (fun c => match c with
    | ⟨0, _⟩ => by show l.val = if (35 : Nat) = 1 then 0 else l.val; rw [if_neg (by decide)]
    | ⟨1, _⟩ => by show k.val = if (16 : Nat) = 1 then 0 else k.val; rw [if_neg (by decide)])

theorem stackW1_apply1 (a b : Vec F S35x16 .f32) (l : Fin 35) (k : Fin 16) :
    stackW1 a b (ix3 (1 : Fin 2) l k) = b (ix2 l k) := by
  unfold stackW1
  refine (concatenate_pair_apply_right (0 : Fin S2x35x16.rank) _ _
    Cert.KernelIdeal.Facts₀.concatenates_S1x35x16_S1x35x16_S2x35x16_d0 (ix3 (1 : Fin 2) l k) rfl rfl (ix3 (0 : Fin 1) l k)
    (fun c => match c with | ⟨0, _⟩ => fun h => absurd rfl h | ⟨1, _⟩ => fun _ => rfl | ⟨2, _⟩ => fun _ => rfl) rfl).trans ?_
  exact broadcastInDim_apply _ Cert.KernelIdeal.Facts₀.bcast_S35x16_S1x35x16_1_2 b (ix3 (0 : Fin 1) l k) (ix2 l k) (fun c => match c with
    | ⟨0, _⟩ => by show l.val = if (35 : Nat) = 1 then 0 else l.val; rw [if_neg (by decide)]
    | ⟨1, _⟩ => by show k.val = if (16 : Nat) = 1 then 0 else k.val; rw [if_neg (by decide)])

theorem stackW2_apply0 (a b : Vec F S16x16 .f32) (k : Fin 16) (j : Fin 16) :
    stackW2 a b (ix3 (0 : Fin 2) k j) = a (ix2 k j) := by
  unfold stackW2
  refine (concatenate_pair_apply_left (0 : Fin S2x16x16.rank) _ _
    Cert.KernelIdeal.Facts₀.concatenates_S1x16x16_S1x16x16_S2x16x16_d0 (ix3 (0 : Fin 2) k j) rfl (ix3 (0 : Fin 1) k j)
    (fun c => match c with | ⟨0, _⟩ => rfl | ⟨1, _⟩ => rfl | ⟨2, _⟩ => rfl)).trans ?_
  exact broadcastInDim_apply _ Cert.KernelIdeal.Facts₀.bcast_S16x16_S1x16x16_1_2 a (ix3 (0 : Fin 1) k j) (ix2 k j) (fun c => match c with
    | ⟨0, _⟩ => by show k.val = if (16 : Nat) = 1 then 0 else k.val; rw [if_neg (by decide)]
    | ⟨1, _⟩ => by show j.val = if (16 : Nat) = 1 then 0 else j.val; rw [if_neg (by decide)])

theorem stackW2_apply1 (a b : Vec F S16x16 .f32) (k : Fin 16) (j : Fin 16) :
    stackW2 a b (ix3 (1 : Fin 2) k j) = b (ix2 k j) := by
  unfold stackW2
  refine (concatenate_pair_apply_right (0 : Fin S2x16x16.rank) _ _
    Cert.KernelIdeal.Facts₀.concatenates_S1x16x16_S1x16x16_S2x16x16_d0 (ix3 (1 : Fin 2) k j) rfl rfl (ix3 (0 : Fin 1) k j)
    (fun c => match c with | ⟨0, _⟩ => fun h => absurd rfl h | ⟨1, _⟩ => fun _ => rfl | ⟨2, _⟩ => fun _ => rfl) rfl).trans ?_
  exact broadcastInDim_apply _ Cert.KernelIdeal.Facts₀.bcast_S16x16_S1x16x16_1_2 b (ix3 (0 : Fin 1) k j) (ix2 k j) (fun c => match c with
    | ⟨0, _⟩ => by show k.val = if (16 : Nat) = 1 then 0 else k.val; rw [if_neg (by decide)]
    | ⟨1, _⟩ => by show j.val = if (16 : Nat) = 1 then 0 else j.val; rw [if_neg (by decide)])

theorem stackB_apply0 (a b : Vec F S16 .f32) (k : Fin 16) :
    stackB a b (ix2 (0 : Fin 2) k) = a (ix1 k) := by
  unfold stackB
  refine (concatenate_pair_apply_left (0 : Fin S2x16.rank) _ _
    Cert.KernelIdeal.Facts₀.concatenates_S1x16_S1x16_S2x16_d0 (ix2 (0 : Fin 2) k) rfl (ix2 (0 : Fin 1) k)
    (fun c => match c with | ⟨0, _⟩ => rfl | ⟨1, _⟩ => rfl)).trans ?_
  exact broadcastInDim_apply _ Cert.KernelIdeal.Facts₀.bcast_S16_S1x16_1 a (ix2 (0 : Fin 1) k) (ix1 k) (fun c => match c with
    | ⟨0, _⟩ => by show k.val = if (16 : Nat) = 1 then 0 else k.val; rw [if_neg (by decide)])

theorem stackB_apply1 (a b : Vec F S16 .f32) (k : Fin 16) :
    stackB a b (ix2 (1 : Fin 2) k) = b (ix1 k) := by
  unfold stackB
  refine (concatenate_pair_apply_right (0 : Fin S2x16.rank) _ _
    Cert.KernelIdeal.Facts₀.concatenates_S1x16_S1x16_S2x16_d0 (ix2 (1 : Fin 2) k) rfl rfl (ix2 (0 : Fin 1) k)
    (fun c => match c with | ⟨0, _⟩ => fun h => absurd rfl h | ⟨1, _⟩ => fun _ => rfl) rfl).trans ?_
  exact broadcastInDim_apply _ Cert.KernelIdeal.Facts₀.bcast_S16_S1x16_1 b (ix2 (0 : Fin 1) k) (ix1 k) (fun c => match c with
    | ⟨0, _⟩ => by show k.val = if (16 : Nat) = 1 then 0 else k.val; rw [if_neg (by decide)])

theorem maskedHalf0_apply (ms : Vec Ideal S2x800000x16 .f32) (mask : Vec Ideal S800000x1 .f32) (e : Fin 800000) (j : Fin 16) :
    maskedHalf0 (F := Ideal) ms mask (ix2 e j) = ms (ix3 (0 : Fin 2) e j) * mask (ix2 e (0 : Fin 1)) := by
  unfold maskedHalf0
  refine (shapeCast_1ab_ab_apply _ Cert.KernelIdeal.Facts₀.shapeCasts_S1x800000x16_S800000x16 e j).trans ?_
  refine (extractStridedSlice_apply ![0, 0, 0] _ Cert.KernelIdeal.Facts₀.slices_S2x800000x16_S1x800000x16_0_0_0
    (ix3 (0 : Fin 1) e j) (ix3 (0 : Fin 2) e j) (fun c => match c with
      | ⟨0, _⟩ => by show 0 = 0 + 0; rfl
      | ⟨1, _⟩ => by show e.val = 0 + e.val; omega
      | ⟨2, _⟩ => by show j.val = 0 + j.val; omega)).trans ?_
  rw [mulf_apply]
  congr 1
  refine (broadcastInDim_apply _ Cert.KernelIdeal.Facts₀.bcast_S1x800000x1_S2x800000x16_0_1_2 _ (ix3 (0 : Fin 2) e j)
    (ix3 (0 : Fin 1) e (0 : Fin 1)) (fun c => match c with
      | ⟨0, _⟩ => by show 0 = if (1 : Nat) = 1 then 0 else 0; rw [if_pos rfl]
      | ⟨1, _⟩ => by show e.val = if (800000 : Nat) = 1 then 0 else e.val; rw [if_neg (by decide)]
      | ⟨2, _⟩ => by show 0 = if (1 : Nat) = 1 then 0 else j.val; rw [if_pos rfl])).trans ?_
  exact broadcastInDim_apply _ Cert.KernelIdeal.Facts₀.bcast_S800000x1_S1x800000x1_1_2 mask (ix3 (0 : Fin 1) e (0 : Fin 1))
    (ix2 e (0 : Fin 1)) (fun c => match c with
      | ⟨0, _⟩ => by show e.val = if (800000 : Nat) = 1 then 0 else e.val; rw [if_neg (by decide)]
      | ⟨1, _⟩ => by show 0 = if (1 : Nat) = 1 then 0 else 0; rw [if_pos rfl])

theorem maskedHalf1_apply (ms : Vec Ideal S2x800000x16 .f32) (mask : Vec Ideal S800000x1 .f32) (e : Fin 800000) (j : Fin 16) :
    maskedHalf1 (F := Ideal) ms mask (ix2 e j) = ms (ix3 (1 : Fin 2) e j) * mask (ix2 e (0 : Fin 1)) := by
  unfold maskedHalf1
  refine (shapeCast_1ab_ab_apply _ Cert.KernelIdeal.Facts₀.shapeCasts_S1x800000x16_S800000x16 e j).trans ?_
  refine (extractStridedSlice_apply ![1, 0, 0] _ Cert.KernelIdeal.Facts₀.slices_S2x800000x16_S1x800000x16_1_0_0
    (ix3 (0 : Fin 1) e j) (ix3 (1 : Fin 2) e j) (fun c => match c with
      | ⟨0, _⟩ => by show 1 = 1 + 0; rfl
      | ⟨1, _⟩ => by show e.val = 0 + e.val; omega
      | ⟨2, _⟩ => by show j.val = 0 + j.val; omega)).trans ?_
  rw [mulf_apply]
  congr 1
  refine (broadcastInDim_apply _ Cert.KernelIdeal.Facts₀.bcast_S1x800000x1_S2x800000x16_0_1_2 _ (ix3 (1 : Fin 2) e j)
    (ix3 (0 : Fin 1) e (0 : Fin 1)) (fun c => match c with
      | ⟨0, _⟩ => by show 0 = if (1 : Nat) = 1 then 0 else 1; rw [if_pos rfl]
      | ⟨1, _⟩ => by show e.val = if (800000 : Nat) = 1 then 0 else e.val; rw [if_neg (by decide)]
      | ⟨2, _⟩ => by show 0 = if (1 : Nat) = 1 then 0 else j.val; rw [if_pos rfl])).trans ?_
  exact broadcastInDim_apply _ Cert.KernelIdeal.Facts₀.bcast_S800000x1_S1x800000x1_1_2 mask (ix3 (0 : Fin 1) e (0 : Fin 1))
    (ix2 e (0 : Fin 1)) (fun c => match c with
      | ⟨0, _⟩ => by show e.val = if (800000 : Nat) = 1 then 0 else e.val; rw [if_neg (by decide)]
      | ⟨1, _⟩ => by show 0 = if (1 : Nat) = 1 then 0 else 0; rw [if_pos rfl])

theorem dot35_lhs0 (i : Cert.ReferenceIdeal.S800000x16.Idx) (q : Cert.ReferenceIdeal.dot_S800000x35_S35x16_S800000x16_1_0_0_1_n_n.contr.Idx) :
    (Cert.ReferenceIdeal.dot_S800000x35_S35x16_S800000x16_1_0_0_1_n_n.lhsIdx i q 0).val = (i 0).val := by
  unfold DotDims.lhsIdx
  rw [dif_neg (show ¬(0 : Fin Cert.ReferenceIdeal.S800000x35.rank) ∈ Cert.ReferenceIdeal.dot_S800000x35_S35x16_S800000x16_1_0_0_1_n_n.lhsBatch from List.not_mem_nil),
    dif_pos (show (0 : Fin Cert.ReferenceIdeal.S800000x35.rank) ∈ Cert.ReferenceIdeal.dot_S800000x35_S35x16_S800000x16_1_0_0_1_n_n.lhsNonContracting from List.mem_singleton.mpr rfl)]
  rfl
theorem dot35_lhs1 (i : Cert.ReferenceIdeal.S800000x16.Idx) (q : Cert.ReferenceIdeal.dot_S800000x35_S35x16_S800000x16_1_0_0_1_n_n.contr.Idx) :
    (Cert.ReferenceIdeal.dot_S800000x35_S35x16_S800000x16_1_0_0_1_n_n.lhsIdx i q 1).val = (q ⟨0, (Nat.one_pos : 0 < Cert.ReferenceIdeal.dot_S800000x35_S35x16_S800000x16_1_0_0_1_n_n.contr.rank)⟩).val :=
  Cert.ReferenceIdeal.dot_S800000x35_S35x16_S800000x16_1_0_0_1_n_n.lhsIdx_val_of_single rfl i q
theorem dot35_rhs0 (i : Cert.ReferenceIdeal.S800000x16.Idx) (q : Cert.ReferenceIdeal.dot_S800000x35_S35x16_S800000x16_1_0_0_1_n_n.contr.Idx) :
    (Cert.ReferenceIdeal.dot_S800000x35_S35x16_S800000x16_1_0_0_1_n_n.rhsIdx i q 0).val = (q ⟨0, (Nat.one_pos : 0 < Cert.ReferenceIdeal.dot_S800000x35_S35x16_S800000x16_1_0_0_1_n_n.contr.rank)⟩).val :=
  Cert.ReferenceIdeal.dot_S800000x35_S35x16_S800000x16_1_0_0_1_n_n.rhsIdx_val_of_single rfl i q
theorem dot35_rhs1 (i : Cert.ReferenceIdeal.S800000x16.Idx) (q : Cert.ReferenceIdeal.dot_S800000x35_S35x16_S800000x16_1_0_0_1_n_n.contr.Idx) :
    (Cert.ReferenceIdeal.dot_S800000x35_S35x16_S800000x16_1_0_0_1_n_n.rhsIdx i q 1).val = (i 1).val := by
  unfold DotDims.rhsIdx
  rw [dif_neg (show ¬(1 : Fin Cert.ReferenceIdeal.S35x16.rank) ∈ Cert.ReferenceIdeal.dot_S800000x35_S35x16_S800000x16_1_0_0_1_n_n.rhsBatch from List.not_mem_nil),
    dif_pos (show (1 : Fin Cert.ReferenceIdeal.S35x16.rank) ∈ Cert.ReferenceIdeal.dot_S800000x35_S35x16_S800000x16_1_0_0_1_n_n.rhsNonContracting from List.mem_singleton.mpr rfl)]
  rfl

theorem dot35_apply (y0 : FVec Ideal Cert.ReferenceIdeal.S800000x35 .f32) (y1 : FVec Ideal Cert.ReferenceIdeal.S35x16 .f32) (e : Fin 800000) (j : Fin 16) :
    Host.dotGeneral (F := Ideal) Cert.ReferenceIdeal.dot_S800000x35_S35x16_S800000x16_1_0_0_1_n_n none y0 y1 (ix2 e j) = ∑ k : Fin 35, y0 (ix2 e k) * y1 (ix2 k j) := by
  simp only [Host.dotGeneral]
  rw [Ideal.dotGeneral_apply, ← Equiv.sum_comp (ValueIdx.contrEquiv1 Cert.ReferenceIdeal.dot_S800000x35_S35x16_S800000x16_1_0_0_1_n_n 35 rfl rfl).symm]
  refine Finset.sum_congr rfl fun k _ => ?_
  have hk := ValueIdx.contrEquiv1_symm_val Cert.ReferenceIdeal.dot_S800000x35_S35x16_S800000x16_1_0_0_1_n_n 35 rfl rfl k
  have el : Cert.ReferenceIdeal.dot_S800000x35_S35x16_S800000x16_1_0_0_1_n_n.lhsIdx (ix2 e j) ((ValueIdx.contrEquiv1 Cert.ReferenceIdeal.dot_S800000x35_S35x16_S800000x16_1_0_0_1_n_n 35 rfl rfl).symm k) = ix2 e k := funext fun a => Fin.ext (by
    match a with
    | ⟨0, _⟩ => exact dot35_lhs0 _ _
    | ⟨1, _⟩ => exact (dot35_lhs1 _ _).trans hk)
  have er : Cert.ReferenceIdeal.dot_S800000x35_S35x16_S800000x16_1_0_0_1_n_n.rhsIdx (ix2 e j) ((ValueIdx.contrEquiv1 Cert.ReferenceIdeal.dot_S800000x35_S35x16_S800000x16_1_0_0_1_n_n 35 rfl rfl).symm k) = ix2 k j := funext fun a => Fin.ext (by
    match a with
    | ⟨0, _⟩ => exact (dot35_rhs0 _ _).trans hk
    | ⟨1, _⟩ => exact dot35_rhs1 _ _)
  rw [el, er]

theorem dot16_lhs0 (i : Cert.ReferenceIdeal.S800000x16.Idx) (q : Cert.ReferenceIdeal.dot_S800000x16_S16x16_S800000x16_1_0_0_1_n_n.contr.Idx) :
    (Cert.ReferenceIdeal.dot_S800000x16_S16x16_S800000x16_1_0_0_1_n_n.lhsIdx i q 0).val = (i 0).val := by
  unfold DotDims.lhsIdx
  rw [dif_neg (show ¬(0 : Fin Cert.ReferenceIdeal.S800000x16.rank) ∈ Cert.ReferenceIdeal.dot_S800000x16_S16x16_S800000x16_1_0_0_1_n_n.lhsBatch from List.not_mem_nil),
    dif_pos (show (0 : Fin Cert.ReferenceIdeal.S800000x16.rank) ∈ Cert.ReferenceIdeal.dot_S800000x16_S16x16_S800000x16_1_0_0_1_n_n.lhsNonContracting from List.mem_singleton.mpr rfl)]
  rfl
theorem dot16_lhs1 (i : Cert.ReferenceIdeal.S800000x16.Idx) (q : Cert.ReferenceIdeal.dot_S800000x16_S16x16_S800000x16_1_0_0_1_n_n.contr.Idx) :
    (Cert.ReferenceIdeal.dot_S800000x16_S16x16_S800000x16_1_0_0_1_n_n.lhsIdx i q 1).val = (q ⟨0, (Nat.one_pos : 0 < Cert.ReferenceIdeal.dot_S800000x16_S16x16_S800000x16_1_0_0_1_n_n.contr.rank)⟩).val :=
  Cert.ReferenceIdeal.dot_S800000x16_S16x16_S800000x16_1_0_0_1_n_n.lhsIdx_val_of_single rfl i q
theorem dot16_rhs0 (i : Cert.ReferenceIdeal.S800000x16.Idx) (q : Cert.ReferenceIdeal.dot_S800000x16_S16x16_S800000x16_1_0_0_1_n_n.contr.Idx) :
    (Cert.ReferenceIdeal.dot_S800000x16_S16x16_S800000x16_1_0_0_1_n_n.rhsIdx i q 0).val = (q ⟨0, (Nat.one_pos : 0 < Cert.ReferenceIdeal.dot_S800000x16_S16x16_S800000x16_1_0_0_1_n_n.contr.rank)⟩).val :=
  Cert.ReferenceIdeal.dot_S800000x16_S16x16_S800000x16_1_0_0_1_n_n.rhsIdx_val_of_single rfl i q
theorem dot16_rhs1 (i : Cert.ReferenceIdeal.S800000x16.Idx) (q : Cert.ReferenceIdeal.dot_S800000x16_S16x16_S800000x16_1_0_0_1_n_n.contr.Idx) :
    (Cert.ReferenceIdeal.dot_S800000x16_S16x16_S800000x16_1_0_0_1_n_n.rhsIdx i q 1).val = (i 1).val := by
  unfold DotDims.rhsIdx
  rw [dif_neg (show ¬(1 : Fin Cert.ReferenceIdeal.S16x16.rank) ∈ Cert.ReferenceIdeal.dot_S800000x16_S16x16_S800000x16_1_0_0_1_n_n.rhsBatch from List.not_mem_nil),
    dif_pos (show (1 : Fin Cert.ReferenceIdeal.S16x16.rank) ∈ Cert.ReferenceIdeal.dot_S800000x16_S16x16_S800000x16_1_0_0_1_n_n.rhsNonContracting from List.mem_singleton.mpr rfl)]
  rfl

theorem dot16_apply (y0 : FVec Ideal Cert.ReferenceIdeal.S800000x16 .f32) (y1 : FVec Ideal Cert.ReferenceIdeal.S16x16 .f32) (e : Fin 800000) (j : Fin 16) :
    Host.dotGeneral (F := Ideal) Cert.ReferenceIdeal.dot_S800000x16_S16x16_S800000x16_1_0_0_1_n_n none y0 y1 (ix2 e j) = ∑ k : Fin 16, y0 (ix2 e k) * y1 (ix2 k j) := by
  simp only [Host.dotGeneral]
  rw [Ideal.dotGeneral_apply, ← Equiv.sum_comp (ValueIdx.contrEquiv1 Cert.ReferenceIdeal.dot_S800000x16_S16x16_S800000x16_1_0_0_1_n_n 16 rfl rfl).symm]
  refine Finset.sum_congr rfl fun k _ => ?_
  have hk := ValueIdx.contrEquiv1_symm_val Cert.ReferenceIdeal.dot_S800000x16_S16x16_S800000x16_1_0_0_1_n_n 16 rfl rfl k
  have el : Cert.ReferenceIdeal.dot_S800000x16_S16x16_S800000x16_1_0_0_1_n_n.lhsIdx (ix2 e j) ((ValueIdx.contrEquiv1 Cert.ReferenceIdeal.dot_S800000x16_S16x16_S800000x16_1_0_0_1_n_n 16 rfl rfl).symm k) = ix2 e k := funext fun a => Fin.ext (by
    match a with
    | ⟨0, _⟩ => exact dot16_lhs0 _ _
    | ⟨1, _⟩ => exact (dot16_lhs1 _ _).trans hk)
  have er : Cert.ReferenceIdeal.dot_S800000x16_S16x16_S800000x16_1_0_0_1_n_n.rhsIdx (ix2 e j) ((ValueIdx.contrEquiv1 Cert.ReferenceIdeal.dot_S800000x16_S16x16_S800000x16_1_0_0_1_n_n 16 rfl rfl).symm k) = ix2 k j := funext fun a => Fin.ext (by
    match a with
    | ⟨0, _⟩ => exact (dot16_rhs0 _ _).trans hk
    | ⟨1, _⟩ => exact dot16_rhs1 _ _)
  rw [el, er]

theorem biasRows_apply {α : Type} (b : S16.Idx → α) (e : Fin 800000) (k : Fin 16) :
    broadcastInDim S800000x16 ![0, 1] Cert.ReferenceIdeal.Facts₀.bcast_S1x16_S800000x16_0_1
      (broadcastInDim S1x16 ![1] Cert.ReferenceIdeal.Facts₀.bcast_S16_S1x16_1 b) (ix2 e k) = b (ix1 k) := by
  refine (broadcastInDim_apply _ Cert.ReferenceIdeal.Facts₀.bcast_S1x16_S800000x16_0_1 _ (ix2 e k) (ix2 (0 : Fin 1) k) (fun c => match c with
    | ⟨0, _⟩ => by show 0 = if (1 : Nat) = 1 then 0 else e.val; rw [if_pos rfl]
    | ⟨1, _⟩ => by show k.val = if (16 : Nat) = 1 then 0 else k.val; rw [if_neg (by decide)])).trans ?_
  exact broadcastInDim_apply _ Cert.ReferenceIdeal.Facts₀.bcast_S16_S1x16_1 b (ix2 (0 : Fin 1) k) (ix1 k) (fun c => match c with
    | ⟨0, _⟩ => by show k.val = if (16 : Nat) = 1 then 0 else k.val; rw [if_neg (by decide)])

theorem maskCols_apply {α : Type} (m : S800000x1.Idx → α) (e : Fin 800000) (j : Fin 16) :
    broadcastInDim S800000x16 ![0, 1] Cert.ReferenceIdeal.Facts₀.bcast_S800000x1_S800000x16_0_1 m (ix2 e j) = m (ix2 e (0 : Fin 1)) :=
  broadcastInDim_apply _ Cert.ReferenceIdeal.Facts₀.bcast_S800000x1_S800000x16_0_1 m (ix2 e j) (ix2 e (0 : Fin 1)) (fun c => match c with
    | ⟨0, _⟩ => by show e.val = if (800000 : Nat) = 1 then 0 else e.val; rw [if_neg (by decide)]
    | ⟨1, _⟩ => by show 0 = if (1 : Nat) = 1 then 0 else j.val; rw [if_pos rfl])

theorem zeros_apply (i : S800000x16.Idx) :
    broadcastInDim S800000x16 ![] Cert.ReferenceIdeal.Facts₀.bcast_S_S800000x16 (constant (F := Ideal) S_ .f32 0x00000000#32) i = (0 : EReal) := by
  refine (broadcastInDim_apply _ Cert.ReferenceIdeal.Facts₀.bcast_S_S800000x16 _ i ix0 (fun c => c.elim0)).trans ?_
  rw [constant_apply, Ideal.ofBits_zero_f32]

theorem refMsg_apply (tmp : Vec Ideal S800000x35 .f32) (w1 : Vec Ideal S35x16 .f32) (b1 : Vec Ideal S16 .f32)
    (w2 : Vec Ideal S16x16 .f32) (b2 : Vec Ideal S16 .f32) (mask : Vec Ideal S800000x1 .f32) (e : Fin 800000) (j : Fin 16) :
    refMsg (F := Ideal) tmp w1 b1 w2 b2 mask (ix2 e j)
      = Cert.Hand.Spec.mlp (fun l => tmp (ix2 e l)) (fun l k => w1 (ix2 l k)) (fun k => b1 (ix1 k)) (fun k j => w2 (ix2 k j))
          (fun j => b2 (ix1 j)) j * mask (ix2 e (0 : Fin 1)) := by
  unfold refMsg Cert.Hand.Spec.mlp
  rw [mulf_apply, addf_apply, dot16_apply, maskCols_apply, biasRows_apply]
  congr 2
  refine Finset.sum_congr rfl fun k _ => ?_
  rw [maximumf_apply, addf_apply, dot35_apply, biasRows_apply, zeros_apply]

theorem edgeG_ix3 (x : S2x800000x35.Idx → EReal) (w1 : S2x35x16.Idx → EReal) (b1 : S2x16.Idx → EReal)
    (w2 : S2x16x16.Idx → EReal) (b2 : S2x16.Idx → EReal) (c : Fin 2) (e : Fin 800000) (j : Fin 16) :
    Cert.Hand.Spec.edgeG x w1 b1 w2 b2 (ix3 c e j)
      = Cert.Hand.Spec.mlp (fun l => x (ix3 c e l)) (fun l k => w1 (ix3 c l k)) (fun k => b1 (ix2 c k))
          (fun k j => w2 (ix3 c k j)) (fun j => b2 (ix2 c j)) j := rfl

theorem edge_half0 (ta tb : Vec Ideal S800000x35 .f32) (w1a w1b : Vec Ideal S35x16 .f32) (b1a b1b : Vec Ideal S16 .f32)
    (w2a w2b : Vec Ideal S16x16 .f32) (b2a b2b : Vec Ideal S16 .f32) (mask : Vec Ideal S800000x1 .f32) :
    maskedHalf0 (F := Ideal) (Cert.Hand.Spec.edgeG (stackX ta tb) (stackW1 w1a w1b) (stackB b1a b1b) (stackW2 w2a w2b) (stackB b2a b2b)) mask
      = refMsg ta w1a b1a w2a b2a mask := by
  funext i
  obtain ⟨e, j, rfl⟩ : ∃ (e : Fin 800000) (j : Fin 16), i = ix2 e j := ⟨i 0, i 1, eq_ix2 i⟩
  rw [maskedHalf0_apply, refMsg_apply, edgeG_ix3]
  simp only [stackX_apply0, stackW1_apply0, stackB_apply0, stackW2_apply0]

theorem edge_half1 (ta tb : Vec Ideal S800000x35 .f32) (w1a w1b : Vec Ideal S35x16 .f32) (b1a b1b : Vec Ideal S16 .f32)
    (w2a w2b : Vec Ideal S16x16 .f32) (b2a b2b : Vec Ideal S16 .f32) (mask : Vec Ideal S800000x1 .f32) :
    maskedHalf1 (F := Ideal) (Cert.Hand.Spec.edgeG (stackX ta tb) (stackW1 w1a w1b) (stackB b1a b1b) (stackW2 w2a w2b) (stackB b2a b2b)) mask
      = refMsg tb w1b b1b w2b b2b mask := by
  funext i
  obtain ⟨e, j, rfl⟩ : ∃ (e : Fin 800000) (j : Fin 16), i = ix2 e j := ⟨i 0, i 1, eq_ix2 i⟩
  rw [maskedHalf1_apply, refMsg_apply, edgeG_ix3]
  simp only [stackX_apply1, stackW1_apply1, stackB_apply1, stackW2_apply1]

end Cert.Hand.Bridge

end
-- ==== Proof.NodeBridge.lean ====
import proofs.«404712_j21509196219215_4_alg».proof.Proof.Spec
import proofs.«404712_j21509196219215_4_alg».proof.KernelIdeal
import proofs.«404712_j21509196219215_4_alg».proof.ReferenceIdeal
import Idealize.ShloMosaic.PureOps.Ideal.Laws
import Idealize.ShloMosaic.Lib.ValueIdx
import Idealize.ShloMosaic.Lib.Pipeline.Value
import Idealize.ShloMosaic.Lib.ValueLayout

noncomputable section

namespace Cert.Hand.Bridge

open Idealize.ShloMosaic Idealize.ShloMosaic.ValueIdx
open Cert.ReferenceIdeal (S100000x16 S100000x1 S100000x49 S49x16 S16x16 S16x1 S16 S1 S1x16 S1x1 S_)
open Cert.KernelIdeal (S100000x17)

section Chains

variable {F : FTy → Type} [FloatOps F] [Cert.KernelIdeal.Facts₀] [Cert.ReferenceIdeal.Facts₀]

def catFP (mfrom : Vec F S100000x16 .f32) (prb : Vec F S100000x1 .f32) : Vec F S100000x17 .f32 :=
  concatenate S100000x17 1 [⟨S100000x16, mfrom⟩, ⟨S100000x1, prb⟩] Cert.KernelIdeal.Facts₀.concatenates_S100000x16_S100000x1_S100000x17_d1

def hOf (hu : Vec F S100000x17 .f32) : Vec F S100000x16 .f32 :=
  extractStridedSlice S100000x16 ![0, 0] hu Cert.KernelIdeal.Facts₀.slices_S100000x17_S100000x16_0_0

def uOf (hu : Vec F S100000x17 .f32) : Vec F S100000x1 .f32 :=
  extractStridedSlice S100000x1 ![0, 16] hu Cert.KernelIdeal.Facts₀.slices_S100000x17_S100000x1_0_16

def cat4 (h mto mfrom : Vec F S100000x16 .f32) (prb : Vec F S100000x1 .f32) : Vec F S100000x49 .f32 :=
  concatenate S100000x49 1 [⟨S100000x16, h⟩, ⟨S100000x16, mto⟩, ⟨S100000x16, mfrom⟩, ⟨S100000x1, prb⟩] Cert.ReferenceIdeal.Facts₀.concatenates_S100000x16_S100000x16_S100000x16_S100000x1_S100000x49_d1

def bias16 (b : Vec F S16 .f32) : Vec F S100000x16 .f32 :=
  broadcastInDim S100000x16 ![0, 1] Cert.ReferenceIdeal.Facts₀.bcast_S1x16_S100000x16_0_1 (broadcastInDim S1x16 ![1] Cert.ReferenceIdeal.Facts₀.bcast_S16_S1x16_1 b)

def bias1 (b : Vec F S1 .f32) : Vec F S100000x1 .f32 :=
  broadcastInDim S100000x1 ![0, 1] Cert.ReferenceIdeal.Facts₀.bcast_S1x1_S100000x1_0_1 (broadcastInDim S1x1 ![1] Cert.ReferenceIdeal.Facts₀.bcast_S1_S1x1_1 b)

def relu16 (x : Vec F S100000x16 .f32) : Vec F S100000x16 .f32 :=
  maximumf x (broadcastInDim S100000x16 ![] Cert.ReferenceIdeal.Facts₀.bcast_S_S100000x16 (constant (F := F) S_ .f32 0x00000000#32))

def tenth16 : Vec F S100000x16 .f32 :=
  broadcastInDim S100000x16 ![] Cert.ReferenceIdeal.Facts₀.bcast_S_S100000x16 (constant (F := F) S_ .f32 0x3DCCCCCD#32)

def refH (h mto mfrom : Vec F S100000x16 .f32) (prb : Vec F S100000x1 .f32) (pw1 : Vec F S49x16 .f32) (pb1 : Vec F S16 .f32)
    (pw2 : Vec F S16x16 .f32) (pb2 : Vec F S16 .f32) : Vec F S100000x16 .f32 :=
  addf h (mulf (tenth16 (F := F))
    (addf (Host.dotGeneral Cert.ReferenceIdeal.dot_S100000x16_S16x16_S100000x16_1_0_0_1_n_n none
        (relu16 (addf (Host.dotGeneral Cert.ReferenceIdeal.dot_S100000x49_S49x16_S100000x16_1_0_0_1_n_n none (cat4 h mto mfrom prb) pw1) (bias16 pb1)))
        pw2)
      (bias16 pb2)))

def refU (h' : Vec F S100000x16 .f32) (dw1 : Vec F S16x16 .f32) (db1 : Vec F S16 .f32) (dw2 : Vec F S16x1 .f32)
    (db2 : Vec F S1 .f32) : Vec F S100000x1 .f32 :=
  addf (Host.dotGeneral Cert.ReferenceIdeal.dot_S100000x16_S16x1_S100000x1_1_0_0_1_n_n none
      (relu16 (addf (Host.dotGeneral Cert.ReferenceIdeal.dot_S100000x16_S16x16_S100000x16_1_0_0_1_n_n none h' dw1) (bias16 db1)))
      dw2)
    (bias1 db2)

end Chains

section Reads

variable {F : FTy → Type} [FloatOps F] [Cert.KernelIdeal.Facts₀] [Cert.ReferenceIdeal.Facts₀]

theorem catFP_apply_left (mfrom : Vec F S100000x16 .f32) (prb : Vec F S100000x1 .f32) (n : Fin 100000) (c : Fin 17)
    (hc : c.val < 16) : catFP mfrom prb (ix2 n c) = mfrom (ix2 n ⟨c.val, hc⟩) := by
  unfold catFP
  exact concatenate_pair_apply_left 1 mfrom prb _ (ix2 n c) rfl (ix2 n ⟨c.val, hc⟩)
    (fun b => match b with | ⟨0, _⟩ => rfl | ⟨1, _⟩ => rfl)

theorem catFP_apply_right (mfrom : Vec F S100000x16 .f32) (prb : Vec F S100000x1 .f32) (n : Fin 100000) (c : Fin 17)
    (hc : 16 ≤ c.val) : catFP mfrom prb (ix2 n c) = prb (ix2 n (0 : Fin 1)) := by
  unfold catFP
  exact concatenate_pair_apply_right 1 mfrom prb _ (ix2 n c) rfl rfl (ix2 n (0 : Fin 1))
    (fun b => match b with | ⟨0, _⟩ => fun _ => rfl | ⟨1, _⟩ => fun hb => absurd rfl hb)
    (by have := c.isLt; show 0 + 16 = c.val; omega)

theorem hOf_apply (hu : Vec F S100000x17 .f32) (n : Fin 100000) (j : Fin 16) :
    hOf hu (ix2 n j) = hu (ix2 n ⟨j.val, by have := j.isLt; omega⟩) := by
  unfold hOf
  exact extractStridedSlice_apply _ hu _ (ix2 n j) (ix2 n ⟨j.val, by have := j.isLt; omega⟩) (fun a => match a with
    | ⟨0, _⟩ => by show n.val = 0 + n.val; omega
    | ⟨1, _⟩ => by show j.val = 0 + j.val; omega)

theorem uOf_apply (hu : Vec F S100000x17 .f32) (n : Fin 100000) (j : Fin 1) :
    uOf hu (ix2 n j) = hu (ix2 n (⟨16, by decide⟩ : Fin 17)) := by
  unfold uOf
  exact extractStridedSlice_apply _ hu _ (ix2 n j) (ix2 n (⟨16, by decide⟩ : Fin 17)) (fun a => match a with
    | ⟨0, _⟩ => by show n.val = 0 + n.val; omega
    | ⟨1, _⟩ => by have := j.isLt; show 16 = 16 + j.val; omega)

theorem bias16_apply (b : Vec F S16 .f32) (n : Fin 100000) (j : Fin 16) : bias16 b (ix2 n j) = b (ix1 j) := by
  unfold bias16
  rw [broadcastInDim_apply _ Cert.ReferenceIdeal.Facts₀.bcast_S1x16_S100000x16_0_1 _ (ix2 n j) (ix2 (0 : Fin 1) j) (fun a => match a with
    | ⟨0, _⟩ => by show 0 = if (1 : Nat) = 1 then 0 else n.val; rw [if_pos rfl]
    | ⟨1, _⟩ => by show j.val = if (16 : Nat) = 1 then 0 else j.val; rw [if_neg (by decide)])]
  exact broadcastInDim_apply _ Cert.ReferenceIdeal.Facts₀.bcast_S16_S1x16_1 b (ix2 (0 : Fin 1) j) (ix1 j) (fun a => match a with
    | ⟨0, _⟩ => by show j.val = if (16 : Nat) = 1 then 0 else j.val; rw [if_neg (by decide)])

theorem bias1_apply (b : Vec F S1 .f32) (n : Fin 100000) (j : Fin 1) : bias1 b (ix2 n j) = b (ix1 (0 : Fin 1)) := by
  unfold bias1
  rw [broadcastInDim_apply _ Cert.ReferenceIdeal.Facts₀.bcast_S1x1_S100000x1_0_1 _ (ix2 n j) (ix2 (0 : Fin 1) (0 : Fin 1)) (fun a => match a with
    | ⟨0, _⟩ => by show 0 = if (1 : Nat) = 1 then 0 else n.val; rw [if_pos rfl]
    | ⟨1, _⟩ => by show 0 = if (1 : Nat) = 1 then 0 else j.val; rw [if_pos rfl])]
  exact broadcastInDim_apply _ Cert.ReferenceIdeal.Facts₀.bcast_S1_S1x1_1 b (ix2 (0 : Fin 1) (0 : Fin 1)) (ix1 (0 : Fin 1)) (fun a => match a with
    | ⟨0, _⟩ => by show 0 = if (1 : Nat) = 1 then 0 else 0; rw [if_pos rfl])

end Reads

section Ideal

variable [Cert.KernelIdeal.Facts₀] [Cert.ReferenceIdeal.Facts₀]

theorem tenth16_apply (i : S100000x16.Idx) : tenth16 (F := Ideal) i = Ideal.ofBits .f32 0x3DCCCCCD#32 := by
  unfold tenth16
  exact broadcastInDim_apply _ Cert.ReferenceIdeal.Facts₀.bcast_S_S100000x16 _ i ix0 (fun a => a.elim0)

theorem relu16_apply (x : Vec Ideal S100000x16 .f32) (i : S100000x16.Idx) : relu16 x i = max (x i) 0 := by
  unfold relu16
  rw [maximumf_apply, broadcastInDim_apply _ Cert.ReferenceIdeal.Facts₀.bcast_S_S100000x16 _ i ix0 (fun a => a.elim0),
    constant_apply, Ideal.ofBits_zero_f32]

theorem dot49_apply (x : Vec Ideal S100000x49 .f32) (w : Vec Ideal S49x16 .f32) (n : Fin 100000) (j : Fin 16) :
    Host.dotGeneral (F := Ideal) (φ₁ := .f32) (φ₂ := .f32) Cert.ReferenceIdeal.dot_S100000x49_S49x16_S100000x16_1_0_0_1_n_n none x w (ix2 n j) = ∑ l : Fin 49, x (ix2 n l) * w (ix2 l j) := by

  have l0 : ∀ q : (Cert.ReferenceIdeal.dot_S100000x49_S49x16_S100000x16_1_0_0_1_n_n).contr.Idx, ((Cert.ReferenceIdeal.dot_S100000x49_S49x16_S100000x16_1_0_0_1_n_n).lhsIdx (ix2 n j) q 0).val = n.val := fun q => by
    unfold DotDims.lhsIdx
    rw [dif_neg (show ¬(0 : Fin S100000x49.rank) ∈ (Cert.ReferenceIdeal.dot_S100000x49_S49x16_S100000x16_1_0_0_1_n_n).lhsBatch from List.not_mem_nil),
      dif_pos (show (0 : Fin S100000x49.rank) ∈ (Cert.ReferenceIdeal.dot_S100000x49_S49x16_S100000x16_1_0_0_1_n_n).lhsNonContracting from List.mem_singleton.2 rfl)]
    rfl
  have l1 : ∀ q : (Cert.ReferenceIdeal.dot_S100000x49_S49x16_S100000x16_1_0_0_1_n_n).contr.Idx, ((Cert.ReferenceIdeal.dot_S100000x49_S49x16_S100000x16_1_0_0_1_n_n).lhsIdx (ix2 n j) q 1).val = (q ⟨0, (Nat.one_pos : 0 < (Cert.ReferenceIdeal.dot_S100000x49_S49x16_S100000x16_1_0_0_1_n_n).contr.rank)⟩).val := fun q =>
    (Cert.ReferenceIdeal.dot_S100000x49_S49x16_S100000x16_1_0_0_1_n_n).lhsIdx_val_of_single rfl (ix2 n j) q
  have r0 : ∀ q : (Cert.ReferenceIdeal.dot_S100000x49_S49x16_S100000x16_1_0_0_1_n_n).contr.Idx, ((Cert.ReferenceIdeal.dot_S100000x49_S49x16_S100000x16_1_0_0_1_n_n).rhsIdx (ix2 n j) q 0).val = (q ⟨0, (Nat.one_pos : 0 < (Cert.ReferenceIdeal.dot_S100000x49_S49x16_S100000x16_1_0_0_1_n_n).contr.rank)⟩).val := fun q =>
    (Cert.ReferenceIdeal.dot_S100000x49_S49x16_S100000x16_1_0_0_1_n_n).rhsIdx_val_of_single rfl (ix2 n j) q
  have r1 : ∀ q : (Cert.ReferenceIdeal.dot_S100000x49_S49x16_S100000x16_1_0_0_1_n_n).contr.Idx, ((Cert.ReferenceIdeal.dot_S100000x49_S49x16_S100000x16_1_0_0_1_n_n).rhsIdx (ix2 n j) q 1).val = j.val := fun q => by
    unfold DotDims.rhsIdx
    rw [dif_neg (show ¬(1 : Fin S49x16.rank) ∈ (Cert.ReferenceIdeal.dot_S100000x49_S49x16_S100000x16_1_0_0_1_n_n).rhsBatch from List.not_mem_nil),
      dif_pos (show (1 : Fin S49x16.rank) ∈ (Cert.ReferenceIdeal.dot_S100000x49_S49x16_S100000x16_1_0_0_1_n_n).rhsNonContracting from List.mem_singleton.2 rfl)]
    rfl
  simp only [Host.dotGeneral]
  rw [Ideal.dotGeneral_apply, ← Equiv.sum_comp (ValueIdx.contrEquiv1 Cert.ReferenceIdeal.dot_S100000x49_S49x16_S100000x16_1_0_0_1_n_n 49 rfl rfl).symm]
  refine Finset.sum_congr rfl fun k _ => ?_
  have hk := ValueIdx.contrEquiv1_symm_val Cert.ReferenceIdeal.dot_S100000x49_S49x16_S100000x16_1_0_0_1_n_n 49 rfl rfl k
  have el : (Cert.ReferenceIdeal.dot_S100000x49_S49x16_S100000x16_1_0_0_1_n_n).lhsIdx (ix2 n j) ((ValueIdx.contrEquiv1 Cert.ReferenceIdeal.dot_S100000x49_S49x16_S100000x16_1_0_0_1_n_n 49 rfl rfl).symm k) = ix2 n k :=
    funext fun a => Fin.ext (by
      match a with
      | ⟨0, _⟩ => exact l0 _
      | ⟨1, _⟩ => exact (l1 _).trans hk)
  have er : (Cert.ReferenceIdeal.dot_S100000x49_S49x16_S100000x16_1_0_0_1_n_n).rhsIdx (ix2 n j) ((ValueIdx.contrEquiv1 Cert.ReferenceIdeal.dot_S100000x49_S49x16_S100000x16_1_0_0_1_n_n 49 rfl rfl).symm k) = ix2 k j :=
    funext fun a => Fin.ext (by
      match a with
      | ⟨0, _⟩ => exact (r0 _).trans hk
      | ⟨1, _⟩ => exact r1 _)
  rw [el, er]

theorem dotN16_apply (x : Vec Ideal S100000x16 .f32) (w : Vec Ideal S16x16 .f32) (n : Fin 100000) (j : Fin 16) :
    Host.dotGeneral (F := Ideal) (φ₁ := .f32) (φ₂ := .f32) Cert.ReferenceIdeal.dot_S100000x16_S16x16_S100000x16_1_0_0_1_n_n none x w (ix2 n j) = ∑ l : Fin 16, x (ix2 n l) * w (ix2 l j) := by

  have l0 : ∀ q : (Cert.ReferenceIdeal.dot_S100000x16_S16x16_S100000x16_1_0_0_1_n_n).contr.Idx, ((Cert.ReferenceIdeal.dot_S100000x16_S16x16_S100000x16_1_0_0_1_n_n).lhsIdx (ix2 n j) q 0).val = n.val := fun q => by
    unfold DotDims.lhsIdx
    rw [dif_neg (show ¬(0 : Fin S100000x16.rank) ∈ (Cert.ReferenceIdeal.dot_S100000x16_S16x16_S100000x16_1_0_0_1_n_n).lhsBatch from List.not_mem_nil),
      dif_pos (show (0 : Fin S100000x16.rank) ∈ (Cert.ReferenceIdeal.dot_S100000x16_S16x16_S100000x16_1_0_0_1_n_n).lhsNonContracting from List.mem_singleton.2 rfl)]
    rfl
  have l1 : ∀ q : (Cert.ReferenceIdeal.dot_S100000x16_S16x16_S100000x16_1_0_0_1_n_n).contr.Idx, ((Cert.ReferenceIdeal.dot_S100000x16_S16x16_S100000x16_1_0_0_1_n_n).lhsIdx (ix2 n j) q 1).val = (q ⟨0, (Nat.one_pos : 0 < (Cert.ReferenceIdeal.dot_S100000x16_S16x16_S100000x16_1_0_0_1_n_n).contr.rank)⟩).val := fun q =>
    (Cert.ReferenceIdeal.dot_S100000x16_S16x16_S100000x16_1_0_0_1_n_n).lhsIdx_val_of_single rfl (ix2 n j) q
  have r0 : ∀ q : (Cert.ReferenceIdeal.dot_S100000x16_S16x16_S100000x16_1_0_0_1_n_n).contr.Idx, ((Cert.ReferenceIdeal.dot_S100000x16_S16x16_S100000x16_1_0_0_1_n_n).rhsIdx (ix2 n j) q 0).val = (q ⟨0, (Nat.one_pos : 0 < (Cert.ReferenceIdeal.dot_S100000x16_S16x16_S100000x16_1_0_0_1_n_n).contr.rank)⟩).val := fun q =>
    (Cert.ReferenceIdeal.dot_S100000x16_S16x16_S100000x16_1_0_0_1_n_n).rhsIdx_val_of_single rfl (ix2 n j) q
  have r1 : ∀ q : (Cert.ReferenceIdeal.dot_S100000x16_S16x16_S100000x16_1_0_0_1_n_n).contr.Idx, ((Cert.ReferenceIdeal.dot_S100000x16_S16x16_S100000x16_1_0_0_1_n_n).rhsIdx (ix2 n j) q 1).val = j.val := fun q => by
    unfold DotDims.rhsIdx
    rw [dif_neg (show ¬(1 : Fin S16x16.rank) ∈ (Cert.ReferenceIdeal.dot_S100000x16_S16x16_S100000x16_1_0_0_1_n_n).rhsBatch from List.not_mem_nil),
      dif_pos (show (1 : Fin S16x16.rank) ∈ (Cert.ReferenceIdeal.dot_S100000x16_S16x16_S100000x16_1_0_0_1_n_n).rhsNonContracting from List.mem_singleton.2 rfl)]
    rfl
  simp only [Host.dotGeneral]
  rw [Ideal.dotGeneral_apply, ← Equiv.sum_comp (ValueIdx.contrEquiv1 Cert.ReferenceIdeal.dot_S100000x16_S16x16_S100000x16_1_0_0_1_n_n 16 rfl rfl).symm]
  refine Finset.sum_congr rfl fun k _ => ?_
  have hk := ValueIdx.contrEquiv1_symm_val Cert.ReferenceIdeal.dot_S100000x16_S16x16_S100000x16_1_0_0_1_n_n 16 rfl rfl k
  have el : (Cert.ReferenceIdeal.dot_S100000x16_S16x16_S100000x16_1_0_0_1_n_n).lhsIdx (ix2 n j) ((ValueIdx.contrEquiv1 Cert.ReferenceIdeal.dot_S100000x16_S16x16_S100000x16_1_0_0_1_n_n 16 rfl rfl).symm k) = ix2 n k :=
    funext fun a => Fin.ext (by
      match a with
      | ⟨0, _⟩ => exact l0 _
      | ⟨1, _⟩ => exact (l1 _).trans hk)
  have er : (Cert.ReferenceIdeal.dot_S100000x16_S16x16_S100000x16_1_0_0_1_n_n).rhsIdx (ix2 n j) ((ValueIdx.contrEquiv1 Cert.ReferenceIdeal.dot_S100000x16_S16x16_S100000x16_1_0_0_1_n_n 16 rfl rfl).symm k) = ix2 k j :=
    funext fun a => Fin.ext (by
      match a with
      | ⟨0, _⟩ => exact (r0 _).trans hk
      | ⟨1, _⟩ => exact r1 _)
  rw [el, er]

theorem dot16x1_apply (x : Vec Ideal S100000x16 .f32) (w : Vec Ideal S16x1 .f32) (n : Fin 100000) (j : Fin 1) :
    Host.dotGeneral (F := Ideal) (φ₁ := .f32) (φ₂ := .f32) Cert.ReferenceIdeal.dot_S100000x16_S16x1_S100000x1_1_0_0_1_n_n none x w (ix2 n j) = ∑ l : Fin 16, x (ix2 n l) * w (ix2 l j) := by

  have l0 : ∀ q : (Cert.ReferenceIdeal.dot_S100000x16_S16x1_S100000x1_1_0_0_1_n_n).contr.Idx, ((Cert.ReferenceIdeal.dot_S100000x16_S16x1_S100000x1_1_0_0_1_n_n).lhsIdx (ix2 n j) q 0).val = n.val := fun q => by
    unfold DotDims.lhsIdx
    rw [dif_neg (show ¬(0 : Fin S100000x16.rank) ∈ (Cert.ReferenceIdeal.dot_S100000x16_S16x1_S100000x1_1_0_0_1_n_n).lhsBatch from List.not_mem_nil),
      dif_pos (show (0 : Fin S100000x16.rank) ∈ (Cert.ReferenceIdeal.dot_S100000x16_S16x1_S100000x1_1_0_0_1_n_n).lhsNonContracting from List.mem_singleton.2 rfl)]
    rfl
  have l1 : ∀ q : (Cert.ReferenceIdeal.dot_S100000x16_S16x1_S100000x1_1_0_0_1_n_n).contr.Idx, ((Cert.ReferenceIdeal.dot_S100000x16_S16x1_S100000x1_1_0_0_1_n_n).lhsIdx (ix2 n j) q 1).val = (q ⟨0, (Nat.one_pos : 0 < (Cert.ReferenceIdeal.dot_S100000x16_S16x1_S100000x1_1_0_0_1_n_n).contr.rank)⟩).val := fun q =>
    (Cert.ReferenceIdeal.dot_S100000x16_S16x1_S100000x1_1_0_0_1_n_n).lhsIdx_val_of_single rfl (ix2 n j) q
  have r0 : ∀ q : (Cert.ReferenceIdeal.dot_S100000x16_S16x1_S100000x1_1_0_0_1_n_n).contr.Idx, ((Cert.ReferenceIdeal.dot_S100000x16_S16x1_S100000x1_1_0_0_1_n_n).rhsIdx (ix2 n j) q 0).val = (q ⟨0, (Nat.one_pos : 0 < (Cert.ReferenceIdeal.dot_S100000x16_S16x1_S100000x1_1_0_0_1_n_n).contr.rank)⟩).val := fun q =>
    (Cert.ReferenceIdeal.dot_S100000x16_S16x1_S100000x1_1_0_0_1_n_n).rhsIdx_val_of_single rfl (ix2 n j) q
  have r1 : ∀ q : (Cert.ReferenceIdeal.dot_S100000x16_S16x1_S100000x1_1_0_0_1_n_n).contr.Idx, ((Cert.ReferenceIdeal.dot_S100000x16_S16x1_S100000x1_1_0_0_1_n_n).rhsIdx (ix2 n j) q 1).val = j.val := fun q => by
    unfold DotDims.rhsIdx
    rw [dif_neg (show ¬(1 : Fin S16x1.rank) ∈ (Cert.ReferenceIdeal.dot_S100000x16_S16x1_S100000x1_1_0_0_1_n_n).rhsBatch from List.not_mem_nil),
      dif_pos (show (1 : Fin S16x1.rank) ∈ (Cert.ReferenceIdeal.dot_S100000x16_S16x1_S100000x1_1_0_0_1_n_n).rhsNonContracting from List.mem_singleton.2 rfl)]
    rfl
  simp only [Host.dotGeneral]
  rw [Ideal.dotGeneral_apply, ← Equiv.sum_comp (ValueIdx.contrEquiv1 Cert.ReferenceIdeal.dot_S100000x16_S16x1_S100000x1_1_0_0_1_n_n 16 rfl rfl).symm]
  refine Finset.sum_congr rfl fun k _ => ?_
  have hk := ValueIdx.contrEquiv1_symm_val Cert.ReferenceIdeal.dot_S100000x16_S16x1_S100000x1_1_0_0_1_n_n 16 rfl rfl k
  have el : (Cert.ReferenceIdeal.dot_S100000x16_S16x1_S100000x1_1_0_0_1_n_n).lhsIdx (ix2 n j) ((ValueIdx.contrEquiv1 Cert.ReferenceIdeal.dot_S100000x16_S16x1_S100000x1_1_0_0_1_n_n 16 rfl rfl).symm k) = ix2 n k :=
    funext fun a => Fin.ext (by
      match a with
      | ⟨0, _⟩ => exact l0 _
      | ⟨1, _⟩ => exact (l1 _).trans hk)
  have er : (Cert.ReferenceIdeal.dot_S100000x16_S16x1_S100000x1_1_0_0_1_n_n).rhsIdx (ix2 n j) ((ValueIdx.contrEquiv1 Cert.ReferenceIdeal.dot_S100000x16_S16x1_S100000x1_1_0_0_1_n_n 16 rfl rfl).symm k) = ix2 k j :=
    funext fun a => Fin.ext (by
      match a with
      | ⟨0, _⟩ => exact (r0 _).trans hk
      | ⟨1, _⟩ => exact r1 _)
  rw [el, er]

theorem cat4_apply (h mto mfrom : Vec Ideal S100000x16 .f32) (prb : Vec Ideal S100000x1 .f32) (n : Fin 100000) (l : Fin 49) :
    cat4 h mto mfrom prb (ix2 n l) = Spec.nodeRow h mto (catFP mfrom prb) n l := by
  have hl := l.isLt
  unfold Spec.nodeRow cat4
  by_cases h0 : l.val < 16
  · rw [dif_pos h0]
    exact concatenate_apply_piece 1 _ _ (ix2 n l) 0 (by simp) S100000x16 h rfl rfl 0 rfl (ix2 n ⟨l.val, h0⟩)
      (fun b => match b with | ⟨0, _⟩ => fun _ => rfl | ⟨1, _⟩ => fun hb => absurd rfl hb)
      (by show 0 + l.val = l.val; omega)
  · rw [dif_neg h0]
    by_cases h1 : l.val < 32
    · rw [dif_pos h1]
      exact concatenate_apply_piece 1 _ _ (ix2 n l) 1 (by simp) S100000x16 mto rfl rfl 16 rfl (ix2 n ⟨l.val - 16, by omega⟩)
        (fun b => match b with | ⟨0, _⟩ => fun _ => rfl | ⟨1, _⟩ => fun hb => absurd rfl hb)
        (by show 16 + (l.val - 16) = l.val; omega)
    · rw [dif_neg h1]
      by_cases h2 : l.val < 48
      · rw [catFP_apply_left mfrom prb n ⟨l.val - 32, by omega⟩ (by show l.val - 32 < 16; omega)]
        exact concatenate_apply_piece 1 _ _ (ix2 n l) 2 (by simp) S100000x16 mfrom rfl rfl 32 rfl (ix2 n ⟨l.val - 32, by omega⟩)
          (fun b => match b with | ⟨0, _⟩ => fun _ => rfl | ⟨1, _⟩ => fun hb => absurd rfl hb)
          (by show 32 + (l.val - 32) = l.val; omega)
      · rw [catFP_apply_right mfrom prb n ⟨l.val - 32, by omega⟩ (by show 16 ≤ l.val - 32; omega)]
        exact concatenate_apply_piece 1 _ _ (ix2 n l) 3 (by simp) S100000x1 prb rfl rfl 48 rfl (ix2 n (0 : Fin 1))
          (fun b => match b with | ⟨0, _⟩ => fun _ => rfl | ⟨1, _⟩ => fun hb => absurd rfl hb)
          (by show 48 + 0 = l.val; omega)

theorem refH_apply (h mto mfrom : Vec Ideal S100000x16 .f32) (prb : Vec Ideal S100000x1 .f32) (pw1 : Vec Ideal S49x16 .f32)
    (pb1 : Vec Ideal S16 .f32) (pw2 : Vec Ideal S16x16 .f32) (pb2 : Vec Ideal S16 .f32) (n : Fin 100000) (j : Fin 16) :
    refH h mto mfrom prb pw1 pb1 pw2 pb2 (ix2 n j) = Spec.hNew h mto (catFP mfrom prb) pw1 pb1 pw2 pb2 n j := by
  unfold refH Spec.hNew Spec.mlp
  simp only [addf_apply, mulf_apply, tenth16_apply, dotN16_apply, bias16_apply, relu16_apply, dot49_apply, cat4_apply]

theorem refU_apply (h' : Vec Ideal S100000x16 .f32) (dw1 : Vec Ideal S16x16 .f32) (db1 : Vec Ideal S16 .f32)
    (dw2 : Vec Ideal S16x1 .f32) (db2 : Vec Ideal S1 .f32) (n : Fin 100000) (j : Fin 1) :
    refU h' dw1 db1 dw2 db2 (ix2 n j) = Spec.mlp (fun l => h' (ix2 n l)) (fun l k => dw1 (ix2 l k)) (fun k => db1 (ix1 k))
      (fun k j => dw2 (ix2 k j)) (fun j => db2 (ix1 j)) (0 : Fin 1) := by
  have hj : j = 0 := Subsingleton.elim _ _
  subst hj
  unfold refU Spec.mlp
  simp only [addf_apply, dot16x1_apply, bias1_apply, relu16_apply, dotN16_apply, bias16_apply]

theorem node_h (h mto mfrom : Vec Ideal S100000x16 .f32) (prb : Vec Ideal S100000x1 .f32) (pw1 : Vec Ideal S49x16 .f32)
    (pb1 : Vec Ideal S16 .f32) (pw2 : Vec Ideal S16x16 .f32) (pb2 : Vec Ideal S16 .f32) (dw1 : Vec Ideal S16x16 .f32)
    (db1 : Vec Ideal S16 .f32) (dw2 : Vec Ideal S16x1 .f32) (db2 : Vec Ideal S1 .f32) :
    hOf (Cert.Hand.Spec.nodeG h mto (catFP mfrom prb) pw1 pb1 pw2 pb2 dw1 db1 dw2 db2) = refH h mto mfrom prb pw1 pb1 pw2 pb2 := by
  funext i
  obtain ⟨n, j, rfl⟩ : ∃ (n : Fin 100000) (j : Fin 16), i = ix2 n j := ⟨i 0, i 1, eq_ix2 i⟩
  rw [hOf_apply, refH_apply]
  show (if hj : j.val < 16 then Spec.hNew h mto (catFP mfrom prb) pw1 pb1 pw2 pb2 n ⟨j.val, hj⟩ else _) = _
  rw [dif_pos j.isLt]

theorem node_u (h mto mfrom : Vec Ideal S100000x16 .f32) (prb : Vec Ideal S100000x1 .f32) (pw1 : Vec Ideal S49x16 .f32)
    (pb1 : Vec Ideal S16 .f32) (pw2 : Vec Ideal S16x16 .f32) (pb2 : Vec Ideal S16 .f32) (dw1 : Vec Ideal S16x16 .f32)
    (db1 : Vec Ideal S16 .f32) (dw2 : Vec Ideal S16x1 .f32) (db2 : Vec Ideal S1 .f32) :
    uOf (Cert.Hand.Spec.nodeG h mto (catFP mfrom prb) pw1 pb1 pw2 pb2 dw1 db1 dw2 db2)
      = refU (refH h mto mfrom prb pw1 pb1 pw2 pb2) dw1 db1 dw2 db2 := by
  funext i
  obtain ⟨n, j, rfl⟩ : ∃ (n : Fin 100000) (j : Fin 1), i = ix2 n j := ⟨i 0, i 1, eq_ix2 i⟩
  rw [uOf_apply, refU_apply]
  show (if hj : (16 : Nat) < 16 then _ else Spec.uOut h mto (catFP mfrom prb) pw1 pb1 pw2 pb2 dw1 db1 dw2 db2 n) = _
  rw [dif_neg (by decide)]
  unfold Spec.uOut
  simp only [refH_apply]

end Ideal

end Cert.Hand.Bridge

end
-- ==== Proof.Pure.lean ====
import proofs.«404712_j21509196219215_4_alg».proof.Proof.KI.KPure
import proofs.«404712_j21509196219215_4_alg».proof.Proof.EdgeBridge
import proofs.«404712_j21509196219215_4_alg».proof.Proof.NodeBridge

noncomputable section

namespace Cert.Hand.Pure

open Cert.KernelIdeal Idealize.ShloMosaic Cert.KernelIdeal.Hand Cert.Hand.Bridge

variable {F : FTy → Type} [FloatOps F] [Cert.KernelIdeal.Facts₀] [Cert.ReferenceIdeal.Facts₀]

structure Args (F : FTy → Type) where
  a0 : IVec S2x800000 32
  a1 : Vec F S800000x3 .f32
  a2 : Vec F S800000x1 .f32
  a3 : Vec F S100000x1 .f32
  a5 : Vec F S100000x1 .f32
  a6 : Vec F S3x35x16 .f32
  a7 : Vec F S3x16 .f32
  a8 : Vec F S3x16x16 .f32
  a9 : Vec F S3x16 .f32
  a10 : Vec F S3x35x16 .f32
  a11 : Vec F S3x16 .f32
  a12 : Vec F S3x16x16 .f32
  a13 : Vec F S3x16 .f32
  a14 : Vec F S3x49x16 .f32
  a15 : Vec F S3x16 .f32
  a16 : Vec F S3x16x16 .f32
  a17 : Vec F S3x16 .f32
  a18 : Vec F S3x16x16 .f32
  a19 : Vec F S3x16 .f32
  a20 : Vec F S3x16x1 .f32
  a21 : Vec F S3x1 .f32

def w35 (t : Fin 3) (x : Vec F S3x35x16 .f32) : Vec F S35x16 .f32 :=
  match t with
  | 0 => shapeCast S35x16 (extractStridedSlice S1x35x16 ![0, 0, 0] x Facts₀.slices_S3x35x16_S1x35x16_0_0_0) Facts₀.shapeCasts_S1x35x16_S35x16
  | 1 => shapeCast S35x16 (extractStridedSlice S1x35x16 ![1, 0, 0] x Facts₀.slices_S3x35x16_S1x35x16_1_0_0) Facts₀.shapeCasts_S1x35x16_S35x16
  | 2 => shapeCast S35x16 (extractStridedSlice S1x35x16 ![2, 0, 0] x Facts₀.slices_S3x35x16_S1x35x16_2_0_0) Facts₀.shapeCasts_S1x35x16_S35x16

def b16 (t : Fin 3) (x : Vec F S3x16 .f32) : Vec F S16 .f32 :=
  match t with
  | 0 => shapeCast S16 (extractStridedSlice S1x16 ![0, 0] x Facts₀.slices_S3x16_S1x16_0_0) Facts₀.shapeCasts_S1x16_S16
  | 1 => shapeCast S16 (extractStridedSlice S1x16 ![1, 0] x Facts₀.slices_S3x16_S1x16_1_0) Facts₀.shapeCasts_S1x16_S16
  | 2 => shapeCast S16 (extractStridedSlice S1x16 ![2, 0] x Facts₀.slices_S3x16_S1x16_2_0) Facts₀.shapeCasts_S1x16_S16

def w16 (t : Fin 3) (x : Vec F S3x16x16 .f32) : Vec F S16x16 .f32 :=
  match t with
  | 0 => shapeCast S16x16 (extractStridedSlice S1x16x16 ![0, 0, 0] x Facts₀.slices_S3x16x16_S1x16x16_0_0_0) Facts₀.shapeCasts_S1x16x16_S16x16
  | 1 => shapeCast S16x16 (extractStridedSlice S1x16x16 ![1, 0, 0] x Facts₀.slices_S3x16x16_S1x16x16_1_0_0) Facts₀.shapeCasts_S1x16x16_S16x16
  | 2 => shapeCast S16x16 (extractStridedSlice S1x16x16 ![2, 0, 0] x Facts₀.slices_S3x16x16_S1x16x16_2_0_0) Facts₀.shapeCasts_S1x16x16_S16x16

def w49 (t : Fin 3) (x : Vec F S3x49x16 .f32) : Vec F S49x16 .f32 :=
  match t with
  | 0 => shapeCast S49x16 (extractStridedSlice S1x49x16 ![0, 0, 0] x Facts₀.slices_S3x49x16_S1x49x16_0_0_0) Facts₀.shapeCasts_S1x49x16_S49x16
  | 1 => shapeCast S49x16 (extractStridedSlice S1x49x16 ![1, 0, 0] x Facts₀.slices_S3x49x16_S1x49x16_1_0_0) Facts₀.shapeCasts_S1x49x16_S49x16
  | 2 => shapeCast S49x16 (extractStridedSlice S1x49x16 ![2, 0, 0] x Facts₀.slices_S3x49x16_S1x49x16_2_0_0) Facts₀.shapeCasts_S1x49x16_S49x16

def w16x1 (t : Fin 3) (x : Vec F S3x16x1 .f32) : Vec F S16x1 .f32 :=
  match t with
  | 0 => shapeCast S16x1 (extractStridedSlice S1x16x1 ![0, 0, 0] x Facts₀.slices_S3x16x1_S1x16x1_0_0_0) Facts₀.shapeCasts_S1x16x1_S16x1
  | 1 => shapeCast S16x1 (extractStridedSlice S1x16x1 ![1, 0, 0] x Facts₀.slices_S3x16x1_S1x16x1_1_0_0) Facts₀.shapeCasts_S1x16x1_S16x1
  | 2 => shapeCast S16x1 (extractStridedSlice S1x16x1 ![2, 0, 0] x Facts₀.slices_S3x16x1_S1x16x1_2_0_0) Facts₀.shapeCasts_S1x16x1_S16x1

def b1 (t : Fin 3) (x : Vec F S3x1 .f32) : Vec F S1 .f32 :=
  match t with
  | 0 => shapeCast S1 (extractStridedSlice S1x1 ![0, 0] x Facts₀.slices_S3x1_S1x1_0_0) Facts₀.shapeCasts_S1x1_S1
  | 1 => shapeCast S1 (extractStridedSlice S1x1 ![1, 0] x Facts₀.slices_S3x1_S1x1_1_0) Facts₀.shapeCasts_S1x1_S1
  | 2 => shapeCast S1 (extractStridedSlice S1x1 ![2, 0] x Facts₀.slices_S3x1_S1x1_2_0) Facts₀.shapeCasts_S1x1_S1

def maskOf (ei : IVec S2x800000 32) : Vec F S800000x1 .f32 :=
  broadcastInDim S800000x1 ![0] Facts₀.bcast_S800000_S800000x1_0 (uitofp (F := F) .f32 (cmpi .ne (srcOf ei) (dstOf ei)))

def avalOf (a : Vec F S800000x1 .f32) : Vec F S800000 .f32 :=
  shapeCast S800000 a Facts₀.shapeCasts_S800000x1_S800000

def scatterRows (i : IVec S800000 32) (msg : Vec F S800000x16 .f32) : Vec F S100000x16 .f32 :=
  Host.scatterAdd scatter_S100000x16_S800000x1_S800000x16_1_0_0_1
    (broadcastInDim S100000x16 ![] Facts₀.bcast_S_S100000x16 (constant (F := F) S_ .f32 0x00000000#32))
    (broadcastInDim S800000x1 ![0] Facts₀.bcast_S800000_S800000x1_0 i) msg

def tmpTo (h : Vec F S100000x16 .f32) (ei : IVec S2x800000 32) (ea : Vec F S800000x3 .f32) : Vec F S800000x35 .f32 :=
  edgeIn (gatherRows h (wrapCol (dstOf ei))) (gatherRows h (wrapCol (srcOf ei))) ea

def tmpFrom (h : Vec F S100000x16 .f32) (ei : IVec S2x800000 32) (ea : Vec F S800000x3 .f32) : Vec F S800000x35 .f32 :=
  edgeIn (gatherRows h (wrapCol (srcOf ei))) (gatherRows h (wrapCol (dstOf ei))) ea

def pairCol (i : IVec S800000 32) : IVec S800000x2 32 :=
  concatenate S800000x2 1
    [⟨S800000x1, wrapCol i⟩,
     ⟨S800000x1, broadcastInDim S800000x1 ![0] Facts₀.bcast_S800000_S800000x1_0
        (id (broadcastInDim S800000 ![] Facts₀.bcast_S_S800000 (constantI S_ 32 0#32)))⟩]
    Facts₀.concatenates_S800000x1_S800000x1_S800000x2_d1

def applyA (u : Vec F S100000x1 .f32) (ei : IVec S2x800000 32) (aij : Vec F S800000x1 .f32) : Vec F S100000x1 .f32 :=
  broadcastInDim S100000x1 ![0] Facts₀.bcast_S100000_S100000x1_0
    (Host.scatterAdd scatter_S100000_S800000x1_S800000_n_0_0_1
      (broadcastInDim S100000 ![] Facts₀.bcast_S_S100000 (constant (F := F) S_ .f32 0x00000000#32))
      (broadcastInDim S800000x1 ![0] Facts₀.bcast_S800000_S800000x1_0 (srcOf ei))
      (mulf (avalOf aij) (Host.gather gather_S100000x1_S800000x2_S800000_n_01_n_n_01_1_11 u (pairCol (dstOf ei)))))

def lossOf (u : Vec F S100000x1 .f32) (ei : IVec S2x800000 32) (aij : Vec F S800000x1 .f32) (y : Vec F S100000x1 .f32) : Vec F S_ .f32 :=
  Host.divf
    (Host.reduceAdd (mulf (subf (applyA u ei aij) y) (subf (applyA u ei aij) y)) (constant (F := F) S_ .f32 0x00000000#32)
      Facts₀.reducesTo_S100000x1_S_d0_1 Facts₀.h_S_)
    (constant (F := F) S_ .f32 0x47C35000#32)

variable (A : Args F)

def messTo (t : Fin 3) (h : Vec F S100000x16 .f32) : Vec F S100000x16 .f32 :=
  scatterRows (dstOf A.a0) (refMsg (tmpTo h A.a0 A.a1) (w35 t A.a6) (b16 t A.a7) (w16 t A.a8) (b16 t A.a9) (maskOf A.a0))

def messFrom (t : Fin 3) (h : Vec F S100000x16 .f32) : Vec F S100000x16 .f32 :=
  scatterRows (srcOf A.a0) (refMsg (tmpFrom h A.a0 A.a1) (w35 t A.a10) (b16 t A.a11) (w16 t A.a12) (b16 t A.a13) (maskOf A.a0))

def hStep (t : Fin 3) (h : Vec F S100000x16 .f32) : Vec F S100000x16 .f32 :=
  refH h (messTo A t h) (messFrom A t h) A.a3 (w49 t A.a14) (b16 t A.a15) (w16 t A.a16) (b16 t A.a17)

def uStep (t : Fin 3) (h : Vec F S100000x16 .f32) : Vec F S100000x1 .f32 :=
  refU (hStep A t h) (w16 t A.a18) (b16 t A.a19) (w16x1 t A.a20) (b1 t A.a21)

def h1 : Vec F S100000x16 .f32 := hStep A 0 zeroState
def h2 : Vec F S100000x16 .f32 := hStep A 1 (h1 A)
def u0 : Vec F S100000x1 .f32 := uStep A 0 zeroState
def u1 : Vec F S100000x1 .f32 := uStep A 1 (h1 A)
def u2 : Vec F S100000x1 .f32 := uStep A 2 (h2 A)

def loss0 : Vec F S_ .f32 :=
  addf (constant (F := F) S_ .f32 0x00000000#32) (mulf (lossOf (u0 A) A.a0 A.a2 A.a5) (constant (F := F) S_ .f32 0x3F4F5C29#32))
def loss1 : Vec F S_ .f32 := addf (loss0 A) (mulf (lossOf (u1 A) A.a0 A.a2 A.a5) (constant (F := F) S_ .f32 0x3F666666#32))
def loss2 : Vec F S_ .f32 := addf (loss1 A) (mulf (lossOf (u2 A) A.a0 A.a2 A.a5) (constant (F := F) S_ .f32 0x3F800000#32))

end Cert.Hand.Pure

end
-- ==== Proof.LibNary3.lean ====
import Idealize.ShloMosaic.Lib.StableHlo.Run

noncomputable section

namespace Idealize.ShloMosaic.StableHlo

variable {τ : Topo} {sig : RefSig} {Val : EltTy → Type}
variable {a b c y : Ref sig .tc}

theorem nary3_result
    (f : ((k : Fin 3) → ((![a, b, c] : Fin 3 → Ref sig .tc) k).ty.Contents Val) → y.ty.Contents Val) (hxs hy)
    (F : Valuation τ sig Val) :
    (nary (τ := τ) ![a, b, c] y f hxs hy).result F (Proc.devRef .tc y)
      = f (Fin.cons (F (Proc.devRef .tc a)) (Fin.cons (F (Proc.devRef .tc b)) (Fin.cons (F (Proc.devRef .tc c)) (fun i => i.elim0)))) := by
  rw [nary_result]; congr 1; funext k; fin_cases k <;> rfl

theorem nary3_result'
    (f : ((k : Fin 3) → ((![a, b, c] : Fin 3 → Ref sig .tc) k).ty.Contents Val) → y.ty.Contents Val) (hxs hy)
    (F : Valuation τ sig Val) :
    (nary (τ := τ) ![a, b, c] y f hxs hy).result F (no_index (Proc.devRef .tc y))
      = f (Fin.cons (F (Proc.devRef .tc a)) (Fin.cons (F (Proc.devRef .tc b)) (Fin.cons (F (Proc.devRef .tc c)) (fun i => i.elim0)))) :=
  nary3_result f hxs hy F

macro "after_results_simp3" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KI.KRead2.lean ====
import proofs.«404712_j21509196219215_4_alg».proof.Proof.Gen.KernelIdeal.Launch
import proofs.«404712_j21509196219215_4_alg».proof.Proof.Gen.ReferenceIdeal
import proofs.«404712_j21509196219215_4_alg».proof.Proof.LibNary3
import proofs.«404712_j21509196219215_4_alg».proof.Proof.Pure

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.Hand.Bridge

variable {F : FTy → Type} [FloatOps F]

def applyRows (u : Vec F S100000x1 .f32) (src dst : IVec S800000 32) (aval : Vec F S800000 .f32) : Vec F S100000x1 .f32 :=
  broadcastInDim S100000x1 ![0] Facts₀.bcast_S100000_S100000x1_0
    (Host.scatterAdd scatter_S100000_S800000x1_S800000_n_0_0_1
      (broadcastInDim S100000 ![] Facts₀.bcast_S_S100000 (constant (F := F) S_ .f32 0x00000000#32))
      (broadcastInDim S800000x1 ![0] Facts₀.bcast_S800000_S800000x1_0 src)
      (mulf aval (Host.gather gather_S100000x1_S800000x2_S800000_n_01_n_n_01_1_11 u (Cert.Hand.Pure.pairCol dst))))

def lossRows (u : Vec F S100000x1 .f32) (src dst : IVec S800000 32) (aval : Vec F S800000 .f32) (y : Vec F S100000x1 .f32) : Vec F S_ .f32 :=
  Host.divf
    (Host.reduceAdd (mulf (subf (applyRows u src dst aval) y) (subf (applyRows u src dst aval) y)) (constant (F := F) S_ .f32 0x00000000#32)
      Facts₀.reducesTo_S100000x1_S_d0_1 Facts₀.h_S_)
    (constant (F := F) S_ .f32 0x47C35000#32)

theorem lossRows_eq (u : Vec F S100000x1 .f32) (ei : IVec S2x800000 32) (aij : Vec F S800000x1 .f32) (y : Vec F S100000x1 .f32) :
    lossRows u (srcOf ei) (dstOf ei) (Cert.Hand.Pure.avalOf aij) y = Cert.Hand.Pure.lossOf u ei aij y := rfl

set_option maxHeartbeats 4000000 in
theorem k2_v89 (W : Valuation τ sig (Elt F)) : StableHlo.after hostOps2 W (Proc.devRef .tc main_v89)
    = hOf (W (Proc.devRef .tc main_v88)) := by
  after_results_simp3
  rfl

set_option maxHeartbeats 4000000 in
theorem k2_v90 (W : Valuation τ sig (Elt F)) : StableHlo.after hostOps2 W (Proc.devRef .tc main_v90)
    = uOf (W (Proc.devRef .tc main_v88)) := by
  after_results_simp3
  rfl

set_option maxHeartbeats 4000000 in
theorem k2_v112 (W : Valuation τ sig (Elt F)) : StableHlo.after hostOps2 W (Proc.devRef .tc main_v112)
    = addf (constant (F := F) S_ .f32 0x00000000#32)
        (mulf (lossRows (uOf (W (Proc.devRef .tc main_v88))) (W (Proc.devRef .tc main_v1)) (W (Proc.devRef .tc main_v3)) (W (Proc.devRef .tc main_v9)) (W (Proc.devRef .tc main_arg5)))
          (constant (F := F) S_ .f32 0x3F4F5C29#32)) := by
  after_results_simp3
  rfl

set_option maxHeartbeats 4000000 in
theorem k2_v131 (W : Valuation τ sig (Elt F)) : StableHlo.after hostOps2 W (Proc.devRef .tc main_v131)
    = stackX
        (edgeIn (gatherRows (hOf (W (Proc.devRef .tc main_v88))) (wrapCol (W (Proc.devRef .tc main_v3)))) (gatherRows (hOf (W (Proc.devRef .tc main_v88))) (wrapCol (W (Proc.devRef .tc main_v1)))) (W (Proc.devRef .tc main_arg1)))
        (edgeIn (gatherRows (hOf (W (Proc.devRef .tc main_v88))) (wrapCol (W (Proc.devRef .tc main_v1)))) (gatherRows (hOf (W (Proc.devRef .tc main_v88))) (wrapCol (W (Proc.devRef .tc main_v3)))) (W (Proc.devRef .tc main_arg1))) := by
  after_results_simp3
  rfl

set_option maxHeartbeats 4000000 in
theorem k2_v138 (W : Valuation τ sig (Elt F)) : StableHlo.after hostOps2 W (Proc.devRef .tc main_v138)
    = stackW1 (Cert.Hand.Pure.w35 1 (W (Proc.devRef .tc main_arg6))) (Cert.Hand.Pure.w35 1 (W (Proc.devRef .tc main_arg10))) := by
  after_results_simp3
  rfl

set_option maxHeartbeats 4000000 in
theorem k2_v145 (W : Valuation τ sig (Elt F)) : StableHlo.after hostOps2 W (Proc.devRef .tc main_v145)
    = stackB (Cert.Hand.Pure.b16 1 (W (Proc.devRef .tc main_arg7))) (Cert.Hand.Pure.b16 1 (W (Proc.devRef .tc main_arg11))) := by
  after_results_simp3
  rfl

set_option maxHeartbeats 4000000 in
theorem k2_v152 (W : Valuation τ sig (Elt F)) : StableHlo.after hostOps2 W (Proc.devRef .tc main_v152)
    = stackW2 (Cert.Hand.Pure.w16 1 (W (Proc.devRef .tc main_arg8))) (Cert.Hand.Pure.w16 1 (W (Proc.devRef .tc main_arg12))) := by
  after_results_simp3
  rfl

set_option maxHeartbeats 4000000 in
theorem k2_v159 (W : Valuation τ sig (Elt F)) : StableHlo.after hostOps2 W (Proc.devRef .tc main_v159)
    = stackB (Cert.Hand.Pure.b16 1 (W (Proc.devRef .tc main_arg9))) (Cert.Hand.Pure.b16 1 (W (Proc.devRef .tc main_arg13))) := by
  after_results_simp3
  rfl

end Cert.KernelIdeal.Hand

end
-- ==== Proof.KI.KRead6.lean ====
import proofs.«404712_j21509196219215_4_alg».proof.Proof.KI.KRead2

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.Hand.Bridge

variable {F : FTy → Type} [FloatOps F]

set_option maxHeartbeats 4000000 in
theorem k6_v296 (W : Valuation τ sig (Elt F)) : StableHlo.after hostOps6 W (Proc.devRef .tc main_v296)
    = uOf (W (Proc.devRef .tc main_v294)) := by
  after_results_simp3
  rfl

set_option maxHeartbeats 4000000 in
theorem k6_v318 (W : Valuation τ sig (Elt F)) : StableHlo.after hostOps6 W (Proc.devRef .tc main_v318)
    = addf (W (Proc.devRef .tc main_v215))
        (mulf (lossRows (uOf (W (Proc.devRef .tc main_v294))) (W (Proc.devRef .tc main_v1)) (W (Proc.devRef .tc main_v3)) (W (Proc.devRef .tc main_v9)) (W (Proc.devRef .tc main_arg5)))
          (constant (F := F) S_ .f32 0x3F800000#32)) := by
  after_results_simp3
  rfl

end Cert.KernelIdeal.Hand

end
-- ==== Proof.KI.Keep.lean ====
import proofs.«404712_j21509196219215_4_alg».proof.Proof.Gen.KernelIdeal.Launch
import proofs.«404712_j21509196219215_4_alg».proof.Proof.KI.Writes
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
theorem kv_writes0 : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem kv_keep0 (W : Valuation τ sig (Elt F)) (r : Ref sig .tc) (h : r ∉ wr0) :
    StableHlo.after hostOps0 W (Proc.devRef .tc r) = W (Proc.devRef .tc r) :=
  StableHlo.after_of_writes_sub hostOps0 W kv_writes0 h

set_option maxHeartbeats 4000000 in
theorem kv_writes1 : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem kv_keep1 (W : Valuation τ sig (Elt F)) (r : Ref sig .tc) (h : r ∉ wr1) :
    StableHlo.after hostOps1 W (Proc.devRef .tc r) = W (Proc.devRef .tc r) :=
  StableHlo.after_of_writes_sub hostOps1 W kv_writes1 h

set_option maxHeartbeats 4000000 in
theorem kv_writes2 : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem kv_keep2 (W : Valuation τ sig (Elt F)) (r : Ref sig .tc) (h : r ∉ wr2) :
    StableHlo.after hostOps2 W (Proc.devRef .tc r) = W (Proc.devRef .tc r) :=
  StableHlo.after_of_writes_sub hostOps2 W kv_writes2 h

set_option maxHeartbeats 4000000 in
theorem kv_writes3 : (hostOps3 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem kv_keep3 (W : Valuation τ sig (Elt F)) (r : Ref sig .tc) (h : r ∉ wr3) :
    StableHlo.after hostOps3 W (Proc.devRef .tc r) = W (Proc.devRef .tc r) :=
  StableHlo.after_of_writes_sub hostOps3 W kv_writes3 h

set_option maxHeartbeats 4000000 in
theorem kv_writes4 : (hostOps4 : List (HloOp τ sig (Elt F))).Forall fun op => op.writes ⊆ (wr4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem kv_keep4 (W : Valuation τ sig (Elt F)) (r : Ref sig .tc) (h : r ∉ wr4) :
    StableHlo.after hostOps4 W (Proc.devRef .tc r) = W (Proc.devRef .tc r) :=
  StableHlo.after_of_writes_sub hostOps4 W kv_writes4 h

set_option maxHeartbeats 4000000 in
theorem kv_writes5 : (hostOps5 : List (HloOp τ sig (Elt F))).Forall fun op => op.writes ⊆ (wr5.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem kv_keep5 (W : Valuation τ sig (Elt F)) (r : Ref sig .tc) (h : r ∉ wr5) :
    StableHlo.after hostOps5 W (Proc.devRef .tc r) = W (Proc.devRef .tc r) :=
  StableHlo.after_of_writes_sub hostOps5 W kv_writes5 h

set_option maxHeartbeats 4000000 in
theorem kv_writes6 : (hostOps6 : List (HloOp τ sig (Elt F))).Forall fun op => op.writes ⊆ (wr6.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem kv_keep6 (W : Valuation τ sig (Elt F)) (r : Ref sig .tc) (h : r ∉ wr6) :
    StableHlo.after hostOps6 W (Proc.devRef .tc r) = W (Proc.devRef .tc r) :=
  StableHlo.after_of_writes_sub hostOps6 W kv_writes6 h

end Cert.KernelIdeal.Hand

end
-- ==== Proof.KI.KVals1.lean ====
import proofs.«404712_j21509196219215_4_alg».proof.Proof.Gen.KernelIdeal.Launch
import proofs.«404712_j21509196219215_4_alg».proof.Proof.Gen.ReferenceIdeal
import proofs.«404712_j21509196219215_4_alg».proof.Proof.LibNary3
import proofs.«404712_j21509196219215_4_alg».proof.Proof.Pure
import proofs.«404712_j21509196219215_4_alg».proof.Proof.KI.Bounds
import proofs.«404712_j21509196219215_4_alg».proof.Proof.KI.Keep

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable {F : FTy → Type} [FloatOps F]

def argsOf (W : Valuation τ sig (Elt F)) : Pure.Args F :=
  ⟨W (Proc.devRef .tc main_arg0), W (Proc.devRef .tc main_arg1), W (Proc.devRef .tc main_arg2), W (Proc.devRef .tc main_arg3), W (Proc.devRef .tc main_arg5), W (Proc.devRef .tc main_arg6), W (Proc.devRef .tc main_arg7), W (Proc.devRef .tc main_arg8), W (Proc.devRef .tc main_arg9), W (Proc.devRef .tc main_arg10), W (Proc.devRef .tc main_arg11), W (Proc.devRef .tc main_arg12), W (Proc.devRef .tc main_arg13), W (Proc.devRef .tc main_arg14), W (Proc.devRef .tc main_arg15), W (Proc.devRef .tc main_arg16), W (Proc.devRef .tc main_arg17), W (Proc.devRef .tc main_arg18), W (Proc.devRef .tc main_arg19), W (Proc.devRef .tc main_arg20), W (Proc.devRef .tc main_arg21)⟩

def argsK (m : (ℓ : Loc nD τ sig) → Buf (Elt Ideal) ℓ) (c : Dev nD) : Pure.Args Ideal :=
  ⟨m ((c : Thread nD τ).loc main_arg0), m ((c : Thread nD τ).loc main_arg1), m ((c : Thread nD τ).loc main_arg2), m ((c : Thread nD τ).loc main_arg3), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21)⟩

set_option maxHeartbeats 4000000 in
theorem k0_v1 (W : Valuation τ sig (Elt F)) : StableHlo.after hostOps0 W (Proc.devRef .tc main_v1) = srcOf (W (Proc.devRef .tc main_arg0)) := by
  after_results_simp3; rfl
set_option maxHeartbeats 4000000 in
theorem k0_v3 (W : Valuation τ sig (Elt F)) : StableHlo.after hostOps0 W (Proc.devRef .tc main_v3) = dstOf (W (Proc.devRef .tc main_arg0)) := by
  after_results_simp3; rfl
set_option maxHeartbeats 4000000 in
theorem k0_v6 (W : Valuation τ sig (Elt F)) : StableHlo.after hostOps0 W (Proc.devRef .tc main_v6) = Pure.maskOf (W (Proc.devRef .tc main_arg0)) := by
  after_results_simp3; rfl
set_option maxHeartbeats 4000000 in
theorem k0_v7 (W : Valuation τ sig (Elt F)) : StableHlo.after hostOps0 W (Proc.devRef .tc main_v7) = zeroState := by
  after_results_simp3; rfl
set_option maxHeartbeats 4000000 in
theorem k0_v9 (W : Valuation τ sig (Elt F)) : StableHlo.after hostOps0 W (Proc.devRef .tc main_v9) = Pure.avalOf (W (Proc.devRef .tc main_arg2)) := by
  after_results_simp3; rfl
set_option maxHeartbeats 4000000 in
theorem k0_v28 (W : Valuation τ sig (Elt F)) : StableHlo.after hostOps0 W (Proc.devRef .tc main_v28)
    = stackX (Pure.tmpTo zeroState (W (Proc.devRef .tc main_arg0)) (W (Proc.devRef .tc main_arg1)))
        (Pure.tmpFrom zeroState (W (Proc.devRef .tc main_arg0)) (W (Proc.devRef .tc main_arg1))) := by
  after_results_simp3; rfl
set_option maxHeartbeats 4000000 in
theorem k0_v35 (W : Valuation τ sig (Elt F)) : StableHlo.after hostOps0 W (Proc.devRef .tc main_v35)
    = stackW1 (Pure.w35 0 (W (Proc.devRef .tc main_arg6))) (Pure.w35 0 (W (Proc.devRef .tc main_arg10))) := by
  after_results_simp3; rfl
set_option maxHeartbeats 4000000 in
theorem k0_v42 (W : Valuation τ sig (Elt F)) : StableHlo.after hostOps0 W (Proc.devRef .tc main_v42)
    = stackB (Pure.b16 0 (W (Proc.devRef .tc main_arg7))) (Pure.b16 0 (W (Proc.devRef .tc main_arg11))) := by
  after_results_simp3; rfl
set_option maxHeartbeats 4000000 in
theorem k0_v49 (W : Valuation τ sig (Elt F)) : StableHlo.after hostOps0 W (Proc.devRef .tc main_v49)
    = stackW2 (Pure.w16 0 (W (Proc.devRef .tc main_arg8))) (Pure.w16 0 (W (Proc.devRef .tc main_arg12))) := by
  after_results_simp3; rfl
set_option maxHeartbeats 4000000 in
theorem k0_v56 (W : Valuation τ sig (Elt F)) : StableHlo.after hostOps0 W (Proc.devRef .tc main_v56)
    = stackB (Pure.b16 0 (W (Proc.devRef .tc main_arg9))) (Pure.b16 0 (W (Proc.devRef .tc main_arg13))) := by
  after_results_simp3; rfl

theorem k0_args (W : Valuation τ sig (Elt F)) : argsOf (StableHlo.after hostOps0 W) = argsOf W := by
  unfold argsOf
  rw [kv_keep0 W main_arg0 (by decide), kv_keep0 W main_arg1 (by decide), kv_keep0 W main_arg2 (by decide), kv_keep0 W main_arg3 (by decide), kv_keep0 W main_arg5 (by decide), kv_keep0 W main_arg6 (by decide), kv_keep0 W main_arg7 (by decide), kv_keep0 W main_arg8 (by decide), kv_keep0 W main_arg9 (by decide), kv_keep0 W main_arg10 (by decide), kv_keep0 W main_arg11 (by decide), kv_keep0 W main_arg12 (by decide), kv_keep0 W main_arg13 (by decide), kv_keep0 W main_arg14 (by decide), kv_keep0 W main_arg15 (by decide), kv_keep0 W main_arg16 (by decide), kv_keep0 W main_arg17 (by decide), kv_keep0 W main_arg18 (by decide), kv_keep0 W main_arg19 (by decide), kv_keep0 W main_arg20 (by decide), kv_keep0 W main_arg21 (by decide)]

variable (m : (ℓ : Loc nD τ sig) → Buf (Elt Ideal) ℓ) (ρ : Dev nD → PrngReg) (c : Dev nD)

theorem kb1_argK : argsOf (W1 m ρ c) = argsK m c := (k0_args (W0 m ρ c)).trans rfl
theorem kb1_v1 : W1 m ρ c (Proc.devRef .tc main_v1) = srcOf (argsK m c).a0 := k0_v1 (W0 m ρ c)
theorem kb1_v3 : W1 m ρ c (Proc.devRef .tc main_v3) = dstOf (argsK m c).a0 := k0_v3 (W0 m ρ c)
theorem kb1_v6 : W1 m ρ c (Proc.devRef .tc main_v6) = Pure.maskOf (argsK m c).a0 := k0_v6 (W0 m ρ c)
theorem kb1_v7 : W1 m ρ c (Proc.devRef .tc main_v7) = zeroState := k0_v7 (W0 m ρ c)
theorem kb1_v9 : W1 m ρ c (Proc.devRef .tc main_v9) = Pure.avalOf (argsK m c).a2 := k0_v9 (W0 m ρ c)
theorem kb1_v28 : W1 m ρ c (Proc.devRef .tc main_v28)
    = stackX (Pure.tmpTo zeroState (argsK m c).a0 (argsK m c).a1) (Pure.tmpFrom zeroState (argsK m c).a0 (argsK m c).a1) := k0_v28 (W0 m ρ c)
theorem kb1_v35 : W1 m ρ c (Proc.devRef .tc main_v35) = stackW1 (Pure.w35 0 (argsK m c).a6) (Pure.w35 0 (argsK m c).a10) := k0_v35 (W0 m ρ c)
theorem kb1_v42 : W1 m ρ c (Proc.devRef .tc main_v42) = stackB (Pure.b16 0 (argsK m c).a7) (Pure.b16 0 (argsK m c).a11) := k0_v42 (W0 m ρ c)
theorem kb1_v49 : W1 m ρ c (Proc.devRef .tc main_v49) = stackW2 (Pure.w16 0 (argsK m c).a8) (Pure.w16 0 (argsK m c).a12) := k0_v49 (W0 m ρ c)
theorem kb1_v56 : W1 m ρ c (Proc.devRef .tc main_v56) = stackB (Pure.b16 0 (argsK m c).a9) (Pure.b16 0 (argsK m c).a13) := k0_v56 (W0 m ρ c)

end Cert.KernelIdeal.Hand

end
-- ==== Proof.KI.EdgeMlp.lean ====
import proofs.«404712_j21509196219215_4_alg».proof.Proof.Gen.KernelIdeal
import proofs.«404712_j21509196219215_4_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Facts₀ Cert.KernelIdeal.Facts
open Idealize.ShloMosaic Idealize.ShloMosaic.ValueIdx

theorem lhs_first_0 (i : S4000x16.Idx) (q : dot_S4000x35_S35x16_S4000x16_1_0_0_1_n_n.contr.Idx) :
    (dot_S4000x35_S35x16_S4000x16_1_0_0_1_n_n.lhsIdx i q 0).val = (i 0).val := by
  unfold DotDims.lhsIdx
  rw [dif_neg (show ¬(0 : Fin S4000x35.rank) ∈ dot_S4000x35_S35x16_S4000x16_1_0_0_1_n_n.lhsBatch by decide), dif_pos (show (0 : Fin S4000x35.rank) ∈ dot_S4000x35_S35x16_S4000x16_1_0_0_1_n_n.lhsNonContracting by decide)]
  rfl
theorem lhs_first_1 (i : S4000x16.Idx) (q : dot_S4000x35_S35x16_S4000x16_1_0_0_1_n_n.contr.Idx) :
    (dot_S4000x35_S35x16_S4000x16_1_0_0_1_n_n.lhsIdx i q 1).val = (q ⟨0, by decide⟩).val :=
  dot_S4000x35_S35x16_S4000x16_1_0_0_1_n_n.lhsIdx_val_of_single rfl i q
theorem rhs_first_0 (i : S4000x16.Idx) (q : dot_S4000x35_S35x16_S4000x16_1_0_0_1_n_n.contr.Idx) :
    (dot_S4000x35_S35x16_S4000x16_1_0_0_1_n_n.rhsIdx i q 0).val = (q ⟨0, by decide⟩).val :=
  dot_S4000x35_S35x16_S4000x16_1_0_0_1_n_n.rhsIdx_val_of_single rfl i q
theorem rhs_first_1 (i : S4000x16.Idx) (q : dot_S4000x35_S35x16_S4000x16_1_0_0_1_n_n.contr.Idx) :
    (dot_S4000x35_S35x16_S4000x16_1_0_0_1_n_n.rhsIdx i q 1).val = (i 1).val := by
  unfold DotDims.rhsIdx
  rw [dif_neg (show ¬(1 : Fin S35x16.rank) ∈ dot_S4000x35_S35x16_S4000x16_1_0_0_1_n_n.rhsBatch by decide), dif_pos (show (1 : Fin S35x16.rank) ∈ dot_S4000x35_S35x16_S4000x16_1_0_0_1_n_n.rhsNonContracting by decide)]
  rfl

theorem matmul_first_apply (l : FVec Ideal S4000x35 .bf16) (r : FVec Ideal S35x16 .bf16) (p : Fin 4000) (q : Fin 16) :
    matmul dot_S4000x35_S35x16_S4000x16_1_0_0_1_n_n none l r (constant (F := Ideal) S4000x16 .f32 0x00000000#32) (ix2 p q)
      = ∑ k : Fin 35, l (ix2 p k) * r (ix2 k q) := by
  show FloatOps.matmul _ _ l r (constant (F := Ideal) S4000x16 .f32 0x00000000#32) _ = _
  rw [Ideal.matmul_constant_zero_apply, ← Equiv.sum_comp (contrEquiv1 dot_S4000x35_S35x16_S4000x16_1_0_0_1_n_n 35 rfl rfl).symm]
  refine Finset.sum_congr rfl fun k _ => ?_
  have hk := contrEquiv1_symm_val dot_S4000x35_S35x16_S4000x16_1_0_0_1_n_n 35 rfl rfl k
  have el : dot_S4000x35_S35x16_S4000x16_1_0_0_1_n_n.lhsIdx (ix2 p q) ((contrEquiv1 dot_S4000x35_S35x16_S4000x16_1_0_0_1_n_n 35 rfl rfl).symm k) = ix2 p k := funext fun a => Fin.ext (by
    match a with
    | ⟨0, _⟩ => exact lhs_first_0 _ _
    | ⟨1, _⟩ => exact (lhs_first_1 _ _).trans hk)
  have er : dot_S4000x35_S35x16_S4000x16_1_0_0_1_n_n.rhsIdx (ix2 p q) ((contrEquiv1 dot_S4000x35_S35x16_S4000x16_1_0_0_1_n_n 35 rfl rfl).symm k) = ix2 k q := funext fun a => Fin.ext (by
    match a with
    | ⟨0, _⟩ => exact (rhs_first_0 _ _).trans hk
    | ⟨1, _⟩ => exact rhs_first_1 _ _)
  rw [el, er]

theorem lhs_second_0 (i : S4000x16.Idx) (q : dot_S4000x16_S16x16_S4000x16_1_0_0_1_n_n.contr.Idx) :
    (dot_S4000x16_S16x16_S4000x16_1_0_0_1_n_n.lhsIdx i q 0).val = (i 0).val := by
  unfold DotDims.lhsIdx
  rw [dif_neg (show ¬(0 : Fin S4000x16.rank) ∈ dot_S4000x16_S16x16_S4000x16_1_0_0_1_n_n.lhsBatch by decide), dif_pos (show (0 : Fin S4000x16.rank) ∈ dot_S4000x16_S16x16_S4000x16_1_0_0_1_n_n.lhsNonContracting by decide)]
  rfl
theorem lhs_second_1 (i : S4000x16.Idx) (q : dot_S4000x16_S16x16_S4000x16_1_0_0_1_n_n.contr.Idx) :
    (dot_S4000x16_S16x16_S4000x16_1_0_0_1_n_n.lhsIdx i q 1).val = (q ⟨0, by decide⟩).val :=
  dot_S4000x16_S16x16_S4000x16_1_0_0_1_n_n.lhsIdx_val_of_single rfl i q
theorem rhs_second_0 (i : S4000x16.Idx) (q : dot_S4000x16_S16x16_S4000x16_1_0_0_1_n_n.contr.Idx) :
    (dot_S4000x16_S16x16_S4000x16_1_0_0_1_n_n.rhsIdx i q 0).val = (q ⟨0, by decide⟩).val :=
  dot_S4000x16_S16x16_S4000x16_1_0_0_1_n_n.rhsIdx_val_of_single rfl i q
theorem rhs_second_1 (i : S4000x16.Idx) (q : dot_S4000x16_S16x16_S4000x16_1_0_0_1_n_n.contr.Idx) :
    (dot_S4000x16_S16x16_S4000x16_1_0_0_1_n_n.rhsIdx i q 1).val = (i 1).val := by
  unfold DotDims.rhsIdx
  rw [dif_neg (show ¬(1 : Fin S16x16.rank) ∈ dot_S4000x16_S16x16_S4000x16_1_0_0_1_n_n.rhsBatch by decide), dif_pos (show (1 : Fin S16x16.rank) ∈ dot_S4000x16_S16x16_S4000x16_1_0_0_1_n_n.rhsNonContracting by decide)]
  rfl

theorem matmul_second_apply (l : FVec Ideal S4000x16 .bf16) (r : FVec Ideal S16x16 .bf16) (p : Fin 4000) (q : Fin 16) :
    matmul dot_S4000x16_S16x16_S4000x16_1_0_0_1_n_n none l r (constant (F := Ideal) S4000x16 .f32 0x00000000#32) (ix2 p q)
      = ∑ k : Fin 16, l (ix2 p k) * r (ix2 k q) := by
  show FloatOps.matmul _ _ l r (constant (F := Ideal) S4000x16 .f32 0x00000000#32) _ = _
  rw [Ideal.matmul_constant_zero_apply, ← Equiv.sum_comp (contrEquiv1 dot_S4000x16_S16x16_S4000x16_1_0_0_1_n_n 16 rfl rfl).symm]
  refine Finset.sum_congr rfl fun k _ => ?_
  have hk := contrEquiv1_symm_val dot_S4000x16_S16x16_S4000x16_1_0_0_1_n_n 16 rfl rfl k
  have el : dot_S4000x16_S16x16_S4000x16_1_0_0_1_n_n.lhsIdx (ix2 p q) ((contrEquiv1 dot_S4000x16_S16x16_S4000x16_1_0_0_1_n_n 16 rfl rfl).symm k) = ix2 p k := funext fun a => Fin.ext (by
    match a with
    | ⟨0, _⟩ => exact lhs_second_0 _ _
    | ⟨1, _⟩ => exact (lhs_second_1 _ _).trans hk)
  have er : dot_S4000x16_S16x16_S4000x16_1_0_0_1_n_n.rhsIdx (ix2 p q) ((contrEquiv1 dot_S4000x16_S16x16_S4000x16_1_0_0_1_n_n 16 rfl rfl).symm k) = ix2 k q := funext fun a => Fin.ext (by
    match a with
    | ⟨0, _⟩ => exact (rhs_second_0 _ _).trans hk
    | ⟨1, _⟩ => exact rhs_second_1 _ _)
  rw [el, er]

theorem bias_apply (b : Vec Ideal S1x16 .f32) (h1 : S1x16.ShapeCasts S16) (h2 : S16.ShapeCasts S1x16)
    (h3 : S1x16.Broadcasts S4000x16) (r : Fin 4000) (j : Fin 16) :
    broadcastTo S4000x16 (shapeCast S1x16 (shapeCast S16 b h1) h2) h3 (ix2 r j) = b (ix2 (0 : Fin 1) j) :=
  (broadcastTo_1b_ab_apply _ h3 r j).trans (congrFun (shapeCast_shapeCast b h1 h2) _)

theorem hidden_apply (x : Vec Ideal S1x4000x35 .f32) (w : Vec Ideal S1x35x16 .f32) (b : Vec Ideal S1x16 .f32)
    (r : Fin 4000) (k : Fin 16) :
    maximumf (addf (matmul dot_S4000x35_S35x16_S4000x16_1_0_0_1_n_n none
          (truncf .bf16 (shapeCast S4000x35 x shapeCasts_S1x4000x35_S4000x35) bitsLt_bf16_f32)
          (truncf .bf16 (shapeCast S35x16 w shapeCasts_S1x35x16_S35x16) bitsLt_bf16_f32)
          (constant (F := Ideal) S4000x16 .f32 0x00000000#32))
        (broadcastTo S4000x16 (shapeCast S1x16 (shapeCast S16 b shapeCasts_S1x16_S16) shapeCasts_S16_S1x16) broadcasts_S1x16_S4000x16))
      (broadcast S4000x16 (FloatOps.ofBits (F := Ideal) .f32 0x00000000#32)) (ix2 r k)
    = max ((∑ l : Fin 35, x (ix3 (0 : Fin 1) r l) * w (ix3 (0 : Fin 1) l k)) + b (ix2 (0 : Fin 1) k)) 0 := by
  rw [maximumf_apply, addf_apply, broadcast_apply, matmul_first_apply, bias_apply]
  rw [show (FloatOps.ofBits (F := Ideal) .f32 0x00000000#32 : Ideal .f32) = 0 from Ideal.ofBits_zero_f32]
  refine congrArg (fun s => max (s + b (ix2 (0 : Fin 1) k)) 0) (Finset.sum_congr rfl fun l _ => ?_)
  rw [truncf_apply, truncf_apply, shapeCast_1ab_ab_apply, shapeCast_1ab_ab_apply]

def edgeHalf (x : Vec Ideal S1x4000x35 .f32) (w1 : Vec Ideal S1x35x16 .f32) (b1 : Vec Ideal S1x16 .f32)
    (w2 : Vec Ideal S1x16x16 .f32) (b2 : Vec Ideal S1x16 .f32) : FVec Ideal S1x4000x16 .f32 :=
  shapeCast S1x4000x16
    (addf
      (matmul dot_S4000x16_S16x16_S4000x16_1_0_0_1_n_n none
        (truncf .bf16
          (maximumf
            (addf
              (matmul dot_S4000x35_S35x16_S4000x16_1_0_0_1_n_n none
                (truncf .bf16 (shapeCast S4000x35 x shapeCasts_S1x4000x35_S4000x35) bitsLt_bf16_f32)
                (truncf .bf16 (shapeCast S35x16 w1 shapeCasts_S1x35x16_S35x16) bitsLt_bf16_f32)
                (constant (F := Ideal) S4000x16 .f32 0x00000000#32))
              (broadcastTo S4000x16 (shapeCast S1x16 (shapeCast S16 b1 shapeCasts_S1x16_S16) shapeCasts_S16_S1x16)
                broadcasts_S1x16_S4000x16))
            (broadcast S4000x16 (FloatOps.ofBits (F := Ideal) .f32 0x00000000#32)))
          bitsLt_bf16_f32)
        (truncf .bf16 (shapeCast S16x16 w2 shapeCasts_S1x16x16_S16x16) bitsLt_bf16_f32)
        (constant (F := Ideal) S4000x16 .f32 0x00000000#32))
      (broadcastTo S4000x16 (shapeCast S1x16 (shapeCast S16 b2 shapeCasts_S1x16_S16) shapeCasts_S16_S1x16)
        broadcasts_S1x16_S4000x16))
    shapeCasts_S4000x16_S1x4000x16

theorem edgeHalf_apply (x : Vec Ideal S1x4000x35 .f32) (w1 : Vec Ideal S1x35x16 .f32) (b1 : Vec Ideal S1x16 .f32)
    (w2 : Vec Ideal S1x16x16 .f32) (b2 : Vec Ideal S1x16 .f32) (u : Fin 1) (r : Fin 4000) (j : Fin 16) :
    edgeHalf x w1 b1 w2 b2 (ix3 u r j)
      = Cert.Hand.Spec.mlp (fun l => x (ix3 (0 : Fin 1) r l)) (fun l k => w1 (ix3 (0 : Fin 1) l k)) (fun k => b1 (ix2 (0 : Fin 1) k))
          (fun k j => w2 (ix3 (0 : Fin 1) k j)) (fun j => b2 (ix2 (0 : Fin 1) j)) j := by
  unfold edgeHalf Cert.Hand.Spec.mlp
  rw [shapeCast_ab_1ab_apply, addf_apply, matmul_second_apply, bias_apply]
  refine congrArg (· + b2 (ix2 (0 : Fin 1) j)) (Finset.sum_congr rfl fun k _ => ?_)
  rw [truncf_apply, truncf_apply, hidden_apply, shapeCast_1ab_ab_apply]

theorem emb_half3 {A B : Nat} (h : Fin 2)
    (inb : ∀ a, (![h.val, 0, 0] : Fin 3 → Nat) a + (![1, A, B] : Fin 3 → Nat) a ≤ (⟨3, ![2, A, B]⟩ : Shape).size a)
    (u : Fin 1) (r : Fin A) (l : Fin B) :
    (Rect.unit (s := ⟨3, ![2, A, B]⟩) ![h.val, 0, 0] ![1, A, B] inb).emb (ix3 u r l) = ix3 h r l :=
  funext fun a => Fin.ext (by
    match a with
    | ⟨0, _⟩ => show h.val + 1 * u.val = h.val; omega
    | ⟨1, _⟩ => show 0 + 1 * r.val = r.val; omega
    | ⟨2, _⟩ => show 0 + 1 * l.val = l.val; omega)

theorem emb_half2 {A : Nat} (h : Fin 2)
    (inb : ∀ a, (![h.val, 0] : Fin 2 → Nat) a + (![1, A] : Fin 2 → Nat) a ≤ (⟨2, ![2, A]⟩ : Shape).size a)
    (u : Fin 1) (k : Fin A) :
    (Rect.unit (s := ⟨2, ![2, A]⟩) ![h.val, 0] ![1, A] inb).emb (ix2 u k) = ix2 h k :=
  funext fun a => Fin.ext (by
    match a with
    | ⟨0, _⟩ => show h.val + 1 * u.val = h.val; omega
    | ⟨1, _⟩ => show 0 + 1 * k.val = k.val; omega)

theorem ld_half3 {A B : Nat} (X : Vec Ideal ⟨3, ![2, A, B]⟩ .f32) (h : Fin 2)
    (inb : ∀ a, (![h.val, 0, 0] : Fin 3 → Nat) a + (![1, A, B] : Fin 3 → Nat) a ≤ (⟨3, ![2, A, B]⟩ : Shape).size a)
    (u : Fin 1) (r : Fin A) (l : Fin B) :
    View.ld X (Rect.unit (s := ⟨3, ![2, A, B]⟩) ![h.val, 0, 0] ![1, A, B] inb) (ix3 u r l) = X (ix3 h r l) :=
  congrArg X (emb_half3 h inb u r l)

theorem ld_half2 {A : Nat} (X : Vec Ideal ⟨2, ![2, A]⟩ .f32) (h : Fin 2)
    (inb : ∀ a, (![h.val, 0] : Fin 2 → Nat) a + (![1, A] : Fin 2 → Nat) a ≤ (⟨2, ![2, A]⟩ : Shape).size a)
    (u : Fin 1) (k : Fin A) :
    View.ld X (Rect.unit (s := ⟨2, ![2, A]⟩) ![h.val, 0] ![1, A] inb) (ix2 u k) = X (ix2 h k) :=
  congrArg X (emb_half2 h inb u k)

def edgeBlk (x0 : Vec Ideal S2x4000x35 .f32) (x1 : Vec Ideal S2x35x16 .f32) (x2 : Vec Ideal S2x16 .f32)
    (x3 : Vec Ideal S2x16x16 .f32) (x4 : Vec Ideal S2x16 .f32) : Vec Ideal S2x4000x16 .f32 :=
  fun y => Cert.Hand.Spec.mlp (fun l => x0 (ix3 (y 0) (y 1) l)) (fun l k => x1 (ix3 (y 0) l k)) (fun k => x2 (ix2 (y 0) k))
    (fun k j => x3 (ix3 (y 0) k j)) (fun j => x4 (ix2 (y 0) j)) (y 2)

theorem edgeBlk_ix (x0 : Vec Ideal S2x4000x35 .f32) (x1 : Vec Ideal S2x35x16 .f32) (x2 : Vec Ideal S2x16 .f32)
    (x3 : Vec Ideal S2x16x16 .f32) (x4 : Vec Ideal S2x16 .f32) (h : Fin 2) (r : Fin 4000) (j : Fin 16) :
    edgeBlk x0 x1 x2 x3 x4 (ix3 h r j)
      = Cert.Hand.Spec.mlp (fun l => x0 (ix3 h r l)) (fun l k => x1 (ix3 h l k)) (fun k => x2 (ix2 h k))
          (fun k j => x3 (ix3 h k j)) (fun j => x4 (ix2 h j)) j := rfl

theorem edgeG_ix (x : (⟨3, ![2, 800000, 35]⟩ : Shape).Idx → EReal) (w1 : (⟨3, ![2, 35, 16]⟩ : Shape).Idx → EReal)
    (b1 : (⟨2, ![2, 16]⟩ : Shape).Idx → EReal) (w2 : (⟨3, ![2, 16, 16]⟩ : Shape).Idx → EReal)
    (b2 : (⟨2, ![2, 16]⟩ : Shape).Idx → EReal) (h : Fin 2) (e : Fin 800000) (j : Fin 16) :
    Cert.Hand.Spec.edgeG x w1 b1 w2 b2 (ix3 h e j)
      = Cert.Hand.Spec.mlp (fun l => x (ix3 h e l)) (fun l k => w1 (ix3 h l k)) (fun k => b1 (ix2 h k))
          (fun k j => w2 (ix3 h k j)) (fun j => b2 (ix2 h j)) j := rfl

theorem edgeHalf_piece (x0 : Vec Ideal S2x4000x35 .f32) (x1 : Vec Ideal S2x35x16 .f32) (x2 : Vec Ideal S2x16 .f32)
    (x3 : Vec Ideal S2x16x16 .f32) (x4 : Vec Ideal S2x16 .f32) (h : Fin 2)
    (inbx : ∀ a, (![h.val, 0, 0] : Fin 3 → Nat) a + S1x4000x35.size a ≤ S2x4000x35.size a)
    (inbw : ∀ a, (![h.val, 0, 0] : Fin 3 → Nat) a + S1x35x16.size a ≤ S2x35x16.size a)
    (inbb : ∀ a, (![h.val, 0] : Fin 2 → Nat) a + S1x16.size a ≤ S2x16.size a)
    (inbu : ∀ a, (![h.val, 0, 0] : Fin 3 → Nat) a + S1x16x16.size a ≤ S2x16x16.size a)
    (inbo : ∀ a, (![h.val, 0, 0] : Fin 3 → Nat) a + S1x4000x16.size a ≤ S2x4000x16.size a)
    (y : S1x4000x16.Idx) :
    edgeHalf (View.ld x0 (Rect.unit (s := S2x4000x35) ![h.val, 0, 0] S1x4000x35.size inbx))
        (View.ld x1 (Rect.unit (s := S2x35x16) ![h.val, 0, 0] S1x35x16.size inbw))
        (View.ld x2 (Rect.unit (s := S2x16) ![h.val, 0] S1x16.size inbb))
        (View.ld x3 (Rect.unit (s := S2x16x16) ![h.val, 0, 0] S1x16x16.size inbu))
        (View.ld x4 (Rect.unit (s := S2x16) ![h.val, 0] S1x16.size inbb)) y
      = edgeBlk x0 x1 x2 x3 x4 ((Rect.unit (s := S2x4000x16) ![h.val, 0, 0] S1x4000x16.size inbo).emb y) := by
  obtain ⟨u, r, j, rfl⟩ : ∃ (u : Fin 1) (r : Fin 4000) (j : Fin 16), y = ix3 u r j := ⟨y 0, y 1, y 2, eq_ix3 y⟩
  rw [edgeHalf_apply]
  refine Eq.trans ?_ (congrArg (edgeBlk x0 x1 x2 x3 x4) (emb_half3 h inbo u r j)).symm
  rw [edgeBlk_ix]
  have e0 : (fun l => View.ld x0 (Rect.unit (s := S2x4000x35) ![h.val, 0, 0] S1x4000x35.size inbx) (ix3 (0 : Fin 1) r l))
      = fun l => x0 (ix3 h r l) := funext fun l => ld_half3 x0 h inbx 0 r l
  have e1 : (fun l k => View.ld x1 (Rect.unit (s := S2x35x16) ![h.val, 0, 0] S1x35x16.size inbw) (ix3 (0 : Fin 1) l k))
      = fun l k => x1 (ix3 h l k) := funext fun l => funext fun k => ld_half3 x1 h inbw 0 l k
  have e2 : (fun k => View.ld x2 (Rect.unit (s := S2x16) ![h.val, 0] S1x16.size inbb) (ix2 (0 : Fin 1) k))
      = fun k => x2 (ix2 h k) := funext fun k => ld_half2 x2 h inbb 0 k
  have e3 : (fun k j => View.ld x3 (Rect.unit (s := S2x16x16) ![h.val, 0, 0] S1x16x16.size inbu) (ix3 (0 : Fin 1) k j))
      = fun k j => x3 (ix3 h k j) := funext fun k => funext fun j => ld_half3 x3 h inbu 0 k j
  have e4 : (fun j => View.ld x4 (Rect.unit (s := S2x16) ![h.val, 0] S1x16.size inbb) (ix2 (0 : Fin 1) j))
      = fun j => x4 (ix2 h j) := funext fun j => ld_half2 x4 h inbb 0 j
  rw [e0, e1, e2, e3, e4]

end Cert.KernelIdeal.Hand

end
-- ==== Proof.KI.EdgeVal0.lean ====
import proofs.«404712_j21509196219215_4_alg».proof.Proof.KI.EdgeMlp
import proofs.«404712_j21509196219215_4_alg».proof.Proof.KI.R0
import Idealize.ShloMosaic.Lib.Pipeline.Value

noncomputable section

namespace Cert.KernelIdeal.Hand

open Cert.KernelIdeal Cert.KernelIdeal.Gen Cert.KernelIdeal.Facts₀ Cert.KernelIdeal.Facts
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem pay2_eq0 (x : Vec Ideal S1x4000x35 .f32) (w1 : Vec Ideal S1x35x16 .f32) (b1 : Vec Ideal S1x16 .f32)
    (w2 : Vec Ideal S1x16x16 .f32) (b2 : Vec Ideal S1x16 .f32) :
    k0_pay2 (F := Ideal) x w1 b1 w2 b2 = edgeHalf x w1 b1 w2 b2 := rfl

theorem pay1_eq0 (x : Vec Ideal S1x4000x35 .f32) (w1 : Vec Ideal S1x35x16 .f32) (b1 : Vec Ideal S1x16 .f32)
    (w2 : Vec Ideal S1x16x16 .f32) (b2 : Vec Ideal S1x16 .f32) :
    k0_pay1 (F := Ideal) (k0_pay3 x) (k0_pay4 w1) b1 w2 b2 = edgeHalf x w1 b1 w2 b2 := rfl

theorem out0_5_eq (x0 : Vec Ideal S2x4000x35 .f32) (x1 : Vec Ideal S2x35x16 .f32) (x2 : Vec Ideal S2x16 .f32)
    (x3 : Vec Ideal S2x16x16 .f32) (x4 : Vec Ideal S2x16 .f32) :
    out0_5 (F := Ideal) x0 x1 x2 x3 x4 = edgeBlk x0 x1 x2 x3 x4 := by
  funext y
  unfold out0_5
  refine View.canon_apply_of_pieces (edgeBlk x0 x1 x2 x3 x4) _ ?_ y (cover0_5 _ _ y)
  intro p hp x
  rcases List.mem_cons.mp hp with rfl | hp
  · refine (congrFun (pay1_eq0 _ _ _ _ _) x).trans ?_
    exact edgeHalf_piece x0 x1 x2 x3 x4 1 Facts₀.inb_S2x4000x35_S1x4000x35_1_0_0 Facts₀.inb_S2x35x16_S1x35x16_1_0_0 Facts₀.inb_S2x16_S1x16_1_0
      Facts₀.inb_S2x16x16_S1x16x16_1_0_0 Facts₀.inb_S2x4000x16_S1x4000x16_1_0_0 x
  · rcases List.mem_singleton.mp hp with rfl
    refine (congrFun (pay2_eq0 _ _ _ _ _) x).trans ?_
    exact edgeHalf_piece x0 x1 x2 x3 x4 0 Facts₀.inb_S2x4000x35_S1x4000x35_0_0_0 Facts₀.inb_S2x35x16_S1x35x16_0_0_0 Facts₀.inb_S2x16_S1x16_0_0
      Facts₀.inb_S2x16x16_S1x16x16_0_0_0 Facts₀.inb_S2x4000x16_S1x4000x16_0_0_0 x

theorem idx_facts0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

theorem iblk0_0_apply (c : Dev nD) (t : Fin cfg0.N) (h : Fin 2) (r : Fin 4000) (l : Fin 35) (e : Fin 800000)
    (he : e.val = t.val * 4000 + r.val) :
    (iblk0 V c 0 t : Vec Ideal S2x4000x35 .f32) (ix3 h r l) = (V c main_v28 : Vec Ideal S2x800000x35 .f32) (ix3 h e l) := by
  obtain ⟨f0, f1, f2, -⟩ := idx_facts0 t
  unfold iblk0
  rw [View.read_apply]
  show V c main_v28 _ = V c main_v28 _
  congr 1
  funext a
  apply Fin.ext
  match a with
  | ⟨0, _⟩ => show win0_0.index t (0 : Fin 3) * 2 + 1 * h.val = h.val; omega
  | ⟨1, _⟩ => show win0_0.index t (1 : Fin 3) * 4000 + 1 * r.val = e.val; omega
  | ⟨2, _⟩ => show win0_0.index t (2 : Fin 3) * 35 + 1 * l.val = l.val; omega

theorem iblk0_1_apply (c : Dev nD) (t : Fin cfg0.N) (h : Fin 2) (l : Fin 35) (k : Fin 16) :
    (iblk0 V c 1 t : Vec Ideal S2x35x16 .f32) (ix3 h l k) = (V c main_v35 : Vec Ideal S2x35x16 .f32) (ix3 h l k) := by
  obtain ⟨-, -, -, f0, f1, f2, -⟩ := idx_facts0 t
  unfold iblk0
  rw [View.read_apply]
  show V c main_v35 _ = V c main_v35 _
  congr 1
  funext a
  apply Fin.ext
  match a with
  | ⟨0, _⟩ => show win0_1.index t (0 : Fin 3) * 2 + 1 * h.val = h.val; omega
  | ⟨1, _⟩ => show win0_1.index t (1 : Fin 3) * 35 + 1 * l.val = l.val; omega
  | ⟨2, _⟩ => show win0_1.index t (2 : Fin 3) * 16 + 1 * k.val = k.val; omega

theorem iblk0_2_apply (c : Dev nD) (t : Fin cfg0.N) (h : Fin 2) (k : Fin 16) :
    (iblk0 V c 2 t : Vec Ideal S2x16 .f32) (ix2 h k) = (V c main_v42 : Vec Ideal S2x16 .f32) (ix2 h k) := by
  obtain ⟨-, -, -, -, -, -, f0, f1, -⟩ := idx_facts0 t
  unfold iblk0
  rw [View.read_apply]
  show V c main_v42 _ = V c main_v42 _
  congr 1
  funext a
  apply Fin.ext
  match a with
  | ⟨0, _⟩ => show win0_2.index t (0 : Fin 2) * 2 + 1 * h.val = h.val; omega
  | ⟨1, _⟩ => show win0_2.index t (1 : Fin 2) * 16 + 1 * k.val = k.val; omega

theorem iblk0_3_apply (c : Dev nD) (t : Fin cfg0.N) (h : Fin 2) (k : Fin 16) (j : Fin 16) :
    (iblk0 V c 3 t : Vec Ideal S2x16x16 .f32) (ix3 h k j) = (V c main_v49 : Vec Ideal S2x16x16 .f32) (ix3 h k j) := by
  obtain ⟨-, -, -, -, -, -, -, -, f0, f1, f2, -⟩ := idx_facts0 t
  unfold iblk0
  rw [View.read_apply]
  show V c main_v49 _ = V c main_v49 _
  congr 1
  funext a
  apply Fin.ext
  match a with
  | ⟨0, _⟩ => show win0_3.index t (0 : Fin 3) * 2 + 1 * h.val = h.val; omega
  | ⟨1, _⟩ => show win0_3.index t (1 : Fin 3) * 16 + 1 * k.val = k.val; omega
  | ⟨2, _⟩ => show win0_3.index t (2 : Fin 3) * 16 + 1 * j.val = j.val; omega

theorem iblk0_4_apply (c : Dev nD) (t : Fin cfg0.N) (h : Fin 2) (j : Fin 16) :
    (iblk0 V c 4 t : Vec Ideal S2x16 .f32) (ix2 h j) = (V c main_v56 : Vec Ideal S2x16 .f32) (ix2 h j) := by
  obtain ⟨-, -, -, -, -, -, -, -, -, -, -, f0, f1, -⟩ := idx_facts0 t
  unfold iblk0
  rw [View.read_apply]
  show V c main_v56 _ = V c main_v56 _
  congr 1
  funext a
  apply Fin.ext
  match a with
  | ⟨0, _⟩ => show win0_4.index t (0 : Fin 2) * 2 + 1 * h.val = h.val; omega
  | ⟨1, _⟩ => show win0_4.index t (1 : Fin 2) * 16 + 1 * j.val = j.val; omega

theorem edgeBlk_iblk0 (c : Dev nD) (t : Fin cfg0.N) (h : Fin 2) (r : Fin 4000) (j : Fin 16) (e : Fin 800000)
    (he : e.val = t.val * 4000 + r.val) :
    edgeBlk (iblk0 V c 0 t) (iblk0 V c 1 t) (iblk0 V c 2 t) (iblk0 V c 3 t) (iblk0 V c 4 t) (ix3 h r j)
      = Cert.Hand.Spec.edgeG (V c main_v28) (V c main_v35) (V c main_v42) (V c main_v49) (V c main_v56) (ix3 h e j) := by
  refine (edgeBlk_ix (iblk0 V c 0 t) (iblk0 V c 1 t) (iblk0 V c 2 t) (iblk0 V c 3 t) (iblk0 V c 4 t) h r j).trans ?_
  refine Eq.trans ?_ (edgeG_ix (V c main_v28) (V c main_v35) (V c main_v42) (V c main_v49) (V c main_v56) h e j).symm
  have e0 : (fun l => (iblk0 V c 0 t : Vec Ideal S2x4000x35 .f32) (ix3 h r l))
      = fun l => (V c main_v28 : Vec Ideal S2x800000x35 .f32) (ix3 h e l) := funext fun l => iblk0_0_apply V c t h r l e he
  have e1 : (fun l k => (iblk0 V c 1 t : Vec Ideal S2x35x16 .f32) (ix3 h l k))
      = fun l k => (V c main_v35 : Vec Ideal S2x35x16 .f32) (ix3 h l k) := funext fun l => funext fun k => iblk0_1_apply V c t h l k
  have e2 : (fun k => (iblk0 V c 2 t : Vec Ideal S2x16 .f32) (ix2 h k))
      = fun k => (V c main_v42 : Vec Ideal S2x16 .f32) (ix2 h k) := funext fun k => iblk0_2_apply V c t h k
  have e3 : (fun k j => (iblk0 V c 3 t : Vec Ideal S2x16x16 .f32) (ix3 h k j))
      = fun k j => (V c main_v49 : Vec Ideal S2x16x16 .f32) (ix3 h k j) := funext fun k => funext fun j => iblk0_3_apply V c t h k j
  have e4 : (fun j => (iblk0 V c 4 t : Vec Ideal S2x16 .f32) (ix2 h j))
      = fun j => (V c main_v56 : Vec Ideal S2x16 .f32) (ix2 h j) := funext fun j => iblk0_4_apply V c t h j
  rw [e0, e1, e2, e3, e4]

theorem flushed0_5_eq (c : Dev nD) (t : Fin cfg0.N) :
    (dat0 V c).flushed 5 t = ((cfg0.win 5).blk t).view.read (Elt Ideal)
      (Cert.Hand.Spec.edgeG (V c main_v28) (V c main_v35) (V c main_v42) (V c main_v49) (V c main_v56)) := by
  show (cfg0.win 5).cut (grid0.coords t) ((dat0 V c).after 5 t) = _
  rw [after0_5, out0_5_eq (iblk0 V c 0 t) (iblk0 V c 1 t) (iblk0 V c 2 t) (iblk0 V c 3 t) (iblk0 V c 4 t)]
  funext y
  rw [View.read_apply]
  obtain ⟨-, -, -, -, -, -, -, -, -, -, -, -, -, g0, g1, g2⟩ := idx_facts0 t
  have hN : cfg0.N = 200 := N_0
  have ht : t.val < 200 := hN ▸ t.isLt
  have hy0 : (y 0).val < 2 := (y 0).isLt
  have hy1 : (y 1).val < 4000 := (y 1).isLt
  have hy2 : (y 2).val < 16 := (y 2).isLt
  have hx : (cfg0.win 5).xinj (grid0.coords t) y = ix3 (⟨(y 0).val, hy0⟩ : Fin 2) (⟨(y 1).val, hy1⟩ : Fin 4000) (⟨(y 2).val, hy2⟩ : Fin 16) :=
    funext fun a => by match a with | ⟨0, _⟩ => rfl | ⟨1, _⟩ => rfl | ⟨2, _⟩ => rfl
  have hemb : ((cfg0.win 5).blk t).view.emb y
      = ix3 (⟨(y 0).val, hy0⟩ : Fin 2) (⟨t.val * 4000 + (y 1).val, by omega⟩ : Fin 800000) (⟨(y 2).val, hy2⟩ : Fin 16) :=
    funext fun a => Fin.ext (by
      match a with
      | ⟨0, _⟩ => show win0_5.index t (0 : Fin 3) * 2 + 1 * (y 0).val = (y 0).val; omega
      | ⟨1, _⟩ => show win0_5.index t (1 : Fin 3) * 4000 + 1 * (y 1).val = t.val * 4000 + (y 1).val; omega
      | ⟨2, _⟩ => show win0_5.index t (2 : Fin 3) * 16 + 1 * (y 2).val = (y 2).val; omega)
  show edgeBlk (iblk0 V c 0 t) (iblk0 V c 1 t) (iblk0 V c 2 t) (iblk0 V c 3 t) (iblk0 V c 4 t) ((cfg0.win 5).xinj (grid0.coords t) y)
    = Cert.Hand.Spec.edgeG (V c main_v28) (V c main_v35) (V c main_v42) (V c main_v49) (V c main_v56) (((cfg0.win 5).blk t).view.emb y)
  rw [hx, hemb]
  exact edgeBlk_iblk0 V c t _ _ _ _ rfl

theorem mem_blk0_5 (t : Fin cfg0.N) (i : S2x800000x16.Idx) :
    i ∈ ((cfg0.win 5).blk t).view.set ↔ ∀ a : Fin 3, win0_5.index t a * S2x4000x16.size a ≤ (i a).val ∧ (i a).val < win0_5.index t a * S2x4000x16.size a + S2x4000x16.size a := by
  show i ∈ ((View.whole main_v57).slice (win0_5.rect t)).set ↔ _
  rw [View.set_slice_whole, Rect.mem_set_unit]
  exact Iff.rfl

theorem cover0_rows (i : S2x800000x16.Idx) :
    ∃ t : Fin cfg0.N, (cfg0.win 5).flush t = true ∧ i ∈ ((cfg0.win 5).blk t).view.set := by
  have hN : cfg0.N = 200 := N_0
  have hi0 : (i 0).val < 2 := (i 0).isLt
  have hi1 : (i 1).val < 800000 := (i 1).isLt
  have hi2 : (i 2).val < 16 := (i 2).isLt
  have ht : (i 1).val / 4000 < cfg0.N := by rw [hN]; omega
  refine ⟨⟨(i 1).val / 4000, ht⟩, flush0_5 _, ?_⟩
  rw [mem_blk0_5]
  obtain ⟨-, -, -, -, -, -, -, -, -, -, -, -, -, g0, g1, g2⟩ := idx_facts0 ⟨(i 1).val / 4000, ht⟩
  have g1' : win0_5.index ⟨(i 1).val / 4000, ht⟩ (1 : Fin 3) = (i 1).val / 4000 := g1
  intro a
  match a with
  | ⟨0, _⟩ => show win0_5.index ⟨(i 1).val / 4000, ht⟩ (0 : Fin 3) * 2 ≤ (i 0).val ∧ (i 0).val < win0_5.index ⟨(i 1).val / 4000, ht⟩ (0 : Fin 3) * 2 + 2; omega
  | ⟨1, _⟩ => show win0_5.index ⟨(i 1).val / 4000, ht⟩ (1 : Fin 3) * 4000 ≤ (i 1).val ∧ (i 1).val < win0_5.index ⟨(i 1).val / 4000, ht⟩ (1 : Fin 3) * 4000 + 4000; omega
  | ⟨2, _⟩ => show win0_5.index ⟨(i 1).val / 4000, ht⟩ (2 : Fin 3) * 16 ≤ (i 2).val ∧ (i 2).val < win0_5.index ⟨(i 1).val / 4000, ht⟩ (2 : Fin 3) * 16 + 16; omega

theorem edge_final0 (V : (c : Dev nD) → (b : Ref sig .tc) → Buf (Elt Ideal) ((c : Thread nD τ).loc b)) (c : Dev nD) :
    (dat0 (F := Ideal) V c).arrAt 5 cfg0.N
      = Cert.Hand.Spec.edgeG (V c main_v28) (V c main_v35) (V c main_v42) (V c main_v49) (V c main_v56) :=
  (dat0 V c).arrAt_eq_of_cover 5
    (Cert.Hand.Spec.edgeG (V c main_v28) (V c main_v35) (V c main_v42) (V c main_v49) (V c main_v56))
    (fun t _ => flushed0_5_eq V c t) cover0_rows

end Cert.KernelIdeal.Hand

end
-- ==== Proof.KI.KVals2.lean ====
import proofs.«404712_j21509196219215_4_alg».proof.Proof.KI.KVals1
import proofs.«404712_j21509196219215_4_alg».proof.Proof.KI.EdgeVal0

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable (m : (ℓ : Loc nD τ sig) → Buf (Elt Ideal) ℓ) (ρ : Dev nD → PrngReg) (c : Dev nD)

theorem kb2_v57 : W2 m ρ c (Proc.devRef .tc main_v57)
    = Spec.edgeG (stackX (Pure.tmpTo zeroState (argsK m c).a0 (argsK m c).a1) (Pure.tmpFrom zeroState (argsK m c).a0 (argsK m c).a1))
        (stackW1 (Pure.w35 0 (argsK m c).a6) (Pure.w35 0 (argsK m c).a10)) (stackB (Pure.b16 0 (argsK m c).a7) (Pure.b16 0 (argsK m c).a11))
        (stackW2 (Pure.w16 0 (argsK m c).a8) (Pure.w16 0 (argsK m c).a12)) (stackB (Pure.b16 0 (argsK m c).a9) (Pure.b16 0 (argsK m c).a13)) := by
  refine (W2_arr m ρ c 5).trans ((edge_final0 (V1 m ρ) c).trans ?_)
  rw [show V1 m ρ c main_v28 = W1 m ρ c (Proc.devRef .tc main_v28) from rfl, show V1 m ρ c main_v35 = W1 m ρ c (Proc.devRef .tc main_v35) from rfl,
    show V1 m ρ c main_v42 = W1 m ρ c (Proc.devRef .tc main_v42) from rfl, show V1 m ρ c main_v49 = W1 m ρ c (Proc.devRef .tc main_v49) from rfl,
    show V1 m ρ c main_v56 = W1 m ρ c (Proc.devRef .tc main_v56) from rfl,
    kb1_v28, kb1_v35, kb1_v42, kb1_v49, kb1_v56]

theorem kb2_v1 : W2 m ρ c (Proc.devRef .tc main_v1) = srcOf (argsK m c).a0 :=
  (W2_of_ne m ρ c main_v1 (by decide)).trans (kb1_v1 m ρ c)
theorem kb2_v3 : W2 m ρ c (Proc.devRef .tc main_v3) = dstOf (argsK m c).a0 :=
  (W2_of_ne m ρ c main_v3 (by decide)).trans (kb1_v3 m ρ c)
theorem kb2_v6 : W2 m ρ c (Proc.devRef .tc main_v6) = Pure.maskOf (argsK m c).a0 :=
  (W2_of_ne m ρ c main_v6 (by decide)).trans (kb1_v6 m ρ c)
theorem kb2_v7 : W2 m ρ c (Proc.devRef .tc main_v7) = zeroState :=
  (W2_of_ne m ρ c main_v7 (by decide)).trans (kb1_v7 m ρ c)
theorem kb2_v9 : W2 m ρ c (Proc.devRef .tc main_v9) = Pure.avalOf (argsK m c).a2 :=
  (W2_of_ne m ρ c main_v9 (by decide)).trans (kb1_v9 m ρ c)

theorem kb2_argK : argsOf (W2 m ρ c) = argsK m c := by
  rw [← kb1_argK m ρ c]; unfold argsOf
  rw [W2_of_ne m ρ c main_arg0 (by decide), W2_of_ne m ρ c main_arg1 (by decide), W2_of_ne m ρ c main_arg2 (by decide), W2_of_ne m ρ c main_arg3 (by decide), W2_of_ne m ρ c main_arg5 (by decide), W2_of_ne m ρ c main_arg6 (by decide), W2_of_ne m ρ c main_arg7 (by decide), W2_of_ne m ρ c main_arg8 (by decide), W2_of_ne m ρ c main_arg9 (by decide), W2_of_ne m ρ c main_arg10 (by decide), W2_of_ne m ρ c main_arg11 (by decide), W2_of_ne m ρ c main_arg12 (by decide), W2_of_ne m ρ c main_arg13 (by decide), W2_of_ne m ρ c main_arg14 (by decide), W2_of_ne m ρ c main_arg15 (by decide), W2_of_ne m ρ c main_arg16 (by decide), W2_of_ne m ρ c main_arg17 (by decide), W2_of_ne m ρ c main_arg18 (by decide), W2_of_ne m ρ c main_arg19 (by decide), W2_of_ne m ρ c main_arg20 (by decide), W2_of_ne m ρ c main_arg21 (by decide)]

end Cert.KernelIdeal.Hand

end
-- ==== Proof.KI.KRead1.lean ====
import proofs.«404712_j21509196219215_4_alg».proof.Proof.KI.KVals1

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable {F : FTy → Type} [FloatOps F]

set_option maxHeartbeats 4000000 in
theorem k1_v67 (W : Valuation τ sig (Elt F)) : StableHlo.after hostOps1 W (Proc.devRef .tc main_v67)
    = Pure.scatterRows (W (Proc.devRef .tc main_v3)) (maskedHalf0 (W (Proc.devRef .tc main_v57)) (W (Proc.devRef .tc main_v6))) := by
  after_results_simp3; rfl
set_option maxHeartbeats 4000000 in
theorem k1_v71 (W : Valuation τ sig (Elt F)) : StableHlo.after hostOps1 W (Proc.devRef .tc main_v71)
    = catFP (Pure.scatterRows (W (Proc.devRef .tc main_v1)) (maskedHalf1 (W (Proc.devRef .tc main_v57)) (W (Proc.devRef .tc main_v6)))) (argsOf W).a3 := by
  after_results_simp3; rfl
set_option maxHeartbeats 4000000 in
theorem k1_v73 (W : Valuation τ sig (Elt F)) : StableHlo.after hostOps1 W (Proc.devRef .tc main_v73)
    = Pure.w49 0 (argsOf W).a14 := by
  after_results_simp3; rfl
set_option maxHeartbeats 4000000 in
theorem k1_v75 (W : Valuation τ sig (Elt F)) : StableHlo.after hostOps1 W (Proc.devRef .tc main_v75)
    = Pure.b16 0 (argsOf W).a15 := by
  after_results_simp3; rfl
set_option maxHeartbeats 4000000 in
theorem k1_v77 (W : Valuation τ sig (Elt F)) : StableHlo.after hostOps1 W (Proc.devRef .tc main_v77)
    = Pure.w16 0 (argsOf W).a16 := by
  after_results_simp3; rfl
set_option maxHeartbeats 4000000 in
theorem k1_v79 (W : Valuation τ sig (Elt F)) : StableHlo.after hostOps1 W (Proc.devRef .tc main_v79)
    = Pure.b16 0 (argsOf W).a17 := by
  after_results_simp3; rfl
set_option maxHeartbeats 4000000 in
theorem k1_v81 (W : Valuation τ sig (Elt F)) : StableHlo.after hostOps1 W (Proc.devRef .tc main_v81)
    = Pure.w16 0 (argsOf W).a18 := by
  after_results_simp3; rfl
set_option maxHeartbeats 4000000 in
theorem k1_v83 (W : Valuation τ sig (Elt F)) : StableHlo.after hostOps1 W (Proc.devRef .tc main_v83)
    = Pure.b16 0 (argsOf W).a19 := by
  after_results_simp3; rfl
set_option maxHeartbeats 4000000 in
theorem k1_v85 (W : Valuation τ sig (Elt F)) : StableHlo.after hostOps1 W (Proc.devRef .tc main_v85)
    = Pure.w16x1 0 (argsOf W).a20 := by
  after_results_simp3; rfl
set_option maxHeartbeats 4000000 in
theorem k1_v87 (W : Valuation τ sig (Elt F)) : StableHlo.after hostOps1 W (Proc.devRef .tc main_v87)
    = Pure.b1 0 (argsOf W).a21 := by
  after_results_simp3; rfl

theorem k1_args (W : Valuation τ sig (Elt F)) : argsOf (StableHlo.after hostOps1 W) = argsOf W := by
  unfold argsOf
  rw [kv_keep1 W main_arg0 (by decide), kv_keep1 W main_arg1 (by decide), kv_keep1 W main_arg2 (by decide), kv_keep1 W main_arg3 (by decide), kv_keep1 W main_arg5 (by decide), kv_keep1 W main_arg6 (by decide), kv_keep1 W main_arg7 (by decide), kv_keep1 W main_arg8 (by decide), kv_keep1 W main_arg9 (by decide), kv_keep1 W main_arg10 (by decide), kv_keep1 W main_arg11 (by decide), kv_keep1 W main_arg12 (by decide), kv_keep1 W main_arg13 (by decide), kv_keep1 W main_arg14 (by decide), kv_keep1 W main_arg15 (by decide), kv_keep1 W main_arg16 (by decide), kv_keep1 W main_arg17 (by decide), kv_keep1 W main_arg18 (by decide), kv_keep1 W main_arg19 (by decide), kv_keep1 W main_arg20 (by decide), kv_keep1 W main_arg21 (by decide)]

end Cert.KernelIdeal.Hand

end
-- ==== Proof.KI.KGlue.lean ====
import proofs.«404712_j21509196219215_4_alg».proof.Proof.KI.KVals1

noncomputable section

namespace Cert.KernelIdeal.Hand

open Cert.KernelIdeal Cert.KernelIdeal.Gen Idealize.ShloMosaic Idealize.ShloMosaic.TcCoe Idealize.SL.Sem
open Cert.Hand Cert.Hand.Bridge

variable [Cert.KernelIdeal.Facts₀] [Cert.ReferenceIdeal.Facts₀]

theorem messTo_of (A : Pure.Args Ideal) (t : Fin 3) (h : Vec Ideal S100000x16 .f32) (i : IVec S800000 32)
    (ms : Vec Ideal S2x800000x16 .f32) (mask : Vec Ideal S800000x1 .f32) (ei : i = dstOf A.a0)
    (ems : ms = Spec.edgeG (stackX (Pure.tmpTo h A.a0 A.a1) (Pure.tmpFrom h A.a0 A.a1))
        (stackW1 (Pure.w35 t A.a6) (Pure.w35 t A.a10)) (stackB (Pure.b16 t A.a7) (Pure.b16 t A.a11))
        (stackW2 (Pure.w16 t A.a8) (Pure.w16 t A.a12)) (stackB (Pure.b16 t A.a9) (Pure.b16 t A.a13)))
    (emask : mask = Pure.maskOf A.a0) :
    Pure.scatterRows i (maskedHalf0 ms mask) = Pure.messTo A t h := by
  subst ei ems emask
  rw [edge_half0]
  rfl

theorem messFrom_of (A : Pure.Args Ideal) (t : Fin 3) (h : Vec Ideal S100000x16 .f32) (i : IVec S800000 32)
    (ms : Vec Ideal S2x800000x16 .f32) (mask : Vec Ideal S800000x1 .f32) (ei : i = srcOf A.a0)
    (ems : ms = Spec.edgeG (stackX (Pure.tmpTo h A.a0 A.a1) (Pure.tmpFrom h A.a0 A.a1))
        (stackW1 (Pure.w35 t A.a6) (Pure.w35 t A.a10)) (stackB (Pure.b16 t A.a7) (Pure.b16 t A.a11))
        (stackW2 (Pure.w16 t A.a8) (Pure.w16 t A.a12)) (stackB (Pure.b16 t A.a9) (Pure.b16 t A.a13)))
    (emask : mask = Pure.maskOf A.a0) :
    Pure.scatterRows i (maskedHalf1 ms mask) = Pure.messFrom A t h := by
  subst ei ems emask
  rw [edge_half1]
  rfl

theorem nodeG_congr {h h' mto mto' : (⟨2, ![100000, 16]⟩ : Shape).Idx → EReal} {mfp mfp' : (⟨2, ![100000, 17]⟩ : Shape).Idx → EReal}
    {pw1 pw1' : (⟨2, ![49, 16]⟩ : Shape).Idx → EReal} {pb1 pb1' : (⟨1, ![16]⟩ : Shape).Idx → EReal}
    {pw2 pw2' : (⟨2, ![16, 16]⟩ : Shape).Idx → EReal} {pb2 pb2' : (⟨1, ![16]⟩ : Shape).Idx → EReal}
    {dw1 dw1' : (⟨2, ![16, 16]⟩ : Shape).Idx → EReal} {db1 db1' : (⟨1, ![16]⟩ : Shape).Idx → EReal}
    {dw2 dw2' : (⟨2, ![16, 1]⟩ : Shape).Idx → EReal} {db2 db2' : (⟨1, ![1]⟩ : Shape).Idx → EReal}
    (e0 : h = h') (e1 : mto = mto') (e2 : mfp = mfp') (e3 : pw1 = pw1') (e4 : pb1 = pb1') (e5 : pw2 = pw2') (e6 : pb2 = pb2')
    (e7 : dw1 = dw1') (e8 : db1 = db1') (e9 : dw2 = dw2') (e10 : db2 = db2') :
    Spec.nodeG h mto mfp pw1 pb1 pw2 pb2 dw1 db1 dw2 db2 = Spec.nodeG h' mto' mfp' pw1' pb1' pw2' pb2' dw1' db1' dw2' db2' := by
  subst e0 e1 e2 e3 e4 e5 e6 e7 e8 e9 e10
  rfl

theorem argsOf_congr {F : FTy → Type} [FloatOps F] (W W' : Valuation τ sig (Elt F))
    (h0 : W (Proc.devRef .tc main_arg0) = W' (Proc.devRef .tc main_arg0))
    (h1 : W (Proc.devRef .tc main_arg1) = W' (Proc.devRef .tc main_arg1))
    (h2 : W (Proc.devRef .tc main_arg2) = W' (Proc.devRef .tc main_arg2))
    (h3 : W (Proc.devRef .tc main_arg3) = W' (Proc.devRef .tc main_arg3))
    (h5 : W (Proc.devRef .tc main_arg5) = W' (Proc.devRef .tc main_arg5))
    (h6 : W (Proc.devRef .tc main_arg6) = W' (Proc.devRef .tc main_arg6))
    (h7 : W (Proc.devRef .tc main_arg7) = W' (Proc.devRef .tc main_arg7))
    (h8 : W (Proc.devRef .tc main_arg8) = W' (Proc.devRef .tc main_arg8))
    (h9 : W (Proc.devRef .tc main_arg9) = W' (Proc.devRef .tc main_arg9))
    (h10 : W (Proc.devRef .tc main_arg10) = W' (Proc.devRef .tc main_arg10))
    (h11 : W (Proc.devRef .tc main_arg11) = W' (Proc.devRef .tc main_arg11))
    (h12 : W (Proc.devRef .tc main_arg12) = W' (Proc.devRef .tc main_arg12))
    (h13 : W (Proc.devRef .tc main_arg13) = W' (Proc.devRef .tc main_arg13))
    (h14 : W (Proc.devRef .tc main_arg14) = W' (Proc.devRef .tc main_arg14))
    (h15 : W (Proc.devRef .tc main_arg15) = W' (Proc.devRef .tc main_arg15))
    (h16 : W (Proc.devRef .tc main_arg16) = W' (Proc.devRef .tc main_arg16))
    (h17 : W (Proc.devRef .tc main_arg17) = W' (Proc.devRef .tc main_arg17))
    (h18 : W (Proc.devRef .tc main_arg18) = W' (Proc.devRef .tc main_arg18))
    (h19 : W (Proc.devRef .tc main_arg19) = W' (Proc.devRef .tc main_arg19))
    (h20 : W (Proc.devRef .tc main_arg20) = W' (Proc.devRef .tc main_arg20))
    (h21 : W (Proc.devRef .tc main_arg21) = W' (Proc.devRef .tc main_arg21)) :
    argsOf W = argsOf W' := by
  unfold argsOf
  rw [h0, h1, h2, h3, h5, h6, h7, h8, h9, h10, h11, h12, h13, h14, h15, h16, h17, h18, h19, h20, h21]

end Cert.KernelIdeal.Hand

end
-- ==== Proof.KI.KVals3.lean ====
import proofs.«404712_j21509196219215_4_alg».proof.Proof.KI.KVals2
import proofs.«404712_j21509196219215_4_alg».proof.Proof.KI.KRead1
import proofs.«404712_j21509196219215_4_alg».proof.Proof.KI.KGlue

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable (m : (ℓ : Loc nD τ sig) → Buf (Elt Ideal) ℓ) (ρ : Dev nD → PrngReg) (c : Dev nD)

theorem kb3_argK : argsOf (W3 m ρ c) = argsK m c := (k1_args (W2 m ρ c)).trans (kb2_argK m ρ c)

theorem kb3_v67 : W3 m ρ c (Proc.devRef .tc main_v67) = Pure.messTo (argsK m c) 0 zeroState :=
  (k1_v67 (W2 m ρ c)).trans
    (messTo_of (argsK m c) 0 zeroState (W2 m ρ c (Proc.devRef .tc main_v3)) (W2 m ρ c (Proc.devRef .tc main_v57)) (W2 m ρ c (Proc.devRef .tc main_v6))
      (kb2_v3 m ρ c) (kb2_v57 m ρ c) (kb2_v6 m ρ c))

theorem kb3_v71 : W3 m ρ c (Proc.devRef .tc main_v71) = catFP (Pure.messFrom (argsK m c) 0 zeroState) (argsK m c).a3 :=
  (k1_v71 (W2 m ρ c)).trans
    (congrArg₂ catFP
      (messFrom_of (argsK m c) 0 zeroState (W2 m ρ c (Proc.devRef .tc main_v1)) (W2 m ρ c (Proc.devRef .tc main_v57)) (W2 m ρ c (Proc.devRef .tc main_v6))
        (kb2_v1 m ρ c) (kb2_v57 m ρ c) (kb2_v6 m ρ c))
      (congrArg Pure.Args.a3 (kb2_argK m ρ c)))

theorem kb3_v73 : W3 m ρ c (Proc.devRef .tc main_v73) = Pure.w49 0 (argsK m c).a14 :=
  (k1_v73 (W2 m ρ c)).trans (congrArg (fun A : Pure.Args Ideal => Pure.w49 0 A.a14) (kb2_argK m ρ c))
theorem kb3_v75 : W3 m ρ c (Proc.devRef .tc main_v75) = Pure.b16 0 (argsK m c).a15 :=
  (k1_v75 (W2 m ρ c)).trans (congrArg (fun A : Pure.Args Ideal => Pure.b16 0 A.a15) (kb2_argK m ρ c))
theorem kb3_v77 : W3 m ρ c (Proc.devRef .tc main_v77) = Pure.w16 0 (argsK m c).a16 :=
  (k1_v77 (W2 m ρ c)).trans (congrArg (fun A : Pure.Args Ideal => Pure.w16 0 A.a16) (kb2_argK m ρ c))
theorem kb3_v79 : W3 m ρ c (Proc.devRef .tc main_v79) = Pure.b16 0 (argsK m c).a17 :=
  (k1_v79 (W2 m ρ c)).trans (congrArg (fun A : Pure.Args Ideal => Pure.b16 0 A.a17) (kb2_argK m ρ c))
theorem kb3_v81 : W3 m ρ c (Proc.devRef .tc main_v81) = Pure.w16 0 (argsK m c).a18 :=
  (k1_v81 (W2 m ρ c)).trans (congrArg (fun A : Pure.Args Ideal => Pure.w16 0 A.a18) (kb2_argK m ρ c))
theorem kb3_v83 : W3 m ρ c (Proc.devRef .tc main_v83) = Pure.b16 0 (argsK m c).a19 :=
  (k1_v83 (W2 m ρ c)).trans (congrArg (fun A : Pure.Args Ideal => Pure.b16 0 A.a19) (kb2_argK m ρ c))
theorem kb3_v85 : W3 m ρ c (Proc.devRef .tc main_v85) = Pure.w16x1 0 (argsK m c).a20 :=
  (k1_v85 (W2 m ρ c)).trans (congrArg (fun A : Pure.Args Ideal => Pure.w16x1 0 A.a20) (kb2_argK m ρ c))
theorem kb3_v87 : W3 m ρ c (Proc.devRef .tc main_v87) = Pure.b1 0 (argsK m c).a21 :=
  (k1_v87 (W2 m ρ c)).trans (congrArg (fun A : Pure.Args Ideal => Pure.b1 0 A.a21) (kb2_argK m ρ c))

theorem kb3_v1 : W3 m ρ c (Proc.devRef .tc main_v1) = srcOf (argsK m c).a0 :=
  (kv_keep1 (W2 m ρ c) main_v1 (by decide)).trans (kb2_v1 m ρ c)
theorem kb3_v3 : W3 m ρ c (Proc.devRef .tc main_v3) = dstOf (argsK m c).a0 :=
  (kv_keep1 (W2 m ρ c) main_v3 (by decide)).trans (kb2_v3 m ρ c)
theorem kb3_v6 : W3 m ρ c (Proc.devRef .tc main_v6) = Pure.maskOf (argsK m c).a0 :=
  (kv_keep1 (W2 m ρ c) main_v6 (by decide)).trans (kb2_v6 m ρ c)
theorem kb3_v7 : W3 m ρ c (Proc.devRef .tc main_v7) = zeroState :=
  (kv_keep1 (W2 m ρ c) main_v7 (by decide)).trans (kb2_v7 m ρ c)
theorem kb3_v9 : W3 m ρ c (Proc.devRef .tc main_v9) = Pure.avalOf (argsK m c).a2 :=
  (kv_keep1 (W2 m ρ c) main_v9 (by decide)).trans (kb2_v9 m ρ c)

end Cert.KernelIdeal.Hand

end
-- ==== Proof.KI.NodeOps.lean ====
import proofs.«404712_j21509196219215_4_alg».proof.Proof.Spec
import proofs.«404712_j21509196219215_4_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx
open Cert.Hand.Spec (mlp)

theorem lhs49_0 (i : S4000x16.Idx) (q : dot_S4000x49_S49x16_S4000x16_1_0_0_1_n_n.contr.Idx) :
    (dot_S4000x49_S49x16_S4000x16_1_0_0_1_n_n.lhsIdx i q 0).val = (i 0).val := by
  unfold DotDims.lhsIdx
  rw [dif_neg (show ¬(0 : Fin S4000x49.rank) ∈ dot_S4000x49_S49x16_S4000x16_1_0_0_1_n_n.lhsBatch by decide), dif_pos (show (0 : Fin S4000x49.rank) ∈ dot_S4000x49_S49x16_S4000x16_1_0_0_1_n_n.lhsNonContracting by decide)]
  rfl
theorem lhs49_1 (i : S4000x16.Idx) (q : dot_S4000x49_S49x16_S4000x16_1_0_0_1_n_n.contr.Idx) :
    (dot_S4000x49_S49x16_S4000x16_1_0_0_1_n_n.lhsIdx i q 1).val = (q ⟨0, by decide⟩).val :=
  dot_S4000x49_S49x16_S4000x16_1_0_0_1_n_n.lhsIdx_val_of_single rfl i q
theorem rhs49_0 (i : S4000x16.Idx) (q : dot_S4000x49_S49x16_S4000x16_1_0_0_1_n_n.contr.Idx) :
    (dot_S4000x49_S49x16_S4000x16_1_0_0_1_n_n.rhsIdx i q 0).val = (q ⟨0, by decide⟩).val :=
  dot_S4000x49_S49x16_S4000x16_1_0_0_1_n_n.rhsIdx_val_of_single rfl i q
theorem rhs49_1 (i : S4000x16.Idx) (q : dot_S4000x49_S49x16_S4000x16_1_0_0_1_n_n.contr.Idx) :
    (dot_S4000x49_S49x16_S4000x16_1_0_0_1_n_n.rhsIdx i q 1).val = (i 1).val := by
  unfold DotDims.rhsIdx
  rw [dif_neg (show ¬(1 : Fin S49x16.rank) ∈ dot_S4000x49_S49x16_S4000x16_1_0_0_1_n_n.rhsBatch by decide), dif_pos (show (1 : Fin S49x16.rank) ∈ dot_S4000x49_S49x16_S4000x16_1_0_0_1_n_n.rhsNonContracting by decide)]
  rfl

theorem matmul49_apply {φ₁ φ₂ : FTy} (a : FVec Ideal S4000x49 φ₁) (b : FVec Ideal S49x16 φ₂) (r : Fin 4000) (j : Fin 16) :
    matmul dot_S4000x49_S49x16_S4000x16_1_0_0_1_n_n none a b (constant (F := Ideal) S4000x16 .f32 0x00000000#32) (ix2 r j)
      = ∑ l : Fin 49, a (ix2 r l) * b (ix2 l j) := by
  show FloatOps.matmul dot_S4000x49_S49x16_S4000x16_1_0_0_1_n_n none a b (constant (F := Ideal) S4000x16 .f32 0x00000000#32) (ix2 r j) = _
  rw [Ideal.matmul_constant_zero_apply, ← Equiv.sum_comp (contrEquiv1 dot_S4000x49_S49x16_S4000x16_1_0_0_1_n_n 49 rfl rfl).symm]
  refine Finset.sum_congr rfl fun k _ => ?_
  have hk := contrEquiv1_symm_val dot_S4000x49_S49x16_S4000x16_1_0_0_1_n_n 49 rfl rfl k
  have el : dot_S4000x49_S49x16_S4000x16_1_0_0_1_n_n.lhsIdx (ix2 r j) ((contrEquiv1 dot_S4000x49_S49x16_S4000x16_1_0_0_1_n_n 49 rfl rfl).symm k) = ix2 r k := funext fun ax => Fin.ext (by
    match ax with
    | ⟨0, _⟩ => exact lhs49_0 _ _
    | ⟨1, _⟩ => exact (lhs49_1 _ _).trans hk)
  have er : dot_S4000x49_S49x16_S4000x16_1_0_0_1_n_n.rhsIdx (ix2 r j) ((contrEquiv1 dot_S4000x49_S49x16_S4000x16_1_0_0_1_n_n 49 rfl rfl).symm k) = ix2 k j := funext fun ax => Fin.ext (by
    match ax with
    | ⟨0, _⟩ => exact (rhs49_0 _ _).trans hk
    | ⟨1, _⟩ => exact rhs49_1 _ _)
  rw [el, er]

theorem lhs16_0 (i : S4000x16.Idx) (q : dot_S4000x16_S16x16_S4000x16_1_0_0_1_n_n.contr.Idx) :
    (dot_S4000x16_S16x16_S4000x16_1_0_0_1_n_n.lhsIdx i q 0).val = (i 0).val := by
  unfold DotDims.lhsIdx
  rw [dif_neg (show ¬(0 : Fin S4000x16.rank) ∈ dot_S4000x16_S16x16_S4000x16_1_0_0_1_n_n.lhsBatch by decide), dif_pos (show (0 : Fin S4000x16.rank) ∈ dot_S4000x16_S16x16_S4000x16_1_0_0_1_n_n.lhsNonContracting by decide)]
  rfl
theorem lhs16_1 (i : S4000x16.Idx) (q : dot_S4000x16_S16x16_S4000x16_1_0_0_1_n_n.contr.Idx) :
    (dot_S4000x16_S16x16_S4000x16_1_0_0_1_n_n.lhsIdx i q 1).val = (q ⟨0, by decide⟩).val :=
  dot_S4000x16_S16x16_S4000x16_1_0_0_1_n_n.lhsIdx_val_of_single rfl i q
theorem rhs16_0 (i : S4000x16.Idx) (q : dot_S4000x16_S16x16_S4000x16_1_0_0_1_n_n.contr.Idx) :
    (dot_S4000x16_S16x16_S4000x16_1_0_0_1_n_n.rhsIdx i q 0).val = (q ⟨0, by decide⟩).val :=
  dot_S4000x16_S16x16_S4000x16_1_0_0_1_n_n.rhsIdx_val_of_single rfl i q
theorem rhs16_1 (i : S4000x16.Idx) (q : dot_S4000x16_S16x16_S4000x16_1_0_0_1_n_n.contr.Idx) :
    (dot_S4000x16_S16x16_S4000x16_1_0_0_1_n_n.rhsIdx i q 1).val = (i 1).val := by
  unfold DotDims.rhsIdx
  rw [dif_neg (show ¬(1 : Fin S16x16.rank) ∈ dot_S4000x16_S16x16_S4000x16_1_0_0_1_n_n.rhsBatch by decide), dif_pos (show (1 : Fin S16x16.rank) ∈ dot_S4000x16_S16x16_S4000x16_1_0_0_1_n_n.rhsNonContracting by decide)]
  rfl

theorem matmul16_apply {φ₁ φ₂ : FTy} (a : FVec Ideal S4000x16 φ₁) (b : FVec Ideal S16x16 φ₂) (r : Fin 4000) (j : Fin 16) :
    matmul dot_S4000x16_S16x16_S4000x16_1_0_0_1_n_n none a b (constant (F := Ideal) S4000x16 .f32 0x00000000#32) (ix2 r j)
      = ∑ l : Fin 16, a (ix2 r l) * b (ix2 l j) := by
  show FloatOps.matmul dot_S4000x16_S16x16_S4000x16_1_0_0_1_n_n none a b (constant (F := Ideal) S4000x16 .f32 0x00000000#32) (ix2 r j) = _
  rw [Ideal.matmul_constant_zero_apply, ← Equiv.sum_comp (contrEquiv1 dot_S4000x16_S16x16_S4000x16_1_0_0_1_n_n 16 rfl rfl).symm]
  refine Finset.sum_congr rfl fun k _ => ?_
  have hk := contrEquiv1_symm_val dot_S4000x16_S16x16_S4000x16_1_0_0_1_n_n 16 rfl rfl k
  have el : dot_S4000x16_S16x16_S4000x16_1_0_0_1_n_n.lhsIdx (ix2 r j) ((contrEquiv1 dot_S4000x16_S16x16_S4000x16_1_0_0_1_n_n 16 rfl rfl).symm k) = ix2 r k := funext fun ax => Fin.ext (by
    match ax with
    | ⟨0, _⟩ => exact lhs16_0 _ _
    | ⟨1, _⟩ => exact (lhs16_1 _ _).trans hk)
  have er : dot_S4000x16_S16x16_S4000x16_1_0_0_1_n_n.rhsIdx (ix2 r j) ((contrEquiv1 dot_S4000x16_S16x16_S4000x16_1_0_0_1_n_n 16 rfl rfl).symm k) = ix2 k j := funext fun ax => Fin.ext (by
    match ax with
    | ⟨0, _⟩ => exact (rhs16_0 _ _).trans hk
    | ⟨1, _⟩ => exact rhs16_1 _ _)
  rw [el, er]

theorem lhs1_0 (i : S4000x1.Idx) (q : dot_S4000x16_S16x1_S4000x1_1_0_0_1_n_n.contr.Idx) :
    (dot_S4000x16_S16x1_S4000x1_1_0_0_1_n_n.lhsIdx i q 0).val = (i 0).val := by
  unfold DotDims.lhsIdx
  rw [dif_neg (show ¬(0 : Fin S4000x16.rank) ∈ dot_S4000x16_S16x1_S4000x1_1_0_0_1_n_n.lhsBatch by decide), dif_pos (show (0 : Fin S4000x16.rank) ∈ dot_S4000x16_S16x1_S4000x1_1_0_0_1_n_n.lhsNonContracting by decide)]
  rfl
theorem lhs1_1 (i : S4000x1.Idx) (q : dot_S4000x16_S16x1_S4000x1_1_0_0_1_n_n.contr.Idx) :
    (dot_S4000x16_S16x1_S4000x1_1_0_0_1_n_n.lhsIdx i q 1).val = (q ⟨0, by decide⟩).val :=
  dot_S4000x16_S16x1_S4000x1_1_0_0_1_n_n.lhsIdx_val_of_single rfl i q
theorem rhs1_0 (i : S4000x1.Idx) (q : dot_S4000x16_S16x1_S4000x1_1_0_0_1_n_n.contr.Idx) :
    (dot_S4000x16_S16x1_S4000x1_1_0_0_1_n_n.rhsIdx i q 0).val = (q ⟨0, by decide⟩).val :=
  dot_S4000x16_S16x1_S4000x1_1_0_0_1_n_n.rhsIdx_val_of_single rfl i q
theorem rhs1_1 (i : S4000x1.Idx) (q : dot_S4000x16_S16x1_S4000x1_1_0_0_1_n_n.contr.Idx) :
    (dot_S4000x16_S16x1_S4000x1_1_0_0_1_n_n.rhsIdx i q 1).val = (i 1).val := by
  unfold DotDims.rhsIdx
  rw [dif_neg (show ¬(1 : Fin S16x1.rank) ∈ dot_S4000x16_S16x1_S4000x1_1_0_0_1_n_n.rhsBatch by decide), dif_pos (show (1 : Fin S16x1.rank) ∈ dot_S4000x16_S16x1_S4000x1_1_0_0_1_n_n.rhsNonContracting by decide)]
  rfl

theorem matmul1_apply {φ₁ φ₂ : FTy} (a : FVec Ideal S4000x16 φ₁) (b : FVec Ideal S16x1 φ₂) (r : Fin 4000) (j : Fin 1) :
    matmul dot_S4000x16_S16x1_S4000x1_1_0_0_1_n_n none a b (constant (F := Ideal) S4000x1 .f32 0x00000000#32) (ix2 r j)
      = ∑ l : Fin 16, a (ix2 r l) * b (ix2 l j) := by
  show FloatOps.matmul dot_S4000x16_S16x1_S4000x1_1_0_0_1_n_n none a b (constant (F := Ideal) S4000x1 .f32 0x00000000#32) (ix2 r j) = _
  rw [Ideal.matmul_constant_zero_apply, ← Equiv.sum_comp (contrEquiv1 dot_S4000x16_S16x1_S4000x1_1_0_0_1_n_n 16 rfl rfl).symm]
  refine Finset.sum_congr rfl fun k _ => ?_
  have hk := contrEquiv1_symm_val dot_S4000x16_S16x1_S4000x1_1_0_0_1_n_n 16 rfl rfl k
  have el : dot_S4000x16_S16x1_S4000x1_1_0_0_1_n_n.lhsIdx (ix2 r j) ((contrEquiv1 dot_S4000x16_S16x1_S4000x1_1_0_0_1_n_n 16 rfl rfl).symm k) = ix2 r k := funext fun ax => Fin.ext (by
    match ax with
    | ⟨0, _⟩ => exact lhs1_0 _ _
    | ⟨1, _⟩ => exact (lhs1_1 _ _).trans hk)
  have er : dot_S4000x16_S16x1_S4000x1_1_0_0_1_n_n.rhsIdx (ix2 r j) ((contrEquiv1 dot_S4000x16_S16x1_S4000x1_1_0_0_1_n_n 16 rfl rfl).symm k) = ix2 k j := funext fun ax => Fin.ext (by
    match ax with
    | ⟨0, _⟩ => exact (rhs1_0 _ _).trans hk
    | ⟨1, _⟩ => exact rhs1_1 _ _)
  rw [el, er]

theorem biasRow16_apply (v : FVec Ideal S16 .f32) (h1 : S16.ShapeCasts S1x16) (h2 : S1x16.Broadcasts S4000x16)
    (r : Fin 4000) (k : Fin 16) : broadcastTo S4000x16 (shapeCast S1x16 v h1) h2 (ix2 r k) = v (ix1 k) :=
  (broadcastTo_1b_ab_apply (shapeCast S1x16 v h1) h2 r k).trans (shapeCast_a_1a_apply v h1 0 k)

theorem biasRow1_apply (v : FVec Ideal S1 .f32) (h1 : S1.ShapeCasts S1x1) (h2 : S1x1.Broadcasts S4000x1)
    (r : Fin 4000) (j : Fin 1) : broadcastTo S4000x1 (shapeCast S1x1 v h1) h2 (ix2 r j) = v (ix1 j) :=
  (broadcastTo_1b_ab_apply (shapeCast S1x1 v h1) h2 r j).trans (shapeCast_a_1a_apply v h1 0 j)

def blkRow (x0 x1 : S4000x16.Idx → EReal) (x2 : S4000x17.Idx → EReal) (r : Fin 4000) (l : Fin 49) : EReal :=
  if h0 : l.val < 16 then x0 (ix2 r ⟨l.val, h0⟩)
  else if h1 : l.val < 32 then x1 (ix2 r ⟨l.val - 16, by omega⟩)
  else x2 (ix2 r ⟨l.val - 32, by omega⟩)

theorem row49_apply (x0 x1 : FVec Ideal S4000x16 .f32) (x2 : FVec Ideal S4000x17 .f32)
    (hs0 : S4000x17.Slices ![0, 0] S4000x16) (hs1 : S4000x17.Slices ![0, 16] S4000x1)
    (hc : Shape.Concatenates [S4000x16, S4000x16, S4000x16, S4000x1] S4000x49 1) (r : Fin 4000) (l : Fin 49) :
    concatenate S4000x49 1 [⟨S4000x16, x0⟩, ⟨S4000x16, x1⟩, ⟨S4000x16, extractStridedSlice S4000x16 ![0, 0] x2 hs0⟩,
      ⟨S4000x1, extractStridedSlice S4000x1 ![0, 16] x2 hs1⟩] hc (ix2 r l) = blkRow x0 x1 x2 r l := by
  unfold blkRow
  by_cases h0 : l.val < 16
  · rw [dif_pos h0]
    refine concatenate_apply_piece (1 : Fin S4000x49.rank) [⟨S4000x16, x0⟩, ⟨S4000x16, x1⟩, ⟨S4000x16, extractStridedSlice S4000x16 ![0, 0] x2 hs0⟩, ⟨S4000x1, extractStridedSlice S4000x1 ![0, 16] x2 hs1⟩] hc (ix2 r l) 0 (by simp) S4000x16 x0 rfl rfl 0 rfl
      (ix2 r ⟨l.val, h0⟩) (fun b hb => ?_) ?_
    · match b with
      | ⟨0, _⟩ => rfl
      | ⟨1, _⟩ => exact absurd rfl hb
    · show 0 + l.val = l.val; omega
  · rw [dif_neg h0]
    by_cases h1 : l.val < 32
    · rw [dif_pos h1]
      refine concatenate_apply_piece (1 : Fin S4000x49.rank) [⟨S4000x16, x0⟩, ⟨S4000x16, x1⟩, ⟨S4000x16, extractStridedSlice S4000x16 ![0, 0] x2 hs0⟩, ⟨S4000x1, extractStridedSlice S4000x1 ![0, 16] x2 hs1⟩] hc (ix2 r l) 1 (by simp) S4000x16 x1 rfl rfl 16 rfl
        (ix2 r ⟨l.val - 16, by omega⟩) (fun b hb => ?_) ?_
      · match b with
        | ⟨0, _⟩ => rfl
        | ⟨1, _⟩ => exact absurd rfl hb
      · show 16 + (l.val - 16) = l.val; omega
    · rw [dif_neg h1]
      by_cases h2 : l.val < 48
      · refine (concatenate_apply_piece (1 : Fin S4000x49.rank) [⟨S4000x16, x0⟩, ⟨S4000x16, x1⟩, ⟨S4000x16, extractStridedSlice S4000x16 ![0, 0] x2 hs0⟩, ⟨S4000x1, extractStridedSlice S4000x1 ![0, 16] x2 hs1⟩] hc (ix2 r l) 2 (by simp) S4000x16 _ rfl rfl 32 rfl
          (ix2 r ⟨l.val - 32, by omega⟩) (fun b hb => ?_) ?_).trans ?_
        · match b with
          | ⟨0, _⟩ => rfl
          | ⟨1, _⟩ => exact absurd rfl hb
        · show 32 + (l.val - 32) = l.val; omega
        · exact slice2_axis1_apply 0 x2 hs0 r ⟨l.val - 32, by omega⟩ ⟨l.val - 32, by omega⟩ (by show l.val - 32 = 0 + (l.val - 32); omega)
      · have hl : l.val = 48 := by have := l.isLt; omega
        refine (concatenate_apply_piece (1 : Fin S4000x49.rank) [⟨S4000x16, x0⟩, ⟨S4000x16, x1⟩, ⟨S4000x16, extractStridedSlice S4000x16 ![0, 0] x2 hs0⟩, ⟨S4000x1, extractStridedSlice S4000x1 ![0, 16] x2 hs1⟩] hc (ix2 r l) 3 (by simp) S4000x1 _ rfl rfl 48 rfl
          (ix2 r (0 : Fin 1)) (fun b hb => ?_) ?_).trans ?_
        · match b with
          | ⟨0, _⟩ => rfl
          | ⟨1, _⟩ => exact absurd rfl hb
        · show 48 + 0 = l.val; omega
        · exact slice2_axis1_apply 16 x2 hs1 r (0 : Fin 1) ⟨l.val - 32, by omega⟩ (by show l.val - 32 = 16 + 0; omega)

theorem out17_apply_lt (a : FVec Ideal S4000x16 .f32) (b : FVec Ideal S4000x1 .f32)
    (hc : Shape.Concatenates [S4000x16, S4000x1] S4000x17 1) (r : Fin 4000) (c : Fin 17) (h : c.val < 16) :
    concatenate S4000x17 1 [⟨S4000x16, a⟩, ⟨S4000x1, b⟩] hc (ix2 r c) = a (ix2 r ⟨c.val, h⟩) := by
  refine concatenate_pair_apply_left (1 : Fin S4000x17.rank) a b hc (ix2 r c) rfl (ix2 r ⟨c.val, h⟩) (fun ax => ?_)
  match ax with
  | ⟨0, _⟩ => rfl
  | ⟨1, _⟩ => rfl

theorem out17_apply_16 (a : FVec Ideal S4000x16 .f32) (b : FVec Ideal S4000x1 .f32)
    (hc : Shape.Concatenates [S4000x16, S4000x1] S4000x17 1) (r : Fin 4000) (c : Fin 17) (h : ¬ c.val < 16) :
    concatenate S4000x17 1 [⟨S4000x16, a⟩, ⟨S4000x1, b⟩] hc (ix2 r c) = b (ix2 r (0 : Fin 1)) := by
  refine concatenate_pair_apply_right (1 : Fin S4000x17.rank) a b hc (ix2 r c) rfl rfl (ix2 r (0 : Fin 1)) (fun ax hb => ?_) ?_
  · match ax with
    | ⟨0, _⟩ => rfl
    | ⟨1, _⟩ => exact absurd rfl hb
  · have := c.isLt
    show 0 + 16 = c.val; omega

theorem zeroWord : (FloatOps.ofBits (F := Ideal) .f32 0x00000000#32) = (0 : EReal) := Ideal.ofBits_zero_f32

end Cert.KernelIdeal.Hand

end
-- ==== Proof.KI.NodePay1.lean ====
import proofs.«404712_j21509196219215_4_alg».proof.Proof.KI.NodeOps

noncomputable section

namespace Cert.KernelIdeal.Hand

open Cert.KernelIdeal Cert.KernelIdeal.Gen
open Idealize.ShloMosaic Idealize.ShloMosaic.ValueIdx
open Cert.Hand.Spec (mlp)

theorem pay2_apply_r1 (v0 v2 : Vec Ideal S4000x16 .f32) (v4 : Vec Ideal S4000x17 .f32) (v10 : Vec Ideal S49x16 .f32)
    (v13 : Vec Ideal S16 .f32) (v21 : Vec Ideal S16x16 .f32) (v24 : Vec Ideal S16 .f32) (r : Fin 4000) (j : Fin 16) :
    k1_pay2 v0 v2 v4 v10 v13 v21 v24 (ix2 r j)
      = v0 (ix2 r j) + Ideal.ofBits .f32 0x3DCCCCCD#32 *
          mlp (blkRow v0 v2 v4 r) (fun l k => v10 (ix2 l k)) (fun k => v13 (ix1 k)) (fun k j => v21 (ix2 k j))
            (fun j => v24 (ix1 j)) j := by
  unfold k1_pay2
  simp only [shapeCast_self]
  simp only [addf_apply, mulf_apply, broadcast_apply]
  rw [matmul16_apply, biasRow16_apply]
  simp only [truncf_apply, maximumf_apply, addf_apply, broadcast_apply, matmul49_apply, biasRow16_apply, row49_apply]
  simp only [shapeCast_self, zeroWord]
  rfl

theorem pay1_apply_lt_r1 (v33 : FVec Ideal S4000x16 .f32) (v36 : FVec Ideal S16x16 .bf16) (v38 : FVec Ideal S16 .f32)
    (v39 : FVec Ideal S4000x16 .bf16) (v46 : Vec Ideal S16x1 .f32) (v49 : Vec Ideal S1 .f32) (r : Fin 4000) (c : Fin 17)
    (h : c.val < 16) : k1_pay1 v33 v36 v38 v39 v46 v49 (ix2 r c) = v33 (ix2 r ⟨c.val, h⟩) := by
  unfold k1_pay1
  exact out17_apply_lt _ _ _ r c h

theorem pay1_apply_16_r1 (v33 : FVec Ideal S4000x16 .f32) (v36 : FVec Ideal S16x16 .bf16) (v38 : FVec Ideal S16 .f32)
    (v39 : FVec Ideal S4000x16 .bf16) (v46 : Vec Ideal S16x1 .f32) (v49 : Vec Ideal S1 .f32) (r : Fin 4000) (c : Fin 17)
    (h : ¬ c.val < 16) : k1_pay1 v33 v36 v38 v39 v46 v49 (ix2 r c)
      = mlp (fun l => v39 (ix2 r l)) (fun l k => v36 (ix2 l k)) (fun k => v38 (ix1 k)) (fun k j => v46 (ix2 k j))
          (fun j => v49 (ix1 j)) (0 : Fin 1) := by
  unfold k1_pay1
  refine (out17_apply_16 _ _ _ r c h).trans ?_
  simp only [addf_apply]
  rw [matmul1_apply, biasRow1_apply]
  simp only [truncf_apply, maximumf_apply, addf_apply, broadcast_apply, matmul16_apply, biasRow16_apply, shapeCast_self, zeroWord]
  rfl

theorem pay3_eq_r1 (x7 : Vec Ideal S16x16 .f32) : k1_pay3 x7 = x7 := by
  unfold k1_pay3
  funext i
  simp only [truncf_apply, shapeCast_self]

theorem pay4_eq_r1 (x8 : Vec Ideal S16 .f32) : k1_pay4 x8 = x8 := by
  unfold k1_pay4
  simp only [shapeCast_self]

open Cert.Hand.Spec in
theorem body_eq_nodeG_r1 (x0 x1 : Vec Ideal S4000x16 .f32) (x2 : Vec Ideal S4000x17 .f32) (x3 : Vec Ideal S49x16 .f32)
    (x4 : Vec Ideal S16 .f32) (x5 : Vec Ideal S16x16 .f32) (x6 : Vec Ideal S16 .f32) (x7 : Vec Ideal S16x16 .f32)
    (x8 : Vec Ideal S16 .f32) (x9 : Vec Ideal S16x1 .f32) (x10 : Vec Ideal S1 .f32)
    (h mto : (⟨2, ![100000, 16]⟩ : Shape).Idx → EReal) (mfp : (⟨2, ![100000, 17]⟩ : Shape).Idx → EReal)
    (r : Fin 4000) (n : Fin 100000) (e0 : ∀ j : Fin 16, x0 (ix2 r j) = h (ix2 n j))
    (e1 : ∀ j : Fin 16, x1 (ix2 r j) = mto (ix2 n j)) (e2 : ∀ j : Fin 17, x2 (ix2 r j) = mfp (ix2 n j)) (c : Fin 17) :
    k1_pay1 (k1_pay2 x0 x1 x2 x3 x4 x5 x6) (k1_pay3 x7) (k1_pay4 x8) (k1_pay5 x0 x1 x2 x3 x4 x5 x6) x9 x10 (ix2 r c)
      = nodeG h mto mfp x3 x4 x5 x6 x7 x8 x9 x10 (ix2 n c) := by
  have hrow : blkRow x0 x1 x2 r = nodeRow h mto mfp n := by
    funext l
    unfold blkRow nodeRow
    by_cases h0 : l.val < 16
    · rw [dif_pos h0, dif_pos h0]; exact e0 _
    · rw [dif_neg h0, dif_neg h0]
      by_cases h1 : l.val < 32
      · rw [dif_pos h1, dif_pos h1]; exact e1 _
      · rw [dif_neg h1, dif_neg h1]; exact e2 _
  have hmoved : ∀ j : Fin 16, k1_pay2 x0 x1 x2 x3 x4 x5 x6 (ix2 r j) = hNew h mto mfp x3 x4 x5 x6 n j := fun j => by
    rw [pay2_apply_r1, hrow, e0]
    rfl
  unfold nodeG
  show _ = (if hj : c.val < 16 then hNew h mto mfp x3 x4 x5 x6 n ⟨c.val, hj⟩
    else uOut h mto mfp x3 x4 x5 x6 x7 x8 x9 x10 n)
  by_cases hc : c.val < 16
  · rw [pay1_apply_lt_r1 _ _ _ _ _ _ r c hc, hmoved, dif_pos hc]
  · rw [pay1_apply_16_r1 _ _ _ _ _ _ r c hc, pay3_eq_r1, pay4_eq_r1, dif_neg hc]
    unfold uOut
    congr 1
    funext l
    exact hmoved l

end Cert.KernelIdeal.Hand

end
-- ==== Proof.KI.NodeVal1.lean ====
import proofs.«404712_j21509196219215_4_alg».proof.Proof.KI.NodePay1
import proofs.«404712_j21509196219215_4_alg».proof.Proof.KI.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.Hand.Spec in
theorem entry_eq_r1 (x0 x1 : Vec Ideal S4000x16 .f32) (x2 : Vec Ideal S4000x17 .f32) (x3 : Vec Ideal S49x16 .f32)
    (x4 : Vec Ideal S16 .f32) (x5 : Vec Ideal S16x16 .f32) (x6 : Vec Ideal S16 .f32) (x7 : Vec Ideal S16x16 .f32)
    (x8 : Vec Ideal S16 .f32) (x9 : Vec Ideal S16x1 .f32) (x10 : Vec Ideal S1 .f32)
    (h mto : (⟨2, ![100000, 16]⟩ : Shape).Idx → EReal) (mfp : (⟨2, ![100000, 17]⟩ : Shape).Idx → EReal)
    (pw1 : (⟨2, ![49, 16]⟩ : Shape).Idx → EReal) (pb1 : (⟨1, ![16]⟩ : Shape).Idx → EReal)
    (pw2 : (⟨2, ![16, 16]⟩ : Shape).Idx → EReal) (pb2 : (⟨1, ![16]⟩ : Shape).Idx → EReal)
    (dw1 : (⟨2, ![16, 16]⟩ : Shape).Idx → EReal) (db1 : (⟨1, ![16]⟩ : Shape).Idx → EReal)
    (dw2 : (⟨2, ![16, 1]⟩ : Shape).Idx → EReal) (db2 : (⟨1, ![1]⟩ : Shape).Idx → EReal)
    (y : S4000x17.Idx) (i : (⟨2, ![100000, 17]⟩ : Shape).Idx) (hi1 : (i 1).val = (y 1).val)
    (e0 : ∀ j : Fin 16, x0 (ix2 (y 0) j) = h (ix2 (i 0) j)) (e1 : ∀ j : Fin 16, x1 (ix2 (y 0) j) = mto (ix2 (i 0) j))
    (e2 : ∀ j : Fin 17, x2 (ix2 (y 0) j) = mfp (ix2 (i 0) j))
    (e3 : x3 = pw1) (e4 : x4 = pb1) (e5 : x5 = pw2) (e6 : x6 = pb2) (e7 : x7 = dw1) (e8 : x8 = db1) (e9 : x9 = dw2)
    (e10 : x10 = db2) :
    k1_pay1 (k1_pay2 x0 x1 x2 x3 x4 x5 x6) (k1_pay3 x7) (k1_pay4 x8) (k1_pay5 x0 x1 x2 x3 x4 x5 x6) x9 x10 y
      = nodeG h mto mfp pw1 pb1 pw2 pb2 dw1 db1 dw2 db2 i := by
  subst e3 e4 e5 e6 e7 e8 e9 e10
  have hi : i = ix2 (i 0) (y 1) := by
    funext a
    match a with
    | ⟨0, _⟩ => rfl
    | ⟨1, _⟩ => exact Fin.ext hi1
  rw [hi]
  refine Eq.trans (congrArg _ (eq_ix2 y)) ?_
  exact body_eq_nodeG_r1 x0 x1 x2 x3 x4 x5 x6 x7 x8 x9 x10 h mto mfp (y 0) (i 0) e0 e1 e2 (y 1)

variable (V : (c : Dev nD) → (b : Ref sig .tc) → Buf (Elt Ideal) ((c : Thread nD τ).loc b))

theorem hz2_r1 : (![0, 0] : Fin 2 → Nat) = fun _ => 0 := funext fun a => by fin_cases a <;> rfl
theorem hz1_r1 : (![0] : Fin 1 → Nat) = fun _ => 0 := funext fun a => by fin_cases a <;> rfl

theorem out1_11_eq (x0 x1 : Vec Ideal S4000x16 .f32) (x2 : Vec Ideal S4000x17 .f32) (x3 : Vec Ideal S49x16 .f32)
    (x4 : Vec Ideal S16 .f32) (x5 : Vec Ideal S16x16 .f32) (x6 : Vec Ideal S16 .f32) (x7 : Vec Ideal S16x16 .f32)
    (x8 : Vec Ideal S16 .f32) (x9 : Vec Ideal S16x1 .f32) (x10 : Vec Ideal S1 .f32) :
    out1_11 x0 x1 x2 x3 x4 x5 x6 x7 x8 x9 x10
      = k1_pay1 (k1_pay2 x0 x1 x2 x3 x4 x5 x6) (k1_pay3 x7) (k1_pay4 x8) (k1_pay5 x0 x1 x2 x3 x4 x5 x6) x9 x10 := by
  unfold out1_11
  rw [View.canon_unit_zero hz2_r1]
  simp only [View.ld_unit_zero (S := S4000x16) hz2_r1, View.ld_unit_zero (S := S4000x17) hz2_r1, View.ld_unit_zero (S := S49x16) hz2_r1,
    View.ld_unit_zero (S := S16) hz1_r1, View.ld_unit_zero (S := S16x16) hz2_r1, View.ld_unit_zero (S := S16x1) hz2_r1,
    View.ld_unit_zero (S := S1) hz1_r1]

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_11.index t (0 : Fin 2) = t.val ∧ win1_11.index t (1 : Fin 2) = 0 :=
  (by decide +kernel : ∀ t : Fin grid1.N, _)

theorem idx_facts1w : ∀ t : Fin cfg1.N,
    win1_3.index t (0 : Fin 2) = 0 ∧ win1_3.index t (1 : Fin 2) = 0 ∧ win1_4.index t (0 : Fin 1) = 0
    ∧ win1_5.index t (0 : Fin 2) = 0 ∧ win1_5.index t (1 : Fin 2) = 0 ∧ win1_6.index t (0 : Fin 1) = 0
    ∧ win1_7.index t (0 : Fin 2) = 0 ∧ win1_7.index t (1 : Fin 2) = 0 ∧ win1_8.index t (0 : Fin 1) = 0
    ∧ win1_9.index t (0 : Fin 2) = 0 ∧ win1_9.index t (1 : Fin 2) = 0 ∧ win1_10.index t (0 : Fin 1) = 0 :=
  (by decide +kernel : ∀ t : Fin grid1.N, _)

theorem wblk1_3 (c : Dev nD) (t : Fin cfg1.N) : (iblk1 V c 3 t : S49x16.Idx → EReal) = (V c main_v73 : S49x16.Idx → EReal) := by
  obtain ⟨h3a, h3b, h4, h5a, h5b, h6, h7a, h7b, h8, h9a, h9b, h10⟩ := idx_facts1w t
  funext z
  show V c main_v73 (((cfg1.win 3).blk t).view.emb z) = V c main_v73 z
  refine congrArg _ (funext fun a => Fin.ext ?_)
  match a with
    | ⟨0, _⟩ => show win1_3.index t (0 : Fin 2) * 49 + 1 * (z 0).val = (z 0).val; omega
    | ⟨1, _⟩ => show win1_3.index t (1 : Fin 2) * 16 + 1 * (z 1).val = (z 1).val; omega

theorem wblk1_4 (c : Dev nD) (t : Fin cfg1.N) : (iblk1 V c 4 t : S16.Idx → EReal) = (V c main_v75 : S16.Idx → EReal) := by
  obtain ⟨h3a, h3b, h4, h5a, h5b, h6, h7a, h7b, h8, h9a, h9b, h10⟩ := idx_facts1w t
  funext z
  show V c main_v75 (((cfg1.win 4).blk t).view.emb z) = V c main_v75 z
  refine congrArg _ (funext fun a => Fin.ext ?_)
  match a with
    | ⟨0, _⟩ => show win1_4.index t (0 : Fin 1) * 16 + 1 * (z 0).val = (z 0).val; omega

theorem wblk1_5 (c : Dev nD) (t : Fin cfg1.N) : (iblk1 V c 5 t : S16x16.Idx → EReal) = (V c main_v77 : S16x16.Idx → EReal) := by
  obtain ⟨h3a, h3b, h4, h5a, h5b, h6, h7a, h7b, h8, h9a, h9b, h10⟩ := idx_facts1w t
  funext z
  show V c main_v77 (((cfg1.win 5).blk t).view.emb z) = V c main_v77 z
  refine congrArg _ (funext fun a => Fin.ext ?_)
  match a with
    | ⟨0, _⟩ => show win1_5.index t (0 : Fin 2) * 16 + 1 * (z 0).val = (z 0).val; omega
    | ⟨1, _⟩ => show win1_5.index t (1 : Fin 2) * 16 + 1 * (z 1).val = (z 1).val; omega

theorem wblk1_6 (c : Dev nD) (t : Fin cfg1.N) : (iblk1 V c 6 t : S16.Idx → EReal) = (V c main_v79 : S16.Idx → EReal) := by
  obtain ⟨h3a, h3b, h4, h5a, h5b, h6, h7a, h7b, h8, h9a, h9b, h10⟩ := idx_facts1w t
  funext z
  show V c main_v79 (((cfg1.win 6).blk t).view.emb z) = V c main_v79 z
  refine congrArg _ (funext fun a => Fin.ext ?_)
  match a with
    | ⟨0, _⟩ => show win1_6.index t (0 : Fin 1) * 16 + 1 * (z 0).val = (z 0).val; omega

theorem wblk1_7 (c : Dev nD) (t : Fin cfg1.N) : (iblk1 V c 7 t : S16x16.Idx → EReal) = (V c main_v81 : S16x16.Idx → EReal) := by
  obtain ⟨h3a, h3b, h4, h5a, h5b, h6, h7a, h7b, h8, h9a, h9b, h10⟩ := idx_facts1w t
  funext z
  show V c main_v81 (((cfg1.win 7).blk t).view.emb z) = V c main_v81 z
  refine congrArg _ (funext fun a => Fin.ext ?_)
  match a with
    | ⟨0, _⟩ => show win1_7.index t (0 : Fin 2) * 16 + 1 * (z 0).val = (z 0).val; omega
    | ⟨1, _⟩ => show win1_7.index t (1 : Fin 2) * 16 + 1 * (z 1).val = (z 1).val; omega

theorem wblk1_8 (c : Dev nD) (t : Fin cfg1.N) : (iblk1 V c 8 t : S16.Idx → EReal) = (V c main_v83 : S16.Idx → EReal) := by
  obtain ⟨h3a, h3b, h4, h5a, h5b, h6, h7a, h7b, h8, h9a, h9b, h10⟩ := idx_facts1w t
  funext z
  show V c main_v83 (((cfg1.win 8).blk t).view.emb z) = V c main_v83 z
  refine congrArg _ (funext fun a => Fin.ext ?_)
  match a with
    | ⟨0, _⟩ => show win1_8.index t (0 : Fin 1) * 16 + 1 * (z 0).val = (z 0).val; omega

theorem wblk1_9 (c : Dev nD) (t : Fin cfg1.N) : (iblk1 V c 9 t : S16x1.Idx → EReal) = (V c main_v85 : S16x1.Idx → EReal) := by
  obtain ⟨h3a, h3b, h4, h5a, h5b, h6, h7a, h7b, h8, h9a, h9b, h10⟩ := idx_facts1w t
  funext z
  show V c main_v85 (((cfg1.win 9).blk t).view.emb z) = V c main_v85 z
  refine congrArg _ (funext fun a => Fin.ext ?_)
  match a with
    | ⟨0, _⟩ => show win1_9.index t (0 : Fin 2) * 16 + 1 * (z 0).val = (z 0).val; omega
    | ⟨1, _⟩ => show win1_9.index t (1 : Fin 2) * 1 + 1 * (z 1).val = (z 1).val; omega

theorem wblk1_10 (c : Dev nD) (t : Fin cfg1.N) : (iblk1 V c 10 t : S1.Idx → EReal) = (V c main_v87 : S1.Idx → EReal) := by
  obtain ⟨h3a, h3b, h4, h5a, h5b, h6, h7a, h7b, h8, h9a, h9b, h10⟩ := idx_facts1w t
  funext z
  show V c main_v87 (((cfg1.win 10).blk t).view.emb z) = V c main_v87 z
  refine congrArg _ (funext fun a => Fin.ext ?_)
  match a with
    | ⟨0, _⟩ => show win1_10.index t (0 : Fin 1) * 1 + 1 * (z 0).val = (z 0).val; omega

theorem flushed_eq1 (c : Dev nD) (t : Fin cfg1.N) :
    (dat1 (F := Ideal) V c).flushed 11 t = ((cfg1.win 11).blk t).view.read (Elt Ideal)
      (Cert.Hand.Spec.nodeG (V c main_v7) (V c main_v67) (V c main_v71) (V c main_v73) (V c main_v75) (V c main_v77) (V c main_v79) (V c main_v81) (V c main_v83) (V c main_v85) (V c main_v87)) := by
  show (cfg1.win 11).cut (grid1.coords t) ((dat1 V c).after 11 t) = _
  rw [after1_11, out1_11_eq]
  obtain ⟨a0, a1, b0, b1, c0, c1, o0, o1⟩ := idx_facts1 t
  funext y
  refine entry_eq_r1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    (V c main_v7) (V c main_v67) (V c main_v71) (V c main_v73) (V c main_v75) (V c main_v77) (V c main_v79) (V c main_v81) (V c main_v83) (V c main_v85) (V c main_v87) y (((cfg1.win 11).blk t).view.emb y) ?_ ?_ ?_ ?_
    (wblk1_3 V c t) (wblk1_4 V c t) (wblk1_5 V c t) (wblk1_6 V c t) (wblk1_7 V c t) (wblk1_8 V c t) (wblk1_9 V c t) (wblk1_10 V c t)
  · show win1_11.index t (1 : Fin 2) * 17 + 1 * (y 1).val = (y 1).val
    omega
  · intro j
    show V c main_v7 (((cfg1.win 0).blk t).view.emb (ix2 (y 0) j)) = V c main_v7 (ix2 ((((cfg1.win 11).blk t).view.emb y) 0) j)
    refine congrArg _ (funext fun a => Fin.ext ?_)
    match a with
    | ⟨0, _⟩ => show win1_0.index t (0 : Fin 2) * 4000 + 1 * (y 0).val = win1_11.index t (0 : Fin 2) * 4000 + 1 * (y 0).val; omega
    | ⟨1, _⟩ => show win1_0.index t (1 : Fin 2) * 16 + 1 * j.val = j.val; omega
  · intro j
    show V c main_v67 (((cfg1.win 1).blk t).view.emb (ix2 (y 0) j)) = V c main_v67 (ix2 ((((cfg1.win 11).blk t).view.emb y) 0) j)
    refine congrArg _ (funext fun a => Fin.ext ?_)
    match a with
    | ⟨0, _⟩ => show win1_1.index t (0 : Fin 2) * 4000 + 1 * (y 0).val = win1_11.index t (0 : Fin 2) * 4000 + 1 * (y 0).val; omega
    | ⟨1, _⟩ => show win1_1.index t (1 : Fin 2) * 16 + 1 * j.val = j.val; omega
  · intro j
    show V c main_v71 (((cfg1.win 2).blk t).view.emb (ix2 (y 0) j)) = V c main_v71 (ix2 ((((cfg1.win 11).blk t).view.emb y) 0) j)
    refine congrArg _ (funext fun a => Fin.ext ?_)
    match a with
    | ⟨0, _⟩ => show win1_2.index t (0 : Fin 2) * 4000 + 1 * (y 0).val = win1_11.index t (0 : Fin 2) * 4000 + 1 * (y 0).val; omega
    | ⟨1, _⟩ => show win1_2.index t (1 : Fin 2) * 17 + 1 * j.val = j.val; omega

theorem mem_blk1 (t : Fin cfg1.N) (i : (⟨2, ![100000, 17]⟩ : Shape).Idx) :
    i ∈ ((cfg1.win 11).blk t).view.set ↔ ∀ a : Fin 2, win1_11.index t a * S4000x17.size a ≤ (i a).val ∧ (i a).val < win1_11.index t a * S4000x17.size a + S4000x17.size a := by
  show i ∈ ((View.whole main_v88).slice (win1_11.rect t)).set ↔ _
  rw [View.set_slice_whole, Rect.mem_set_unit]
  exact Iff.rfl

theorem cover1 (i : (⟨2, ![100000, 17]⟩ : Shape).Idx) :
    ∃ t : Fin cfg1.N, (cfg1.win 11).flush t = true ∧ i ∈ ((cfg1.win 11).blk t).view.set := by
  have hi0 : (i 0).val < 100000 := (i 0).isLt
  have hi1 : (i 1).val < 17 := (i 1).isLt
  have hN : cfg1.N = 25 := rfl
  have ht : (i 0).val / 4000 < cfg1.N := by rw [hN]; omega
  obtain ⟨-, -, -, -, -, -, o0, o1⟩ := idx_facts1 ⟨(i 0).val / 4000, ht⟩
  refine ⟨⟨(i 0).val / 4000, ht⟩, flush1_11 _, ?_⟩
  rw [mem_blk1]
  intro a
  match a with
  | ⟨0, _⟩ =>
    show win1_11.index ⟨(i 0).val / 4000, ht⟩ (0 : Fin 2) * 4000 ≤ (i 0).val ∧ (i 0).val < win1_11.index ⟨(i 0).val / 4000, ht⟩ (0 : Fin 2) * 4000 + 4000
    rw [o0]
    show (i 0).val / 4000 * 4000 ≤ (i 0).val ∧ (i 0).val < (i 0).val / 4000 * 4000 + 4000
    omega
  | ⟨1, _⟩ =>
    show win1_11.index ⟨(i 0).val / 4000, ht⟩ (1 : Fin 2) * 17 ≤ (i 1).val ∧ (i 1).val < win1_11.index ⟨(i 0).val / 4000, ht⟩ (1 : Fin 2) * 17 + 17
    omega

theorem node_final1 (c : Dev nD) :
    (dat1 (F := Ideal) V c).arrAt 11 cfg1.N
      = Cert.Hand.Spec.nodeG (V c main_v7) (V c main_v67) (V c main_v71) (V c main_v73) (V c main_v75) (V c main_v77) (V c main_v79) (V c main_v81) (V c main_v83) (V c main_v85) (V c main_v87) :=
  (dat1 (F := Ideal) V c).arrAt_eq_of_cover 11
    (Cert.Hand.Spec.nodeG (V c main_v7) (V c main_v67) (V c main_v71) (V c main_v73) (V c main_v75) (V c main_v77) (V c main_v79) (V c main_v81) (V c main_v83) (V c main_v85) (V c main_v87))
    (fun t _ => flushed_eq1 V c t) cover1

end Cert.KernelIdeal.Hand

end
-- ==== Proof.KI.KVals4.lean ====
import proofs.«404712_j21509196219215_4_alg».proof.Proof.KI.KVals3
import proofs.«404712_j21509196219215_4_alg».proof.Proof.KI.NodeVal1

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable (m : (ℓ : Loc nD τ sig) → Buf (Elt Ideal) ℓ) (ρ : Dev nD → PrngReg) (c : Dev nD)

theorem kb4_v88 : W4 m ρ c (Proc.devRef .tc main_v88)
    = Spec.nodeG (zeroState (F := Ideal)) (Pure.messTo (argsK m c) 0 zeroState) (catFP (Pure.messFrom (argsK m c) 0 zeroState) (argsK m c).a3)
        (Pure.w49 0 (argsK m c).a14) (Pure.b16 0 (argsK m c).a15) (Pure.w16 0 (argsK m c).a16) (Pure.b16 0 (argsK m c).a17)
        (Pure.w16 0 (argsK m c).a18) (Pure.b16 0 (argsK m c).a19) (Pure.w16x1 0 (argsK m c).a20) (Pure.b1 0 (argsK m c).a21) := by
  have e7 : V3 m ρ c main_v7 = zeroState := kb3_v7 m ρ c
  have e67 : V3 m ρ c main_v67 = Pure.messTo (argsK m c) 0 zeroState := kb3_v67 m ρ c
  have e71 : V3 m ρ c main_v71 = catFP (Pure.messFrom (argsK m c) 0 zeroState) (argsK m c).a3 := kb3_v71 m ρ c
  have e73 : V3 m ρ c main_v73 = Pure.w49 0 (argsK m c).a14 := kb3_v73 m ρ c
  have e75 : V3 m ρ c main_v75 = Pure.b16 0 (argsK m c).a15 := kb3_v75 m ρ c
  have e77 : V3 m ρ c main_v77 = Pure.w16 0 (argsK m c).a16 := kb3_v77 m ρ c
  have e79 : V3 m ρ c main_v79 = Pure.b16 0 (argsK m c).a17 := kb3_v79 m ρ c
  have e81 : V3 m ρ c main_v81 = Pure.w16 0 (argsK m c).a18 := kb3_v81 m ρ c
  have e83 : V3 m ρ c main_v83 = Pure.b16 0 (argsK m c).a19 := kb3_v83 m ρ c
  have e85 : V3 m ρ c main_v85 = Pure.w16x1 0 (argsK m c).a20 := kb3_v85 m ρ c
  have e87 : V3 m ρ c main_v87 = Pure.b1 0 (argsK m c).a21 := kb3_v87 m ρ c
  exact (W4_arr m ρ c 11).trans ((node_final1 (V3 m ρ) c).trans (nodeG_congr e7 e67 e71 e73 e75 e77 e79 e81 e83 e85 e87))

theorem kb4_v1 : W4 m ρ c (Proc.devRef .tc main_v1) = srcOf (argsK m c).a0 :=
  (W4_of_ne m ρ c main_v1 (by decide)).trans (kb3_v1 m ρ c)
theorem kb4_v3 : W4 m ρ c (Proc.devRef .tc main_v3) = dstOf (argsK m c).a0 :=
  (W4_of_ne m ρ c main_v3 (by decide)).trans (kb3_v3 m ρ c)
theorem kb4_v6 : W4 m ρ c (Proc.devRef .tc main_v6) = Pure.maskOf (argsK m c).a0 :=
  (W4_of_ne m ρ c main_v6 (by decide)).trans (kb3_v6 m ρ c)
theorem kb4_v9 : W4 m ρ c (Proc.devRef .tc main_v9) = Pure.avalOf (argsK m c).a2 :=
  (W4_of_ne m ρ c main_v9 (by decide)).trans (kb3_v9 m ρ c)

theorem kb4_argK : argsOf (W4 m ρ c) = argsK m c :=
  (argsOf_congr (W4 m ρ c) (W3 m ρ c)
    (W4_of_ne m ρ c main_arg0 (by decide))
    (W4_of_ne m ρ c main_arg1 (by decide))
    (W4_of_ne m ρ c main_arg2 (by decide))
    (W4_of_ne m ρ c main_arg3 (by decide))
    (W4_of_ne m ρ c main_arg5 (by decide))
    (W4_of_ne m ρ c main_arg6 (by decide))
    (W4_of_ne m ρ c main_arg7 (by decide))
    (W4_of_ne m ρ c main_arg8 (by decide))
    (W4_of_ne m ρ c main_arg9 (by decide))
    (W4_of_ne m ρ c main_arg10 (by decide))
    (W4_of_ne m ρ c main_arg11 (by decide))
    (W4_of_ne m ρ c main_arg12 (by decide))
    (W4_of_ne m ρ c main_arg13 (by decide))
    (W4_of_ne m ρ c main_arg14 (by decide))
    (W4_of_ne m ρ c main_arg15 (by decide))
    (W4_of_ne m ρ c main_arg16 (by decide))
    (W4_of_ne m ρ c main_arg17 (by decide))
    (W4_of_ne m ρ c main_arg18 (by decide))
    (W4_of_ne m ρ c main_arg19 (by decide))
    (W4_of_ne m ρ c main_arg20 (by decide))
    (W4_of_ne m ρ c main_arg21 (by decide))).trans (kb3_argK m ρ c)

end Cert.KernelIdeal.Hand

end
-- ==== Proof.KI.KVals5.lean ====
import proofs.«404712_j21509196219215_4_alg».proof.Proof.KI.KVals4
import proofs.«404712_j21509196219215_4_alg».proof.Proof.KI.KRead2

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable {F : FTy → Type} [FloatOps F]

theorem k2_args (W : Valuation τ sig (Elt F)) : argsOf (StableHlo.after hostOps2 W) = argsOf W := by
  unfold argsOf
  rw [kv_keep2 W main_arg0 (by decide), kv_keep2 W main_arg1 (by decide), kv_keep2 W main_arg2 (by decide), kv_keep2 W main_arg3 (by decide), kv_keep2 W main_arg5 (by decide), kv_keep2 W main_arg6 (by decide), kv_keep2 W main_arg7 (by decide), kv_keep2 W main_arg8 (by decide), kv_keep2 W main_arg9 (by decide), kv_keep2 W main_arg10 (by decide), kv_keep2 W main_arg11 (by decide), kv_keep2 W main_arg12 (by decide), kv_keep2 W main_arg13 (by decide), kv_keep2 W main_arg14 (by decide), kv_keep2 W main_arg15 (by decide), kv_keep2 W main_arg16 (by decide), kv_keep2 W main_arg17 (by decide), kv_keep2 W main_arg18 (by decide), kv_keep2 W main_arg19 (by decide), kv_keep2 W main_arg20 (by decide), kv_keep2 W main_arg21 (by decide)]

abbrev entryNode5 (A : Pure.Args Ideal) : Vec Ideal S100000x17 .f32 :=
  Spec.nodeG (zeroState (F := Ideal)) (Pure.messTo A 0 zeroState) (catFP (Pure.messFrom A 0 zeroState) A.a3) (Pure.w49 0 A.a14) (Pure.b16 0 A.a15) (Pure.w16 0 A.a16) (Pure.b16 0 A.a17) (Pure.w16 0 A.a18) (Pure.b16 0 A.a19) (Pure.w16x1 0 A.a20) (Pure.b1 0 A.a21)

section Over

variable (W : Valuation τ sig (Elt Ideal)) (A : Pure.Args Ideal)

theorem s2_h (hN : (W (Proc.devRef .tc main_v88)) = entryNode5 A) : hOf (W (Proc.devRef .tc main_v88)) = Pure.h1 A :=
  (congrArg hOf hN).trans (node_h _ _ _ _ _ _ _ _ _ _ _ _)

theorem s2_u (hN : (W (Proc.devRef .tc main_v88)) = entryNode5 A) : uOf (W (Proc.devRef .tc main_v88)) = Pure.u0 A :=
  (congrArg uOf hN).trans (node_u _ _ _ _ _ _ _ _ _ _ _ _)

theorem s2_v89 (hN : (W (Proc.devRef .tc main_v88)) = entryNode5 A) :
    StableHlo.after hostOps2 W (Proc.devRef .tc main_v89) = Pure.h1 A :=
  (k2_v89 W).trans (s2_h W A hN)

theorem s2_v90 (hN : (W (Proc.devRef .tc main_v88)) = entryNode5 A) :
    StableHlo.after hostOps2 W (Proc.devRef .tc main_v90) = Pure.u0 A :=
  (k2_v90 W).trans (s2_u W A hN)

theorem s2_v112 (hA : argsOf W = A) (h1 : (W (Proc.devRef .tc main_v1)) = srcOf A.a0) (h3 : (W (Proc.devRef .tc main_v3)) = dstOf A.a0)
    (h9 : (W (Proc.devRef .tc main_v9)) = Pure.avalOf A.a2) (hN : (W (Proc.devRef .tc main_v88)) = entryNode5 A) :
    StableHlo.after hostOps2 W (Proc.devRef .tc main_v112) = Pure.loss0 A := by
  refine (k2_v112 W).trans ?_
  rw [s2_u W A hN, h1, h3, h9, show (W (Proc.devRef .tc main_arg5)) = A.a5 from congrArg Pure.Args.a5 hA, lossRows_eq]
  rfl

theorem s2_v131 (hA : argsOf W = A) (h1 : (W (Proc.devRef .tc main_v1)) = srcOf A.a0) (h3 : (W (Proc.devRef .tc main_v3)) = dstOf A.a0)
    (hN : (W (Proc.devRef .tc main_v88)) = entryNode5 A) :
    StableHlo.after hostOps2 W (Proc.devRef .tc main_v131)
      = stackX (Pure.tmpTo (Pure.h1 A) A.a0 A.a1) (Pure.tmpFrom (Pure.h1 A) A.a0 A.a1) := by
  refine (k2_v131 W).trans ?_
  rw [s2_h W A hN, h1, h3, show (W (Proc.devRef .tc main_arg1)) = A.a1 from congrArg Pure.Args.a1 hA]
  rfl

theorem s2_v138 (hA : argsOf W = A) :
    StableHlo.after hostOps2 W (Proc.devRef .tc main_v138) = stackW1 (Pure.w35 1 A.a6) (Pure.w35 1 A.a10) := by
  refine (k2_v138 W).trans ?_
  rw [show (W (Proc.devRef .tc main_arg6)) = A.a6 from congrArg Pure.Args.a6 hA, show (W (Proc.devRef .tc main_arg10)) = A.a10 from congrArg Pure.Args.a10 hA]

theorem s2_v145 (hA : argsOf W = A) :
    StableHlo.after hostOps2 W (Proc.devRef .tc main_v145) = stackB (Pure.b16 1 A.a7) (Pure.b16 1 A.a11) := by
  refine (k2_v145 W).trans ?_
  rw [show (W (Proc.devRef .tc main_arg7)) = A.a7 from congrArg Pure.Args.a7 hA, show (W (Proc.devRef .tc main_arg11)) = A.a11 from congrArg Pure.Args.a11 hA]

theorem s2_v152 (hA : argsOf W = A) :
    StableHlo.after hostOps2 W (Proc.devRef .tc main_v152) = stackW2 (Pure.w16 1 A.a8) (Pure.w16 1 A.a12) := by
  refine (k2_v152 W).trans ?_
  rw [show (W (Proc.devRef .tc main_arg8)) = A.a8 from congrArg Pure.Args.a8 hA, show (W (Proc.devRef .tc main_arg12)) = A.a12 from congrArg Pure.Args.a12 hA]

theorem s2_v159 (hA : argsOf W = A) :
    StableHlo.after hostOps2 W (Proc.devRef .tc main_v159) = stackB (Pure.b16 1 A.a9) (Pure.b16 1 A.a13) := by
  refine (k2_v159 W).trans ?_
  rw [show (W (Proc.devRef .tc main_arg9)) = A.a9 from congrArg Pure.Args.a9 hA, show (W (Proc.devRef .tc main_arg13)) = A.a13 from congrArg Pure.Args.a13 hA]

end Over

variable (m : (ℓ : Loc nD τ sig) → Buf (Elt Ideal) ℓ) (ρ : Dev nD → PrngReg) (c : Dev nD)

theorem kb5_argK : argsOf (W5 m ρ c) = argsK m c := (k2_args (W4 m ρ c)).trans (kb4_argK m ρ c)
theorem kb5_v1 : W5 m ρ c (Proc.devRef .tc main_v1) = srcOf (argsK m c).a0 :=
  (kv_keep2 (W4 m ρ c) main_v1 (by decide)).trans (kb4_v1 m ρ c)
theorem kb5_v3 : W5 m ρ c (Proc.devRef .tc main_v3) = dstOf (argsK m c).a0 :=
  (kv_keep2 (W4 m ρ c) main_v3 (by decide)).trans (kb4_v3 m ρ c)
theorem kb5_v6 : W5 m ρ c (Proc.devRef .tc main_v6) = Pure.maskOf (argsK m c).a0 :=
  (kv_keep2 (W4 m ρ c) main_v6 (by decide)).trans (kb4_v6 m ρ c)
theorem kb5_v9 : W5 m ρ c (Proc.devRef .tc main_v9) = Pure.avalOf (argsK m c).a2 :=
  (kv_keep2 (W4 m ρ c) main_v9 (by decide)).trans (kb4_v9 m ρ c)

theorem kb5_v89 : W5 m ρ c (Proc.devRef .tc main_v89) = Pure.h1 (argsK m c) :=
  s2_v89 (W4 m ρ c) (argsK m c) (kb4_v88 m ρ c)
theorem kb5_v90 : W5 m ρ c (Proc.devRef .tc main_v90) = Pure.u0 (argsK m c) :=
  s2_v90 (W4 m ρ c) (argsK m c) (kb4_v88 m ρ c)
theorem kb5_v112 : W5 m ρ c (Proc.devRef .tc main_v112) = Pure.loss0 (argsK m c) :=
  s2_v112 (W4 m ρ c) (argsK m c) (kb4_argK m ρ c) (kb4_v1 m ρ c) (kb4_v3 m ρ c) (kb4_v9 m ρ c) (kb4_v88 m ρ c)
theorem kb5_v131 : W5 m ρ c (Proc.devRef .tc main_v131)
    = stackX (Pure.tmpTo (Pure.h1 (argsK m c)) (argsK m c).a0 (argsK m c).a1) (Pure.tmpFrom (Pure.h1 (argsK m c)) (argsK m c).a0 (argsK m c).a1) :=
  s2_v131 (W4 m ρ c) (argsK m c) (kb4_argK m ρ c) (kb4_v1 m ρ c) (kb4_v3 m ρ c) (kb4_v88 m ρ c)
theorem kb5_v138 : W5 m ρ c (Proc.devRef .tc main_v138) = stackW1 (Pure.w35 1 (argsK m c).a6) (Pure.w35 1 (argsK m c).a10) :=
  s2_v138 (W4 m ρ c) (argsK m c) (kb4_argK m ρ c)
theorem kb5_v145 : W5 m ρ c (Proc.devRef .tc main_v145) = stackB (Pure.b16 1 (argsK m c).a7) (Pure.b16 1 (argsK m c).a11) :=
  s2_v145 (W4 m ρ c) (argsK m c) (kb4_argK m ρ c)
theorem kb5_v152 : W5 m ρ c (Proc.devRef .tc main_v152) = stackW2 (Pure.w16 1 (argsK m c).a8) (Pure.w16 1 (argsK m c).a12) :=
  s2_v152 (W4 m ρ c) (argsK m c) (kb4_argK m ρ c)
theorem kb5_v159 : W5 m ρ c (Proc.devRef .tc main_v159) = stackB (Pure.b16 1 (argsK m c).a9) (Pure.b16 1 (argsK m c).a13) :=
  s2_v159 (W4 m ρ c) (argsK m c) (kb4_argK m ρ c)

end Cert.KernelIdeal.Hand

end
-- ==== Proof.KI.EdgeVal2.lean ====
import proofs.«404712_j21509196219215_4_alg».proof.Proof.KI.EdgeVal0
import proofs.«404712_j21509196219215_4_alg».proof.Proof.KI.R2
import Idealize.ShloMosaic.Lib.Pipeline.Value

noncomputable section

namespace Cert.KernelIdeal.Hand

open Cert.KernelIdeal Cert.KernelIdeal.Gen Cert.KernelIdeal.Facts₀ Cert.KernelIdeal.Facts
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts2 : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 3) = 0 ∧ win2_5.index t (1 : Fin 3) = t.val ∧ win2_5.index t (2 : Fin 3) = 0 :=
  (by decide +kernel : ∀ t : Fin grid2.N, _)

theorem iblk2_0_apply (c : Dev nD) (t : Fin cfg2.N) (h : Fin 2) (r : Fin 4000) (l : Fin 35) (e : Fin 800000)
    (he : e.val = t.val * 4000 + r.val) :
    (iblk2 V c 0 t : Vec Ideal S2x4000x35 .f32) (ix3 h r l) = (V c main_v131 : Vec Ideal S2x800000x35 .f32) (ix3 h e l) := by
  obtain ⟨f0, f1, f2, -⟩ := idx_facts2 t
  unfold iblk2
  rw [View.read_apply]
  show V c main_v131 _ = V c main_v131 _
  congr 1
  funext a
  apply Fin.ext
  match a with
  | ⟨0, _⟩ => show win2_0.index t (0 : Fin 3) * 2 + 1 * h.val = h.val; omega
  | ⟨1, _⟩ => show win2_0.index t (1 : Fin 3) * 4000 + 1 * r.val = e.val; omega
  | ⟨2, _⟩ => show win2_0.index t (2 : Fin 3) * 35 + 1 * l.val = l.val; omega

theorem iblk2_1_apply (c : Dev nD) (t : Fin cfg2.N) (h : Fin 2) (l : Fin 35) (k : Fin 16) :
    (iblk2 V c 1 t : Vec Ideal S2x35x16 .f32) (ix3 h l k) = (V c main_v138 : Vec Ideal S2x35x16 .f32) (ix3 h l k) := by
  obtain ⟨-, -, -, f0, f1, f2, -⟩ := idx_facts2 t
  unfold iblk2
  rw [View.read_apply]
  show V c main_v138 _ = V c main_v138 _
  congr 1
  funext a
  apply Fin.ext
  match a with
  | ⟨0, _⟩ => show win2_1.index t (0 : Fin 3) * 2 + 1 * h.val = h.val; omega
  | ⟨1, _⟩ => show win2_1.index t (1 : Fin 3) * 35 + 1 * l.val = l.val; omega
  | ⟨2, _⟩ => show win2_1.index t (2 : Fin 3) * 16 + 1 * k.val = k.val; omega

theorem iblk2_2_apply (c : Dev nD) (t : Fin cfg2.N) (h : Fin 2) (k : Fin 16) :
    (iblk2 V c 2 t : Vec Ideal S2x16 .f32) (ix2 h k) = (V c main_v145 : Vec Ideal S2x16 .f32) (ix2 h k) := by
  obtain ⟨-, -, -, -, -, -, f0, f1, -⟩ := idx_facts2 t
  unfold iblk2
  rw [View.read_apply]
  show V c main_v145 _ = V c main_v145 _
  congr 1
  funext a
  apply Fin.ext
  match a with
  | ⟨0, _⟩ => show win2_2.index t (0 : Fin 2) * 2 + 1 * h.val = h.val; omega
  | ⟨1, _⟩ => show win2_2.index t (1 : Fin 2) * 16 + 1 * k.val = k.val; omega

theorem iblk2_3_apply (c : Dev nD) (t : Fin cfg2.N) (h : Fin 2) (k : Fin 16) (j : Fin 16) :
    (iblk2 V c 3 t : Vec Ideal S2x16x16 .f32) (ix3 h k j) = (V c main_v152 : Vec Ideal S2x16x16 .f32) (ix3 h k j) := by
  obtain ⟨-, -, -, -, -, -, -, -, f0, f1, f2, -⟩ := idx_facts2 t
  unfold iblk2
  rw [View.read_apply]
  show V c main_v152 _ = V c main_v152 _
  congr 1
  funext a
  apply Fin.ext
  match a with
  | ⟨0, _⟩ => show win2_3.index t (0 : Fin 3) * 2 + 1 * h.val = h.val; omega
  | ⟨1, _⟩ => show win2_3.index t (1 : Fin 3) * 16 + 1 * k.val = k.val; omega
  | ⟨2, _⟩ => show win2_3.index t (2 : Fin 3) * 16 + 1 * j.val = j.val; omega

theorem iblk2_4_apply (c : Dev nD) (t : Fin cfg2.N) (h : Fin 2) (j : Fin 16) :
    (iblk2 V c 4 t : Vec Ideal S2x16 .f32) (ix2 h j) = (V c main_v159 : Vec Ideal S2x16 .f32) (ix2 h j) := by
  obtain ⟨-, -, -, -, -, -, -, -, -, -, -, f0, f1, -⟩ := idx_facts2 t
  unfold iblk2
  rw [View.read_apply]
  show V c main_v159 _ = V c main_v159 _
  congr 1
  funext a
  apply Fin.ext
  match a with
  | ⟨0, _⟩ => show win2_4.index t (0 : Fin 2) * 2 + 1 * h.val = h.val; omega
  | ⟨1, _⟩ => show win2_4.index t (1 : Fin 2) * 16 + 1 * j.val = j.val; omega

theorem edgeBlk_iblk2 (c : Dev nD) (t : Fin cfg2.N) (h : Fin 2) (r : Fin 4000) (j : Fin 16) (e : Fin 800000)
    (he : e.val = t.val * 4000 + r.val) :
    edgeBlk (iblk2 V c 0 t) (iblk2 V c 1 t) (iblk2 V c 2 t) (iblk2 V c 3 t) (iblk2 V c 4 t) (ix3 h r j)
      = Cert.Hand.Spec.edgeG (V c main_v131) (V c main_v138) (V c main_v145) (V c main_v152) (V c main_v159) (ix3 h e j) := by
  refine (edgeBlk_ix (iblk2 V c 0 t) (iblk2 V c 1 t) (iblk2 V c 2 t) (iblk2 V c 3 t) (iblk2 V c 4 t) h r j).trans ?_
  refine Eq.trans ?_ (edgeG_ix (V c main_v131) (V c main_v138) (V c main_v145) (V c main_v152) (V c main_v159) h e j).symm
  have e0 : (fun l => (iblk2 V c 0 t : Vec Ideal S2x4000x35 .f32) (ix3 h r l))
      = fun l => (V c main_v131 : Vec Ideal S2x800000x35 .f32) (ix3 h e l) := funext fun l => iblk2_0_apply V c t h r l e he
  have e1 : (fun l k => (iblk2 V c 1 t : Vec Ideal S2x35x16 .f32) (ix3 h l k))
      = fun l k => (V c main_v138 : Vec Ideal S2x35x16 .f32) (ix3 h l k) := funext fun l => funext fun k => iblk2_1_apply V c t h l k
  have e2 : (fun k => (iblk2 V c 2 t : Vec Ideal S2x16 .f32) (ix2 h k))
      = fun k => (V c main_v145 : Vec Ideal S2x16 .f32) (ix2 h k) := funext fun k => iblk2_2_apply V c t h k
  have e3 : (fun k j => (iblk2 V c 3 t : Vec Ideal S2x16x16 .f32) (ix3 h k j))
      = fun k j => (V c main_v152 : Vec Ideal S2x16x16 .f32) (ix3 h k j) := funext fun k => funext fun j => iblk2_3_apply V c t h k j
  have e4 : (fun j => (iblk2 V c 4 t : Vec Ideal S2x16 .f32) (ix2 h j))
      = fun j => (V c main_v159 : Vec Ideal S2x16 .f32) (ix2 h j) := funext fun j => iblk2_4_apply V c t h j
  rw [e0, e1, e2, e3, e4]

theorem flushed2_5_eq (c : Dev nD) (t : Fin cfg2.N) :
    (dat2 V c).flushed 5 t = ((cfg2.win 5).blk t).view.read (Elt Ideal)
      (Cert.Hand.Spec.edgeG (V c main_v131) (V c main_v138) (V c main_v145) (V c main_v152) (V c main_v159)) := by
  show (cfg2.win 5).cut (grid2.coords t) ((dat2 V c).after 5 t) = _
  rw [after2_5, out0_5_eq (iblk2 V c 0 t) (iblk2 V c 1 t) (iblk2 V c 2 t) (iblk2 V c 3 t) (iblk2 V c 4 t)]
  funext y
  rw [View.read_apply]
  obtain ⟨-, -, -, -, -, -, -, -, -, -, -, -, -, g0, g1, g2⟩ := idx_facts2 t
  have hN : cfg2.N = 200 := N_2
  have ht : t.val < 200 := hN ▸ t.isLt
  have hy0 : (y 0).val < 2 := (y 0).isLt
  have hy1 : (y 1).val < 4000 := (y 1).isLt
  have hy2 : (y 2).val < 16 := (y 2).isLt
  have hx : (cfg2.win 5).xinj (grid2.coords t) y = ix3 (⟨(y 0).val, hy0⟩ : Fin 2) (⟨(y 1).val, hy1⟩ : Fin 4000) (⟨(y 2).val, hy2⟩ : Fin 16) :=
    funext fun a => by match a with | ⟨0, _⟩ => rfl | ⟨1, _⟩ => rfl | ⟨2, _⟩ => rfl
  have hemb : ((cfg2.win 5).blk t).view.emb y
      = ix3 (⟨(y 0).val, hy0⟩ : Fin 2) (⟨t.val * 4000 + (y 1).val, by omega⟩ : Fin 800000) (⟨(y 2).val, hy2⟩ : Fin 16) :=
    funext fun a => Fin.ext (by
      match a with
      | ⟨0, _⟩ => show win2_5.index t (0 : Fin 3) * 2 + 1 * (y 0).val = (y 0).val; omega
      | ⟨1, _⟩ => show win2_5.index t (1 : Fin 3) * 4000 + 1 * (y 1).val = t.val * 4000 + (y 1).val; omega
      | ⟨2, _⟩ => show win2_5.index t (2 : Fin 3) * 16 + 1 * (y 2).val = (y 2).val; omega)
  show edgeBlk (iblk2 V c 0 t) (iblk2 V c 1 t) (iblk2 V c 2 t) (iblk2 V c 3 t) (iblk2 V c 4 t) ((cfg2.win 5).xinj (grid2.coords t) y)
    = Cert.Hand.Spec.edgeG (V c main_v131) (V c main_v138) (V c main_v145) (V c main_v152) (V c main_v159) (((cfg2.win 5).blk t).view.emb y)
  rw [hx, hemb]
  exact edgeBlk_iblk2 V c t _ _ _ _ rfl

theorem mem_blk2_5 (t : Fin cfg2.N) (i : S2x800000x16.Idx) :
    i ∈ ((cfg2.win 5).blk t).view.set ↔ ∀ a : Fin 3, win2_5.index t a * S2x4000x16.size a ≤ (i a).val ∧ (i a).val < win2_5.index t a * S2x4000x16.size a + S2x4000x16.size a := by
  show i ∈ ((View.whole main_v160).slice (win2_5.rect t)).set ↔ _
  rw [View.set_slice_whole, Rect.mem_set_unit]
  exact Iff.rfl

theorem cover2_rows (i : S2x800000x16.Idx) :
    ∃ t : Fin cfg2.N, (cfg2.win 5).flush t = true ∧ i ∈ ((cfg2.win 5).blk t).view.set := by
  have hN : cfg2.N = 200 := N_2
  have hi0 : (i 0).val < 2 := (i 0).isLt
  have hi1 : (i 1).val < 800000 := (i 1).isLt
  have hi2 : (i 2).val < 16 := (i 2).isLt
  have ht : (i 1).val / 4000 < cfg2.N := by rw [hN]; omega
  refine ⟨⟨(i 1).val / 4000, ht⟩, flush2_5 _, ?_⟩
  rw [mem_blk2_5]
  obtain ⟨-, -, -, -, -, -, -, -, -, -, -, -, -, g0, g1, g2⟩ := idx_facts2 ⟨(i 1).val / 4000, ht⟩
  have g1' : win2_5.index ⟨(i 1).val / 4000, ht⟩ (1 : Fin 3) = (i 1).val / 4000 := g1
  intro a
  match a with
  | ⟨0, _⟩ => show win2_5.index ⟨(i 1).val / 4000, ht⟩ (0 : Fin 3) * 2 ≤ (i 0).val ∧ (i 0).val < win2_5.index ⟨(i 1).val / 4000, ht⟩ (0 : Fin 3) * 2 + 2; omega
  | ⟨1, _⟩ => show win2_5.index ⟨(i 1).val / 4000, ht⟩ (1 : Fin 3) * 4000 ≤ (i 1).val ∧ (i 1).val < win2_5.index ⟨(i 1).val / 4000, ht⟩ (1 : Fin 3) * 4000 + 4000; omega
  | ⟨2, _⟩ => show win2_5.index ⟨(i 1).val / 4000, ht⟩ (2 : Fin 3) * 16 ≤ (i 2).val ∧ (i 2).val < win2_5.index ⟨(i 1).val / 4000, ht⟩ (2 : Fin 3) * 16 + 16; omega

theorem edge_final2 (V : (c : Dev nD) → (b : Ref sig .tc) → Buf (Elt Ideal) ((c : Thread nD τ).loc b)) (c : Dev nD) :
    (dat2 (F := Ideal) V c).arrAt 5 cfg2.N
      = Cert.Hand.Spec.edgeG (V c main_v131) (V c main_v138) (V c main_v145) (V c main_v152) (V c main_v159) :=
  (dat2 V c).arrAt_eq_of_cover 5
    (Cert.Hand.Spec.edgeG (V c main_v131) (V c main_v138) (V c main_v145) (V c main_v152) (V c main_v159))
    (fun t _ => flushed2_5_eq V c t) cover2_rows

end Cert.KernelIdeal.Hand

end
-- ==== Proof.KI.KVals6.lean ====
import proofs.«404712_j21509196219215_4_alg».proof.Proof.KI.KVals5
import proofs.«404712_j21509196219215_4_alg».proof.Proof.KI.EdgeVal2

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable (m : (ℓ : Loc nD τ sig) → Buf (Elt Ideal) ℓ) (ρ : Dev nD → PrngReg) (c : Dev nD)

theorem kb6_v160 : W6 m ρ c (Proc.devRef .tc main_v160)
    = Spec.edgeG (stackX (Pure.tmpTo (Pure.h1 (argsK m c)) (argsK m c).a0 (argsK m c).a1) (Pure.tmpFrom (Pure.h1 (argsK m c)) (argsK m c).a0 (argsK m c).a1))
        (stackW1 (Pure.w35 1 (argsK m c).a6) (Pure.w35 1 (argsK m c).a10)) (stackB (Pure.b16 1 (argsK m c).a7) (Pure.b16 1 (argsK m c).a11))
        (stackW2 (Pure.w16 1 (argsK m c).a8) (Pure.w16 1 (argsK m c).a12)) (stackB (Pure.b16 1 (argsK m c).a9) (Pure.b16 1 (argsK m c).a13)) := by
  refine (W6_arr m ρ c 5).trans ((edge_final2 (V5 m ρ) c).trans ?_)
  rw [show V5 m ρ c main_v131 = W5 m ρ c (Proc.devRef .tc main_v131) from rfl, show V5 m ρ c main_v138 = W5 m ρ c (Proc.devRef .tc main_v138) from rfl,
    show V5 m ρ c main_v145 = W5 m ρ c (Proc.devRef .tc main_v145) from rfl, show V5 m ρ c main_v152 = W5 m ρ c (Proc.devRef .tc main_v152) from rfl,
    show V5 m ρ c main_v159 = W5 m ρ c (Proc.devRef .tc main_v159) from rfl,
    kb5_v131, kb5_v138, kb5_v145, kb5_v152, kb5_v159]

theorem kb6_v1 : W6 m ρ c (Proc.devRef .tc main_v1) = srcOf (argsK m c).a0 :=
  (W6_of_ne m ρ c main_v1 (by decide)).trans (kb5_v1 m ρ c)
theorem kb6_v3 : W6 m ρ c (Proc.devRef .tc main_v3) = dstOf (argsK m c).a0 :=
  (W6_of_ne m ρ c main_v3 (by decide)).trans (kb5_v3 m ρ c)
theorem kb6_v6 : W6 m ρ c (Proc.devRef .tc main_v6) = Pure.maskOf (argsK m c).a0 :=
  (W6_of_ne m ρ c main_v6 (by decide)).trans (kb5_v6 m ρ c)
theorem kb6_v89 : W6 m ρ c (Proc.devRef .tc main_v89) = (Pure.h1 (argsK m c)) :=
  (W6_of_ne m ρ c main_v89 (by decide)).trans (kb5_v89 m ρ c)
theorem kb6_v9 : W6 m ρ c (Proc.devRef .tc main_v9) = Pure.avalOf (argsK m c).a2 :=
  (W6_of_ne m ρ c main_v9 (by decide)).trans (kb5_v9 m ρ c)

theorem kb6_argK : argsOf (W6 m ρ c) = argsK m c := by
  rw [← kb5_argK m ρ c]; unfold argsOf
  rw [W6_of_ne m ρ c main_arg0 (by decide), W6_of_ne m ρ c main_arg1 (by decide), W6_of_ne m ρ c main_arg2 (by decide), W6_of_ne m ρ c main_arg3 (by decide), W6_of_ne m ρ c main_arg5 (by decide), W6_of_ne m ρ c main_arg6 (by decide), W6_of_ne m ρ c main_arg7 (by decide), W6_of_ne m ρ c main_arg8 (by decide), W6_of_ne m ρ c main_arg9 (by decide), W6_of_ne m ρ c main_arg10 (by decide), W6_of_ne m ρ c main_arg11 (by decide), W6_of_ne m ρ c main_arg12 (by decide), W6_of_ne m ρ c main_arg13 (by decide), W6_of_ne m ρ c main_arg14 (by decide), W6_of_ne m ρ c main_arg15 (by decide), W6_of_ne m ρ c main_arg16 (by decide), W6_of_ne m ρ c main_arg17 (by decide), W6_of_ne m ρ c main_arg18 (by decide), W6_of_ne m ρ c main_arg19 (by decide), W6_of_ne m ρ c main_arg20 (by decide), W6_of_ne m ρ c main_arg21 (by decide)]

end Cert.KernelIdeal.Hand

end
-- ==== Proof.KI.KVals7e.lean ====
import proofs.«404712_j21509196219215_4_alg».proof.Proof.KI.KVals6

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable {F : FTy → Type} [FloatOps F]

set_option maxHeartbeats 4000000 in
theorem k3e_v170 (W : Valuation τ sig (Elt F)) : StableHlo.after hostOps3 W (Proc.devRef .tc main_v170)
    = Pure.scatterRows (W (Proc.devRef .tc main_v3)) (maskedHalf0 (W (Proc.devRef .tc main_v160)) (W (Proc.devRef .tc main_v6))) := by
  after_results_simp3; rfl
set_option maxHeartbeats 4000000 in
theorem k3e_v174 (W : Valuation τ sig (Elt F)) : StableHlo.after hostOps3 W (Proc.devRef .tc main_v174)
    = catFP (Pure.scatterRows (W (Proc.devRef .tc main_v1)) (maskedHalf1 (W (Proc.devRef .tc main_v160)) (W (Proc.devRef .tc main_v6)))) (W (Proc.devRef .tc main_arg3)) := by
  after_results_simp3; rfl
set_option maxHeartbeats 4000000 in
theorem k3e_v176 (W : Valuation τ sig (Elt F)) : StableHlo.after hostOps3 W (Proc.devRef .tc main_v176) = Pure.w49 1 (W (Proc.devRef .tc main_arg14)) := by
  after_results_simp3; rfl
set_option maxHeartbeats 4000000 in
theorem k3e_v178 (W : Valuation τ sig (Elt F)) : StableHlo.after hostOps3 W (Proc.devRef .tc main_v178) = Pure.b16 1 (W (Proc.devRef .tc main_arg15)) := by
  after_results_simp3; rfl
set_option maxHeartbeats 4000000 in
theorem k3e_v180 (W : Valuation τ sig (Elt F)) : StableHlo.after hostOps3 W (Proc.devRef .tc main_v180) = Pure.w16 1 (W (Proc.devRef .tc main_arg16)) := by
  after_results_simp3; rfl
set_option maxHeartbeats 4000000 in
theorem k3e_v182 (W : Valuation τ sig (Elt F)) : StableHlo.after hostOps3 W (Proc.devRef .tc main_v182) = Pure.b16 1 (W (Proc.devRef .tc main_arg17)) := by
  after_results_simp3; rfl
set_option maxHeartbeats 4000000 in
theorem k3e_v184 (W : Valuation τ sig (Elt F)) : StableHlo.after hostOps3 W (Proc.devRef .tc main_v184) = Pure.w16 1 (W (Proc.devRef .tc main_arg18)) := by
  after_results_simp3; rfl
set_option maxHeartbeats 4000000 in
theorem k3e_v186 (W : Valuation τ sig (Elt F)) : StableHlo.after hostOps3 W (Proc.devRef .tc main_v186) = Pure.b16 1 (W (Proc.devRef .tc main_arg19)) := by
  after_results_simp3; rfl
set_option maxHeartbeats 4000000 in
theorem k3e_v188 (W : Valuation τ sig (Elt F)) : StableHlo.after hostOps3 W (Proc.devRef .tc main_v188) = Pure.w16x1 1 (W (Proc.devRef .tc main_arg20)) := by
  after_results_simp3; rfl
set_option maxHeartbeats 4000000 in
theorem k3e_v190 (W : Valuation τ sig (Elt F)) : StableHlo.after hostOps3 W (Proc.devRef .tc main_v190) = Pure.b1 1 (W (Proc.devRef .tc main_arg21)) := by
  after_results_simp3; rfl

theorem k3e_args (W : Valuation τ sig (Elt F)) : argsOf (StableHlo.after hostOps3 W) = argsOf W := by
  unfold argsOf
  rw [kv_keep3 W main_arg0 (by decide), kv_keep3 W main_arg1 (by decide), kv_keep3 W main_arg2 (by decide), kv_keep3 W main_arg3 (by decide), kv_keep3 W main_arg5 (by decide), kv_keep3 W main_arg6 (by decide), kv_keep3 W main_arg7 (by decide), kv_keep3 W main_arg8 (by decide), kv_keep3 W main_arg9 (by decide), kv_keep3 W main_arg10 (by decide), kv_keep3 W main_arg11 (by decide), kv_keep3 W main_arg12 (by decide), kv_keep3 W main_arg13 (by decide), kv_keep3 W main_arg14 (by decide), kv_keep3 W main_arg15 (by decide), kv_keep3 W main_arg16 (by decide), kv_keep3 W main_arg17 (by decide), kv_keep3 W main_arg18 (by decide), kv_keep3 W main_arg19 (by decide), kv_keep3 W main_arg20 (by decide), kv_keep3 W main_arg21 (by decide)]

abbrev entryEdge7 (A : Pure.Args Ideal) : Vec Ideal S2x800000x16 .f32 :=
  Spec.edgeG (stackX (Pure.tmpTo (Pure.h1 A) A.a0 A.a1) (Pure.tmpFrom (Pure.h1 A) A.a0 A.a1)) (stackW1 (Pure.w35 1 A.a6) (Pure.w35 1 A.a10)) (stackB (Pure.b16 1 A.a7) (Pure.b16 1 A.a11)) (stackW2 (Pure.w16 1 A.a8) (Pure.w16 1 A.a12)) (stackB (Pure.b16 1 A.a9) (Pure.b16 1 A.a13))

section Over

variable (W : Valuation τ sig (Elt Ideal)) (A : Pure.Args Ideal)

theorem s3_v170 (h3 : (W (Proc.devRef .tc main_v3)) = dstOf A.a0) (hE : (W (Proc.devRef .tc main_v160)) = entryEdge7 A) (h6 : (W (Proc.devRef .tc main_v6)) = Pure.maskOf A.a0) :
    StableHlo.after hostOps3 W (Proc.devRef .tc main_v170) = Pure.messTo A 1 (Pure.h1 A) := by
  refine (k3e_v170 W).trans ?_
  rw [h3, hE, h6, edge_half0]
  rfl

theorem s3_v174 (hA : argsOf W = A) (h1 : (W (Proc.devRef .tc main_v1)) = srcOf A.a0) (hE : (W (Proc.devRef .tc main_v160)) = entryEdge7 A) (h6 : (W (Proc.devRef .tc main_v6)) = Pure.maskOf A.a0) :
    StableHlo.after hostOps3 W (Proc.devRef .tc main_v174) = catFP (Pure.messFrom A 1 (Pure.h1 A)) A.a3 := by
  refine (k3e_v174 W).trans ?_
  rw [h1, hE, h6, edge_half1, show (W (Proc.devRef .tc main_arg3)) = A.a3 from congrArg Pure.Args.a3 hA]
  rfl

theorem s3_v176 (hA : argsOf W = A) : StableHlo.after hostOps3 W (Proc.devRef .tc main_v176) = Pure.w49 1 A.a14 :=
  (k3e_v176 W).trans (congrArg (Pure.w49 1) (congrArg Pure.Args.a14 hA))
theorem s3_v178 (hA : argsOf W = A) : StableHlo.after hostOps3 W (Proc.devRef .tc main_v178) = Pure.b16 1 A.a15 :=
  (k3e_v178 W).trans (congrArg (Pure.b16 1) (congrArg Pure.Args.a15 hA))
theorem s3_v180 (hA : argsOf W = A) : StableHlo.after hostOps3 W (Proc.devRef .tc main_v180) = Pure.w16 1 A.a16 :=
  (k3e_v180 W).trans (congrArg (Pure.w16 1) (congrArg Pure.Args.a16 hA))
theorem s3_v182 (hA : argsOf W = A) : StableHlo.after hostOps3 W (Proc.devRef .tc main_v182) = Pure.b16 1 A.a17 :=
  (k3e_v182 W).trans (congrArg (Pure.b16 1) (congrArg Pure.Args.a17 hA))
theorem s3_v184 (hA : argsOf W = A) : StableHlo.after hostOps3 W (Proc.devRef .tc main_v184) = Pure.w16 1 A.a18 :=
  (k3e_v184 W).trans (congrArg (Pure.w16 1) (congrArg Pure.Args.a18 hA))
theorem s3_v186 (hA : argsOf W = A) : StableHlo.after hostOps3 W (Proc.devRef .tc main_v186) = Pure.b16 1 A.a19 :=
  (k3e_v186 W).trans (congrArg (Pure.b16 1) (congrArg Pure.Args.a19 hA))
theorem s3_v188 (hA : argsOf W = A) : StableHlo.after hostOps3 W (Proc.devRef .tc main_v188) = Pure.w16x1 1 A.a20 :=
  (k3e_v188 W).trans (congrArg (Pure.w16x1 1) (congrArg Pure.Args.a20 hA))
theorem s3_v190 (hA : argsOf W = A) : StableHlo.after hostOps3 W (Proc.devRef .tc main_v190) = Pure.b1 1 A.a21 :=
  (k3e_v190 W).trans (congrArg (Pure.b1 1) (congrArg Pure.Args.a21 hA))

end Over

variable (m : (ℓ : Loc nD τ sig) → Buf (Elt Ideal) ℓ) (ρ : Dev nD → PrngReg) (c : Dev nD)

theorem kb7_argK : argsOf (W7 m ρ c) = argsK m c := (k3e_args (W6 m ρ c)).trans (kb6_argK m ρ c)

theorem kb7_v170 : W7 m ρ c (Proc.devRef .tc main_v170) = Pure.messTo (argsK m c) 1 (Pure.h1 (argsK m c)) :=
  s3_v170 (W6 m ρ c) (argsK m c) (kb6_v3 m ρ c) (kb6_v160 m ρ c) (kb6_v6 m ρ c)
theorem kb7_v174 : W7 m ρ c (Proc.devRef .tc main_v174) = catFP (Pure.messFrom (argsK m c) 1 (Pure.h1 (argsK m c))) (argsK m c).a3 :=
  s3_v174 (W6 m ρ c) (argsK m c) (kb6_argK m ρ c) (kb6_v1 m ρ c) (kb6_v160 m ρ c) (kb6_v6 m ρ c)
theorem kb7_v176 : W7 m ρ c (Proc.devRef .tc main_v176) = Pure.w49 1 (argsK m c).a14 := s3_v176 (W6 m ρ c) (argsK m c) (kb6_argK m ρ c)
theorem kb7_v178 : W7 m ρ c (Proc.devRef .tc main_v178) = Pure.b16 1 (argsK m c).a15 := s3_v178 (W6 m ρ c) (argsK m c) (kb6_argK m ρ c)
theorem kb7_v180 : W7 m ρ c (Proc.devRef .tc main_v180) = Pure.w16 1 (argsK m c).a16 := s3_v180 (W6 m ρ c) (argsK m c) (kb6_argK m ρ c)
theorem kb7_v182 : W7 m ρ c (Proc.devRef .tc main_v182) = Pure.b16 1 (argsK m c).a17 := s3_v182 (W6 m ρ c) (argsK m c) (kb6_argK m ρ c)
theorem kb7_v184 : W7 m ρ c (Proc.devRef .tc main_v184) = Pure.w16 1 (argsK m c).a18 := s3_v184 (W6 m ρ c) (argsK m c) (kb6_argK m ρ c)
theorem kb7_v186 : W7 m ρ c (Proc.devRef .tc main_v186) = Pure.b16 1 (argsK m c).a19 := s3_v186 (W6 m ρ c) (argsK m c) (kb6_argK m ρ c)
theorem kb7_v188 : W7 m ρ c (Proc.devRef .tc main_v188) = Pure.w16x1 1 (argsK m c).a20 := s3_v188 (W6 m ρ c) (argsK m c) (kb6_argK m ρ c)
theorem kb7_v190 : W7 m ρ c (Proc.devRef .tc main_v190) = Pure.b1 1 (argsK m c).a21 := s3_v190 (W6 m ρ c) (argsK m c) (kb6_argK m ρ c)

theorem kb7_v1 : W7 m ρ c (Proc.devRef .tc main_v1) = srcOf (argsK m c).a0 :=
  (kv_keep3 (W6 m ρ c) main_v1 (by decide)).trans (kb6_v1 m ρ c)
theorem kb7_v3 : W7 m ρ c (Proc.devRef .tc main_v3) = dstOf (argsK m c).a0 :=
  (kv_keep3 (W6 m ρ c) main_v3 (by decide)).trans (kb6_v3 m ρ c)
theorem kb7_v6 : W7 m ρ c (Proc.devRef .tc main_v6) = Pure.maskOf (argsK m c).a0 :=
  (kv_keep3 (W6 m ρ c) main_v6 (by decide)).trans (kb6_v6 m ρ c)
theorem kb7_v9 : W7 m ρ c (Proc.devRef .tc main_v9) = Pure.avalOf (argsK m c).a2 :=
  (kv_keep3 (W6 m ρ c) main_v9 (by decide)).trans (kb6_v9 m ρ c)
theorem kb7_v89 : W7 m ρ c (Proc.devRef .tc main_v89) = Pure.h1 (argsK m c) :=
  (kv_keep3 (W6 m ρ c) main_v89 (by decide)).trans (kb6_v89 m ρ c)

theorem kb7_v112 : W7 m ρ c (Proc.devRef .tc main_v112) = Pure.loss0 (argsK m c) :=
  (kv_keep3 (W6 m ρ c) main_v112 (by decide)).trans ((W6_of_ne m ρ c main_v112 (by decide)).trans (kb5_v112 m ρ c))

end Cert.KernelIdeal.Hand

end
-- ==== Proof.KI.NodeVal3.lean ====
import proofs.«404712_j21509196219215_4_alg».proof.Proof.KI.NodeVal1
import proofs.«404712_j21509196219215_4_alg».proof.Proof.KI.R3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_11.index t (0 : Fin 2) = t.val ∧ win3_11.index t (1 : Fin 2) = 0 :=
  (by decide +kernel : ∀ t : Fin grid3.N, _)

theorem idx_facts3w : ∀ t : Fin cfg3.N,
    win3_3.index t (0 : Fin 2) = 0 ∧ win3_3.index t (1 : Fin 2) = 0 ∧ win3_4.index t (0 : Fin 1) = 0
    ∧ win3_5.index t (0 : Fin 2) = 0 ∧ win3_5.index t (1 : Fin 2) = 0 ∧ win3_6.index t (0 : Fin 1) = 0
    ∧ win3_7.index t (0 : Fin 2) = 0 ∧ win3_7.index t (1 : Fin 2) = 0 ∧ win3_8.index t (0 : Fin 1) = 0
    ∧ win3_9.index t (0 : Fin 2) = 0 ∧ win3_9.index t (1 : Fin 2) = 0 ∧ win3_10.index t (0 : Fin 1) = 0 :=
  (by decide +kernel : ∀ t : Fin grid3.N, _)

theorem wblk3_3 (c : Dev nD) (t : Fin cfg3.N) : (iblk3 V c 3 t : S49x16.Idx → EReal) = (V c main_v176 : S49x16.Idx → EReal) := by
  obtain ⟨h3a, h3b, h4, h5a, h5b, h6, h7a, h7b, h8, h9a, h9b, h10⟩ := idx_facts3w t
  funext z
  show V c main_v176 (((cfg3.win 3).blk t).view.emb z) = V c main_v176 z
  refine congrArg _ (funext fun a => Fin.ext ?_)
  match a with
    | ⟨0, _⟩ => show win3_3.index t (0 : Fin 2) * 49 + 1 * (z 0).val = (z 0).val; omega
    | ⟨1, _⟩ => show win3_3.index t (1 : Fin 2) * 16 + 1 * (z 1).val = (z 1).val; omega

theorem wblk3_4 (c : Dev nD) (t : Fin cfg3.N) : (iblk3 V c 4 t : S16.Idx → EReal) = (V c main_v178 : S16.Idx → EReal) := by
  obtain ⟨h3a, h3b, h4, h5a, h5b, h6, h7a, h7b, h8, h9a, h9b, h10⟩ := idx_facts3w t
  funext z
  show V c main_v178 (((cfg3.win 4).blk t).view.emb z) = V c main_v178 z
  refine congrArg _ (funext fun a => Fin.ext ?_)
  match a with
    | ⟨0, _⟩ => show win3_4.index t (0 : Fin 1) * 16 + 1 * (z 0).val = (z 0).val; omega

theorem wblk3_5 (c : Dev nD) (t : Fin cfg3.N) : (iblk3 V c 5 t : S16x16.Idx → EReal) = (V c main_v180 : S16x16.Idx → EReal) := by
  obtain ⟨h3a, h3b, h4, h5a, h5b, h6, h7a, h7b, h8, h9a, h9b, h10⟩ := idx_facts3w t
  funext z
  show V c main_v180 (((cfg3.win 5).blk t).view.emb z) = V c main_v180 z
  refine congrArg _ (funext fun a => Fin.ext ?_)
  match a with
    | ⟨0, _⟩ => show win3_5.index t (0 : Fin 2) * 16 + 1 * (z 0).val = (z 0).val; omega
    | ⟨1, _⟩ => show win3_5.index t (1 : Fin 2) * 16 + 1 * (z 1).val = (z 1).val; omega

theorem wblk3_6 (c : Dev nD) (t : Fin cfg3.N) : (iblk3 V c 6 t : S16.Idx → EReal) = (V c main_v182 : S16.Idx → EReal) := by
  obtain ⟨h3a, h3b, h4, h5a, h5b, h6, h7a, h7b, h8, h9a, h9b, h10⟩ := idx_facts3w t
  funext z
  show V c main_v182 (((cfg3.win 6).blk t).view.emb z) = V c main_v182 z
  refine congrArg _ (funext fun a => Fin.ext ?_)
  match a with
    | ⟨0, _⟩ => show win3_6.index t (0 : Fin 1) * 16 + 1 * (z 0).val = (z 0).val; omega

theorem wblk3_7 (c : Dev nD) (t : Fin cfg3.N) : (iblk3 V c 7 t : S16x16.Idx → EReal) = (V c main_v184 : S16x16.Idx → EReal) := by
  obtain ⟨h3a, h3b, h4, h5a, h5b, h6, h7a, h7b, h8, h9a, h9b, h10⟩ := idx_facts3w t
  funext z
  show V c main_v184 (((cfg3.win 7).blk t).view.emb z) = V c main_v184 z
  refine congrArg _ (funext fun a => Fin.ext ?_)
  match a with
    | ⟨0, _⟩ => show win3_7.index t (0 : Fin 2) * 16 + 1 * (z 0).val = (z 0).val; omega
    | ⟨1, _⟩ => show win3_7.index t (1 : Fin 2) * 16 + 1 * (z 1).val = (z 1).val; omega

theorem wblk3_8 (c : Dev nD) (t : Fin cfg3.N) : (iblk3 V c 8 t : S16.Idx → EReal) = (V c main_v186 : S16.Idx → EReal) := by
  obtain ⟨h3a, h3b, h4, h5a, h5b, h6, h7a, h7b, h8, h9a, h9b, h10⟩ := idx_facts3w t
  funext z
  show V c main_v186 (((cfg3.win 8).blk t).view.emb z) = V c main_v186 z
  refine congrArg _ (funext fun a => Fin.ext ?_)
  match a with
    | ⟨0, _⟩ => show win3_8.index t (0 : Fin 1) * 16 + 1 * (z 0).val = (z 0).val; omega

theorem wblk3_9 (c : Dev nD) (t : Fin cfg3.N) : (iblk3 V c 9 t : S16x1.Idx → EReal) = (V c main_v188 : S16x1.Idx → EReal) := by
  obtain ⟨h3a, h3b, h4, h5a, h5b, h6, h7a, h7b, h8, h9a, h9b, h10⟩ := idx_facts3w t
  funext z
  show V c main_v188 (((cfg3.win 9).blk t).view.emb z) = V c main_v188 z
  refine congrArg _ (funext fun a => Fin.ext ?_)
  match a with
    | ⟨0, _⟩ => show win3_9.index t (0 : Fin 2) * 16 + 1 * (z 0).val = (z 0).val; omega
    | ⟨1, _⟩ => show win3_9.index t (1 : Fin 2) * 1 + 1 * (z 1).val = (z 1).val; omega

theorem wblk3_10 (c : Dev nD) (t : Fin cfg3.N) : (iblk3 V c 10 t : S1.Idx → EReal) = (V c main_v190 : S1.Idx → EReal) := by
  obtain ⟨h3a, h3b, h4, h5a, h5b, h6, h7a, h7b, h8, h9a, h9b, h10⟩ := idx_facts3w t
  funext z
  show V c main_v190 (((cfg3.win 10).blk t).view.emb z) = V c main_v190 z
  refine congrArg _ (funext fun a => Fin.ext ?_)
  match a with
    | ⟨0, _⟩ => show win3_10.index t (0 : Fin 1) * 1 + 1 * (z 0).val = (z 0).val; omega

theorem flushed_eq3 (c : Dev nD) (t : Fin cfg3.N) :
    (dat3 (F := Ideal) V c).flushed 11 t = ((cfg3.win 11).blk t).view.read (Elt Ideal)
      (Cert.Hand.Spec.nodeG (V c main_v89) (V c main_v170) (V c main_v174) (V c main_v176) (V c main_v178) (V c main_v180) (V c main_v182) (V c main_v184) (V c main_v186) (V c main_v188) (V c main_v190)) := by
  show (cfg3.win 11).cut (grid3.coords t) ((dat3 V c).after 11 t) = _
  rw [after3_11, out1_11_eq]
  obtain ⟨a0, a1, b0, b1, c0, c1, o0, o1⟩ := idx_facts3 t
  funext y
  refine entry_eq_r1 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    (V c main_v89) (V c main_v170) (V c main_v174) (V c main_v176) (V c main_v178) (V c main_v180) (V c main_v182) (V c main_v184) (V c main_v186) (V c main_v188) (V c main_v190) y (((cfg3.win 11).blk t).view.emb y) ?_ ?_ ?_ ?_
    (wblk3_3 V c t) (wblk3_4 V c t) (wblk3_5 V c t) (wblk3_6 V c t) (wblk3_7 V c t) (wblk3_8 V c t) (wblk3_9 V c t) (wblk3_10 V c t)
  · show win3_11.index t (1 : Fin 2) * 17 + 1 * (y 1).val = (y 1).val
    omega
  · intro j
    show V c main_v89 (((cfg3.win 0).blk t).view.emb (ix2 (y 0) j)) = V c main_v89 (ix2 ((((cfg3.win 11).blk t).view.emb y) 0) j)
    refine congrArg _ (funext fun a => Fin.ext ?_)
    match a with
    | ⟨0, _⟩ => show win3_0.index t (0 : Fin 2) * 4000 + 1 * (y 0).val = win3_11.index t (0 : Fin 2) * 4000 + 1 * (y 0).val; omega
    | ⟨1, _⟩ => show win3_0.index t (1 : Fin 2) * 16 + 1 * j.val = j.val; omega
  · intro j
    show V c main_v170 (((cfg3.win 1).blk t).view.emb (ix2 (y 0) j)) = V c main_v170 (ix2 ((((cfg3.win 11).blk t).view.emb y) 0) j)
    refine congrArg _ (funext fun a => Fin.ext ?_)
    match a with
    | ⟨0, _⟩ => show win3_1.index t (0 : Fin 2) * 4000 + 1 * (y 0).val = win3_11.index t (0 : Fin 2) * 4000 + 1 * (y 0).val; omega
    | ⟨1, _⟩ => show win3_1.index t (1 : Fin 2) * 16 + 1 * j.val = j.val; omega
  · intro j
    show V c main_v174 (((cfg3.win 2).blk t).view.emb (ix2 (y 0) j)) = V c main_v174 (ix2 ((((cfg3.win 11).blk t).view.emb y) 0) j)
    refine congrArg _ (funext fun a => Fin.ext ?_)
    match a with
    | ⟨0, _⟩ => show win3_2.index t (0 : Fin 2) * 4000 + 1 * (y 0).val = win3_11.index t (0 : Fin 2) * 4000 + 1 * (y 0).val; omega
    | ⟨1, _⟩ => show win3_2.index t (1 : Fin 2) * 17 + 1 * j.val = j.val; omega

theorem mem_blk3 (t : Fin cfg3.N) (i : (⟨2, ![100000, 17]⟩ : Shape).Idx) :
    i ∈ ((cfg3.win 11).blk t).view.set ↔ ∀ a : Fin 2, win3_11.index t a * S4000x17.size a ≤ (i a).val ∧ (i a).val < win3_11.index t a * S4000x17.size a + S4000x17.size a := by
  show i ∈ ((View.whole main_v191).slice (win3_11.rect t)).set ↔ _
  rw [View.set_slice_whole, Rect.mem_set_unit]
  exact Iff.rfl

theorem cover3 (i : (⟨2, ![100000, 17]⟩ : Shape).Idx) :
    ∃ t : Fin cfg3.N, (cfg3.win 11).flush t = true ∧ i ∈ ((cfg3.win 11).blk t).view.set := by
  have hi0 : (i 0).val < 100000 := (i 0).isLt
  have hi1 : (i 1).val < 17 := (i 1).isLt
  have hN : cfg3.N = 25 := rfl
  have ht : (i 0).val / 4000 < cfg3.N := by rw [hN]; omega
  obtain ⟨-, -, -, -, -, -, o0, o1⟩ := idx_facts3 ⟨(i 0).val / 4000, ht⟩
  refine ⟨⟨(i 0).val / 4000, ht⟩, flush3_11 _, ?_⟩
  rw [mem_blk3]
  intro a
  match a with
  | ⟨0, _⟩ =>
    show win3_11.index ⟨(i 0).val / 4000, ht⟩ (0 : Fin 2) * 4000 ≤ (i 0).val ∧ (i 0).val < win3_11.index ⟨(i 0).val / 4000, ht⟩ (0 : Fin 2) * 4000 + 4000
    rw [o0]
    show (i 0).val / 4000 * 4000 ≤ (i 0).val ∧ (i 0).val < (i 0).val / 4000 * 4000 + 4000
    omega
  | ⟨1, _⟩ =>
    show win3_11.index ⟨(i 0).val / 4000, ht⟩ (1 : Fin 2) * 17 ≤ (i 1).val ∧ (i 1).val < win3_11.index ⟨(i 0).val / 4000, ht⟩ (1 : Fin 2) * 17 + 17
    omega

theorem node_final3 (c : Dev nD) :
    (dat3 (F := Ideal) V c).arrAt 11 cfg3.N
      = Cert.Hand.Spec.nodeG (V c main_v89) (V c main_v170) (V c main_v174) (V c main_v176) (V c main_v178) (V c main_v180) (V c main_v182) (V c main_v184) (V c main_v186) (V c main_v188) (V c main_v190) :=
  (dat3 (F := Ideal) V c).arrAt_eq_of_cover 11
    (Cert.Hand.Spec.nodeG (V c main_v89) (V c main_v170) (V c main_v174) (V c main_v176) (V c main_v178) (V c main_v180) (V c main_v182) (V c main_v184) (V c main_v186) (V c main_v188) (V c main_v190))
    (fun t _ => flushed_eq3 V c t) cover3

end Cert.KernelIdeal.Hand

end
-- ==== Proof.KI.KVals8e.lean ====
import proofs.«404712_j21509196219215_4_alg».proof.Proof.KI.KVals7e
import proofs.«404712_j21509196219215_4_alg».proof.Proof.KI.NodeVal3
import proofs.«404712_j21509196219215_4_alg».proof.Proof.KI.KGlue

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable (m : (ℓ : Loc nD τ sig) → Buf (Elt Ideal) ℓ) (ρ : Dev nD → PrngReg) (c : Dev nD)

theorem kb8_v191 : W8 m ρ c (Proc.devRef .tc main_v191)
    = Spec.nodeG (Pure.h1 (argsK m c)) (Pure.messTo (argsK m c) 1 (Pure.h1 (argsK m c))) (catFP (Pure.messFrom (argsK m c) 1 (Pure.h1 (argsK m c))) (argsK m c).a3)
        (Pure.w49 1 (argsK m c).a14) (Pure.b16 1 (argsK m c).a15) (Pure.w16 1 (argsK m c).a16) (Pure.b16 1 (argsK m c).a17)
        (Pure.w16 1 (argsK m c).a18) (Pure.b16 1 (argsK m c).a19) (Pure.w16x1 1 (argsK m c).a20) (Pure.b1 1 (argsK m c).a21) :=
  (W8_arr m ρ c 11).trans ((node_final3 (V7 m ρ) c).trans
    (nodeG_congr (kb7_v89 m ρ c) (kb7_v170 m ρ c) (kb7_v174 m ρ c) (kb7_v176 m ρ c) (kb7_v178 m ρ c) (kb7_v180 m ρ c)
      (kb7_v182 m ρ c) (kb7_v184 m ρ c) (kb7_v186 m ρ c) (kb7_v188 m ρ c) (kb7_v190 m ρ c)))

theorem kb8_v1 : W8 m ρ c (Proc.devRef .tc main_v1) = srcOf (argsK m c).a0 :=
  (W8_of_ne m ρ c main_v1 (by decide)).trans (kb7_v1 m ρ c)
theorem kb8_v3 : W8 m ρ c (Proc.devRef .tc main_v3) = dstOf (argsK m c).a0 :=
  (W8_of_ne m ρ c main_v3 (by decide)).trans (kb7_v3 m ρ c)
theorem kb8_v6 : W8 m ρ c (Proc.devRef .tc main_v6) = Pure.maskOf (argsK m c).a0 :=
  (W8_of_ne m ρ c main_v6 (by decide)).trans (kb7_v6 m ρ c)
theorem kb8_v9 : W8 m ρ c (Proc.devRef .tc main_v9) = Pure.avalOf (argsK m c).a2 :=
  (W8_of_ne m ρ c main_v9 (by decide)).trans (kb7_v9 m ρ c)
theorem kb8_v112 : W8 m ρ c (Proc.devRef .tc main_v112) = Pure.loss0 (argsK m c) :=
  (W8_of_ne m ρ c main_v112 (by decide)).trans (kb7_v112 m ρ c)

theorem kb8_argK : argsOf (W8 m ρ c) = argsK m c :=
  (argsOf_congr (W8 m ρ c) (W7 m ρ c) (W8_of_ne m ρ c main_arg0 (by decide)) (W8_of_ne m ρ c main_arg1 (by decide)) (W8_of_ne m ρ c main_arg2 (by decide)) (W8_of_ne m ρ c main_arg3 (by decide)) (W8_of_ne m ρ c main_arg5 (by decide)) (W8_of_ne m ρ c main_arg6 (by decide)) (W8_of_ne m ρ c main_arg7 (by decide)) (W8_of_ne m ρ c main_arg8 (by decide)) (W8_of_ne m ρ c main_arg9 (by decide)) (W8_of_ne m ρ c main_arg10 (by decide)) (W8_of_ne m ρ c main_arg11 (by decide)) (W8_of_ne m ρ c main_arg12 (by decide)) (W8_of_ne m ρ c main_arg13 (by decide)) (W8_of_ne m ρ c main_arg14 (by decide)) (W8_of_ne m ρ c main_arg15 (by decide)) (W8_of_ne m ρ c main_arg16 (by decide)) (W8_of_ne m ρ c main_arg17 (by decide)) (W8_of_ne m ρ c main_arg18 (by decide)) (W8_of_ne m ρ c main_arg19 (by decide)) (W8_of_ne m ρ c main_arg20 (by decide)) (W8_of_ne m ρ c main_arg21 (by decide))).trans (kb7_argK m ρ c)

end Cert.KernelIdeal.Hand

end
-- ==== Proof.KI.KRead4.lean ====
import proofs.«404712_j21509196219215_4_alg».proof.Proof.KI.KRead2

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.Hand.Bridge

variable {F : FTy → Type} [FloatOps F]

set_option maxHeartbeats 4000000 in
theorem k4_v192 (W : Valuation τ sig (Elt F)) : StableHlo.after hostOps4 W (Proc.devRef .tc main_v192)
    = hOf (W (Proc.devRef .tc main_v191)) := by
  after_results_simp3
  rfl

set_option maxHeartbeats 4000000 in
theorem k4_v193 (W : Valuation τ sig (Elt F)) : StableHlo.after hostOps4 W (Proc.devRef .tc main_v193)
    = uOf (W (Proc.devRef .tc main_v191)) := by
  after_results_simp3
  rfl

set_option maxHeartbeats 4000000 in
theorem k4_v215 (W : Valuation τ sig (Elt F)) : StableHlo.after hostOps4 W (Proc.devRef .tc main_v215)
    = addf (W (Proc.devRef .tc main_v112))
        (mulf (lossRows (uOf (W (Proc.devRef .tc main_v191))) (W (Proc.devRef .tc main_v1)) (W (Proc.devRef .tc main_v3)) (W (Proc.devRef .tc main_v9)) (W (Proc.devRef .tc main_arg5)))
          (constant (F := F) S_ .f32 0x3F666666#32)) := by
  after_results_simp3
  rfl

set_option maxHeartbeats 4000000 in
theorem k4_v234 (W : Valuation τ sig (Elt F)) : StableHlo.after hostOps4 W (Proc.devRef .tc main_v234)
    = stackX
        (edgeIn (gatherRows (hOf (W (Proc.devRef .tc main_v191))) (wrapCol (W (Proc.devRef .tc main_v3)))) (gatherRows (hOf (W (Proc.devRef .tc main_v191))) (wrapCol (W (Proc.devRef .tc main_v1)))) (W (Proc.devRef .tc main_arg1)))
        (edgeIn (gatherRows (hOf (W (Proc.devRef .tc main_v191))) (wrapCol (W (Proc.devRef .tc main_v1)))) (gatherRows (hOf (W (Proc.devRef .tc main_v191))) (wrapCol (W (Proc.devRef .tc main_v3)))) (W (Proc.devRef .tc main_arg1))) := by
  after_results_simp3
  rfl

set_option maxHeartbeats 4000000 in
theorem k4_v241 (W : Valuation τ sig (Elt F)) : StableHlo.after hostOps4 W (Proc.devRef .tc main_v241)
    = stackW1 (Cert.Hand.Pure.w35 2 (W (Proc.devRef .tc main_arg6))) (Cert.Hand.Pure.w35 2 (W (Proc.devRef .tc main_arg10))) := by
  after_results_simp3
  rfl

set_option maxHeartbeats 4000000 in
theorem k4_v248 (W : Valuation τ sig (Elt F)) : StableHlo.after hostOps4 W (Proc.devRef .tc main_v248)
    = stackB (Cert.Hand.Pure.b16 2 (W (Proc.devRef .tc main_arg7))) (Cert.Hand.Pure.b16 2 (W (Proc.devRef .tc main_arg11))) := by
  after_results_simp3
  rfl

set_option maxHeartbeats 4000000 in
theorem k4_v255 (W : Valuation τ sig (Elt F)) : StableHlo.after hostOps4 W (Proc.devRef .tc main_v255)
    = stackW2 (Cert.Hand.Pure.w16 2 (W (Proc.devRef .tc main_arg8))) (Cert.Hand.Pure.w16 2 (W (Proc.devRef .tc main_arg12))) := by
  after_results_simp3
  rfl

set_option maxHeartbeats 4000000 in
theorem k4_v262 (W : Valuation τ sig (Elt F)) : StableHlo.after hostOps4 W (Proc.devRef .tc main_v262)
    = stackB (Cert.Hand.Pure.b16 2 (W (Proc.devRef .tc main_arg9))) (Cert.Hand.Pure.b16 2 (W (Proc.devRef .tc main_arg13))) := by
  after_results_simp3
  rfl

end Cert.KernelIdeal.Hand

end
-- ==== Proof.KI.KVals9.lean ====
import proofs.«404712_j21509196219215_4_alg».proof.Proof.KI.KVals8e
import proofs.«404712_j21509196219215_4_alg».proof.Proof.KI.KRead4

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable {F : FTy → Type} [FloatOps F]

theorem k4_args (W : Valuation τ sig (Elt F)) : argsOf (StableHlo.after hostOps4 W) = argsOf W := by
  unfold argsOf
  rw [kv_keep4 W main_arg0 (by decide), kv_keep4 W main_arg1 (by decide), kv_keep4 W main_arg2 (by decide), kv_keep4 W main_arg3 (by decide), kv_keep4 W main_arg5 (by decide), kv_keep4 W main_arg6 (by decide), kv_keep4 W main_arg7 (by decide), kv_keep4 W main_arg8 (by decide), kv_keep4 W main_arg9 (by decide), kv_keep4 W main_arg10 (by decide), kv_keep4 W main_arg11 (by decide), kv_keep4 W main_arg12 (by decide), kv_keep4 W main_arg13 (by decide), kv_keep4 W main_arg14 (by decide), kv_keep4 W main_arg15 (by decide), kv_keep4 W main_arg16 (by decide), kv_keep4 W main_arg17 (by decide), kv_keep4 W main_arg18 (by decide), kv_keep4 W main_arg19 (by decide), kv_keep4 W main_arg20 (by decide), kv_keep4 W main_arg21 (by decide)]

abbrev entryNode9 (A : Pure.Args Ideal) : Vec Ideal S100000x17 .f32 :=
  Spec.nodeG (Pure.h1 A) (Pure.messTo A 1 (Pure.h1 A)) (catFP (Pure.messFrom A 1 (Pure.h1 A)) A.a3) (Pure.w49 1 A.a14) (Pure.b16 1 A.a15) (Pure.w16 1 A.a16) (Pure.b16 1 A.a17) (Pure.w16 1 A.a18) (Pure.b16 1 A.a19) (Pure.w16x1 1 A.a20) (Pure.b1 1 A.a21)

section Over

variable (W : Valuation τ sig (Elt Ideal)) (A : Pure.Args Ideal)

theorem s4_h (hN : (W (Proc.devRef .tc main_v191)) = entryNode9 A) : hOf (W (Proc.devRef .tc main_v191)) = Pure.h2 A :=
  (congrArg hOf hN).trans (node_h _ _ _ _ _ _ _ _ _ _ _ _)

theorem s4_u (hN : (W (Proc.devRef .tc main_v191)) = entryNode9 A) : uOf (W (Proc.devRef .tc main_v191)) = Pure.u1 A :=
  (congrArg uOf hN).trans (node_u _ _ _ _ _ _ _ _ _ _ _ _)

theorem s4_v192 (hN : (W (Proc.devRef .tc main_v191)) = entryNode9 A) :
    StableHlo.after hostOps4 W (Proc.devRef .tc main_v192) = Pure.h2 A :=
  (k4_v192 W).trans (s4_h W A hN)

theorem s4_v193 (hN : (W (Proc.devRef .tc main_v191)) = entryNode9 A) :
    StableHlo.after hostOps4 W (Proc.devRef .tc main_v193) = Pure.u1 A :=
  (k4_v193 W).trans (s4_u W A hN)

theorem s4_v215 (hA : argsOf W = A) (h1 : (W (Proc.devRef .tc main_v1)) = srcOf A.a0) (h3 : (W (Proc.devRef .tc main_v3)) = dstOf A.a0)
    (h9 : (W (Proc.devRef .tc main_v9)) = Pure.avalOf A.a2) (hL : (W (Proc.devRef .tc main_v112)) = Pure.loss0 A)
    (hN : (W (Proc.devRef .tc main_v191)) = entryNode9 A) :
    StableHlo.after hostOps4 W (Proc.devRef .tc main_v215) = Pure.loss1 A := by
  refine (k4_v215 W).trans ?_
  rw [hL, s4_u W A hN, h1, h3, h9, show (W (Proc.devRef .tc main_arg5)) = A.a5 from congrArg Pure.Args.a5 hA, lossRows_eq]
  rfl

theorem s4_v234 (hA : argsOf W = A) (h1 : (W (Proc.devRef .tc main_v1)) = srcOf A.a0) (h3 : (W (Proc.devRef .tc main_v3)) = dstOf A.a0)
    (hN : (W (Proc.devRef .tc main_v191)) = entryNode9 A) :
    StableHlo.after hostOps4 W (Proc.devRef .tc main_v234)
      = stackX (Pure.tmpTo (Pure.h2 A) A.a0 A.a1) (Pure.tmpFrom (Pure.h2 A) A.a0 A.a1) := by
  refine (k4_v234 W).trans ?_
  rw [s4_h W A hN, h1, h3, show (W (Proc.devRef .tc main_arg1)) = A.a1 from congrArg Pure.Args.a1 hA]
  rfl

theorem s4_v241 (hA : argsOf W = A) :
    StableHlo.after hostOps4 W (Proc.devRef .tc main_v241) = stackW1 (Pure.w35 2 A.a6) (Pure.w35 2 A.a10) := by
  refine (k4_v241 W).trans ?_
  rw [show (W (Proc.devRef .tc main_arg6)) = A.a6 from congrArg Pure.Args.a6 hA, show (W (Proc.devRef .tc main_arg10)) = A.a10 from congrArg Pure.Args.a10 hA]

theorem s4_v248 (hA : argsOf W = A) :
    StableHlo.after hostOps4 W (Proc.devRef .tc main_v248) = stackB (Pure.b16 2 A.a7) (Pure.b16 2 A.a11) := by
  refine (k4_v248 W).trans ?_
  rw [show (W (Proc.devRef .tc main_arg7)) = A.a7 from congrArg Pure.Args.a7 hA, show (W (Proc.devRef .tc main_arg11)) = A.a11 from congrArg Pure.Args.a11 hA]

theorem s4_v255 (hA : argsOf W = A) :
    StableHlo.after hostOps4 W (Proc.devRef .tc main_v255) = stackW2 (Pure.w16 2 A.a8) (Pure.w16 2 A.a12) := by
  refine (k4_v255 W).trans ?_
  rw [show (W (Proc.devRef .tc main_arg8)) = A.a8 from congrArg Pure.Args.a8 hA, show (W (Proc.devRef .tc main_arg12)) = A.a12 from congrArg Pure.Args.a12 hA]

theorem s4_v262 (hA : argsOf W = A) :
    StableHlo.after hostOps4 W (Proc.devRef .tc main_v262) = stackB (Pure.b16 2 A.a9) (Pure.b16 2 A.a13) := by
  refine (k4_v262 W).trans ?_
  rw [show (W (Proc.devRef .tc main_arg9)) = A.a9 from congrArg Pure.Args.a9 hA, show (W (Proc.devRef .tc main_arg13)) = A.a13 from congrArg Pure.Args.a13 hA]

end Over

variable (m : (ℓ : Loc nD τ sig) → Buf (Elt Ideal) ℓ) (ρ : Dev nD → PrngReg) (c : Dev nD)

theorem kb9_argK : argsOf (W9 m ρ c) = argsK m c := (k4_args (W8 m ρ c)).trans (kb8_argK m ρ c)
theorem kb9_v1 : W9 m ρ c (Proc.devRef .tc main_v1) = srcOf (argsK m c).a0 :=
  (kv_keep4 (W8 m ρ c) main_v1 (by decide)).trans (kb8_v1 m ρ c)
theorem kb9_v3 : W9 m ρ c (Proc.devRef .tc main_v3) = dstOf (argsK m c).a0 :=
  (kv_keep4 (W8 m ρ c) main_v3 (by decide)).trans (kb8_v3 m ρ c)
theorem kb9_v6 : W9 m ρ c (Proc.devRef .tc main_v6) = Pure.maskOf (argsK m c).a0 :=
  (kv_keep4 (W8 m ρ c) main_v6 (by decide)).trans (kb8_v6 m ρ c)
theorem kb9_v9 : W9 m ρ c (Proc.devRef .tc main_v9) = Pure.avalOf (argsK m c).a2 :=
  (kv_keep4 (W8 m ρ c) main_v9 (by decide)).trans (kb8_v9 m ρ c)

theorem kb9_v192 : W9 m ρ c (Proc.devRef .tc main_v192) = Pure.h2 (argsK m c) :=
  s4_v192 (W8 m ρ c) (argsK m c) (kb8_v191 m ρ c)
theorem kb9_v193 : W9 m ρ c (Proc.devRef .tc main_v193) = Pure.u1 (argsK m c) :=
  s4_v193 (W8 m ρ c) (argsK m c) (kb8_v191 m ρ c)
theorem kb9_v215 : W9 m ρ c (Proc.devRef .tc main_v215) = Pure.loss1 (argsK m c) :=
  s4_v215 (W8 m ρ c) (argsK m c) (kb8_argK m ρ c) (kb8_v1 m ρ c) (kb8_v3 m ρ c) (kb8_v9 m ρ c) (kb8_v112 m ρ c) (kb8_v191 m ρ c)
theorem kb9_v234 : W9 m ρ c (Proc.devRef .tc main_v234)
    = stackX (Pure.tmpTo (Pure.h2 (argsK m c)) (argsK m c).a0 (argsK m c).a1) (Pure.tmpFrom (Pure.h2 (argsK m c)) (argsK m c).a0 (argsK m c).a1) :=
  s4_v234 (W8 m ρ c) (argsK m c) (kb8_argK m ρ c) (kb8_v1 m ρ c) (kb8_v3 m ρ c) (kb8_v191 m ρ c)
theorem kb9_v241 : W9 m ρ c (Proc.devRef .tc main_v241) = stackW1 (Pure.w35 2 (argsK m c).a6) (Pure.w35 2 (argsK m c).a10) :=
  s4_v241 (W8 m ρ c) (argsK m c) (kb8_argK m ρ c)
theorem kb9_v248 : W9 m ρ c (Proc.devRef .tc main_v248) = stackB (Pure.b16 2 (argsK m c).a7) (Pure.b16 2 (argsK m c).a11) :=
  s4_v248 (W8 m ρ c) (argsK m c) (kb8_argK m ρ c)
theorem kb9_v255 : W9 m ρ c (Proc.devRef .tc main_v255) = stackW2 (Pure.w16 2 (argsK m c).a8) (Pure.w16 2 (argsK m c).a12) :=
  s4_v255 (W8 m ρ c) (argsK m c) (kb8_argK m ρ c)
theorem kb9_v262 : W9 m ρ c (Proc.devRef .tc main_v262) = stackB (Pure.b16 2 (argsK m c).a9) (Pure.b16 2 (argsK m c).a13) :=
  s4_v262 (W8 m ρ c) (argsK m c) (kb8_argK m ρ c)

end Cert.KernelIdeal.Hand

end
-- ==== Proof.KI.EdgeVal4.lean ====
import proofs.«404712_j21509196219215_4_alg».proof.Proof.KI.EdgeVal0
import proofs.«404712_j21509196219215_4_alg».proof.Proof.KI.R4
import Idealize.ShloMosaic.Lib.Pipeline.Value

noncomputable section

namespace Cert.KernelIdeal.Hand

open Cert.KernelIdeal Cert.KernelIdeal.Gen Cert.KernelIdeal.Facts₀ Cert.KernelIdeal.Facts
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts4 : ∀ t : Fin cfg4.N,
    win4_0.index t (0 : Fin 3) = 0 ∧ win4_0.index t (1 : Fin 3) = t.val ∧ win4_0.index t (2 : Fin 3) = 0
    ∧ win4_1.index t (0 : Fin 3) = 0 ∧ win4_1.index t (1 : Fin 3) = 0 ∧ win4_1.index t (2 : Fin 3) = 0
    ∧ win4_2.index t (0 : Fin 2) = 0 ∧ win4_2.index t (1 : Fin 2) = 0
    ∧ win4_3.index t (0 : Fin 3) = 0 ∧ win4_3.index t (1 : Fin 3) = 0 ∧ win4_3.index t (2 : Fin 3) = 0
    ∧ win4_4.index t (0 : Fin 2) = 0 ∧ win4_4.index t (1 : Fin 2) = 0
    ∧ win4_5.index t (0 : Fin 3) = 0 ∧ win4_5.index t (1 : Fin 3) = t.val ∧ win4_5.index t (2 : Fin 3) = 0 :=
  (by decide +kernel : ∀ t : Fin grid4.N, _)

theorem iblk4_0_apply (c : Dev nD) (t : Fin cfg4.N) (h : Fin 2) (r : Fin 4000) (l : Fin 35) (e : Fin 800000)
    (he : e.val = t.val * 4000 + r.val) :
    (iblk4 V c 0 t : Vec Ideal S2x4000x35 .f32) (ix3 h r l) = (V c main_v234 : Vec Ideal S2x800000x35 .f32) (ix3 h e l) := by
  obtain ⟨f0, f1, f2, -⟩ := idx_facts4 t
  unfold iblk4
  rw [View.read_apply]
  show V c main_v234 _ = V c main_v234 _
  congr 1
  funext a
  apply Fin.ext
  match a with
  | ⟨0, _⟩ => show win4_0.index t (0 : Fin 3) * 2 + 1 * h.val = h.val; omega
  | ⟨1, _⟩ => show win4_0.index t (1 : Fin 3) * 4000 + 1 * r.val = e.val; omega
  | ⟨2, _⟩ => show win4_0.index t (2 : Fin 3) * 35 + 1 * l.val = l.val; omega

theorem iblk4_1_apply (c : Dev nD) (t : Fin cfg4.N) (h : Fin 2) (l : Fin 35) (k : Fin 16) :
    (iblk4 V c 1 t : Vec Ideal S2x35x16 .f32) (ix3 h l k) = (V c main_v241 : Vec Ideal S2x35x16 .f32) (ix3 h l k) := by
  obtain ⟨-, -, -, f0, f1, f2, -⟩ := idx_facts4 t
  unfold iblk4
  rw [View.read_apply]
  show V c main_v241 _ = V c main_v241 _
  congr 1
  funext a
  apply Fin.ext
  match a with
  | ⟨0, _⟩ => show win4_1.index t (0 : Fin 3) * 2 + 1 * h.val = h.val; omega
  | ⟨1, _⟩ => show win4_1.index t (1 : Fin 3) * 35 + 1 * l.val = l.val; omega
  | ⟨2, _⟩ => show win4_1.index t (2 : Fin 3) * 16 + 1 * k.val = k.val; omega

theorem iblk4_2_apply (c : Dev nD) (t : Fin cfg4.N) (h : Fin 2) (k : Fin 16) :
    (iblk4 V c 2 t : Vec Ideal S2x16 .f32) (ix2 h k) = (V c main_v248 : Vec Ideal S2x16 .f32) (ix2 h k) := by
  obtain ⟨-, -, -, -, -, -, f0, f1, -⟩ := idx_facts4 t
  unfold iblk4
  rw [View.read_apply]
  show V c main_v248 _ = V c main_v248 _
  congr 1
  funext a
  apply Fin.ext
  match a with
  | ⟨0, _⟩ => show win4_2.index t (0 : Fin 2) * 2 + 1 * h.val = h.val; omega
  | ⟨1, _⟩ => show win4_2.index t (1 : Fin 2) * 16 + 1 * k.val = k.val; omega

theorem iblk4_3_apply (c : Dev nD) (t : Fin cfg4.N) (h : Fin 2) (k : Fin 16) (j : Fin 16) :
    (iblk4 V c 3 t : Vec Ideal S2x16x16 .f32) (ix3 h k j) = (V c main_v255 : Vec Ideal S2x16x16 .f32) (ix3 h k j) := by
  obtain ⟨-, -, -, -, -, -, -, -, f0, f1, f2, -⟩ := idx_facts4 t
  unfold iblk4
  rw [View.read_apply]
  show V c main_v255 _ = V c main_v255 _
  congr 1
  funext a
  apply Fin.ext
  match a with
  | ⟨0, _⟩ => show win4_3.index t (0 : Fin 3) * 2 + 1 * h.val = h.val; omega
  | ⟨1, _⟩ => show win4_3.index t (1 : Fin 3) * 16 + 1 * k.val = k.val; omega
  | ⟨2, _⟩ => show win4_3.index t (2 : Fin 3) * 16 + 1 * j.val = j.val; omega

theorem iblk4_4_apply (c : Dev nD) (t : Fin cfg4.N) (h : Fin 2) (j : Fin 16) :
    (iblk4 V c 4 t : Vec Ideal S2x16 .f32) (ix2 h j) = (V c main_v262 : Vec Ideal S2x16 .f32) (ix2 h j) := by
  obtain ⟨-, -, -, -, -, -, -, -, -, -, -, f0, f1, -⟩ := idx_facts4 t
  unfold iblk4
  rw [View.read_apply]
  show V c main_v262 _ = V c main_v262 _
  congr 1
  funext a
  apply Fin.ext
  match a with
  | ⟨0, _⟩ => show win4_4.index t (0 : Fin 2) * 2 + 1 * h.val = h.val; omega
  | ⟨1, _⟩ => show win4_4.index t (1 : Fin 2) * 16 + 1 * j.val = j.val; omega

theorem edgeBlk_iblk4 (c : Dev nD) (t : Fin cfg4.N) (h : Fin 2) (r : Fin 4000) (j : Fin 16) (e : Fin 800000)
    (he : e.val = t.val * 4000 + r.val) :
    edgeBlk (iblk4 V c 0 t) (iblk4 V c 1 t) (iblk4 V c 2 t) (iblk4 V c 3 t) (iblk4 V c 4 t) (ix3 h r j)
      = Cert.Hand.Spec.edgeG (V c main_v234) (V c main_v241) (V c main_v248) (V c main_v255) (V c main_v262) (ix3 h e j) := by
  refine (edgeBlk_ix (iblk4 V c 0 t) (iblk4 V c 1 t) (iblk4 V c 2 t) (iblk4 V c 3 t) (iblk4 V c 4 t) h r j).trans ?_
  refine Eq.trans ?_ (edgeG_ix (V c main_v234) (V c main_v241) (V c main_v248) (V c main_v255) (V c main_v262) h e j).symm
  have e0 : (fun l => (iblk4 V c 0 t : Vec Ideal S2x4000x35 .f32) (ix3 h r l))
      = fun l => (V c main_v234 : Vec Ideal S2x800000x35 .f32) (ix3 h e l) := funext fun l => iblk4_0_apply V c t h r l e he
  have e1 : (fun l k => (iblk4 V c 1 t : Vec Ideal S2x35x16 .f32) (ix3 h l k))
      = fun l k => (V c main_v241 : Vec Ideal S2x35x16 .f32) (ix3 h l k) := funext fun l => funext fun k => iblk4_1_apply V c t h l k
  have e2 : (fun k => (iblk4 V c 2 t : Vec Ideal S2x16 .f32) (ix2 h k))
      = fun k => (V c main_v248 : Vec Ideal S2x16 .f32) (ix2 h k) := funext fun k => iblk4_2_apply V c t h k
  have e3 : (fun k j => (iblk4 V c 3 t : Vec Ideal S2x16x16 .f32) (ix3 h k j))
      = fun k j => (V c main_v255 : Vec Ideal S2x16x16 .f32) (ix3 h k j) := funext fun k => funext fun j => iblk4_3_apply V c t h k j
  have e4 : (fun j => (iblk4 V c 4 t : Vec Ideal S2x16 .f32) (ix2 h j))
      = fun j => (V c main_v262 : Vec Ideal S2x16 .f32) (ix2 h j) := funext fun j => iblk4_4_apply V c t h j
  rw [e0, e1, e2, e3, e4]

theorem flushed4_5_eq (c : Dev nD) (t : Fin cfg4.N) :
    (dat4 V c).flushed 5 t = ((cfg4.win 5).blk t).view.read (Elt Ideal)
      (Cert.Hand.Spec.edgeG (V c main_v234) (V c main_v241) (V c main_v248) (V c main_v255) (V c main_v262)) := by
  show (cfg4.win 5).cut (grid4.coords t) ((dat4 V c).after 5 t) = _
  rw [after4_5, out0_5_eq (iblk4 V c 0 t) (iblk4 V c 1 t) (iblk4 V c 2 t) (iblk4 V c 3 t) (iblk4 V c 4 t)]
  funext y
  rw [View.read_apply]
  obtain ⟨-, -, -, -, -, -, -, -, -, -, -, -, -, g0, g1, g2⟩ := idx_facts4 t
  have hN : cfg4.N = 200 := N_4
  have ht : t.val < 200 := hN ▸ t.isLt
  have hy0 : (y 0).val < 2 := (y 0).isLt
  have hy1 : (y 1).val < 4000 := (y 1).isLt
  have hy2 : (y 2).val < 16 := (y 2).isLt
  have hx : (cfg4.win 5).xinj (grid4.coords t) y = ix3 (⟨(y 0).val, hy0⟩ : Fin 2) (⟨(y 1).val, hy1⟩ : Fin 4000) (⟨(y 2).val, hy2⟩ : Fin 16) :=
    funext fun a => by match a with | ⟨0, _⟩ => rfl | ⟨1, _⟩ => rfl | ⟨2, _⟩ => rfl
  have hemb : ((cfg4.win 5).blk t).view.emb y
      = ix3 (⟨(y 0).val, hy0⟩ : Fin 2) (⟨t.val * 4000 + (y 1).val, by omega⟩ : Fin 800000) (⟨(y 2).val, hy2⟩ : Fin 16) :=
    funext fun a => Fin.ext (by
      match a with
      | ⟨0, _⟩ => show win4_5.index t (0 : Fin 3) * 2 + 1 * (y 0).val = (y 0).val; omega
      | ⟨1, _⟩ => show win4_5.index t (1 : Fin 3) * 4000 + 1 * (y 1).val = t.val * 4000 + (y 1).val; omega
      | ⟨2, _⟩ => show win4_5.index t (2 : Fin 3) * 16 + 1 * (y 2).val = (y 2).val; omega)
  show edgeBlk (iblk4 V c 0 t) (iblk4 V c 1 t) (iblk4 V c 2 t) (iblk4 V c 3 t) (iblk4 V c 4 t) ((cfg4.win 5).xinj (grid4.coords t) y)
    = Cert.Hand.Spec.edgeG (V c main_v234) (V c main_v241) (V c main_v248) (V c main_v255) (V c main_v262) (((cfg4.win 5).blk t).view.emb y)
  rw [hx, hemb]
  exact edgeBlk_iblk4 V c t _ _ _ _ rfl

theorem mem_blk4_5 (t : Fin cfg4.N) (i : S2x800000x16.Idx) :
    i ∈ ((cfg4.win 5).blk t).view.set ↔ ∀ a : Fin 3, win4_5.index t a * S2x4000x16.size a ≤ (i a).val ∧ (i a).val < win4_5.index t a * S2x4000x16.size a + S2x4000x16.size a := by
  show i ∈ ((View.whole main_v263).slice (win4_5.rect t)).set ↔ _
  rw [View.set_slice_whole, Rect.mem_set_unit]
  exact Iff.rfl

theorem cover4_rows (i : S2x800000x16.Idx) :
    ∃ t : Fin cfg4.N, (cfg4.win 5).flush t = true ∧ i ∈ ((cfg4.win 5).blk t).view.set := by
  have hN : cfg4.N = 200 := N_4
  have hi0 : (i 0).val < 2 := (i 0).isLt
  have hi1 : (i 1).val < 800000 := (i 1).isLt
  have hi2 : (i 2).val < 16 := (i 2).isLt
  have ht : (i 1).val / 4000 < cfg4.N := by rw [hN]; omega
  refine ⟨⟨(i 1).val / 4000, ht⟩, flush4_5 _, ?_⟩
  rw [mem_blk4_5]
  obtain ⟨-, -, -, -, -, -, -, -, -, -, -, -, -, g0, g1, g2⟩ := idx_facts4 ⟨(i 1).val / 4000, ht⟩
  have g1' : win4_5.index ⟨(i 1).val / 4000, ht⟩ (1 : Fin 3) = (i 1).val / 4000 := g1
  intro a
  match a with
  | ⟨0, _⟩ => show win4_5.index ⟨(i 1).val / 4000, ht⟩ (0 : Fin 3) * 2 ≤ (i 0).val ∧ (i 0).val < win4_5.index ⟨(i 1).val / 4000, ht⟩ (0 : Fin 3) * 2 + 2; omega
  | ⟨1, _⟩ => show win4_5.index ⟨(i 1).val / 4000, ht⟩ (1 : Fin 3) * 4000 ≤ (i 1).val ∧ (i 1).val < win4_5.index ⟨(i 1).val / 4000, ht⟩ (1 : Fin 3) * 4000 + 4000; omega
  | ⟨2, _⟩ => show win4_5.index ⟨(i 1).val / 4000, ht⟩ (2 : Fin 3) * 16 ≤ (i 2).val ∧ (i 2).val < win4_5.index ⟨(i 1).val / 4000, ht⟩ (2 : Fin 3) * 16 + 16; omega

theorem edge_final4 (V : (c : Dev nD) → (b : Ref sig .tc) → Buf (Elt Ideal) ((c : Thread nD τ).loc b)) (c : Dev nD) :
    (dat4 (F := Ideal) V c).arrAt 5 cfg4.N
      = Cert.Hand.Spec.edgeG (V c main_v234) (V c main_v241) (V c main_v248) (V c main_v255) (V c main_v262) :=
  (dat4 V c).arrAt_eq_of_cover 5
    (Cert.Hand.Spec.edgeG (V c main_v234) (V c main_v241) (V c main_v248) (V c main_v255) (V c main_v262))
    (fun t _ => flushed4_5_eq V c t) cover4_rows

end Cert.KernelIdeal.Hand

end
-- ==== Proof.KI.KVals10.lean ====
import proofs.«404712_j21509196219215_4_alg».proof.Proof.KI.KVals9
import proofs.«404712_j21509196219215_4_alg».proof.Proof.KI.EdgeVal4

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable (m : (ℓ : Loc nD τ sig) → Buf (Elt Ideal) ℓ) (ρ : Dev nD → PrngReg) (c : Dev nD)

theorem kb10_v263 : W10 m ρ c (Proc.devRef .tc main_v263)
    = Spec.edgeG (stackX (Pure.tmpTo (Pure.h2 (argsK m c)) (argsK m c).a0 (argsK m c).a1) (Pure.tmpFrom (Pure.h2 (argsK m c)) (argsK m c).a0 (argsK m c).a1))
        (stackW1 (Pure.w35 2 (argsK m c).a6) (Pure.w35 2 (argsK m c).a10)) (stackB (Pure.b16 2 (argsK m c).a7) (Pure.b16 2 (argsK m c).a11))
        (stackW2 (Pure.w16 2 (argsK m c).a8) (Pure.w16 2 (argsK m c).a12)) (stackB (Pure.b16 2 (argsK m c).a9) (Pure.b16 2 (argsK m c).a13)) := by
  refine (W10_arr m ρ c 5).trans ((edge_final4 (V9 m ρ) c).trans ?_)
  rw [show V9 m ρ c main_v234 = W9 m ρ c (Proc.devRef .tc main_v234) from rfl, show V9 m ρ c main_v241 = W9 m ρ c (Proc.devRef .tc main_v241) from rfl,
    show V9 m ρ c main_v248 = W9 m ρ c (Proc.devRef .tc main_v248) from rfl, show V9 m ρ c main_v255 = W9 m ρ c (Proc.devRef .tc main_v255) from rfl,
    show V9 m ρ c main_v262 = W9 m ρ c (Proc.devRef .tc main_v262) from rfl,
    kb9_v234, kb9_v241, kb9_v248, kb9_v255, kb9_v262]

theorem kb10_v1 : W10 m ρ c (Proc.devRef .tc main_v1) = srcOf (argsK m c).a0 :=
  (W10_of_ne m ρ c main_v1 (by decide)).trans (kb9_v1 m ρ c)
theorem kb10_v3 : W10 m ρ c (Proc.devRef .tc main_v3) = dstOf (argsK m c).a0 :=
  (W10_of_ne m ρ c main_v3 (by decide)).trans (kb9_v3 m ρ c)
theorem kb10_v6 : W10 m ρ c (Proc.devRef .tc main_v6) = Pure.maskOf (argsK m c).a0 :=
  (W10_of_ne m ρ c main_v6 (by decide)).trans (kb9_v6 m ρ c)
theorem kb10_v192 : W10 m ρ c (Proc.devRef .tc main_v192) = (Pure.h2 (argsK m c)) :=
  (W10_of_ne m ρ c main_v192 (by decide)).trans (kb9_v192 m ρ c)
theorem kb10_v9 : W10 m ρ c (Proc.devRef .tc main_v9) = Pure.avalOf (argsK m c).a2 :=
  (W10_of_ne m ρ c main_v9 (by decide)).trans (kb9_v9 m ρ c)

theorem kb10_argK : argsOf (W10 m ρ c) = argsK m c := by
  rw [← kb9_argK m ρ c]; unfold argsOf
  rw [W10_of_ne m ρ c main_arg0 (by decide), W10_of_ne m ρ c main_arg1 (by decide), W10_of_ne m ρ c main_arg2 (by decide), W10_of_ne m ρ c main_arg3 (by decide), W10_of_ne m ρ c main_arg5 (by decide), W10_of_ne m ρ c main_arg6 (by decide), W10_of_ne m ρ c main_arg7 (by decide), W10_of_ne m ρ c main_arg8 (by decide), W10_of_ne m ρ c main_arg9 (by decide), W10_of_ne m ρ c main_arg10 (by decide), W10_of_ne m ρ c main_arg11 (by decide), W10_of_ne m ρ c main_arg12 (by decide), W10_of_ne m ρ c main_arg13 (by decide), W10_of_ne m ρ c main_arg14 (by decide), W10_of_ne m ρ c main_arg15 (by decide), W10_of_ne m ρ c main_arg16 (by decide), W10_of_ne m ρ c main_arg17 (by decide), W10_of_ne m ρ c main_arg18 (by decide), W10_of_ne m ρ c main_arg19 (by decide), W10_of_ne m ρ c main_arg20 (by decide), W10_of_ne m ρ c main_arg21 (by decide)]

end Cert.KernelIdeal.Hand

end
-- ==== Proof.KI.KRead5.lean ====
import proofs.«404712_j21509196219215_4_alg».proof.Proof.KI.KVals1

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable {F : FTy → Type} [FloatOps F]

set_option maxHeartbeats 4000000 in
theorem k5_v273 (W : Valuation τ sig (Elt F)) : StableHlo.after hostOps5 W (Proc.devRef .tc main_v273)
    = Pure.scatterRows (W (Proc.devRef .tc main_v3)) (maskedHalf0 (W (Proc.devRef .tc main_v263)) (W (Proc.devRef .tc main_v6))) := by
  after_results_simp3; rfl
set_option maxHeartbeats 4000000 in
theorem k5_v277 (W : Valuation τ sig (Elt F)) : StableHlo.after hostOps5 W (Proc.devRef .tc main_v277)
    = catFP (Pure.scatterRows (W (Proc.devRef .tc main_v1)) (maskedHalf1 (W (Proc.devRef .tc main_v263)) (W (Proc.devRef .tc main_v6)))) (argsOf W).a3 := by
  after_results_simp3; rfl
set_option maxHeartbeats 4000000 in
theorem k5_v279 (W : Valuation τ sig (Elt F)) : StableHlo.after hostOps5 W (Proc.devRef .tc main_v279)
    = Pure.w49 2 (argsOf W).a14 := by
  after_results_simp3; rfl
set_option maxHeartbeats 4000000 in
theorem k5_v281 (W : Valuation τ sig (Elt F)) : StableHlo.after hostOps5 W (Proc.devRef .tc main_v281)
    = Pure.b16 2 (argsOf W).a15 := by
  after_results_simp3; rfl
set_option maxHeartbeats 4000000 in
theorem k5_v283 (W : Valuation τ sig (Elt F)) : StableHlo.after hostOps5 W (Proc.devRef .tc main_v283)
    = Pure.w16 2 (argsOf W).a16 := by
  after_results_simp3; rfl
set_option maxHeartbeats 4000000 in
theorem k5_v285 (W : Valuation τ sig (Elt F)) : StableHlo.after hostOps5 W (Proc.devRef .tc main_v285)
    = Pure.b16 2 (argsOf W).a17 := by
  after_results_simp3; rfl
set_option maxHeartbeats 4000000 in
theorem k5_v287 (W : Valuation τ sig (Elt F)) : StableHlo.after hostOps5 W (Proc.devRef .tc main_v287)
    = Pure.w16 2 (argsOf W).a18 := by
  after_results_simp3; rfl
set_option maxHeartbeats 4000000 in
theorem k5_v289 (W : Valuation τ sig (Elt F)) : StableHlo.after hostOps5 W (Proc.devRef .tc main_v289)
    = Pure.b16 2 (argsOf W).a19 := by
  after_results_simp3; rfl
set_option maxHeartbeats 4000000 in
theorem k5_v291 (W : Valuation τ sig (Elt F)) : StableHlo.after hostOps5 W (Proc.devRef .tc main_v291)
    = Pure.w16x1 2 (argsOf W).a20 := by
  after_results_simp3; rfl
set_option maxHeartbeats 4000000 in
theorem k5_v293 (W : Valuation τ sig (Elt F)) : StableHlo.after hostOps5 W (Proc.devRef .tc main_v293)
    = Pure.b1 2 (argsOf W).a21 := by
  after_results_simp3; rfl

theorem k5_args (W : Valuation τ sig (Elt F)) : argsOf (StableHlo.after hostOps5 W) = argsOf W := by
  unfold argsOf
  rw [kv_keep5 W main_arg0 (by decide), kv_keep5 W main_arg1 (by decide), kv_keep5 W main_arg2 (by decide), kv_keep5 W main_arg3 (by decide), kv_keep5 W main_arg5 (by decide), kv_keep5 W main_arg6 (by decide), kv_keep5 W main_arg7 (by decide), kv_keep5 W main_arg8 (by decide), kv_keep5 W main_arg9 (by decide), kv_keep5 W main_arg10 (by decide), kv_keep5 W main_arg11 (by decide), kv_keep5 W main_arg12 (by decide), kv_keep5 W main_arg13 (by decide), kv_keep5 W main_arg14 (by decide), kv_keep5 W main_arg15 (by decide), kv_keep5 W main_arg16 (by decide), kv_keep5 W main_arg17 (by decide), kv_keep5 W main_arg18 (by decide), kv_keep5 W main_arg19 (by decide), kv_keep5 W main_arg20 (by decide), kv_keep5 W main_arg21 (by decide)]

end Cert.KernelIdeal.Hand

end
-- ==== Proof.KI.KVals11.lean ====
import proofs.«404712_j21509196219215_4_alg».proof.Proof.KI.KVals10
import proofs.«404712_j21509196219215_4_alg».proof.Proof.KI.KRead5
import proofs.«404712_j21509196219215_4_alg».proof.Proof.KI.KGlue

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable (m : (ℓ : Loc nD τ sig) → Buf (Elt Ideal) ℓ) (ρ : Dev nD → PrngReg) (c : Dev nD)

theorem kb11_argK : argsOf (W11 m ρ c) = argsK m c := (k5_args (W10 m ρ c)).trans (kb10_argK m ρ c)

theorem kb11_v273 : W11 m ρ c (Proc.devRef .tc main_v273) = Pure.messTo (argsK m c) 2 (Pure.h2 (argsK m c)) :=
  (k5_v273 (W10 m ρ c)).trans
    (messTo_of (argsK m c) 2 (Pure.h2 (argsK m c)) (W10 m ρ c (Proc.devRef .tc main_v3)) (W10 m ρ c (Proc.devRef .tc main_v263)) (W10 m ρ c (Proc.devRef .tc main_v6))
      (kb10_v3 m ρ c) (kb10_v263 m ρ c) (kb10_v6 m ρ c))

theorem kb11_v277 : W11 m ρ c (Proc.devRef .tc main_v277) = catFP (Pure.messFrom (argsK m c) 2 (Pure.h2 (argsK m c))) (argsK m c).a3 :=
  (k5_v277 (W10 m ρ c)).trans
    (congrArg₂ catFP
      (messFrom_of (argsK m c) 2 (Pure.h2 (argsK m c)) (W10 m ρ c (Proc.devRef .tc main_v1)) (W10 m ρ c (Proc.devRef .tc main_v263)) (W10 m ρ c (Proc.devRef .tc main_v6))
        (kb10_v1 m ρ c) (kb10_v263 m ρ c) (kb10_v6 m ρ c))
      (congrArg Pure.Args.a3 (kb10_argK m ρ c)))

theorem kb11_v279 : W11 m ρ c (Proc.devRef .tc main_v279) = Pure.w49 2 (argsK m c).a14 :=
  (k5_v279 (W10 m ρ c)).trans (congrArg (fun A : Pure.Args Ideal => Pure.w49 2 A.a14) (kb10_argK m ρ c))
theorem kb11_v281 : W11 m ρ c (Proc.devRef .tc main_v281) = Pure.b16 2 (argsK m c).a15 :=
  (k5_v281 (W10 m ρ c)).trans (congrArg (fun A : Pure.Args Ideal => Pure.b16 2 A.a15) (kb10_argK m ρ c))
theorem kb11_v283 : W11 m ρ c (Proc.devRef .tc main_v283) = Pure.w16 2 (argsK m c).a16 :=
  (k5_v283 (W10 m ρ c)).trans (congrArg (fun A : Pure.Args Ideal => Pure.w16 2 A.a16) (kb10_argK m ρ c))
theorem kb11_v285 : W11 m ρ c (Proc.devRef .tc main_v285) = Pure.b16 2 (argsK m c).a17 :=
  (k5_v285 (W10 m ρ c)).trans (congrArg (fun A : Pure.Args Ideal => Pure.b16 2 A.a17) (kb10_argK m ρ c))
theorem kb11_v287 : W11 m ρ c (Proc.devRef .tc main_v287) = Pure.w16 2 (argsK m c).a18 :=
  (k5_v287 (W10 m ρ c)).trans (congrArg (fun A : Pure.Args Ideal => Pure.w16 2 A.a18) (kb10_argK m ρ c))
theorem kb11_v289 : W11 m ρ c (Proc.devRef .tc main_v289) = Pure.b16 2 (argsK m c).a19 :=
  (k5_v289 (W10 m ρ c)).trans (congrArg (fun A : Pure.Args Ideal => Pure.b16 2 A.a19) (kb10_argK m ρ c))
theorem kb11_v291 : W11 m ρ c (Proc.devRef .tc main_v291) = Pure.w16x1 2 (argsK m c).a20 :=
  (k5_v291 (W10 m ρ c)).trans (congrArg (fun A : Pure.Args Ideal => Pure.w16x1 2 A.a20) (kb10_argK m ρ c))
theorem kb11_v293 : W11 m ρ c (Proc.devRef .tc main_v293) = Pure.b1 2 (argsK m c).a21 :=
  (k5_v293 (W10 m ρ c)).trans (congrArg (fun A : Pure.Args Ideal => Pure.b1 2 A.a21) (kb10_argK m ρ c))

theorem kb11_v1 : W11 m ρ c (Proc.devRef .tc main_v1) = srcOf (argsK m c).a0 :=
  (kv_keep5 (W10 m ρ c) main_v1 (by decide)).trans (kb10_v1 m ρ c)
theorem kb11_v3 : W11 m ρ c (Proc.devRef .tc main_v3) = dstOf (argsK m c).a0 :=
  (kv_keep5 (W10 m ρ c) main_v3 (by decide)).trans (kb10_v3 m ρ c)
theorem kb11_v6 : W11 m ρ c (Proc.devRef .tc main_v6) = Pure.maskOf (argsK m c).a0 :=
  (kv_keep5 (W10 m ρ c) main_v6 (by decide)).trans (kb10_v6 m ρ c)
theorem kb11_v192 : W11 m ρ c (Proc.devRef .tc main_v192) = Pure.h2 (argsK m c) :=
  (kv_keep5 (W10 m ρ c) main_v192 (by decide)).trans (kb10_v192 m ρ c)
theorem kb11_v9 : W11 m ρ c (Proc.devRef .tc main_v9) = Pure.avalOf (argsK m c).a2 :=
  (kv_keep5 (W10 m ρ c) main_v9 (by decide)).trans (kb10_v9 m ρ c)

end Cert.KernelIdeal.Hand

end
-- ==== Proof.KI.Carry.lean ====
import proofs.«404712_j21509196219215_4_alg».proof.Proof.KI.Bounds
import proofs.«404712_j21509196219215_4_alg».proof.Proof.KI.Keep

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

theorem carry_1_4 (r : Ref sig .tc) (he : ∀ w, Pipeline.arrRef spec0 w ≠ r) (hh : r ∉ wr1) (hn : ∀ w, Pipeline.arrRef spec1 w ≠ r) :
    W4 m ρ c (Proc.devRef .tc r) = W1 m ρ c (Proc.devRef .tc r) :=
  (W4_of_ne m ρ c r hn).trans ((kv_keep1 (W2 m ρ c) r hh).trans (W2_of_ne m ρ c r he))

theorem carry_5_8 (r : Ref sig .tc) (he : ∀ w, Pipeline.arrRef spec2 w ≠ r) (hh : r ∉ wr3) (hn : ∀ w, Pipeline.arrRef spec3 w ≠ r) :
    W8 m ρ c (Proc.devRef .tc r) = W5 m ρ c (Proc.devRef .tc r) :=
  (W8_of_ne m ρ c r hn).trans ((kv_keep3 (W6 m ρ c) r hh).trans (W6_of_ne m ρ c r he))

theorem carry_9_12 (r : Ref sig .tc) (he : ∀ w, Pipeline.arrRef spec4 w ≠ r) (hh : r ∉ wr5) (hn : ∀ w, Pipeline.arrRef spec5 w ≠ r) :
    W12 m ρ c (Proc.devRef .tc r) = W9 m ρ c (Proc.devRef .tc r) :=
  (W12_of_ne m ρ c r hn).trans ((kv_keep5 (W10 m ρ c) r hh).trans (W10_of_ne m ρ c r he))

end Cert.KernelIdeal.Hand

end
-- ==== Proof.KI.NodeVal5.lean ====
import proofs.«404712_j21509196219215_4_alg».proof.Proof.KI.NodeVal1
import proofs.«404712_j21509196219215_4_alg».proof.Proof.KI.R5
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_11.index t (0 : Fin 2) = t.val ∧ win5_11.index t (1 : Fin 2) = 0 :=
  (by decide +kernel : ∀ t : Fin grid5.N, _)

theorem idx_facts5w : ∀ t : Fin cfg5.N,
    win5_3.index t (0 : Fin 2) = 0 ∧ win5_3.index t (1 : Fin 2) = 0 ∧ win5_4.index t (0 : Fin 1) = 0
    ∧ win5_5.index t (0 : Fin 2) = 0 ∧ win5_5.index t (1 : Fin 2) = 0 ∧ win5_6.index t (0 : Fin 1) = 0
    ∧ win5_7.index t (0 : Fin 2) = 0 ∧ win5_7.index t (1 : Fin 2) = 0 ∧ win5_8.index t (0 : Fin 1) = 0
    ∧ win5_9.index t (0 : Fin 2) = 0 ∧ win5_9.index t (1 : Fin 2) = 0 ∧ win5_10.index t (0 : Fin 1) = 0 :=
  (by decide +kernel : ∀ t : Fin grid5.N, _)

theorem wblk5_3 (c : Dev nD) (t : Fin cfg5.N) : (iblk5 V c 3 t : S49x16.Idx → EReal) = (V c main_v279 : S49x16.Idx → EReal) := by
  obtain ⟨h3a, h3b, h4, h5a, h5b, h6, h7a, h7b, h8, h9a, h9b, h10⟩ := idx_facts5w t
  funext z
  show V c main_v279 (((cfg5.win 3).blk t).view.emb z) = V c main_v279 z
  refine congrArg _ (funext fun a => Fin.ext ?_)
  match a with
    | ⟨0, _⟩ => show win5_3.index t (0 : Fin 2) * 49 + 1 * (z 0).val = (z 0).val; omega
    | ⟨1, _⟩ => show win5_3.index t (1 : Fin 2) * 16 + 1 * (z 1).val = (z 1).val; omega

theorem wblk5_4 (c : Dev nD) (t : Fin cfg5.N) : (iblk5 V c 4 t : S16.Idx → EReal) = (V c main_v281 : S16.Idx → EReal) := by
  obtain ⟨h3a, h3b, h4, h5a, h5b, h6, h7a, h7b, h8, h9a, h9b, h10⟩ := idx_facts5w t
  funext z
  show V c main_v281 (((cfg5.win 4).blk t).view.emb z) = V c main_v281 z
  refine congrArg _ (funext fun a => Fin.ext ?_)
  match a with
    | ⟨0, _⟩ => show win5_4.index t (0 : Fin 1) * 16 + 1 * (z 0).val = (z 0).val; omega

theorem wblk5_5 (c : Dev nD) (t : Fin cfg5.N) : (iblk5 V c 5 t : S16x16.Idx → EReal) = (V c main_v283 : S16x16.Idx → EReal) := by
  obtain ⟨h3a, h3b, h4, h5a, h5b, h6, h7a, h7b, h8, h9a, h9b, h10⟩ := idx_facts5w t
  funext z
  show V c main_v283 (((cfg5.win 5).blk t).view.emb z) = V c main_v283 z
  refine congrArg _ (funext fun a => Fin.ext ?_)
  match a with
    | ⟨0, _⟩ => show win5_5.index t (0 : Fin 2) * 16 + 1 * (z 0).val = (z 0).val; omega
    | ⟨1, _⟩ => show win5_5.index t (1 : Fin 2) * 16 + 1 * (z 1).val = (z 1).val; omega

theorem wblk5_6 (c : Dev nD) (t : Fin cfg5.N) : (iblk5 V c 6 t : S16.Idx → EReal) = (V c main_v285 : S16.Idx → EReal) := by
  obtain ⟨h3a, h3b, h4, h5a, h5b, h6, h7a, h7b, h8, h9a, h9b, h10⟩ := idx_facts5w t
  funext z
  show V c main_v285 (((cfg5.win 6).blk t).view.emb z) = V c main_v285 z
  refine congrArg _ (funext fun a => Fin.ext ?_)
  match a with
    | ⟨0, _⟩ => show win5_6.index t (0 : Fin 1) * 16 + 1 * (z 0).val = (z 0).val; omega

theorem wblk5_7 (c : Dev nD) (t : Fin cfg5.N) : (iblk5 V c 7 t : S16x16.Idx → EReal) = (V c main_v287 : S16x16.Idx → EReal) := by
  obtain ⟨h3a, h3b, h4, h5a, h5b, h6, h7a, h7b, h8, h9a, h9b, h10⟩ := idx_facts5w t
  funext z
  show V c main_v287 (((cfg5.win 7).blk t).view.emb z) = V c main_v287 z
  refine congrArg _ (funext fun a => Fin.ext ?_)
  match a with
    | ⟨0, _⟩ => show win5_7.index t (0 : Fin 2) * 16 + 1 * (z 0).val = (z 0).val; omega
    | ⟨1, _⟩ => show win5_7.index t (1 : Fin 2) * 16 + 1 * (z 1).val = (z 1).val; omega

theorem wblk5_8 (c : Dev nD) (t : Fin cfg5.N) : (iblk5 V c 8 t : S16.Idx → EReal) = (V c main_v289 : S16.Idx → EReal) := by
  obtain ⟨h3a, h3b, h4, h5a, h5b, h6, h7a, h7b, h8, h9a, h9b, h10⟩ := idx_facts5w t
  funext z
  show V c main_v289 (((cfg5.win 8).blk t).view.emb z) = V c main_v289 z
  refine congrArg _ (funext fun a => Fin.ext ?_)
  match a with
    | ⟨0, _⟩ => show win5_8.index t (0 : Fin 1) * 16 + 1 * (z 0).val = (z 0).val; omega

theorem wblk5_9 (c : Dev nD) (t : Fin cfg5.N) : (iblk5 V c 9 t : S16x1.Idx → EReal) = (V c main_v291 : S16x1.Idx → EReal) := by
  obtain ⟨h3a, h3b, h4, h5a, h5b, h6, h7a, h7b, h8, h9a, h9b, h10⟩ := idx_facts5w t
  funext z
  show V c main_v291 (((cfg5.win 9).blk t).view.emb z) = V c main_v291 z
  refine congrArg _ (funext fun a => Fin.ext ?_)
  match a with
    | ⟨0, _⟩ => show win5_9.index t (0 : Fin 2) * 16 + 1 * (z 0).val = (z 0).val; omega
    | ⟨1, _⟩ => show win5_9.index t (1 : Fin 2) * 1 + 1 * (z 1).val = (z 1).val; omega

theorem wblk5_10 (c : Dev nD) (t : Fin cfg5.N) : (iblk5 V c 10 t : S1.Idx → EReal) = (V c main_v293 : S1.Idx → EReal) := by
  obtain ⟨h3a, h3b, h4, h5a, h5b, h6, h7a, h7b, h8, h9a, h9b, h10⟩ := idx_facts5w t
  funext z
  show V c main_v293 (((cfg5.win 10).blk t).view.emb z) = V c main_v293 z
  refine congrArg _ (funext fun a => Fin.ext ?_)
  match a with
    | ⟨0, _⟩ => show win5_10.index t (0 : Fin 1) * 1 + 1 * (z 0).val = (z 0).val; omega

theorem flushed_eq5 (c : Dev nD) (t : Fin cfg5.N) :
    (dat5 (F := Ideal) V c).flushed 11 t = ((cfg5.win 11).blk t).view.read (Elt Ideal)
      (Cert.Hand.Spec.nodeG (V c main_v192) (V c main_v273) (V c main_v277) (V c main_v279) (V c main_v281) (V c main_v283) (V c main_v285) (V c main_v287) (V c main_v289) (V c main_v291) (V c main_v293)) := by
  show (cfg5.win 11).cut (grid5.coords t) ((dat5 V c).after 11 t) = _
  rw [after5_11, out1_11_eq]
  obtain ⟨a0, a1, b0, b1, c0, c1, o0, o1⟩ := idx_facts5 t
  funext y
  refine entry_eq_r1 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
    (V c main_v192) (V c main_v273) (V c main_v277) (V c main_v279) (V c main_v281) (V c main_v283) (V c main_v285) (V c main_v287) (V c main_v289) (V c main_v291) (V c main_v293) y (((cfg5.win 11).blk t).view.emb y) ?_ ?_ ?_ ?_
    (wblk5_3 V c t) (wblk5_4 V c t) (wblk5_5 V c t) (wblk5_6 V c t) (wblk5_7 V c t) (wblk5_8 V c t) (wblk5_9 V c t) (wblk5_10 V c t)
  · show win5_11.index t (1 : Fin 2) * 17 + 1 * (y 1).val = (y 1).val
    omega
  · intro j
    show V c main_v192 (((cfg5.win 0).blk t).view.emb (ix2 (y 0) j)) = V c main_v192 (ix2 ((((cfg5.win 11).blk t).view.emb y) 0) j)
    refine congrArg _ (funext fun a => Fin.ext ?_)
    match a with
    | ⟨0, _⟩ => show win5_0.index t (0 : Fin 2) * 4000 + 1 * (y 0).val = win5_11.index t (0 : Fin 2) * 4000 + 1 * (y 0).val; omega
    | ⟨1, _⟩ => show win5_0.index t (1 : Fin 2) * 16 + 1 * j.val = j.val; omega
  · intro j
    show V c main_v273 (((cfg5.win 1).blk t).view.emb (ix2 (y 0) j)) = V c main_v273 (ix2 ((((cfg5.win 11).blk t).view.emb y) 0) j)
    refine congrArg _ (funext fun a => Fin.ext ?_)
    match a with
    | ⟨0, _⟩ => show win5_1.index t (0 : Fin 2) * 4000 + 1 * (y 0).val = win5_11.index t (0 : Fin 2) * 4000 + 1 * (y 0).val; omega
    | ⟨1, _⟩ => show win5_1.index t (1 : Fin 2) * 16 + 1 * j.val = j.val; omega
  · intro j
    show V c main_v277 (((cfg5.win 2).blk t).view.emb (ix2 (y 0) j)) = V c main_v277 (ix2 ((((cfg5.win 11).blk t).view.emb y) 0) j)
    refine congrArg _ (funext fun a => Fin.ext ?_)
    match a with
    | ⟨0, _⟩ => show win5_2.index t (0 : Fin 2) * 4000 + 1 * (y 0).val = win5_11.index t (0 : Fin 2) * 4000 + 1 * (y 0).val; omega
    | ⟨1, _⟩ => show win5_2.index t (1 : Fin 2) * 17 + 1 * j.val = j.val; omega

theorem mem_blk5 (t : Fin cfg5.N) (i : (⟨2, ![100000, 17]⟩ : Shape).Idx) :
    i ∈ ((cfg5.win 11).blk t).view.set ↔ ∀ a : Fin 2, win5_11.index t a * S4000x17.size a ≤ (i a).val ∧ (i a).val < win5_11.index t a * S4000x17.size a + S4000x17.size a := by
  show i ∈ ((View.whole main_v294).slice (win5_11.rect t)).set ↔ _
  rw [View.set_slice_whole, Rect.mem_set_unit]
  exact Iff.rfl

theorem cover5 (i : (⟨2, ![100000, 17]⟩ : Shape).Idx) :
    ∃ t : Fin cfg5.N, (cfg5.win 11).flush t = true ∧ i ∈ ((cfg5.win 11).blk t).view.set := by
  have hi0 : (i 0).val < 100000 := (i 0).isLt
  have hi1 : (i 1).val < 17 := (i 1).isLt
  have hN : cfg5.N = 25 := rfl
  have ht : (i 0).val / 4000 < cfg5.N := by rw [hN]; omega
  obtain ⟨-, -, -, -, -, -, o0, o1⟩ := idx_facts5 ⟨(i 0).val / 4000, ht⟩
  refine ⟨⟨(i 0).val / 4000, ht⟩, flush5_11 _, ?_⟩
  rw [mem_blk5]
  intro a
  match a with
  | ⟨0, _⟩ =>
    show win5_11.index ⟨(i 0).val / 4000, ht⟩ (0 : Fin 2) * 4000 ≤ (i 0).val ∧ (i 0).val < win5_11.index ⟨(i 0).val / 4000, ht⟩ (0 : Fin 2) * 4000 + 4000
    rw [o0]
    show (i 0).val / 4000 * 4000 ≤ (i 0).val ∧ (i 0).val < (i 0).val / 4000 * 4000 + 4000
    omega
  | ⟨1, _⟩ =>
    show win5_11.index ⟨(i 0).val / 4000, ht⟩ (1 : Fin 2) * 17 ≤ (i 1).val ∧ (i 1).val < win5_11.index ⟨(i 0).val / 4000, ht⟩ (1 : Fin 2) * 17 + 17
    omega

theorem node_final5 (c : Dev nD) :
    (dat5 (F := Ideal) V c).arrAt 11 cfg5.N
      = Cert.Hand.Spec.nodeG (V c main_v192) (V c main_v273) (V c main_v277) (V c main_v279) (V c main_v281) (V c main_v283) (V c main_v285) (V c main_v287) (V c main_v289) (V c main_v291) (V c main_v293) :=
  (dat5 (F := Ideal) V c).arrAt_eq_of_cover 11
    (Cert.Hand.Spec.nodeG (V c main_v192) (V c main_v273) (V c main_v277) (V c main_v279) (V c main_v281) (V c main_v283) (V c main_v285) (V c main_v287) (V c main_v289) (V c main_v291) (V c main_v293))
    (fun t _ => flushed_eq5 V c t) cover5

end Cert.KernelIdeal.Hand

end
-- ==== Proof.KI.KVals12.lean ====
import proofs.«404712_j21509196219215_4_alg».proof.Proof.KI.KVals11
import proofs.«404712_j21509196219215_4_alg».proof.Proof.KI.Carry
import proofs.«404712_j21509196219215_4_alg».proof.Proof.KI.NodeVal5

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Hand Cert.Hand.Bridge

variable (m : (ℓ : Loc nD τ sig) → Buf (Elt Ideal) ℓ) (ρ : Dev nD → PrngReg) (c : Dev nD)

theorem kb12_v294 : W12 m ρ c (Proc.devRef .tc main_v294)
    = Spec.nodeG (Pure.h2 (argsK m c)) (Pure.messTo (argsK m c) 2 (Pure.h2 (argsK m c))) (catFP (Pure.messFrom (argsK m c) 2 (Pure.h2 (argsK m c))) (argsK m c).a3)
        (Pure.w49 2 (argsK m c).a14) (Pure.b16 2 (argsK m c).a15) (Pure.w16 2 (argsK m c).a16) (Pure.b16 2 (argsK m c).a17)
        (Pure.w16 2 (argsK m c).a18) (Pure.b16 2 (argsK m c).a19) (Pure.w16x1 2 (argsK m c).a20) (Pure.b1 2 (argsK m c).a21) := by
  have e7 : V11 m ρ c main_v192 = Pure.h2 (argsK m c) := kb11_v192 m ρ c
  have e67 : V11 m ρ c main_v273 = Pure.messTo (argsK m c) 2 (Pure.h2 (argsK m c)) := kb11_v273 m ρ c
  have e71 : V11 m ρ c main_v277 = catFP (Pure.messFrom (argsK m c) 2 (Pure.h2 (argsK m c))) (argsK m c).a3 := kb11_v277 m ρ c
  have e73 : V11 m ρ c main_v279 = Pure.w49 2 (argsK m c).a14 := kb11_v279 m ρ c
  have e75 : V11 m ρ c main_v281 = Pure.b16 2 (argsK m c).a15 := kb11_v281 m ρ c
  have e77 : V11 m ρ c main_v283 = Pure.w16 2 (argsK m c).a16 := kb11_v283 m ρ c
  have e79 : V11 m ρ c main_v285 = Pure.b16 2 (argsK m c).a17 := kb11_v285 m ρ c
  have e81 : V11 m ρ c main_v287 = Pure.w16 2 (argsK m c).a18 := kb11_v287 m ρ c
  have e83 : V11 m ρ c main_v289 = Pure.b16 2 (argsK m c).a19 := kb11_v289 m ρ c
  have e85 : V11 m ρ c main_v291 = Pure.w16x1 2 (argsK m c).a20 := kb11_v291 m ρ c
  have e87 : V11 m ρ c main_v293 = Pure.b1 2 (argsK m c).a21 := kb11_v293 m ρ c
  exact (W12_arr m ρ c 11).trans ((node_final5 (V11 m ρ) c).trans (nodeG_congr e7 e67 e71 e73 e75 e77 e79 e81 e83 e85 e87))

theorem kb12_v1 : W12 m ρ c (Proc.devRef .tc main_v1) = srcOf (argsK m c).a0 :=
  (W12_of_ne m ρ c main_v1 (by decide)).trans (kb11_v1 m ρ c)
theorem kb12_v3 : W12 m ρ c (Proc.devRef .tc main_v3) = dstOf (argsK m c).a0 :=
  (W12_of_ne m ρ c main_v3 (by decide)).trans (kb11_v3 m ρ c)
theorem kb12_v6 : W12 m ρ c (Proc.devRef .tc main_v6) = Pure.maskOf (argsK m c).a0 :=
  (W12_of_ne m ρ c main_v6 (by decide)).trans (kb11_v6 m ρ c)
theorem kb12_v9 : W12 m ρ c (Proc.devRef .tc main_v9) = Pure.avalOf (argsK m c).a2 :=
  (W12_of_ne m ρ c main_v9 (by decide)).trans (kb11_v9 m ρ c)

theorem kb12_argK : argsOf (W12 m ρ c) = argsK m c :=
  (argsOf_congr (W12 m ρ c) (W11 m ρ c)
    (W12_of_ne m ρ c main_arg0 (by decide))
    (W12_of_ne m ρ c main_arg1 (by decide))
    (W12_of_ne m ρ c main_arg2 (by decide))
    (W12_of_ne m ρ c main_arg3 (by decide))
    (W12_of_ne m ρ c main_arg5 (by decide))
    (W12_of_ne m ρ c main_arg6 (by decide))
    (W12_of_ne m ρ c main_arg7 (by decide))
    (W12_of_ne m ρ c main_arg8 (by decide))
    (W12_of_ne m ρ c main_arg9 (by decide))
    (W12_of_ne m ρ c main_arg10 (by decide))
    (W12_of_ne m ρ c main_arg11 (by decide))
    (W12_of_ne m ρ c main_arg12 (by decide))
    (W12_of_ne m ρ c main_arg13 (by decide))
    (W12_of_ne m ρ c main_arg14 (by decide))
    (W12_of_ne m ρ c main_arg15 (by decide))
    (W12_of_ne m ρ c main_arg16 (by decide))
    (W12_of_ne m ρ c main_arg17 (by decide))
    (W12_of_ne m ρ c main_arg18 (by decide))
    (W12_of_ne m ρ c main_arg19 (by decide))
    (W12_of_ne m ρ c main_arg20 (by decide))
    (W12_of_ne m ρ c main_arg21 (by decide))).trans (kb11_argK m ρ c)

theorem kb12_v215 : W12 m ρ c (Proc.devRef .tc main_v215) = Pure.loss1 (argsK m c) :=
  (carry_9_12 m ρ c main_v215 (by decide) (by decide) (by decide)).trans (kb9_v215 m ρ c)

end Cert.KernelIdeal.Hand

end
-- ==== Proof.KI.KVals13.lean ====
import proofs.«404712_j21509196219215_4_alg».proof.Proof.KI.KRead6
import proofs.«404712_j21509196219215_4_alg».proof.Proof.KI.Bounds
import proofs.«404712_j21509196219215_4_alg».proof.Proof.KI.KVals12

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.Hand.Bridge

theorem argsOf_a5 {F : FTy → Type} [FloatOps F] (W : Valuation τ sig (Elt F)) : (argsOf W).a5 = W (Proc.devRef .tc main_arg5) := rfl

variable (m : (ℓ : Loc nD τ sig) → Buf (Elt Ideal) ℓ) (ρ : Dev nD → PrngReg)

theorem kb12_a5 (c : Dev nD) : W12 m ρ c (Proc.devRef .tc main_arg5) = (argsK m c).a5 :=
  (argsOf_a5 (W12 m ρ c)).symm.trans (congrArg Cert.Hand.Pure.Args.a5 (kb12_argK m ρ c))

theorem node_u2 (c : Dev nD) : uOf (W12 m ρ c (Proc.devRef .tc main_v294)) = Cert.Hand.Pure.u2 (argsK m c) := by
  rw [kb12_v294, node_u]
  rfl

theorem kernel_u (c : Dev nD) : W13 m ρ c (Proc.devRef .tc main_v296) = Cert.Hand.Pure.u2 (argsK m c) := by
  show StableHlo.after hostOps6 (W12 m ρ c) (Proc.devRef .tc main_v296) = _
  rw [k6_v296, node_u2]

theorem kernel_loss (c : Dev nD) : W13 m ρ c (Proc.devRef .tc main_v318) = Cert.Hand.Pure.loss2 (argsK m c) := by
  show StableHlo.after hostOps6 (W12 m ρ c) (Proc.devRef .tc main_v318) = _
  rw [k6_v318, node_u2, kb12_v215, kb12_v1, kb12_v3, kb12_v9, kb12_a5]
  show addf (Cert.Hand.Pure.loss1 (argsK m c))
      (mulf (lossRows (Cert.Hand.Pure.u2 (argsK m c)) (srcOf (argsK m c).a0) (dstOf (argsK m c).a0) (Cert.Hand.Pure.avalOf (argsK m c).a2) (argsK m c).a5)
        (constant (F := Ideal) S_ .f32 0x3F800000#32)) = _
  rw [lossRows_eq]
  rfl

end Cert.KernelIdeal.Hand

end
-- ==== Proof.Ref.RBase.lean ====
import proofs.«404712_j21509196219215_4_alg».proof.Proof.Ref.Run
import proofs.«404712_j21509196219215_4_alg».proof.Proof.Pure
import proofs.«404712_j21509196219215_4_alg».proof.Proof.LibNary3

noncomputable section

namespace Cert.Hand.PureRaw

open Cert.KernelIdeal Idealize.ShloMosaic Cert.KernelIdeal.Hand Cert.Hand.Pure

variable {F : FTy → Type} [FloatOps F] [Cert.KernelIdeal.Facts₀] [Cert.ReferenceIdeal.Facts₀]

def applyRaw (u : Vec F S100000x1 .f32) (src dst : IVec S800000 32) (av : Vec F S800000 .f32) : Vec F S100000x1 .f32 :=
  broadcastInDim S100000x1 ![0] Facts₀.bcast_S100000_S100000x1_0
    (Host.scatterAdd scatter_S100000_S800000x1_S800000_n_0_0_1
      (broadcastInDim S100000 ![] Facts₀.bcast_S_S100000 (constant (F := F) S_ .f32 0x00000000#32))
      (broadcastInDim S800000x1 ![0] Facts₀.bcast_S800000_S800000x1_0 src)
      (mulf av (Host.gather gather_S100000x1_S800000x2_S800000_n_01_n_n_01_1_11 u (pairCol dst))))

def lossRaw (u : Vec F S100000x1 .f32) (src dst : IVec S800000 32) (av : Vec F S800000 .f32) (y : Vec F S100000x1 .f32) : Vec F S_ .f32 :=
  Host.divf
    (Host.reduceAdd (mulf (subf (applyRaw u src dst av) y) (subf (applyRaw u src dst av) y)) (constant (F := F) S_ .f32 0x00000000#32)
      Facts₀.reducesTo_S100000x1_S_d0_1 Facts₀.h_S_)
    (constant (F := F) S_ .f32 0x47C35000#32)

theorem lossRaw_eq (u : Vec F S100000x1 .f32) (ei : IVec S2x800000 32) (aij : Vec F S800000x1 .f32) (y : Vec F S100000x1 .f32) :
    lossRaw u (srcOf ei) (dstOf ei) (avalOf aij) y = lossOf u ei aij y := rfl

end Cert.Hand.PureRaw

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] [Cert.KernelIdeal.Facts₀]

def argsR (m : (ℓ : Loc nD τ sig) → Buf (Elt F) ℓ) (d : Dev nD) : Cert.Hand.Pure.Args F where
  a0 := m ((d.tc : Thread nD τ).loc main_arg0)
  a1 := m ((d.tc : Thread nD τ).loc main_arg1)
  a2 := m ((d.tc : Thread nD τ).loc main_arg2)
  a3 := m ((d.tc : Thread nD τ).loc main_arg3)
  a5 := m ((d.tc : Thread nD τ).loc main_arg5)
  a6 := m ((d.tc : Thread nD τ).loc main_arg6)
  a7 := m ((d.tc : Thread nD τ).loc main_arg7)
  a8 := m ((d.tc : Thread nD τ).loc main_arg8)
  a9 := m ((d.tc : Thread nD τ).loc main_arg9)
  a10 := m ((d.tc : Thread nD τ).loc main_arg10)
  a11 := m ((d.tc : Thread nD τ).loc main_arg11)
  a12 := m ((d.tc : Thread nD τ).loc main_arg12)
  a13 := m ((d.tc : Thread nD τ).loc main_arg13)
  a14 := m ((d.tc : Thread nD τ).loc main_arg14)
  a15 := m ((d.tc : Thread nD τ).loc main_arg15)
  a16 := m ((d.tc : Thread nD τ).loc main_arg16)
  a17 := m ((d.tc : Thread nD τ).loc main_arg17)
  a18 := m ((d.tc : Thread nD τ).loc main_arg18)
  a19 := m ((d.tc : Thread nD τ).loc main_arg19)
  a20 := m ((d.tc : Thread nD τ).loc main_arg20)
  a21 := m ((d.tc : Thread nD τ).loc main_arg21)

structure Kept (V : Valuation τ sig (Elt F)) (A : Cert.Hand.Pure.Args F) : Prop where
  v1 : V (Proc.devRef .tc main_v1) = Cert.KernelIdeal.Hand.srcOf A.a0
  v3 : V (Proc.devRef .tc main_v3) = Cert.KernelIdeal.Hand.dstOf A.a0
  v6 : V (Proc.devRef .tc main_v6) = Cert.Hand.Pure.maskOf A.a0
  v7 : V (Proc.devRef .tc main_v7) = Cert.Hand.Pure.avalOf A.a2
  a1 : V (Proc.devRef .tc main_arg1) = A.a1
  a3 : V (Proc.devRef .tc main_arg3) = A.a3
  a5 : V (Proc.devRef .tc main_arg5) = A.a5
  a6 : V (Proc.devRef .tc main_arg6) = A.a6
  a7 : V (Proc.devRef .tc main_arg7) = A.a7
  a8 : V (Proc.devRef .tc main_arg8) = A.a8
  a9 : V (Proc.devRef .tc main_arg9) = A.a9
  a10 : V (Proc.devRef .tc main_arg10) = A.a10
  a11 : V (Proc.devRef .tc main_arg11) = A.a11
  a12 : V (Proc.devRef .tc main_arg12) = A.a12
  a13 : V (Proc.devRef .tc main_arg13) = A.a13
  a14 : V (Proc.devRef .tc main_arg14) = A.a14
  a15 : V (Proc.devRef .tc main_arg15) = A.a15
  a16 : V (Proc.devRef .tc main_arg16) = A.a16
  a17 : V (Proc.devRef .tc main_arg17) = A.a17
  a18 : V (Proc.devRef .tc main_arg18) = A.a18
  a19 : V (Proc.devRef .tc main_arg19) = A.a19
  a20 : V (Proc.devRef .tc main_arg20) = A.a20
  a21 : V (Proc.devRef .tc main_arg21) = A.a21

abbrev keptRefs : List (Ref sig .tc) :=
  [main_v1, main_v3, main_v6, main_v7, main_arg1, main_arg3, main_arg5, main_arg6, main_arg7, main_arg8, main_arg9, main_arg10, main_arg11, main_arg12, main_arg13, main_arg14, main_arg15, main_arg16, main_arg17, main_arg18, main_arg19, main_arg20, main_arg21]

theorem Kept.step {V : Valuation τ sig (Elt F)} {A : Cert.Hand.Pure.Args F} (h : Kept V A) {W : List (Ref sig .tc)}
    (ops : List (HloOp τ sig (Elt F))) (hW : ops.Forall fun op => op.writes ⊆ (W.map (Proc.devRef (τ := τ) .tc)).toFinset)
    (hn : ∀ r ∈ keptRefs, r ∉ W) : Kept (StableHlo.after ops V) A where
  v1 := (after_of_writes_sub ops V hW (hn main_v1 (by decide))).trans h.v1
  v3 := (after_of_writes_sub ops V hW (hn main_v3 (by decide))).trans h.v3
  v6 := (after_of_writes_sub ops V hW (hn main_v6 (by decide))).trans h.v6
  v7 := (after_of_writes_sub ops V hW (hn main_v7 (by decide))).trans h.v7
  a1 := (after_of_writes_sub ops V hW (hn main_arg1 (by decide))).trans h.a1
  a3 := (after_of_writes_sub ops V hW (hn main_arg3 (by decide))).trans h.a3
  a5 := (after_of_writes_sub ops V hW (hn main_arg5 (by decide))).trans h.a5
  a6 := (after_of_writes_sub ops V hW (hn main_arg6 (by decide))).trans h.a6
  a7 := (after_of_writes_sub ops V hW (hn main_arg7 (by decide))).trans h.a7
  a8 := (after_of_writes_sub ops V hW (hn main_arg8 (by decide))).trans h.a8
  a9 := (after_of_writes_sub ops V hW (hn main_arg9 (by decide))).trans h.a9
  a10 := (after_of_writes_sub ops V hW (hn main_arg10 (by decide))).trans h.a10
  a11 := (after_of_writes_sub ops V hW (hn main_arg11 (by decide))).trans h.a11
  a12 := (after_of_writes_sub ops V hW (hn main_arg12 (by decide))).trans h.a12
  a13 := (after_of_writes_sub ops V hW (hn main_arg13 (by decide))).trans h.a13
  a14 := (after_of_writes_sub ops V hW (hn main_arg14 (by decide))).trans h.a14
  a15 := (after_of_writes_sub ops V hW (hn main_arg15 (by decide))).trans h.a15
  a16 := (after_of_writes_sub ops V hW (hn main_arg16 (by decide))).trans h.a16
  a17 := (after_of_writes_sub ops V hW (hn main_arg17 (by decide))).trans h.a17
  a18 := (after_of_writes_sub ops V hW (hn main_arg18 (by decide))).trans h.a18
  a19 := (after_of_writes_sub ops V hW (hn main_arg19 (by decide))).trans h.a19
  a20 := (after_of_writes_sub ops V hW (hn main_arg20 (by decide))).trans h.a20
  a21 := (after_of_writes_sub ops V hW (hn main_arg21 (by decide))).trans h.a21

set_option maxHeartbeats 4000000 in
set_option maxRecDepth 16384 in
theorem r0_v1 (U : Valuation τ sig (Elt F)) :
    StableHlo.after opsR0 U (Proc.devRef .tc main_v1) = Cert.KernelIdeal.Hand.srcOf (U (Proc.devRef .tc main_arg0)) := by
  after_results_simp3
  rfl

set_option maxHeartbeats 4000000 in
set_option maxRecDepth 16384 in
theorem r0_v3 (U : Valuation τ sig (Elt F)) :
    StableHlo.after opsR0 U (Proc.devRef .tc main_v3) = Cert.KernelIdeal.Hand.dstOf (U (Proc.devRef .tc main_arg0)) := by
  after_results_simp3
  rfl

set_option maxHeartbeats 4000000 in
set_option maxRecDepth 16384 in
theorem r0_v6 (U : Valuation τ sig (Elt F)) :
    StableHlo.after opsR0 U (Proc.devRef .tc main_v6) = Cert.Hand.Pure.maskOf (U (Proc.devRef .tc main_arg0)) := by
  after_results_simp3
  rfl

set_option maxHeartbeats 4000000 in
set_option maxRecDepth 16384 in
theorem r0_v7 (U : Valuation τ sig (Elt F)) :
    StableHlo.after opsR0 U (Proc.devRef .tc main_v7) = Cert.Hand.Pure.avalOf (U (Proc.devRef .tc main_arg2)) := by
  after_results_simp3
  rfl

set_option maxHeartbeats 4000000 in
set_option maxRecDepth 16384 in
theorem r0_v8 (U : Valuation τ sig (Elt F)) :
    StableHlo.after opsR0 U (Proc.devRef .tc main_v8) = Cert.KernelIdeal.Hand.zeroState (F := F) := by
  after_results_simp3
  rfl

variable (m : (ℓ : Loc nD τ sig) → Buf (Elt F) ℓ) (d : Dev nD)

theorem kept1 : Kept (U1 m d) (argsR m d) where
  v1 := r0_v1 (U0 m d)
  v3 := r0_v3 (U0 m d)
  v6 := r0_v6 (U0 m d)
  v7 := r0_v7 (U0 m d)
  a1 := U1_keep m d main_arg1 (by decide)
  a3 := U1_keep m d main_arg3 (by decide)
  a5 := U1_keep m d main_arg5 (by decide)
  a6 := U1_keep m d main_arg6 (by decide)
  a7 := U1_keep m d main_arg7 (by decide)
  a8 := U1_keep m d main_arg8 (by decide)
  a9 := U1_keep m d main_arg9 (by decide)
  a10 := U1_keep m d main_arg10 (by decide)
  a11 := U1_keep m d main_arg11 (by decide)
  a12 := U1_keep m d main_arg12 (by decide)
  a13 := U1_keep m d main_arg13 (by decide)
  a14 := U1_keep m d main_arg14 (by decide)
  a15 := U1_keep m d main_arg15 (by decide)
  a16 := U1_keep m d main_arg16 (by decide)
  a17 := U1_keep m d main_arg17 (by decide)
  a18 := U1_keep m d main_arg18 (by decide)
  a19 := U1_keep m d main_arg19 (by decide)
  a20 := U1_keep m d main_arg20 (by decide)
  a21 := U1_keep m d main_arg21 (by decide)

theorem U1_v8 : U1 m d (Proc.devRef .tc main_v8) = Cert.KernelIdeal.Hand.zeroState (F := F) := r0_v8 (U0 m d)

end Cert.ReferenceIdeal.Hand

end
-- ==== Proof.Ref.RIter0.lean ====
import proofs.«404712_j21509196219215_4_alg».proof.Proof.Ref.RBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] [Cert.KernelIdeal.Facts₀]

set_option maxHeartbeats 4000000 in
set_option maxRecDepth 16384 in
theorem rTo0 (U : Valuation τ sig (Elt F)) :
    StableHlo.after opsR1 U (Proc.devRef .tc main_v62)
      = Cert.Hand.Pure.scatterRows (U (Proc.devRef .tc main_v3))
          (Cert.Hand.Bridge.refMsg
            (Cert.KernelIdeal.Hand.edgeIn
              (Cert.KernelIdeal.Hand.gatherRows (U (Proc.devRef .tc main_v8)) (Cert.KernelIdeal.Hand.wrapCol (U (Proc.devRef .tc main_v3))))
              (Cert.KernelIdeal.Hand.gatherRows (U (Proc.devRef .tc main_v8)) (Cert.KernelIdeal.Hand.wrapCol (U (Proc.devRef .tc main_v1))))
              (U (Proc.devRef .tc main_arg1)))
            (Cert.Hand.Pure.w35 0 (U (Proc.devRef .tc main_arg6))) (Cert.Hand.Pure.b16 0 (U (Proc.devRef .tc main_arg7)))
            (Cert.Hand.Pure.w16 0 (U (Proc.devRef .tc main_arg8))) (Cert.Hand.Pure.b16 0 (U (Proc.devRef .tc main_arg9)))
            (U (Proc.devRef .tc main_v6))) := by
  after_results_simp3
  rfl

set_option maxHeartbeats 4000000 in
set_option maxRecDepth 16384 in
theorem rFrom0 (U : Valuation τ sig (Elt F)) :
    StableHlo.after opsR2 U (Proc.devRef .tc main_v99)
      = Cert.Hand.Pure.scatterRows (U (Proc.devRef .tc main_v1))
          (Cert.Hand.Bridge.refMsg
            (Cert.KernelIdeal.Hand.edgeIn
              (Cert.KernelIdeal.Hand.gatherRows (U (Proc.devRef .tc main_v8)) (Cert.KernelIdeal.Hand.wrapCol (U (Proc.devRef .tc main_v1))))
              (Cert.KernelIdeal.Hand.gatherRows (U (Proc.devRef .tc main_v8)) (Cert.KernelIdeal.Hand.wrapCol (U (Proc.devRef .tc main_v3))))
              (U (Proc.devRef .tc main_arg1)))
            (Cert.Hand.Pure.w35 0 (U (Proc.devRef .tc main_arg10))) (Cert.Hand.Pure.b16 0 (U (Proc.devRef .tc main_arg11)))
            (Cert.Hand.Pure.w16 0 (U (Proc.devRef .tc main_arg12))) (Cert.Hand.Pure.b16 0 (U (Proc.devRef .tc main_arg13)))
            (U (Proc.devRef .tc main_v6))) := by
  after_results_simp3
  rfl

set_option maxHeartbeats 4000000 in
set_option maxRecDepth 16384 in
theorem rH0 (U : Valuation τ sig (Elt F)) :
    StableHlo.after opsR3 U (Proc.devRef .tc main_v120)
      = Cert.Hand.Bridge.refH (U (Proc.devRef .tc main_v8)) (U (Proc.devRef .tc main_v62)) (U (Proc.devRef .tc main_v99)) (U (Proc.devRef .tc main_arg3))
          (Cert.Hand.Pure.w49 0 (U (Proc.devRef .tc main_arg14))) (Cert.Hand.Pure.b16 0 (U (Proc.devRef .tc main_arg15)))
          (Cert.Hand.Pure.w16 0 (U (Proc.devRef .tc main_arg16))) (Cert.Hand.Pure.b16 0 (U (Proc.devRef .tc main_arg17))) := by
  after_results_simp3
  rfl

set_option maxHeartbeats 4000000 in
set_option maxRecDepth 16384 in
theorem rU0 (U : Valuation τ sig (Elt F)) :
    StableHlo.after opsR3 U (Proc.devRef .tc main_v137)
      = Cert.Hand.Bridge.refU
          (Cert.Hand.Bridge.refH (U (Proc.devRef .tc main_v8)) (U (Proc.devRef .tc main_v62)) (U (Proc.devRef .tc main_v99)) (U (Proc.devRef .tc main_arg3))
            (Cert.Hand.Pure.w49 0 (U (Proc.devRef .tc main_arg14))) (Cert.Hand.Pure.b16 0 (U (Proc.devRef .tc main_arg15)))
            (Cert.Hand.Pure.w16 0 (U (Proc.devRef .tc main_arg16))) (Cert.Hand.Pure.b16 0 (U (Proc.devRef .tc main_arg17))))
          (Cert.Hand.Pure.w16 0 (U (Proc.devRef .tc main_arg18))) (Cert.Hand.Pure.b16 0 (U (Proc.devRef .tc main_arg19)))
          (Cert.Hand.Pure.w16x1 0 (U (Proc.devRef .tc main_arg20))) (Cert.Hand.Pure.b1 0 (U (Proc.devRef .tc main_arg21))) := by
  after_results_simp3
  rfl

variable {V : Valuation τ sig (Elt F)} {A : Cert.Hand.Pure.Args F}

theorem stepTo0 (hK : Kept V A) {h : Vec F S100000x16 .f32} (hS : V (Proc.devRef .tc main_v8) = h) :
    StableHlo.after opsR1 V (Proc.devRef .tc main_v62) = Cert.Hand.Pure.messTo A 0 h := by
  rw [rTo0, hK.v3, hK.v1, hK.v6, hK.a1, hK.a6, hK.a7, hK.a8, hK.a9, hS]
  rfl

theorem stepFrom0 (hK : Kept V A) {h : Vec F S100000x16 .f32} (hS : V (Proc.devRef .tc main_v8) = h) :
    StableHlo.after opsR2 V (Proc.devRef .tc main_v99) = Cert.Hand.Pure.messFrom A 0 h := by
  rw [rFrom0, hK.v3, hK.v1, hK.v6, hK.a1, hK.a10, hK.a11, hK.a12, hK.a13, hS]
  rfl

theorem stepH0 (hK : Kept V A) {h : Vec F S100000x16 .f32} (hS : V (Proc.devRef .tc main_v8) = h)
    (hT : V (Proc.devRef .tc main_v62) = Cert.Hand.Pure.messTo A 0 h) (hF : V (Proc.devRef .tc main_v99) = Cert.Hand.Pure.messFrom A 0 h) :
    StableHlo.after opsR3 V (Proc.devRef .tc main_v120) = Cert.Hand.Pure.hStep A 0 h := by
  rw [rH0, hS, hT, hF, hK.a3, hK.a14, hK.a15, hK.a16, hK.a17]
  rfl

theorem stepU0 (hK : Kept V A) {h : Vec F S100000x16 .f32} (hS : V (Proc.devRef .tc main_v8) = h)
    (hT : V (Proc.devRef .tc main_v62) = Cert.Hand.Pure.messTo A 0 h) (hF : V (Proc.devRef .tc main_v99) = Cert.Hand.Pure.messFrom A 0 h) :
    StableHlo.after opsR3 V (Proc.devRef .tc main_v137) = Cert.Hand.Pure.uStep A 0 h := by
  rw [rU0, hS, hT, hF, hK.a3, hK.a14, hK.a15, hK.a16, hK.a17, hK.a18, hK.a19, hK.a20, hK.a21]
  rfl

end Cert.ReferenceIdeal.Hand

end
-- ==== Proof.Ref.RIter1.lean ====
import proofs.«404712_j21509196219215_4_alg».proof.Proof.Ref.RBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] [Cert.KernelIdeal.Facts₀]

set_option maxHeartbeats 4000000 in
set_option maxRecDepth 16384 in
theorem rTo1 (U : Valuation τ sig (Elt F)) :
    StableHlo.after opsR5 U (Proc.devRef .tc main_v196)
      = Cert.Hand.Pure.scatterRows (U (Proc.devRef .tc main_v3))
          (Cert.Hand.Bridge.refMsg
            (Cert.KernelIdeal.Hand.edgeIn
              (Cert.KernelIdeal.Hand.gatherRows (U (Proc.devRef .tc main_v120)) (Cert.KernelIdeal.Hand.wrapCol (U (Proc.devRef .tc main_v3))))
              (Cert.KernelIdeal.Hand.gatherRows (U (Proc.devRef .tc main_v120)) (Cert.KernelIdeal.Hand.wrapCol (U (Proc.devRef .tc main_v1))))
              (U (Proc.devRef .tc main_arg1)))
            (Cert.Hand.Pure.w35 1 (U (Proc.devRef .tc main_arg6))) (Cert.Hand.Pure.b16 1 (U (Proc.devRef .tc main_arg7)))
            (Cert.Hand.Pure.w16 1 (U (Proc.devRef .tc main_arg8))) (Cert.Hand.Pure.b16 1 (U (Proc.devRef .tc main_arg9)))
            (U (Proc.devRef .tc main_v6))) := by
  after_results_simp3
  rfl

set_option maxHeartbeats 4000000 in
set_option maxRecDepth 16384 in
theorem rFrom1 (U : Valuation τ sig (Elt F)) :
    StableHlo.after opsR6 U (Proc.devRef .tc main_v233)
      = Cert.Hand.Pure.scatterRows (U (Proc.devRef .tc main_v1))
          (Cert.Hand.Bridge.refMsg
            (Cert.KernelIdeal.Hand.edgeIn
              (Cert.KernelIdeal.Hand.gatherRows (U (Proc.devRef .tc main_v120)) (Cert.KernelIdeal.Hand.wrapCol (U (Proc.devRef .tc main_v1))))
              (Cert.KernelIdeal.Hand.gatherRows (U (Proc.devRef .tc main_v120)) (Cert.KernelIdeal.Hand.wrapCol (U (Proc.devRef .tc main_v3))))
              (U (Proc.devRef .tc main_arg1)))
            (Cert.Hand.Pure.w35 1 (U (Proc.devRef .tc main_arg10))) (Cert.Hand.Pure.b16 1 (U (Proc.devRef .tc main_arg11)))
            (Cert.Hand.Pure.w16 1 (U (Proc.devRef .tc main_arg12))) (Cert.Hand.Pure.b16 1 (U (Proc.devRef .tc main_arg13)))
            (U (Proc.devRef .tc main_v6))) := by
  after_results_simp3
  rfl

set_option maxHeartbeats 4000000 in
set_option maxRecDepth 16384 in
theorem rH1 (U : Valuation τ sig (Elt F)) :
    StableHlo.after opsR7 U (Proc.devRef .tc main_v254)
      = Cert.Hand.Bridge.refH (U (Proc.devRef .tc main_v120)) (U (Proc.devRef .tc main_v196)) (U (Proc.devRef .tc main_v233)) (U (Proc.devRef .tc main_arg3))
          (Cert.Hand.Pure.w49 1 (U (Proc.devRef .tc main_arg14))) (Cert.Hand.Pure.b16 1 (U (Proc.devRef .tc main_arg15)))
          (Cert.Hand.Pure.w16 1 (U (Proc.devRef .tc main_arg16))) (Cert.Hand.Pure.b16 1 (U (Proc.devRef .tc main_arg17))) := by
  after_results_simp3
  rfl

set_option maxHeartbeats 4000000 in
set_option maxRecDepth 16384 in
theorem rU1 (U : Valuation τ sig (Elt F)) :
    StableHlo.after opsR7 U (Proc.devRef .tc main_v271)
      = Cert.Hand.Bridge.refU
          (Cert.Hand.Bridge.refH (U (Proc.devRef .tc main_v120)) (U (Proc.devRef .tc main_v196)) (U (Proc.devRef .tc main_v233)) (U (Proc.devRef .tc main_arg3))
            (Cert.Hand.Pure.w49 1 (U (Proc.devRef .tc main_arg14))) (Cert.Hand.Pure.b16 1 (U (Proc.devRef .tc main_arg15)))
            (Cert.Hand.Pure.w16 1 (U (Proc.devRef .tc main_arg16))) (Cert.Hand.Pure.b16 1 (U (Proc.devRef .tc main_arg17))))
          (Cert.Hand.Pure.w16 1 (U (Proc.devRef .tc main_arg18))) (Cert.Hand.Pure.b16 1 (U (Proc.devRef .tc main_arg19)))
          (Cert.Hand.Pure.w16x1 1 (U (Proc.devRef .tc main_arg20))) (Cert.Hand.Pure.b1 1 (U (Proc.devRef .tc main_arg21))) := by
  after_results_simp3
  rfl

variable {V : Valuation τ sig (Elt F)} {A : Cert.Hand.Pure.Args F}

theorem stepTo1 (hK : Kept V A) {h : Vec F S100000x16 .f32} (hS : V (Proc.devRef .tc main_v120) = h) :
    StableHlo.after opsR5 V (Proc.devRef .tc main_v196) = Cert.Hand.Pure.messTo A 1 h := by
  rw [rTo1, hK.v3, hK.v1, hK.v6, hK.a1, hK.a6, hK.a7, hK.a8, hK.a9, hS]
  rfl

theorem stepFrom1 (hK : Kept V A) {h : Vec F S100000x16 .f32} (hS : V (Proc.devRef .tc main_v120) = h) :
    StableHlo.after opsR6 V (Proc.devRef .tc main_v233) = Cert.Hand.Pure.messFrom A 1 h := by
  rw [rFrom1, hK.v3, hK.v1, hK.v6, hK.a1, hK.a10, hK.a11, hK.a12, hK.a13, hS]
  rfl

theorem stepH1 (hK : Kept V A) {h : Vec F S100000x16 .f32} (hS : V (Proc.devRef .tc main_v120) = h)
    (hT : V (Proc.devRef .tc main_v196) = Cert.Hand.Pure.messTo A 1 h) (hF : V (Proc.devRef .tc main_v233) = Cert.Hand.Pure.messFrom A 1 h) :
    StableHlo.after opsR7 V (Proc.devRef .tc main_v254) = Cert.Hand.Pure.hStep A 1 h := by
  rw [rH1, hS, hT, hF, hK.a3, hK.a14, hK.a15, hK.a16, hK.a17]
  rfl

theorem stepU1 (hK : Kept V A) {h : Vec F S100000x16 .f32} (hS : V (Proc.devRef .tc main_v120) = h)
    (hT : V (Proc.devRef .tc main_v196) = Cert.Hand.Pure.messTo A 1 h) (hF : V (Proc.devRef .tc main_v233) = Cert.Hand.Pure.messFrom A 1 h) :
    StableHlo.after opsR7 V (Proc.devRef .tc main_v271) = Cert.Hand.Pure.uStep A 1 h := by
  rw [rU1, hS, hT, hF, hK.a3, hK.a14, hK.a15, hK.a16, hK.a17, hK.a18, hK.a19, hK.a20, hK.a21]
  rfl

end Cert.ReferenceIdeal.Hand

end
-- ==== Proof.Ref.RIter2.lean ====
import proofs.«404712_j21509196219215_4_alg».proof.Proof.Ref.RBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] [Cert.KernelIdeal.Facts₀]

set_option maxHeartbeats 4000000 in
set_option maxRecDepth 16384 in
theorem rTo2 (U : Valuation τ sig (Elt F)) :
    StableHlo.after opsR9 U (Proc.devRef .tc main_v330)
      = Cert.Hand.Pure.scatterRows (U (Proc.devRef .tc main_v3))
          (Cert.Hand.Bridge.refMsg
            (Cert.KernelIdeal.Hand.edgeIn
              (Cert.KernelIdeal.Hand.gatherRows (U (Proc.devRef .tc main_v254)) (Cert.KernelIdeal.Hand.wrapCol (U (Proc.devRef .tc main_v3))))
              (Cert.KernelIdeal.Hand.gatherRows (U (Proc.devRef .tc main_v254)) (Cert.KernelIdeal.Hand.wrapCol (U (Proc.devRef .tc main_v1))))
              (U (Proc.devRef .tc main_arg1)))
            (Cert.Hand.Pure.w35 2 (U (Proc.devRef .tc main_arg6))) (Cert.Hand.Pure.b16 2 (U (Proc.devRef .tc main_arg7)))
            (Cert.Hand.Pure.w16 2 (U (Proc.devRef .tc main_arg8))) (Cert.Hand.Pure.b16 2 (U (Proc.devRef .tc main_arg9)))
            (U (Proc.devRef .tc main_v6))) := by
  after_results_simp3
  rfl

set_option maxHeartbeats 4000000 in
set_option maxRecDepth 16384 in
theorem rFrom2 (U : Valuation τ sig (Elt F)) :
    StableHlo.after opsR10 U (Proc.devRef .tc main_v367)
      = Cert.Hand.Pure.scatterRows (U (Proc.devRef .tc main_v1))
          (Cert.Hand.Bridge.refMsg
            (Cert.KernelIdeal.Hand.edgeIn
              (Cert.KernelIdeal.Hand.gatherRows (U (Proc.devRef .tc main_v254)) (Cert.KernelIdeal.Hand.wrapCol (U (Proc.devRef .tc main_v1))))
              (Cert.KernelIdeal.Hand.gatherRows (U (Proc.devRef .tc main_v254)) (Cert.KernelIdeal.Hand.wrapCol (U (Proc.devRef .tc main_v3))))
              (U (Proc.devRef .tc main_arg1)))
            (Cert.Hand.Pure.w35 2 (U (Proc.devRef .tc main_arg10))) (Cert.Hand.Pure.b16 2 (U (Proc.devRef .tc main_arg11)))
            (Cert.Hand.Pure.w16 2 (U (Proc.devRef .tc main_arg12))) (Cert.Hand.Pure.b16 2 (U (Proc.devRef .tc main_arg13)))
            (U (Proc.devRef .tc main_v6))) := by
  after_results_simp3
  rfl

set_option maxHeartbeats 4000000 in
set_option maxRecDepth 16384 in
theorem rH2 (U : Valuation τ sig (Elt F)) :
    StableHlo.after opsR11 U (Proc.devRef .tc main_v388)
      = Cert.Hand.Bridge.refH (U (Proc.devRef .tc main_v254)) (U (Proc.devRef .tc main_v330)) (U (Proc.devRef .tc main_v367)) (U (Proc.devRef .tc main_arg3))
          (Cert.Hand.Pure.w49 2 (U (Proc.devRef .tc main_arg14))) (Cert.Hand.Pure.b16 2 (U (Proc.devRef .tc main_arg15)))
          (Cert.Hand.Pure.w16 2 (U (Proc.devRef .tc main_arg16))) (Cert.Hand.Pure.b16 2 (U (Proc.devRef .tc main_arg17))) := by
  after_results_simp3
  rfl

set_option maxHeartbeats 4000000 in
set_option maxRecDepth 16384 in
theorem rU2 (U : Valuation τ sig (Elt F)) :
    StableHlo.after opsR11 U (Proc.devRef .tc main_v405)
      = Cert.Hand.Bridge.refU
          (Cert.Hand.Bridge.refH (U (Proc.devRef .tc main_v254)) (U (Proc.devRef .tc main_v330)) (U (Proc.devRef .tc main_v367)) (U (Proc.devRef .tc main_arg3))
            (Cert.Hand.Pure.w49 2 (U (Proc.devRef .tc main_arg14))) (Cert.Hand.Pure.b16 2 (U (Proc.devRef .tc main_arg15)))
            (Cert.Hand.Pure.w16 2 (U (Proc.devRef .tc main_arg16))) (Cert.Hand.Pure.b16 2 (U (Proc.devRef .tc main_arg17))))
          (Cert.Hand.Pure.w16 2 (U (Proc.devRef .tc main_arg18))) (Cert.Hand.Pure.b16 2 (U (Proc.devRef .tc main_arg19)))
          (Cert.Hand.Pure.w16x1 2 (U (Proc.devRef .tc main_arg20))) (Cert.Hand.Pure.b1 2 (U (Proc.devRef .tc main_arg21))) := by
  after_results_simp3
  rfl

variable {V : Valuation τ sig (Elt F)} {A : Cert.Hand.Pure.Args F}

theorem stepTo2 (hK : Kept V A) {h : Vec F S100000x16 .f32} (hS : V (Proc.devRef .tc main_v254) = h) :
    StableHlo.after opsR9 V (Proc.devRef .tc main_v330) = Cert.Hand.Pure.messTo A 2 h := by
  rw [rTo2, hK.v3, hK.v1, hK.v6, hK.a1, hK.a6, hK.a7, hK.a8, hK.a9, hS]
  rfl

theorem stepFrom2 (hK : Kept V A) {h : Vec F S100000x16 .f32} (hS : V (Proc.devRef .tc main_v254) = h) :
    StableHlo.after opsR10 V (Proc.devRef .tc main_v367) = Cert.Hand.Pure.messFrom A 2 h := by
  rw [rFrom2, hK.v3, hK.v1, hK.v6, hK.a1, hK.a10, hK.a11, hK.a12, hK.a13, hS]
  rfl

theorem stepH2 (hK : Kept V A) {h : Vec F S100000x16 .f32} (hS : V (Proc.devRef .tc main_v254) = h)
    (hT : V (Proc.devRef .tc main_v330) = Cert.Hand.Pure.messTo A 2 h) (hF : V (Proc.devRef .tc main_v367) = Cert.Hand.Pure.messFrom A 2 h) :
    StableHlo.after opsR11 V (Proc.devRef .tc main_v388) = Cert.Hand.Pure.hStep A 2 h := by
  rw [rH2, hS, hT, hF, hK.a3, hK.a14, hK.a15, hK.a16, hK.a17]
  rfl

theorem stepU2 (hK : Kept V A) {h : Vec F S100000x16 .f32} (hS : V (Proc.devRef .tc main_v254) = h)
    (hT : V (Proc.devRef .tc main_v330) = Cert.Hand.Pure.messTo A 2 h) (hF : V (Proc.devRef .tc main_v367) = Cert.Hand.Pure.messFrom A 2 h) :
    StableHlo.after opsR11 V (Proc.devRef .tc main_v405) = Cert.Hand.Pure.uStep A 2 h := by
  rw [rU2, hS, hT, hF, hK.a3, hK.a14, hK.a15, hK.a16, hK.a17, hK.a18, hK.a19, hK.a20, hK.a21]
  rfl

end Cert.ReferenceIdeal.Hand

end
-- ==== Proof.Ref.RLoss.lean ====
import proofs.«404712_j21509196219215_4_alg».proof.Proof.Ref.RBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] [Cert.KernelIdeal.Facts₀]

set_option maxHeartbeats 4000000 in
set_option maxRecDepth 16384 in
theorem rLoss0 (U : Valuation τ sig (Elt F)) :
    StableHlo.after opsR4 U (Proc.devRef .tc main_v159)
      = addf (constant (F := F) S_ .f32 0x00000000#32)
          (mulf (Cert.Hand.PureRaw.lossRaw (U (Proc.devRef .tc main_v137)) (U (Proc.devRef .tc main_v1)) (U (Proc.devRef .tc main_v3)) (U (Proc.devRef .tc main_v7)) (U (Proc.devRef .tc main_arg5)))
            (constant (F := F) S_ .f32 0x3F4F5C29#32)) := by
  after_results_simp3
  rfl

set_option maxHeartbeats 4000000 in
set_option maxRecDepth 16384 in
theorem rLoss1 (U : Valuation τ sig (Elt F)) :
    StableHlo.after opsR8 U (Proc.devRef .tc main_v293)
      = addf (U (Proc.devRef .tc main_v159))
          (mulf (Cert.Hand.PureRaw.lossRaw (U (Proc.devRef .tc main_v271)) (U (Proc.devRef .tc main_v1)) (U (Proc.devRef .tc main_v3)) (U (Proc.devRef .tc main_v7)) (U (Proc.devRef .tc main_arg5)))
            (constant (F := F) S_ .f32 0x3F666666#32)) := by
  after_results_simp3
  rfl

set_option maxHeartbeats 4000000 in
set_option maxRecDepth 16384 in
theorem rLoss2 (U : Valuation τ sig (Elt F)) :
    StableHlo.after opsR12 U (Proc.devRef .tc main_v427)
      = addf (U (Proc.devRef .tc main_v293))
          (mulf (Cert.Hand.PureRaw.lossRaw (U (Proc.devRef .tc main_v405)) (U (Proc.devRef .tc main_v1)) (U (Proc.devRef .tc main_v3)) (U (Proc.devRef .tc main_v7)) (U (Proc.devRef .tc main_arg5)))
            (constant (F := F) S_ .f32 0x3F800000#32)) := by
  after_results_simp3
  rfl

variable {V : Valuation τ sig (Elt F)} {A : Cert.Hand.Pure.Args F}

theorem stepLoss0 (hK : Kept V A) {u : Vec F S100000x1 .f32} (hU : V (Proc.devRef .tc main_v137) = u) :
    StableHlo.after opsR4 V (Proc.devRef .tc main_v159)
      = addf (constant (F := F) S_ .f32 0x00000000#32) (mulf (Cert.Hand.Pure.lossOf u A.a0 A.a2 A.a5) (constant (F := F) S_ .f32 0x3F4F5C29#32)) := by
  rw [rLoss0, hU, hK.v1, hK.v3, hK.v7, hK.a5, Cert.Hand.PureRaw.lossRaw_eq]

theorem stepLoss1 (hK : Kept V A) {u : Vec F S100000x1 .f32} (hU : V (Proc.devRef .tc main_v271) = u)
    {L : Vec F S_ .f32} (hL : V (Proc.devRef .tc main_v159) = L) :
    StableHlo.after opsR8 V (Proc.devRef .tc main_v293)
      = addf L (mulf (Cert.Hand.Pure.lossOf u A.a0 A.a2 A.a5) (constant (F := F) S_ .f32 0x3F666666#32)) := by
  rw [rLoss1, hU, hL, hK.v1, hK.v3, hK.v7, hK.a5, Cert.Hand.PureRaw.lossRaw_eq]

theorem stepLoss2 (hK : Kept V A) {u : Vec F S100000x1 .f32} (hU : V (Proc.devRef .tc main_v405) = u)
    {L : Vec F S_ .f32} (hL : V (Proc.devRef .tc main_v293) = L) :
    StableHlo.after opsR12 V (Proc.devRef .tc main_v427)
      = addf L (mulf (Cert.Hand.Pure.lossOf u A.a0 A.a2 A.a5) (constant (F := F) S_ .f32 0x3F800000#32)) := by
  rw [rLoss2, hU, hL, hK.v1, hK.v3, hK.v7, hK.a5, Cert.Hand.PureRaw.lossRaw_eq]

end Cert.ReferenceIdeal.Hand

end
-- ==== Proof.Ref.RVals13.lean ====
import proofs.«404712_j21509196219215_4_alg».proof.Proof.Ref.RIter0
import proofs.«404712_j21509196219215_4_alg».proof.Proof.Ref.RIter1
import proofs.«404712_j21509196219215_4_alg».proof.Proof.Ref.RIter2
import proofs.«404712_j21509196219215_4_alg».proof.Proof.Ref.RLoss

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] [Cert.KernelIdeal.Facts₀]

variable (m : (ℓ : Loc nD τ sig) → Buf (Elt F) ℓ) (d : Dev nD)

theorem kept2 : Kept (U2 m d) (argsR m d) := (kept1 m d).step opsR1 opsR1_writes (by decide +kernel)
theorem kept3 : Kept (U3 m d) (argsR m d) := (kept2 m d).step opsR2 opsR2_writes (by decide +kernel)
theorem kept4 : Kept (U4 m d) (argsR m d) := (kept3 m d).step opsR3 opsR3_writes (by decide +kernel)
theorem kept5 : Kept (U5 m d) (argsR m d) := (kept4 m d).step opsR4 opsR4_writes (by decide +kernel)
theorem kept6 : Kept (U6 m d) (argsR m d) := (kept5 m d).step opsR5 opsR5_writes (by decide +kernel)
theorem kept7 : Kept (U7 m d) (argsR m d) := (kept6 m d).step opsR6 opsR6_writes (by decide +kernel)
theorem kept8 : Kept (U8 m d) (argsR m d) := (kept7 m d).step opsR7 opsR7_writes (by decide +kernel)
theorem kept9 : Kept (U9 m d) (argsR m d) := (kept8 m d).step opsR8 opsR8_writes (by decide +kernel)
theorem kept10 : Kept (U10 m d) (argsR m d) := (kept9 m d).step opsR9 opsR9_writes (by decide +kernel)
theorem kept11 : Kept (U11 m d) (argsR m d) := (kept10 m d).step opsR10 opsR10_writes (by decide +kernel)
theorem kept12 : Kept (U12 m d) (argsR m d) := (kept11 m d).step opsR11 opsR11_writes (by decide +kernel)
theorem kept13 : Kept (U13 m d) (argsR m d) := (kept12 m d).step opsR12 opsR12_writes (by decide +kernel)

theorem s2_v8 : U2 m d (Proc.devRef .tc main_v8) = Cert.KernelIdeal.Hand.zeroState (F := F) := (U2_keep m d main_v8 (by decide)).trans (U1_v8 m d)
theorem s2_v62 : U2 m d (Proc.devRef .tc main_v62) = Cert.Hand.Pure.messTo (argsR m d) 0 Cert.KernelIdeal.Hand.zeroState := stepTo0 (kept1 m d) (U1_v8 m d)
theorem s3_v8 : U3 m d (Proc.devRef .tc main_v8) = Cert.KernelIdeal.Hand.zeroState (F := F) := (U3_keep m d main_v8 (by decide)).trans (s2_v8 m d)
theorem s3_v62 : U3 m d (Proc.devRef .tc main_v62) = Cert.Hand.Pure.messTo (argsR m d) 0 Cert.KernelIdeal.Hand.zeroState := (U3_keep m d main_v62 (by decide)).trans (s2_v62 m d)
theorem s3_v99 : U3 m d (Proc.devRef .tc main_v99) = Cert.Hand.Pure.messFrom (argsR m d) 0 Cert.KernelIdeal.Hand.zeroState := stepFrom0 (kept2 m d) (s2_v8 m d)

theorem s4_v120 : U4 m d (Proc.devRef .tc main_v120) = Cert.Hand.Pure.h1 (argsR m d) := stepH0 (kept3 m d) (s3_v8 m d) (s3_v62 m d) (s3_v99 m d)

theorem s4_v137 : U4 m d (Proc.devRef .tc main_v137) = Cert.Hand.Pure.u0 (argsR m d) := stepU0 (kept3 m d) (s3_v8 m d) (s3_v62 m d) (s3_v99 m d)
theorem s5_v120 : U5 m d (Proc.devRef .tc main_v120) = Cert.Hand.Pure.h1 (argsR m d) := (U5_keep m d main_v120 (by decide)).trans (s4_v120 m d)

theorem s5_v159 : U5 m d (Proc.devRef .tc main_v159) = Cert.Hand.Pure.loss0 (argsR m d) := stepLoss0 (kept4 m d) (s4_v137 m d)

theorem s6_v120 : U6 m d (Proc.devRef .tc main_v120) = Cert.Hand.Pure.h1 (argsR m d) := (U6_keep m d main_v120 (by decide)).trans (s5_v120 m d)
theorem s6_v159 : U6 m d (Proc.devRef .tc main_v159) = Cert.Hand.Pure.loss0 (argsR m d) := (U6_keep m d main_v159 (by decide)).trans (s5_v159 m d)
theorem s6_v196 : U6 m d (Proc.devRef .tc main_v196) = Cert.Hand.Pure.messTo (argsR m d) 1 (Cert.Hand.Pure.h1 (argsR m d)) := stepTo1 (kept5 m d) (s5_v120 m d)
theorem s7_v120 : U7 m d (Proc.devRef .tc main_v120) = Cert.Hand.Pure.h1 (argsR m d) := (U7_keep m d main_v120 (by decide)).trans (s6_v120 m d)
theorem s7_v159 : U7 m d (Proc.devRef .tc main_v159) = Cert.Hand.Pure.loss0 (argsR m d) := (U7_keep m d main_v159 (by decide)).trans (s6_v159 m d)
theorem s7_v196 : U7 m d (Proc.devRef .tc main_v196) = Cert.Hand.Pure.messTo (argsR m d) 1 (Cert.Hand.Pure.h1 (argsR m d)) := (U7_keep m d main_v196 (by decide)).trans (s6_v196 m d)
theorem s7_v233 : U7 m d (Proc.devRef .tc main_v233) = Cert.Hand.Pure.messFrom (argsR m d) 1 (Cert.Hand.Pure.h1 (argsR m d)) := stepFrom1 (kept6 m d) (s6_v120 m d)

theorem s8_v254 : U8 m d (Proc.devRef .tc main_v254) = Cert.Hand.Pure.h2 (argsR m d) := stepH1 (kept7 m d) (s7_v120 m d) (s7_v196 m d) (s7_v233 m d)

theorem s8_v271 : U8 m d (Proc.devRef .tc main_v271) = Cert.Hand.Pure.u1 (argsR m d) := stepU1 (kept7 m d) (s7_v120 m d) (s7_v196 m d) (s7_v233 m d)
theorem s8_v159 : U8 m d (Proc.devRef .tc main_v159) = Cert.Hand.Pure.loss0 (argsR m d) := (U8_keep m d main_v159 (by decide)).trans (s7_v159 m d)
theorem s9_v254 : U9 m d (Proc.devRef .tc main_v254) = Cert.Hand.Pure.h2 (argsR m d) := (U9_keep m d main_v254 (by decide)).trans (s8_v254 m d)

theorem s9_v293 : U9 m d (Proc.devRef .tc main_v293) = Cert.Hand.Pure.loss1 (argsR m d) := stepLoss1 (kept8 m d) (s8_v271 m d) (s8_v159 m d)

theorem s10_v254 : U10 m d (Proc.devRef .tc main_v254) = Cert.Hand.Pure.h2 (argsR m d) := (U10_keep m d main_v254 (by decide)).trans (s9_v254 m d)
theorem s10_v293 : U10 m d (Proc.devRef .tc main_v293) = Cert.Hand.Pure.loss1 (argsR m d) := (U10_keep m d main_v293 (by decide)).trans (s9_v293 m d)
theorem s10_v330 : U10 m d (Proc.devRef .tc main_v330) = Cert.Hand.Pure.messTo (argsR m d) 2 (Cert.Hand.Pure.h2 (argsR m d)) := stepTo2 (kept9 m d) (s9_v254 m d)
theorem s11_v254 : U11 m d (Proc.devRef .tc main_v254) = Cert.Hand.Pure.h2 (argsR m d) := (U11_keep m d main_v254 (by decide)).trans (s10_v254 m d)
theorem s11_v293 : U11 m d (Proc.devRef .tc main_v293) = Cert.Hand.Pure.loss1 (argsR m d) := (U11_keep m d main_v293 (by decide)).trans (s10_v293 m d)
theorem s11_v330 : U11 m d (Proc.devRef .tc main_v330) = Cert.Hand.Pure.messTo (argsR m d) 2 (Cert.Hand.Pure.h2 (argsR m d)) := (U11_keep m d main_v330 (by decide)).trans (s10_v330 m d)
theorem s11_v367 : U11 m d (Proc.devRef .tc main_v367) = Cert.Hand.Pure.messFrom (argsR m d) 2 (Cert.Hand.Pure.h2 (argsR m d)) := stepFrom2 (kept10 m d) (s10_v254 m d)

theorem s12_v405 : U12 m d (Proc.devRef .tc main_v405) = Cert.Hand.Pure.u2 (argsR m d) := stepU2 (kept11 m d) (s11_v254 m d) (s11_v330 m d) (s11_v367 m d)
theorem s12_v293 : U12 m d (Proc.devRef .tc main_v293) = Cert.Hand.Pure.loss1 (argsR m d) := (U12_keep m d main_v293 (by decide)).trans (s11_v293 m d)

theorem ref_u : U13 m d (Proc.devRef .tc main_v405) = Cert.Hand.Pure.u2 (argsR m d) := (U13_keep m d main_v405 (by decide)).trans (s12_v405 m d)

theorem ref_loss : U13 m d (Proc.devRef .tc main_v427) = Cert.Hand.Pure.loss2 (argsR m d) := stepLoss2 (kept12 m d) (s12_v405 m d) (s12_v293 m d)

end Cert.ReferenceIdeal.Hand

end
-- ==== Proof.Alg.lean ====
import proofs.«404712_j21509196219215_4_alg».proof.Defs
import proofs.«404712_j21509196219215_4_alg».proof.Proof.Pure
import proofs.«404712_j21509196219215_4_alg».proof.Proof.KI.Segs
import proofs.«404712_j21509196219215_4_alg».proof.Proof.KI.Frame
import proofs.«404712_j21509196219215_4_alg».proof.Proof.KI.KVals13
import proofs.«404712_j21509196219215_4_alg».proof.Proof.Ref.Run
import proofs.«404712_j21509196219215_4_alg».proof.Proof.Ref.RVals13
import proofs.«404712_j21509196219215_4_alg».proof.Proof.Gen.KernelIdeal
import proofs.«404712_j21509196219215_4_alg».proof.Proof.Gen.ReferenceIdeal
import proofs.«404712_j21509196219215_4_alg».proof.Proof.Gen.Pre_finite_inputs

noncomputable section

namespace Cert.Proof

open Idealize.ShloMosaic Idealize.SL.Sem

theorem algebraic : Cert.algebraic_KernelIdeal_ReferenceIdeal := by
  intro m ρ m' ρ' _ hagree
  have hA : ∀ c : Dev Cert.KernelIdeal.nD, Cert.ReferenceIdeal.Hand.argsR m' c = Cert.KernelIdeal.Hand.argsK m c := fun c => by
    obtain ⟨h0, h1, h2, h3, h4, h5, h6, h7, h8, h9, h10, h11, h12, h13, h14, h15, h16, h17, h18, h19, h20, h21⟩ := hagree c
    unfold Cert.ReferenceIdeal.Hand.argsR Cert.KernelIdeal.Hand.argsK
    congr 1
  refine ⟨fun c => Cert.Hand.Pure.u2 (Cert.KernelIdeal.Hand.argsK m c), fun c => Cert.Hand.Pure.loss2 (Cert.KernelIdeal.Hand.argsK m c), ?_, ?_⟩
  · exact (θ_run Cert.KernelIdeal.defs _ _).mono (fun _ h c =>
      ⟨(h c _ (Cert.KernelIdeal.Hand.mem_uc Cert.KernelIdeal.main_v296 (by decide))).trans (Cert.KernelIdeal.Hand.kernel_u m ρ c),
       (h c _ (Cert.KernelIdeal.Hand.mem_uc Cert.KernelIdeal.main_v318 (by decide))).trans (Cert.KernelIdeal.Hand.kernel_loss m ρ c),
       by repeat' apply And.intro
          all_goals exact Cert.KernelIdeal.Hand.arg_kept m ρ h c (by decide)⟩)
      (Cert.KernelIdeal.Hand.run_all (F := Ideal) m ρ)
  · exact (θ_run Cert.ReferenceIdeal.defs _ _).mono (fun _ h c =>
      ⟨(h c Cert.ReferenceIdeal.main_v405).trans ((Cert.ReferenceIdeal.Hand.ref_u m' c).trans (congrArg (fun A => Cert.Hand.Pure.u2 A) (hA c))),
       (h c Cert.ReferenceIdeal.main_v427).trans ((Cert.ReferenceIdeal.Hand.ref_loss m' c).trans (congrArg (fun A => Cert.Hand.Pure.loss2 A) (hA c))),
       by repeat' apply And.intro
          all_goals exact (h c _).trans (Cert.ReferenceIdeal.Hand.U13_of_arg m' c _ (by decide))⟩)
      (Cert.ReferenceIdeal.Hand.ref_run (F := Ideal) m' ρ')

end Cert.Proof

end
-- ==== Proof.lean ====
import proofs.«404712_j21509196219215_4_alg».proof.Defs
import proofs.«404712_j21509196219215_4_alg».proof.Proof.Gen.Kernel
import proofs.«404712_j21509196219215_4_alg».proof.Proof.Gen.KernelIdeal
import proofs.«404712_j21509196219215_4_alg».proof.Proof.Gen.ReferenceIdeal
import proofs.«404712_j21509196219215_4_alg».proof.Proof.Gen.Pre_finite_inputs
import proofs.«404712_j21509196219215_4_alg».proof.Proof.KI.Frame
import proofs.«404712_j21509196219215_4_alg».proof.Proof.Ref.Frame
import proofs.«404712_j21509196219215_4_alg».proof.Proof.Alg
import Idealize.ShloMosaic.Adequacy
import Idealize.ShloMosaic.Init

noncomputable section

namespace Cert.Proof

open Idealize.ShloMosaic Idealize.SL.Sem

open Lean Elab Tactic in
elab "exact_kernel " t:term : tactic => do (← getMainGoal).assign (← elabTerm t none)

-- The idealization rewrote nothing: the kernel program is the idealized program's own text, so the frame proved once for any float model is its frame too.
theorem frame_Kernel : Cert.frame_Kernel := fun m ρ _ => by exact_kernel Cert.KernelIdeal.Hand.frame (F := Bits) m ρ

theorem frame_KernelIdeal : Cert.frame_KernelIdeal := fun m ρ _ => Cert.KernelIdeal.Hand.frame m ρ

theorem frame_ReferenceIdeal : Cert.frame_ReferenceIdeal := fun m ρ _ =>
  (θ_run _ _ _).mono (fun _ h c => by
    repeat' apply And.intro
    all_goals exact h c _ (by decide)) (Cert.ReferenceIdeal.Hand.frame (F := Ideal) m ρ)

theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
